-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 512, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 512, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x128x512 : Shape := ⟨3, ![2, 128, 512]⟩
abbrev S512x512 : Shape := ⟨2, ![512, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S2x128x512 .f32) (main_arg1 : FVec F S512x512 .f32) (main_arg2 : FVec F S512x512 .f32) (main_arg3 : FVec F S512x512 .f32) (main_arg4 : FVec F S512x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Pre_finite_inputs_ReferenceIdeal.lean ====
abbrev S2x512x512 : Shape := ⟨3, ![2, 512, 512]⟩
abbrev S512x2048 : Shape := ⟨2, ![512, 2048]⟩
abbrev S2048x512 : Shape := ⟨2, ![2048, 512]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn_part1 {F : FTy → Type} [FloatOps F] (main_arg4 : FVec F S512x2048 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  main_v23

def fn {F : FTy → Type} [FloatOps F] (main_arg0 : FVec F S2x512x512 .f32) (main_arg1 : FVec F S512x2048 .f32) (main_arg2 : FVec F S2048x512 .f32) (main_arg3 : FVec F S512x2048 .f32) (main_arg4 : FVec F S512x2048 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg4 main_v13 main_v16
-- ==== Kernel.lean ====
abbrev S2x128x512 : Shape := ⟨3, ![2, 128, 512]⟩
abbrev S512x512 : Shape := ⟨2, ![512, 512]⟩
abbrev S2x512x512 : Shape := ⟨3, ![2, 512, 512]⟩
abbrev S6 : Shape := ⟨1, ![6]⟩
abbrev S_ : Shape := ⟨0, ![]⟩
abbrev S1 : Shape := ⟨1, ![1]⟩
abbrev S1x128x512 : Shape := ⟨3, ![1, 128, 512]⟩
abbrev S128x512 : Shape := ⟨2, ![128, 512]⟩
abbrev S512x1536 : Shape := ⟨2, ![512, 1536]⟩
abbrev S128x1536 : Shape := ⟨2, ![128, 1536]⟩
abbrev S1x512x64 : Shape := ⟨3, ![1, 512, 64]⟩
abbrev S512x64 : Shape := ⟨2, ![512, 64]⟩
abbrev S512x1 : Shape := ⟨2, ![512, 1]⟩
abbrev S512x65 : Shape := ⟨2, ![512, 65]⟩

abbrev nBuf : Space → Nat
  | .hbm => 6
  | .vmem => 21
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S2x128x512, .f32⟩
  | .local _ .vmem, ⟨6, _⟩ => ⟨S2x128x512, .bf16⟩
  | .local _ .vmem, ⟨7, _⟩ => ⟨S2x128x512, .bf16⟩
  | .local _ .vmem, ⟨8, _⟩ => ⟨S2x128x512, .bf16⟩
  | .local _ .vmem, ⟨9, _⟩ => ⟨S2x128x512, .bf16⟩
  | .local _ .vmem, ⟨10, _⟩ => ⟨S2x512x512, .bf16⟩
  | .local _ .vmem, ⟨11, _⟩ => ⟨S2x512x512, .bf16⟩
  | .local _ .vmem, ⟨12, _⟩ => ⟨S2x512x512, .bf16⟩
  | .local _ .vmem, ⟨13, _⟩ => ⟨S2x512x512, .bf16⟩
  | .local _ .vmem, ⟨14, _⟩ => ⟨S2x128x512, .bf16⟩
  | .local _ .vmem, ⟨15, _⟩ => ⟨S2x128x512, .bf16⟩
  | .local _ .vmem, ⟨16, _⟩ => ⟨S2x128x512, .bf16⟩
  | .local _ .vmem, ⟨17, _⟩ => ⟨S2x128x512, .bf16⟩
  | .local _ .vmem, ⟨18, _⟩ => ⟨S2x128x512, .bf16⟩
  | .local _ .vmem, ⟨19, _⟩ => ⟨S2x128x512, .bf16⟩
  | .local _ .vmem, ⟨20, _⟩ => ⟨S2x128x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_scratch13 : Ref sig .tc := ⟨.vmem, 19, rfl⟩
abbrev cc0_scratch14 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_12 : BitVec 32 := 1#32
  let v15 : BitVec 32 := Scalar.muli v9 c1_i32_12
  let v16 : BitVec 32 := Scalar.addi c0_i32_13 v15
  v16.toNat
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_23 : BitVec 32 := 1#32
  let v23 : BitVec 32 := Scalar.muli v5 c1_i32_23
  let v24 : BitVec 32 := Scalar.addi c0_i32_24 v23
  v24.toNat
def k0_dev5 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_33 : BitVec 32 := 1#32
  let v33 : BitVec 32 := Scalar.muli v7 c1_i32_33
  let v34 : BitVec 32 := Scalar.addi c0_i32_34 v33
  v34.toNat
def k0_dev6 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_43 : BitVec 32 := 1#32
  let v43 : BitVec 32 := Scalar.muli v9 c1_i32_43
  let v44 : BitVec 32 := Scalar.addi c0_i32_44 v43
  v44.toNat
def k0_dev7 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_53 : BitVec 32 := 1#32
  let v53 : BitVec 32 := Scalar.muli v5 c1_i32_53
  let v54 : BitVec 32 := Scalar.addi c0_i32_54 v53
  v54.toNat
def k0_dev8 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_63 : BitVec 32 := 1#32
  let v63 : BitVec 32 := Scalar.muli v7 c1_i32_63
  let v64 : BitVec 32 := Scalar.addi c0_i32_64 v63
  v64.toNat
def k0_dev9 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_72 : BitVec 32 := 1#32
  let v73 : BitVec 32 := Scalar.muli v9 c1_i32_72
  let v74 : BitVec 32 := Scalar.addi c0_i32_73 v73
  v74.toNat
def k0_dev10 (d0 : Dev nD) : Nat :=
  let c0_i32_340 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_339 : BitVec 32 := 1#32
  let v401 : BitVec 32 := Scalar.muli v9 c1_i32_339
  let v402 : BitVec 32 := Scalar.addi c0_i32_340 v401
  v402.toNat
def k0_dev11 (d0 : Dev nD) : Nat :=
  let c0_i32_357 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_356 : BitVec 32 := 1#32
  let v418 : BitVec 32 := Scalar.muli v5 c1_i32_356
  let v419 : BitVec 32 := Scalar.addi c0_i32_357 v418
  v419.toNat
def k0_dev12 (d0 : Dev nD) : Nat :=
  let c0_i32_374 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_373 : BitVec 32 := 1#32
  let v435 : BitVec 32 := Scalar.muli v7 c1_i32_373
  let v436 : BitVec 32 := Scalar.addi c0_i32_374 v435
  v436.toNat
def k0_dev13 (d0 : Dev nD) : Nat :=
  let c0_i32_615 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_614 : BitVec 32 := 1#32
  let v718 : BitVec 32 := Scalar.muli v9 c1_i32_614
  let v719 : BitVec 32 := Scalar.addi c0_i32_615 v718
  v719.toNat
def k0_dev14 (d0 : Dev nD) : Nat :=
  let c0_i32_632 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_631 : BitVec 32 := 1#32
  let v735 : BitVec 32 := Scalar.muli v5 c1_i32_631
  let v736 : BitVec 32 := Scalar.addi c0_i32_632 v735
  v736.toNat
def k0_dev15 (d0 : Dev nD) : Nat :=
  let c0_i32_649 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_648 : BitVec 32 := 1#32
  let v752 : BitVec 32 := Scalar.muli v7 c1_i32_648
  let v753 : BitVec 32 := Scalar.addi c0_i32_649 v752
  v753.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

class Facts₀ : Prop where
  hamt_1 : (1#32 : BitVec 32).msb = false
  hamt_3 : (3#32 : BitVec 32).msb = false
  inb_S2x128x512_S2x128x512_0_0_0 : ∀ a, (![0, 0, 0] : Fin 3 → Nat) a + S2x128x512.size a ≤ S2x128x512.size a
  h_S2x128x512 : 0 < S2x128x512.numel
  shapeCasts_S2x128x512_S2x128x512 : S2x128x512.ShapeCasts S2x128x512
  bitsLt_bf16_f32 : FTy.bits .bf16 < FTy.bits .f32
  packedbf16_S2x128x512_S2x128x512_0_0_0 : (Rect.unit (s := S2x128x512) ![0, 0, 0] S2x128x512.size inb_S2x128x512_S2x128x512_0_0_0).PackedRows (EltTy.packing .bf16)
  inb_S6_S1_0 : ∀ a, (![0] : Fin 1 → Nat) a + S1.size a ≤ S6.size a
  squeezes_S1_S_ : S1.Squeezes S_
  inb_S2x128x512_S1x128x512_0_0_0 : ∀ a, (![0, 0, 0] : Fin 3 → Nat) a + S1x128x512.size a ≤ S2x128x512.size a
  squeezes_S1x128x512_S128x512 : S1x128x512.Squeezes S128x512
  wordsbf16_S2x128x512_S1x128x512_0_0_0 : (Rect.unit (s := S2x128x512) ![0, 0, 0] S1x128x512.size inb_S2x128x512_S1x128x512_0_0_0).WholeWords (EltTy.packing .bf16)
  inb_S6_S1_2 : ∀ a, (![2] : Fin 1 → Nat) a + S1.size a ≤ S6.size a
  inb_S6_S1_4 : ∀ a, (![4] : Fin 1 → Nat) a + S1.size a ≤ S6.size a
  inb_S6_S1_1 : ∀ a, (![1] : Fin 1 → Nat) a + S1.size a ≤ S6.size a
  inb_S2x128x512_S1x128x512_1_0_0 : ∀ a, (![1, 0, 0] : Fin 3 → Nat) a + S1x128x512.size a ≤ S2x128x512.size a
  wordsbf16_S2x128x512_S1x128x512_1_0_0 : (Rect.unit (s := S2x128x512) ![1, 0, 0] S1x128x512.size inb_S2x128x512_S1x128x512_1_0_0).WholeWords (EltTy.packing .bf16)
  inb_S6_S1_3 : ∀ a, (![3] : Fin 1 → Nat) a + S1.size a ≤ S6.size a
  inb_S6_S1_5 : ∀ a, (![5] : Fin 1 → Nat) a + S1.size a ≤ S6.size a
  inb_S512x512_S512x512_0_0 : ∀ a, (![0, 0] : Fin 2 → Nat) a + S512x512.size a ≤ S512x512.size a
  h_S512x512 : 0 < S512x512.numel
  shapeCasts_S512x512_S512x512 : S512x512.ShapeCasts S512x512
  concatenates_S512x512_S512x512_S512x512_S512x1536_d1 : Shape.Concatenates [S512x512, S512x512, S512x512] S512x1536 1
  h_S1x128x512 : 0 < S1x128x512.numel
  shapeCasts_S1x128x512_S128x512 : S1x128x512.ShapeCasts S128x512
  slices_S128x1536_o0_0_S128x512 : S128x1536.Slices ![0, 0] S128x512
  inb_S2x512x512_S1x128x512_0_0_0 : ∀ a, (![0, 0, 0] : Fin 3 → Nat) a + S1x128x512.size a ≤ S2x512x512.size a
  shapeCasts_S128x512_S1x128x512 : S128x512.ShapeCasts S1x128x512
  packedbf16_S2x512x512_S1x128x512_0_0_0 : (Rect.unit (s := S2x512x512) ![0, 0, 0] S1x128x512.size inb_S2x512x512_S1x128x512_0_0_0).PackedRows (EltTy.packing .bf16)
  slices_S128x1536_o0_512_S128x512 : S128x1536.Slices ![0, 512] S128x512
  slices_S128x1536_o0_1024_S128x512 : S128x1536.Slices ![0, 1024] S128x512
  inb_S2x512x512_S1x128x512_1_0_0 : ∀ a, (![1, 0, 0] : Fin 3 → Nat) a + S1x128x512.size a ≤ S2x512x512.size a
  packedbf16_S2x512x512_S1x128x512_1_0_0 : (Rect.unit (s := S2x512x512) ![1, 0, 0] S1x128x512.size inb_S2x512x512_S1x128x512_1_0_0).PackedRows (EltTy.packing .bf16)
  inb_S2x512x512_S1x128x512_0_128_0 : ∀ a, (![0, 128, 0] : Fin 3 → Nat) a + S1x128x512.size a ≤ S2x512x512.size a
  packedbf16_S2x512x512_S1x128x512_0_128_0 : (Rect.unit (s := S2x512x512) ![0, 128, 0] S1x128x512.size inb_S2x512x512_S1x128x512_0_128_0).PackedRows (EltTy.packing .bf16)
  inb_S2x512x512_S1x128x512_0_384_0 : ∀ a, (![0, 384, 0] : Fin 3 → Nat) a + S1x128x512.size a ≤ S2x512x512.size a
  packedbf16_S2x512x512_S1x128x512_0_384_0 : (Rect.unit (s := S2x512x512) ![0, 384, 0] S1x128x512.size inb_S2x512x512_S1x128x512_0_384_0).PackedRows (EltTy.packing .bf16)
  inb_S2x512x512_S1x128x512_0_256_0 : ∀ a, (![0, 256, 0] : Fin 3 → Nat) a + S1x128x512.size a ≤ S2x512x512.size a
  packedbf16_S2x512x512_S1x128x512_0_256_0 : (Rect.unit (s := S2x512x512) ![0, 256, 0] S1x128x512.size inb_S2x512x512_S1x128x512_0_256_0).PackedRows (EltTy.packing .bf16)
  inb_S2x512x512_S1x512x64_0_0_0 : ∀ a, (![0, 0, 0] : Fin 3 → Nat) a + S1x512x64.size a ≤ S2x512x512.size a
  h_S1x512x64 : 0 < S1x512x64.numel
  shapeCasts_S1x512x64_S512x64 : S1x512x64.ShapeCasts S512x64
  concatenates_S512x64_S512x1_S512x65_d1 : Shape.Concatenates [S512x64, S512x1] S512x65 1
  slices_S512x65_o0_0_S512x64 : S512x65.Slices ![0, 0] S512x64
  slices_S512x65_o0_64_S512x1 : S512x65.Slices ![0, 64] S512x1
  broadcasts_S512x1_S512x64 : S512x1.Broadcasts S512x64
  shapeCasts_S512x64_S1x512x64 : S512x64.ShapeCasts S1x512x64
  packedbf16_S2x512x512_S1x512x64_0_0_0 : (Rect.unit (s := S2x512x512) ![0, 0, 0] S1x512x64.size inb_S2x512x512_S1x512x64_0_0_0).PackedRows (EltTy.packing .bf16)
  inb_S2x512x512_S1x512x64_0_0_64 : ∀ a, (![0, 0, 64] : Fin 3 → Nat) a + S1x512x64.size a ≤ S2x512x512.size a
  packedbf16_S2x512x512_S1x512x64_0_0_64 : (Rect.unit (s := S2x512x512) ![0, 0, 64] S1x512x64.size inb_S2x512x512_S1x512x64_0_0_64).PackedRows (EltTy.packing .bf16)
  inb_S2x512x512_S1x512x64_0_0_128 : ∀ a, (![0, 0, 128] : Fin 3 → Nat) a + S1x512x64.size a ≤ S2x512x512.size a
  packedbf16_S2x512x512_S1x512x64_0_0_128 : (Rect.unit (s := S2x512x512) ![0, 0, 128] S1x512x64.size inb_S2x512x512_S1x512x64_0_0_128).PackedRows (EltTy.packing .bf16)
  inb_S2x512x512_S1x512x64_0_0_192 : ∀ a, (![0, 0, 192] : Fin 3 → Nat) a + S1x512x64.size a ≤ S2x512x512.size a
  packedbf16_S2x512x512_S1x512x64_0_0_192 : (Rect.unit (s := S2x512x512) ![0, 0, 192] S1x512x64.size inb_S2x512x512_S1x512x64_0_0_192).PackedRows (EltTy.packing .bf16)
  inb_S2x512x512_S1x512x64_0_0_256 : ∀ a, (![0, 0, 256] : Fin 3 → Nat) a + S1x512x64.size a ≤ S2x512x512.size a
  packedbf16_S2x512x512_S1x512x64_0_0_256 : (Rect.unit (s := S2x512x512) ![0, 0, 256] S1x512x64.size inb_S2x512x512_S1x512x64_0_0_256).PackedRows (EltTy.packing .bf16)
  inb_S2x512x512_S1x512x64_0_0_320 : ∀ a, (![0, 0, 320] : Fin 3 → Nat) a + S1x512x64.size a ≤ S2x512x512.size a
  packedbf16_S2x512x512_S1x512x64_0_0_320 : (Rect.unit (s := S2x512x512) ![0, 0, 320] S1x512x64.size inb_S2x512x512_S1x512x64_0_0_320).PackedRows (EltTy.packing .bf16)
  inb_S2x512x512_S1x512x64_0_0_384 : ∀ a, (![0, 0, 384] : Fin 3 → Nat) a + S1x512x64.size a ≤ S2x512x512.size a
  packedbf16_S2x512x512_S1x512x64_0_0_384 : (Rect.unit (s := S2x512x512) ![0, 0, 384] S1x512x64.size inb_S2x512x512_S1x512x64_0_0_384).PackedRows (EltTy.packing .bf16)
  inb_S2x512x512_S1x512x64_0_0_448 : ∀ a, (![0, 0, 448] : Fin 3 → Nat) a + S1x512x64.size a ≤ S2x512x512.size a
  packedbf16_S2x512x512_S1x512x64_0_0_448 : (Rect.unit (s := S2x512x512) ![0, 0, 448] S1x512x64.size inb_S2x512x512_S1x512x64_0_0_448).PackedRows (EltTy.packing .bf16)
  packedbf16_S2x128x512_S1x128x512_0_0_0 : (Rect.unit (s := S2x128x512) ![0, 0, 0] S1x128x512.size inb_S2x128x512_S1x128x512_0_0_0).PackedRows (EltTy.packing .bf16)
  inb_S2x512x512_S1x128x512_1_128_0 : ∀ a, (![1, 128, 0] : Fin 3 → Nat) a + S1x128x512.size a ≤ S2x512x512.size a
  packedbf16_S2x512x512_S1x128x512_1_128_0 : (Rect.unit (s := S2x512x512) ![1, 128, 0] S1x128x512.size inb_S2x512x512_S1x128x512_1_128_0).PackedRows (EltTy.packing .bf16)
  inb_S2x512x512_S1x128x512_1_384_0 : ∀ a, (![1, 384, 0] : Fin 3 → Nat) a + S1x128x512.size a ≤ S2x512x512.size a
  packedbf16_S2x512x512_S1x128x512_1_384_0 : (Rect.unit (s := S2x512x512) ![1, 384, 0] S1x128x512.size inb_S2x512x512_S1x128x512_1_384_0).PackedRows (EltTy.packing .bf16)
  inb_S2x512x512_S1x128x512_1_256_0 : ∀ a, (![1, 256, 0] : Fin 3 → Nat) a + S1x128x512.size a ≤ S2x512x512.size a
  packedbf16_S2x512x512_S1x128x512_1_256_0 : (Rect.unit (s := S2x512x512) ![1, 256, 0] S1x128x512.size inb_S2x512x512_S1x128x512_1_256_0).PackedRows (EltTy.packing .bf16)
  inb_S2x512x512_S1x512x64_1_0_0 : ∀ a, (![1, 0, 0] : Fin 3 → Nat) a + S1x512x64.size a ≤ S2x512x512.size a
  packedbf16_S2x512x512_S1x512x64_1_0_0 : (Rect.unit (s := S2x512x512) ![1, 0, 0] S1x512x64.size inb_S2x512x512_S1x512x64_1_0_0).PackedRows (EltTy.packing .bf16)
  inb_S2x512x512_S1x512x64_1_0_64 : ∀ a, (![1, 0, 64] : Fin 3 → Nat) a + S1x512x64.size a ≤ S2x512x512.size a
  packedbf16_S2x512x512_S1x512x64_1_0_64 : (Rect.unit (s := S2x512x512) ![1, 0, 64] S1x512x64.size inb_S2x512x512_S1x512x64_1_0_64).PackedRows (EltTy.packing .bf16)
  inb_S2x512x512_S1x512x64_1_0_128 : ∀ a, (![1, 0, 128] : Fin 3 → Nat) a + S1x512x64.size a ≤ S2x512x512.size a
  packedbf16_S2x512x512_S1x512x64_1_0_128 : (Rect.unit (s := S2x512x512) ![1, 0, 128] S1x512x64.size inb_S2x512x512_S1x512x64_1_0_128).PackedRows (EltTy.packing .bf16)
  inb_S2x512x512_S1x512x64_1_0_192 : ∀ a, (![1, 0, 192] : Fin 3 → Nat) a + S1x512x64.size a ≤ S2x512x512.size a
  packedbf16_S2x512x512_S1x512x64_1_0_192 : (Rect.unit (s := S2x512x512) ![1, 0, 192] S1x512x64.size inb_S2x512x512_S1x512x64_1_0_192).PackedRows (EltTy.packing .bf16)
  inb_S2x512x512_S1x512x64_1_0_256 : ∀ a, (![1, 0, 256] : Fin 3 → Nat) a + S1x512x64.size a ≤ S2x512x512.size a
  packedbf16_S2x512x512_S1x512x64_1_0_256 : (Rect.unit (s := S2x512x512) ![1, 0, 256] S1x512x64.size inb_S2x512x512_S1x512x64_1_0_256).PackedRows (EltTy.packing .bf16)
  inb_S2x512x512_S1x512x64_1_0_320 : ∀ a, (![1, 0, 320] : Fin 3 → Nat) a + S1x512x64.size a ≤ S2x512x512.size a
  packedbf16_S2x512x512_S1x512x64_1_0_320 : (Rect.unit (s := S2x512x512) ![1, 0, 320] S1x512x64.size inb_S2x512x512_S1x512x64_1_0_320).PackedRows (EltTy.packing .bf16)
  inb_S2x512x512_S1x512x64_1_0_384 : ∀ a, (![1, 0, 384] : Fin 3 → Nat) a + S1x512x64.size a ≤ S2x512x512.size a
  packedbf16_S2x512x512_S1x512x64_1_0_384 : (Rect.unit (s := S2x512x512) ![1, 0, 384] S1x512x64.size inb_S2x512x512_S1x512x64_1_0_384).PackedRows (EltTy.packing .bf16)
  inb_S2x512x512_S1x512x64_1_0_448 : ∀ a, (![1, 0, 448] : Fin 3 → Nat) a + S1x512x64.size a ≤ S2x512x512.size a
  packedbf16_S2x512x512_S1x512x64_1_0_448 : (Rect.unit (s := S2x512x512) ![1, 0, 448] S1x512x64.size inb_S2x512x512_S1x512x64_1_0_448).PackedRows (EltTy.packing .bf16)
  packedbf16_S2x128x512_S1x128x512_1_0_0 : (Rect.unit (s := S2x128x512) ![1, 0, 0] S1x128x512.size inb_S2x128x512_S1x128x512_1_0_0).PackedRows (EltTy.packing .bf16)
  dot_S128x512_S512x1536_S128x1536_1_0_0_1_n_n_wf : DotDims.WF S128x512 S512x1536 S128x1536 [1] [0] [0] [1] [] []
  dot_S512x64_S512x64_S512x512_1_1_0_0_n_n_wf : DotDims.WF S512x64 S512x64 S512x512 [1] [1] [0] [0] [] []
  dot_S512x512_S512x65_S512x65_1_0_0_1_n_n_wf : DotDims.WF S512x512 S512x65 S512x65 [1] [0] [0] [1] [] []
  dot_S128x512_S512x512_S128x512_1_0_0_1_n_n_wf : DotDims.WF S128x512 S512x512 S128x512 [1] [0] [0] [1] [] []
  hcc0_scratch15 : 6 + S6.numel ≤ 30
  hcc0_scratch16 : 12 + S6.numel ≤ 30
  hcc0_scratch17 : 18 + S6.numel ≤ 30
  hcc0_scratch18 : 24 + S6.numel ≤ 30
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole

variable [Facts₀]

abbrev cc0_scratch15 : DmaSems sig S6 := SemArray.consecutive 6 S6 hcc0_scratch15
abbrev cc0_scratch16 : DmaSems sig S6 := SemArray.consecutive 12 S6 hcc0_scratch16
abbrev cc0_scratch17 : DmaSems sig S6 := SemArray.consecutive 18 S6 hcc0_scratch17
abbrev cc0_scratch18 : DmaSems sig S6 := SemArray.consecutive 24 S6 hcc0_scratch18
def dot_S128x512_S512x1536_S128x1536_1_0_0_1_n_n : DotDims S128x512 S512x1536 S128x1536 where
  lhsContracting := [1]
  rhsContracting := [0]
  lhsNonContracting := [0]
  rhsNonContracting := [1]
  lhsBatch := []
  rhsBatch := []
  wf := dot_S128x512_S512x1536_S128x1536_1_0_0_1_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x65_S512x65_1_0_0_1_n_n : DotDims S512x512 S512x65 S512x65 where
  lhsContracting := [1]
  rhsContracting := [0]
  lhsNonContracting := [0]
  rhsNonContracting := [1]
  lhsBatch := []
  rhsBatch := []
  wf := dot_S512x512_S512x65_S512x65_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_v1) true false (stage0_5 0) (sem0_5 0) (Memref.isWhole_whole _) (hstage0_5 0)

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x512x512 : Shape := ⟨3, ![2, 512, 512]⟩
abbrev S512x2048 : Shape := ⟨2, ![512, 2048]⟩
abbrev S2048x512 : Shape := ⟨2, ![2048, 512]⟩
abbrev S2x512x2048 : Shape := ⟨3, ![2, 512, 2048]⟩
abbrev S2x512x32x64 : Shape := ⟨4, ![2, 512, 32, 64]⟩
abbrev S_ : Shape := ⟨0, ![]⟩
abbrev S2x32x512x1 : Shape := ⟨4, ![2, 32, 512, 1]⟩
abbrev S2x32x512x512 : Shape := ⟨4, ![2, 32, 512, 512]⟩
abbrev S2x32x512 : Shape := ⟨3, ![2, 32, 512]⟩
abbrev S2x512x32x1 : Shape := ⟨4, ![2, 512, 32, 1]⟩
abbrev S2x32x64x512 : Shape := ⟨4, ![2, 32, 64, 512]⟩

abbrev nBuf : Space → Nat
  | .hbm => 46
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S512x2048, .f32⟩
  | .hbm, ⟨2, _⟩ => ⟨S2048x512, .f32⟩
  | .hbm, ⟨3, _⟩ => ⟨S512x2048, .f32⟩
  | .hbm, ⟨4, _⟩ => ⟨S512x2048, .f32⟩
  | .hbm, ⟨5, _⟩ => ⟨S2x512x2048, .f32⟩
  | .hbm, ⟨6, _⟩ => ⟨S2x512x32x64, .f32⟩
  | .hbm, ⟨7, _⟩ => ⟨S2x512x2048, .f32⟩
  | .hbm, ⟨8, _⟩ => ⟨S2x512x32x64, .f32⟩
  | .hbm, ⟨9, _⟩ => ⟨S2x512x2048, .f32⟩
  | .hbm, ⟨10, _⟩ => ⟨S2x512x32x64, .f32⟩
  | .hbm, ⟨11, _⟩ => ⟨S_, .f32⟩
  | .hbm, ⟨12, _⟩ => ⟨S2x512x32x64, .f32⟩
  | .hbm, ⟨13, _⟩ => ⟨S_, .f32⟩
  | .hbm, ⟨14, _⟩ => ⟨S2x32x512x1, .f32⟩
  | .hbm, ⟨15, _⟩ => ⟨S_, .f32⟩
  | .hbm, ⟨16, _⟩ => ⟨S2x32x512x1, .f32⟩
  | .hbm, ⟨17, _⟩ => ⟨S2x32x512x512, .f32⟩
  | .hbm, ⟨18, _⟩ => ⟨S_, .f32⟩
  | .hbm, ⟨19, _⟩ => ⟨S2x32x512x512, .f32⟩
  | .hbm, ⟨20, _⟩ => ⟨S2x32x512x512, .f32⟩
  | .hbm, ⟨21, _⟩ => ⟨S_, .f32⟩
  | .hbm, ⟨22, _⟩ => ⟨S2x32x512, .f32⟩
  | .hbm, ⟨23, _⟩ => ⟨S2x32x512x1, .f32⟩
  | .hbm, ⟨24, _⟩ => ⟨S2x32x512x1, .f32⟩
  | .hbm, ⟨25, _⟩ => ⟨S2x32x512x1, .f32⟩
  | .hbm, ⟨26, _⟩ => ⟨S2x32x512x1, .f32⟩
  | .hbm, ⟨27, _⟩ => ⟨S2x32x512x512, .f32⟩
  | .hbm, ⟨28, _⟩ => ⟨S2x32x512x512, .f32⟩
  | .hbm, ⟨29, _⟩ => ⟨S2x32x512x512, .f32⟩
  | .hbm, ⟨30, _⟩ => ⟨S2x32x512x1, .f32⟩
  | .hbm, ⟨31, _⟩ => ⟨S_, .f32⟩
  | .hbm, ⟨32, _⟩ => ⟨S2x32x512, .f32⟩
  | .hbm, ⟨33, _⟩ => ⟨S2x32x512x1, .f32⟩
  | .hbm, ⟨34, _⟩ => ⟨S2x32x512x1, .f32⟩
  | .hbm, ⟨35, _⟩ => ⟨S2x512x32x1, .f32⟩
  | .hbm, ⟨36, _⟩ => ⟨S2x512x32x64, .f32⟩
  | .hbm, ⟨37, _⟩ => ⟨S2x512x32x64, .f32⟩
  | .hbm, ⟨38, _⟩ => ⟨S2x32x64x512, .f32⟩
  | .hbm, ⟨39, _⟩ => ⟨S2x512x32x64, .f32⟩
  | .hbm, ⟨40, _⟩ => ⟨S2x512x32x64, .f32⟩
  | .hbm, ⟨41, _⟩ => ⟨S2x512x32x1, .f32⟩
  | .hbm, ⟨42, _⟩ => ⟨S2x512x32x64, .f32⟩
  | .hbm, ⟨43, _⟩ => ⟨S2x512x32x64, .f32⟩
  | .hbm, ⟨44, _⟩ => ⟨S2x512x2048, .f32⟩
  | .hbm, ⟨45, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  shapeCasts_S2x512x2048_S2x512x32x64 : S2x512x2048.ShapeCasts S2x512x32x64
  bcast_S_S2x512x32x64 : S_.BroadcastsInDim S2x512x32x64 (![] : Fin 0 → Fin S2x512x32x64.rank)
  bcast_S_S2x32x512x1 : S_.BroadcastsInDim S2x32x512x1 (![] : Fin 0 → Fin S2x32x512x1.rank)
  bcast_S_S2x32x512x512 : S_.BroadcastsInDim S2x32x512x512 (![] : Fin 0 → Fin S2x32x512x512.rank)
  reducesTo_S2x32x512x512_S2x32x512_d3 : S2x32x512x512.ReducesTo [3] S2x32x512
  h_S_ : 0 < S_.numel
  bcast_S2x32x512_S2x32x512x1_0_1_2 : S2x32x512.BroadcastsInDim S2x32x512x1 (![0, 1, 2] : Fin 3 → Fin S2x32x512x1.rank)
  bcast_S2x32x512x1_S2x32x512x512_0_1_2_3 : S2x32x512x1.BroadcastsInDim S2x32x512x512 (![0, 1, 2, 3] : Fin 4 → Fin S2x32x512x512.rank)
  transposes_S2x32x512x1_S2x512x32x1_0_2_1_3 : S2x32x512x1.Transposes [0, 2, 1, 3] S2x512x32x1
  bcast_S2x512x32x1_S2x512x32x64_0_1_2_3 : S2x512x32x1.BroadcastsInDim S2x512x32x64 (![0, 1, 2, 3] : Fin 4 → Fin S2x512x32x64.rank)
  transposes_S2x32x64x512_S2x512x32x64_0_3_1_2 : S2x32x64x512.Transposes [0, 3, 1, 2] S2x512x32x64
  shapeCasts_S2x512x32x64_S2x512x2048 : S2x512x32x64.ShapeCasts S2x512x2048
  dot_S2x512x512_S512x2048_S2x512x2048_2_0_01_1_n_n_wf : DotDims.WF S2x512x512 S512x2048 S2x512x2048 [2] [0] [0, 1] [1] [] []
  dot_S2x512x32x64_S2x512x32x64_S2x32x512x512_3_3_1_1_02_02_wf : DotDims.WF S2x512x32x64 S2x512x32x64 S2x32x512x512 [3] [3] [1] [1] [0, 2] [0, 2]
  dot_S2x512x32x64_S2x32x512x512_S2x32x64x512_1_3_3_2_02_01_wf : DotDims.WF S2x512x32x64 S2x32x512x512 S2x32x64x512 [1] [3] [3] [2] [0, 2] [0, 1]
  dot_S2x512x2048_S2048x512_S2x512x512_2_0_01_1_n_n_wf : DotDims.WF S2x512x2048 S2048x512 S2x512x512 [2] [0] [0, 1] [1] [] []

variable [Facts₀]

def dot_S2x512x512_S512x2048_S2x512x2048_2_0_01_1_n_n : DotDims S2x512x512 S512x2048 S2x512x2048 where
  lhsContracting := [2]
  rhsContracting := [0]
  lhsNonContracting := [0, 1]
  rhsNonContracting := [1]
  lhsBatch := []
  rhsBatch := []
  wf := dot_S2x512x512_S512x2048_S2x512x2048_2_0_01_1_n_n_wf
def dot_S2x512x32x64_S2x512x32x64_S2x32x512x512_3_3_1_1_02_02 : DotDims S2x512x32x64 S2x512x32x64 S2x32x512x512 where
  lhsContracting := [3]
  rhsContracting := [3]
  lhsNonContracting := [1]
  rhsNonContracting := [1]
  lhsBatch := [0, 2]
  rhsBatch := [0, 2]
  wf := dot_S2x512x32x64_S2x512x32x64_S2x32x512x512_3_3_1_1_02_02_wf
def dot_S2x512x32x64_S2x32x512x512_S2x32x64x512_1_3_3_2_02_01 : DotDims S2x512x32x64 S2x32x512x512 S2x32x64x512 where
  lhsContracting := [1]
  rhsContracting := [3]
  lhsNonContracting := [3]
  rhsNonContracting := [2]
  lhsBatch := [0, 2]
  rhsBatch := [0, 1]
  wf := dot_S2x512x32x64_S2x32x512x512_S2x32x64x512_1_3_3_2_02_01_wf
def dot_S2x512x2048_S2048x512_S2x512x512_2_0_01_1_n_n : DotDims S2x512x2048 S2048x512 S2x512x512 where
  lhsContracting := [2]
  rhsContracting := [0]
  lhsNonContracting := [0, 1]
  rhsNonContracting := [1]
  lhsBatch := []
  rhsBatch := []
  wf := dot_S2x512x2048_S2048x512_S2x512x512_2_0_01_1_n_n_wf

class Facts : Prop extends Facts₀ where

variable [Facts]
-- ==== Proof.Spec.lean ====
import Idealize.ShloMosaic.PureOps.Ideal
import Idealize.ShloMosaic.PureOps.Ideal.Laws
import Mathlib.Data.EReal.Basic
import Mathlib.Data.EReal.Operations
import Mathlib.Data.Finset.Fold
import Mathlib.Algebra.BigOperators.Group.Finset.Basic
import Mathlib.Tactic.NormNum

noncomputable section

namespace Cert.Spec

open Idealize.ShloMosaic
open scoped BigOperators

def eighth : EReal := ((1 / 8 : ℝ) : EReal)

theorem ofBits_eighth : Ideal.ofBits .f32 0x3E000000#32 = eighth := by
  unfold eighth
  simp [Ideal.ofBits, Ideal.ieee, -EReal.coe_mul]; norm_num

theorem ofBits_negInf : Ideal.ofBits .f32 0xFF800000#32 = (⊥ : EReal) := by
  simp [Ideal.ofBits, Ideal.ieee]

def feat (h : Fin 32) (d : Fin 64) : Fin 2048 :=
  ⟨h.val * 64 + d.val, by have := h.isLt; have := d.isLt; omega⟩

def fhead (f : Fin 2048) : Fin 32 := ⟨f.val / 64, by have := f.isLt; omega⟩

def fdim (f : Fin 2048) : Fin 64 := ⟨f.val % 64, by omega⟩

def col (hh : Fin 8) (d : Fin 64) : Fin 512 :=
  ⟨hh.val * 64 + d.val, by have := hh.isLt; have := d.isLt; omega⟩

def chead (f : Fin 512) : Fin 8 := ⟨f.val / 64, by have := f.isLt; omega⟩

def cdim (f : Fin 512) : Fin 64 := ⟨f.val % 64, by omega⟩

def rowAt (s : Fin 4) (r : Fin 128) : Fin 512 :=
  ⟨s.val * 128 + r.val, by have := s.isLt; have := r.isLt; omega⟩

def chunk (i : Fin 512) : Fin 4 := ⟨i.val / 128, by have := i.isLt; omega⟩

def crow (i : Fin 512) : Fin 128 := ⟨i.val % 128, by omega⟩

def wcol (c : Fin 4) (n : Fin 512) : Fin 2048 :=
  ⟨c.val * 512 + n.val, by have := c.isLt; have := n.isLt; omega⟩

def srcDev (c s : Fin 4) : Fin 4 := c - s

theorem srcDev_zero (c : Fin 4) : srcDev c 0 = c := by revert c; decide

section Reference

variable (x : Fin 2 → Fin 512 → Fin 512 → EReal) (Wq Wk Wv : Fin 512 → Fin 2048 → EReal)
  (Wo : Fin 2048 → Fin 512 → EReal)

def proj (x : Fin 2 → Fin 512 → Fin 512 → EReal) (W : Fin 512 → Fin 2048 → EReal)
    (b : Fin 2) (i : Fin 512) (f : Fin 2048) : EReal :=
  ∑ e : Fin 512, x b i e * W e f

def refScore (b : Fin 2) (h : Fin 32) (i j : Fin 512) : EReal :=
  (∑ d : Fin 64, proj x Wq b i (feat h d) * proj x Wk b j (feat h d)) * eighth

def refMax (b : Fin 2) (h : Fin 32) (i : Fin 512) : EReal :=
  max ⊥ ((Finset.univ : Finset (Fin 512)).fold max ⊥ (fun j => refScore x Wq Wk b h i j))

def refAlpha (b : Fin 2) (h : Fin 32) (i : Fin 512) : EReal :=
  Ideal.exp (⊥ - refMax x Wq Wk b h i)

def refP (b : Fin 2) (h : Fin 32) (i j : Fin 512) : EReal :=
  Ideal.exp (refScore x Wq Wk b h i j - refMax x Wq Wk b h i)

def refL (b : Fin 2) (h : Fin 32) (i : Fin 512) : EReal :=
  0 * refAlpha x Wq Wk b h i + ∑ j : Fin 512, refP x Wq Wk b h i j

def refAcc (b : Fin 2) (i : Fin 512) (h : Fin 32) (d : Fin 64) : EReal :=
  0 * refAlpha x Wq Wk b h i + ∑ j : Fin 512, proj x Wv b j (feat h d) * refP x Wq Wk b h i j

def refO (b : Fin 2) (i : Fin 512) (f : Fin 2048) : EReal :=
  Ideal.div (refAcc x Wq Wk Wv b i (fhead f) (fdim f)) (refL x Wq Wk b (fhead f) i)

def refOut : Fin 2 → Fin 512 → Fin 512 → EReal :=
  fun b i n => ∑ f : Fin 2048, refO x Wq Wk Wv b i f * Wo f n

end Reference

section Kernel

variable (c : Fin 4) (xb : Fin 4 → Fin 2 → Fin 128 → Fin 512 → EReal)
  (Wqb Wkb Wvb Wob : Fin 4 → Fin 512 → Fin 512 → EReal)

def xLoc (c : Fin 4) (xb : Fin 4 → Fin 2 → Fin 128 → Fin 512 → EReal)
    (b : Fin 2) (i : Fin 512) (e : Fin 512) : EReal :=
  xb (srcDev c (chunk i)) b (crow i) e

def qLoc (b : Fin 2) (i : Fin 512) (n : Fin 512) : EReal :=
  ∑ e : Fin 512, xLoc c xb b i e * (Wqb c e n * eighth)

def kLoc (b : Fin 2) (i : Fin 512) (n : Fin 512) : EReal :=
  ∑ e : Fin 512, xLoc c xb b i e * Wkb c e n

def vLoc (b : Fin 2) (i : Fin 512) (n : Fin 512) : EReal :=
  ∑ e : Fin 512, xLoc c xb b i e * Wvb c e n

def sLoc (b : Fin 2) (hh : Fin 8) (i j : Fin 512) : EReal :=
  ∑ d : Fin 64, qLoc c xb Wqb b i (col hh d) * kLoc c xb Wkb b j (col hh d)

def pLoc (b : Fin 2) (hh : Fin 8) (i j : Fin 512) : EReal :=
  Ideal.exp (sLoc c xb Wqb Wkb b hh i j)

def vExt (b : Fin 2) (hh : Fin 8) (j : Fin 512) (d' : Fin 65) : EReal :=
  if h : d'.val < 64 then vLoc c xb Wvb b j (col hh ⟨d'.val, h⟩) else 1

def pvLoc (b : Fin 2) (hh : Fin 8) (i : Fin 512) (d' : Fin 65) : EReal :=
  ∑ j : Fin 512, pLoc c xb Wqb Wkb b hh i j * vExt c xb Wvb b hh j d'

def headOut (b : Fin 2) (hh : Fin 8) (i : Fin 512) (d : Fin 64) : EReal :=
  pvLoc c xb Wqb Wkb Wvb b hh i d.castSucc * Ideal.div 1 (pvLoc c xb Wqb Wkb Wvb b hh i (Fin.last 64))

def oLoc (b : Fin 2) (i : Fin 512) (f : Fin 512) : EReal :=
  headOut c xb Wqb Wkb Wvb b (chead f) i (cdim f)

def partOut (b : Fin 2) (i : Fin 512) (n : Fin 512) : EReal :=
  ∑ f : Fin 512, oLoc c xb Wqb Wkb Wvb b i f * Wob c f n

def kerOut : Fin 2 → Fin 128 → Fin 512 → EReal :=
  fun b r n =>
    (partOut c xb Wqb Wkb Wvb Wob b (rowAt 0 r) n
      + partOut (c + 1) xb Wqb Wkb Wvb Wob b (rowAt 1 r) n)
    + (partOut (c + 3) xb Wqb Wkb Wvb Wob b (rowAt 3 r) n
      + partOut (c + 2) xb Wqb Wkb Wvb Wob b (rowAt 2 r) n)

end Kernel

def xBlk (x : Fin 2 → Fin 512 → Fin 512 → EReal) : Fin 4 → Fin 2 → Fin 128 → Fin 512 → EReal :=
  fun d b r e => x b (rowAt d r) e

def colBlk (W : Fin 512 → Fin 2048 → EReal) : Fin 4 → Fin 512 → Fin 512 → EReal :=
  fun d e n => W e (wcol d n)

def rowBlk (Wo : Fin 2048 → Fin 512 → EReal) : Fin 4 → Fin 512 → Fin 512 → EReal :=
  fun d f n => Wo (wcol d f) n

end Cert.Spec

end
-- ==== Proof.RefRead.lean ====
import proofs.«900760_g7700000000000761_dist_attn_self_mha_htp_ss_b2_sq128_skv128_d512_hq8_dh64_v7x_i4_f32_1_alg».proof.Defs
import proofs.«900760_g7700000000000761_dist_attn_self_mha_htp_ss_b2_sq128_skv128_d512_hq8_dh64_v7x_i4_f32_1_alg».proof.Proof.Gen.ReferenceIdeal.Read
import proofs.«900760_g7700000000000761_dist_attn_self_mha_htp_ss_b2_sq128_skv128_d512_hq8_dh64_v7x_i4_f32_1_alg».proof.Proof.Gen.Pre_finite_inputs_ReferenceIdeal
import proofs.«900760_g7700000000000761_dist_attn_self_mha_htp_ss_b2_sq128_skv128_d512_hq8_dh64_v7x_i4_f32_1_alg».proof.Proof.Spec
import Idealize.ShloMosaic.Lib.ValueIdx
import Idealize.ShloMosaic.Lib.Pipeline.Value
import Idealize.ShloMosaic.PureOps.Ideal.Laws

noncomputable section

namespace Cert.ReferenceIdeal.RefRead

open Idealize.ShloMosaic Idealize.SL.Sem Idealize.ShloMosaic.ValueIdx
open Cert.Spec (feat fhead fdim ofBits_negInf)
open scoped BigOperators

theorem frame_ri : Cert.frame_ReferenceIdeal :=
  fun m ρ _ => (θ_run Cert.ReferenceIdeal.defs _ _).mono (fun _ h c => (h c).2)
    (Cert.ReferenceIdeal.Value.run (F := Ideal) m ρ)

section Stages

variable (a0 : (⟨S2x512x512, .f32⟩ : BufTy).Contents (Elt Ideal))
  (a1 a3 a4 : (⟨S512x2048, .f32⟩ : BufTy).Contents (Elt Ideal))
  (a2 : (⟨S2048x512, .f32⟩ : BufTy).Contents (Elt Ideal))

theorem v0_at (b : Fin 2) (i : Fin 512) (f : Fin 2048) :
    Read.val_main_v0 a0 a1 (ix3 b i f) = ∑ e : Fin 512, a0 (ix3 b i e) * a1 (ix2 e f) := by
  rw [Read.val_main_v0_apply]
  refine Finset.sum_congr rfl fun e _ => ?_
  congr 2
  exacts [eq_ix3 _, eq_ix2 _]

theorem split_heads_idx (b : Fin 2) (i : Fin 512) (h : Fin 32) (d : Fin 64) :
    Read.idx_main_v1 (ix4 b i h d) = ix3 b i (feat h d) := by
  have hb := b.isLt; have hi := i.isLt; have hh := h.isLt; have hd := d.isLt
  refine funext fun a => Fin.ext ?_
  match a with
  | ⟨0, _⟩ => show (((b.val * 512 + i.val) * 32 + h.val) * 64 + d.val) / 1048576 = b.val; omega
  | ⟨1, _⟩ => show (((b.val * 512 + i.val) * 32 + h.val) * 64 + d.val) / 2048 % 512 = i.val; omega
  | ⟨2, _⟩ => show (((b.val * 512 + i.val) * 32 + h.val) * 64 + d.val) % 2048 = h.val * 64 + d.val; omega

theorem v9_at (b : Fin 2) (h : Fin 32) (i j : Fin 512) :
    Read.val_main_v9 a0 a1 a3 (ix4 b h i j)
      = ∑ d : Fin 64, Read.val_main_v1 a0 a1 (ix4 b i h d) * Read.val_main_v3 a0 a3 (ix4 b j h d) := by
  rw [Read.val_main_v9_apply]
  refine Finset.sum_congr rfl fun d _ => ?_
  congr 2
  exacts [eq_ix4 _, eq_ix4 _]

theorem reduces_d3 : S2x32x512x512.Reduces [3] S2x32x512 := by decide

theorem lift_d3 (b : Fin 2) (h : Fin 32) (i j : Fin 512) :
    reduces_d3.lift (ix3 b h i) j = ix4 b h i j := by
  refine funext fun c => Fin.ext ?_
  match c with
  | ⟨0, _⟩ => rfl
  | ⟨1, _⟩ => rfl
  | ⟨2, _⟩ => rfl
  | ⟨3, _⟩ => rfl

theorem v12_at (b : Fin 2) (h : Fin 32) (i : Fin 512) :
    Read.val_main_v12 a0 a1 a3 (ix3 b h i)
      = (Finset.univ : Finset (Fin 512)).fold max ⊥
          (fun j => Read.val_main_v11 a0 a1 a3 (ix4 b h i j)) := by
  unfold Read.val_main_v12
  refine (Host.reduce_eq_fold_single (FloatOps.maximumf (F := Ideal) (φ := .f32)) _ _ _ reduces_d3 _ (ix3 b h i)).trans ?_
  exact congrArg₂ (fun a f => (Finset.univ : Finset (Fin 512)).fold max a f) ofBits_negInf
    (funext fun k => congrArg (Read.val_main_v11 a0 a1 a3) (lift_d3 b h i k))

theorem v7_at (j : S2x32x512x1.Idx) : Read.val_main_v7 (F := Ideal) j = (⊥ : EReal) := by
  rw [Read.val_main_v7_apply, Read.val_main_cst_0_apply]; exact ofBits_negInf

theorem v8_at (j : S2x32x512x1.Idx) : Read.val_main_v8 (F := Ideal) j = (0 : EReal) := by
  rw [Read.val_main_v8_apply, Read.val_main_cst_1_apply]; exact Ideal.ofBits_zero_f32

theorem v6_at (j : S2x512x32x64.Idx) : Read.val_main_v6 (F := Ideal) j = (0 : EReal) := by
  rw [Read.val_main_v6_apply, Read.val_main_cst_apply]; exact Ideal.ofBits_zero_f32

theorem v13_at (b : Fin 2) (h : Fin 32) (i : Fin 512) (z : Fin 1) :
    Read.val_main_v13 a0 a1 a3 (ix4 b h i z) = Read.val_main_v12 a0 a1 a3 (ix3 b h i) := by
  rw [Read.val_main_v13_apply]
  exact congrArg _ (eq_ix3 _)

theorem v17_at (b : Fin 2) (h : Fin 32) (i j : Fin 512) :
    Read.val_main_v17 a0 a1 a3 (ix4 b h i j) = Read.val_main_v14 a0 a1 a3 (ix4 b h i 0) := by
  rw [Read.val_main_v17_apply]
  exact congrArg _ (eq_ix4 _)

theorem v21_at (b : Fin 2) (h : Fin 32) (i : Fin 512) :
    Read.val_main_v21 a0 a1 a3 (ix3 b h i)
      = 0 + ∑ j : Fin 512, Read.val_main_v19 a0 a1 a3 (ix4 b h i j) := by
  rw [Read.val_main_v21_apply, Read.val_main_cst_4_apply]
  refine congrArg₂ (· + ·) Ideal.ofBits_zero_f32 (Finset.sum_congr rfl fun j _ => ?_)
  exact congrArg _ (eq_ix4 _)

theorem v22_at (b : Fin 2) (h : Fin 32) (i : Fin 512) (z : Fin 1) :
    Read.val_main_v22 a0 a1 a3 (ix4 b h i z) = Read.val_main_v21 a0 a1 a3 (ix3 b h i) := by
  rw [Read.val_main_v22_apply]
  exact congrArg _ (eq_ix3 _)

theorem v24_at (b : Fin 2) (i : Fin 512) (h : Fin 32) (z : Fin 1) :
    Read.val_main_v24 a0 a1 a3 (ix4 b i h z) = Read.val_main_v16 a0 a1 a3 (ix4 b h i z) := by
  rw [Read.val_main_v24_apply]
  exact congrArg _ (eq_ix4 _)

theorem v25_at (b : Fin 2) (i : Fin 512) (h : Fin 32) (d : Fin 64) :
    Read.val_main_v25 a0 a1 a3 (ix4 b i h d) = Read.val_main_v24 a0 a1 a3 (ix4 b i h 0) := by
  rw [Read.val_main_v25_apply]
  exact congrArg _ (eq_ix4 _)

theorem v27_at (b : Fin 2) (h : Fin 32) (d : Fin 64) (i : Fin 512) :
    Read.val_main_v27 a0 a1 a3 a4 (ix4 b h d i)
      = ∑ j : Fin 512, Read.val_main_v5 a0 a4 (ix4 b j h d)
          * Read.val_main_v19 a0 a1 a3 (ix4 b h i j) := by
  rw [Read.val_main_v27_apply]
  refine Finset.sum_congr rfl fun j _ => ?_
  congr 2
  exacts [eq_ix4 _, eq_ix4 _]

theorem v28_at (b : Fin 2) (i : Fin 512) (h : Fin 32) (d : Fin 64) :
    Read.val_main_v28 a0 a1 a3 a4 (ix4 b i h d) = Read.val_main_v27 a0 a1 a3 a4 (ix4 b h d i) := by
  rw [Read.val_main_v28_apply]
  exact congrArg _ (eq_ix4 _)

theorem v31_at (b : Fin 2) (i : Fin 512) (h : Fin 32) (d : Fin 64) :
    Read.val_main_v31 a0 a1 a3 (ix4 b i h d) = Read.val_main_v23 a0 a1 a3 (ix4 b h i 0) := by
  rw [Read.val_main_v31_apply, Read.val_main_v30_apply]
  exact congrArg _ (eq_ix4 _)

theorem merge_heads_idx (b : Fin 2) (i : Fin 512) (f : Fin 2048) :
    Read.idx_main_v33 (ix3 b i f) = ix4 b i (fhead f) (fdim f) := by
  have hb := b.isLt; have hi := i.isLt; have hf := f.isLt
  refine funext fun a => Fin.ext ?_
  match a with
  | ⟨0, _⟩ => show ((b.val * 512 + i.val) * 2048 + f.val) / 1048576 = b.val; omega
  | ⟨1, _⟩ => show ((b.val * 512 + i.val) * 2048 + f.val) / 2048 % 512 = i.val; omega
  | ⟨2, _⟩ => show ((b.val * 512 + i.val) * 2048 + f.val) / 64 % 32 = f.val / 64; omega
  | ⟨3, _⟩ => show ((b.val * 512 + i.val) * 2048 + f.val) % 64 = f.val % 64; omega

theorem v34_at (b : Fin 2) (i : Fin 512) (n : Fin 512) :
    Read.val_main_v34 a0 a1 a2 a3 a4 (ix3 b i n)
      = ∑ f : Fin 2048, Read.val_main_v33 a0 a1 a3 a4 (ix3 b i f) * a2 (ix2 f n) := by
  rw [Read.val_main_v34_apply]
  refine Finset.sum_congr rfl fun f _ => ?_
  congr 2
  exacts [eq_ix3 _, eq_ix2 _]

local notation "X" => (fun (b : Fin 2) (i : Fin 512) (e : Fin 512) => a0 (ix3 b i e))
local notation "WQ" => (fun (e : Fin 512) (f : Fin 2048) => a1 (ix2 e f))
local notation "WK" => (fun (e : Fin 512) (f : Fin 2048) => a3 (ix2 e f))
local notation "WV" => (fun (e : Fin 512) (f : Fin 2048) => a4 (ix2 e f))
local notation "WO" => (fun (f : Fin 2048) (n : Fin 512) => a2 (ix2 f n))

theorem q_eq (b : Fin 2) (i : Fin 512) (h : Fin 32) (d : Fin 64) :
    Read.val_main_v1 a0 a1 (ix4 b i h d) = Spec.proj X WQ b i (feat h d) := by
  rw [Read.val_main_v1_apply, split_heads_idx, v0_at]; rfl

theorem k_eq (b : Fin 2) (i : Fin 512) (h : Fin 32) (d : Fin 64) :
    Read.val_main_v3 a0 a3 (ix4 b i h d) = Spec.proj X WK b i (feat h d) := q_eq a0 a3 b i h d

theorem v_eq (b : Fin 2) (i : Fin 512) (h : Fin 32) (d : Fin 64) :
    Read.val_main_v5 a0 a4 (ix4 b i h d) = Spec.proj X WV b i (feat h d) := q_eq a0 a4 b i h d

theorem score_eq (b : Fin 2) (h : Fin 32) (i j : Fin 512) :
    Read.val_main_v11 a0 a1 a3 (ix4 b h i j) = Spec.refScore X WQ WK b h i j := by
  rw [Read.val_main_v11_apply, Read.val_main_v10_apply, Read.val_main_cst_2_apply, v9_at]
  refine congrArg₂ (· * ·) (Finset.sum_congr rfl fun d _ => ?_) Spec.ofBits_eighth
  rw [q_eq, k_eq]

theorem max_eq (b : Fin 2) (h : Fin 32) (i : Fin 512) (z : Fin 1) :
    Read.val_main_v14 a0 a1 a3 (ix4 b h i z) = Spec.refMax X WQ WK b h i := by
  rw [Read.val_main_v14_apply, v7_at, v13_at, v12_at]
  exact congrArg (fun f => max ⊥ (Finset.univ.fold max ⊥ f)) (funext fun j => score_eq a0 a1 a3 b h i j)

theorem alpha_eq (b : Fin 2) (h : Fin 32) (i : Fin 512) (z : Fin 1) :
    Read.val_main_v16 a0 a1 a3 (ix4 b h i z) = Spec.refAlpha X WQ WK b h i := by
  rw [Read.val_main_v16_apply, Read.val_main_v15_apply, v7_at, max_eq]; rfl

theorem p_eq (b : Fin 2) (h : Fin 32) (i j : Fin 512) :
    Read.val_main_v19 a0 a1 a3 (ix4 b h i j) = Spec.refP X WQ WK b h i j := by
  rw [Read.val_main_v19_apply, Read.val_main_v18_apply, v17_at, score_eq, max_eq]; rfl

theorem l_eq (b : Fin 2) (h : Fin 32) (i : Fin 512) (z : Fin 1) :
    Read.val_main_v23 a0 a1 a3 (ix4 b h i z) = Spec.refL X WQ WK b h i := by
  rw [Read.val_main_v23_apply, Read.val_main_v20_apply, v8_at, v22_at, v21_at, alpha_eq, zero_add]
  exact congrArg (_ + ·) (Finset.sum_congr rfl fun j _ => p_eq a0 a1 a3 b h i j)

theorem acc_eq (b : Fin 2) (i : Fin 512) (h : Fin 32) (d : Fin 64) :
    Read.val_main_v29 a0 a1 a3 a4 (ix4 b i h d) = Spec.refAcc X WQ WK WV b i h d := by
  rw [Read.val_main_v29_apply, Read.val_main_v26_apply, v6_at, v25_at, v24_at, v28_at, v27_at, alpha_eq]
  refine congrArg (_ + ·) (Finset.sum_congr rfl fun j _ => ?_)
  rw [v_eq, p_eq]

theorem o_eq (b : Fin 2) (i : Fin 512) (f : Fin 2048) :
    Read.val_main_v33 a0 a1 a3 a4 (ix3 b i f) = Spec.refO X WQ WK WV b i f := by
  rw [Read.val_main_v33_apply, merge_heads_idx, Read.val_main_v32_apply, v31_at, acc_eq, l_eq]; rfl

theorem ref_result_eq (b : Fin 2) (i : Fin 512) (n : Fin 512) :
    Read.val_main_v34 a0 a1 a2 a3 a4 (ix3 b i n)
      = Spec.refOut (fun b i e => a0 (ix3 b i e)) (fun e f => a1 (ix2 e f)) (fun e f => a3 (ix2 e f))
          (fun e f => a4 (ix2 e f)) (fun f n => a2 (ix2 f n)) b i n := by
  rw [v34_at]
  unfold Spec.refOut
  refine Finset.sum_congr rfl fun f _ => ?_
  rw [o_eq]

end Stages

theorem res_out0_eq (m : (ℓ : Loc nD τ sig) → Buf (Elt Ideal) ℓ) (c : Dev nD) :
    Cert.ReferenceIdeal.Value.res_out0 (F := Ideal) m c
      = fun j : S2x512x512.Idx =>
          Spec.refOut
            (fun b i e => (m ((c.tc : Thread nD τ).loc main_arg0) : (⟨S2x512x512, .f32⟩ : BufTy).Contents (Elt Ideal)) (ix3 b i e))
            (fun e f => (m ((c.tc : Thread nD τ).loc main_arg1) : (⟨S512x2048, .f32⟩ : BufTy).Contents (Elt Ideal)) (ix2 e f))
            (fun e f => (m ((c.tc : Thread nD τ).loc main_arg3) : (⟨S512x2048, .f32⟩ : BufTy).Contents (Elt Ideal)) (ix2 e f))
            (fun e f => (m ((c.tc : Thread nD τ).loc main_arg4) : (⟨S512x2048, .f32⟩ : BufTy).Contents (Elt Ideal)) (ix2 e f))
            (fun f n => (m ((c.tc : Thread nD τ).loc main_arg2) : (⟨S2048x512, .f32⟩ : BufTy).Contents (Elt Ideal)) (ix2 f n))
            (j 0) (j 1) (j 2) :=
  (Read.val_main_v34_eq (F := Ideal) m c).trans (funext fun j => by rw [eq_ix3 j]; exact ref_result_eq _ _ _ _ _ _ _ _)

end Cert.ReferenceIdeal.RefRead

end
-- ==== Proof.Proto.lean ====
import proofs.«900760_g7700000000000761_dist_attn_self_mha_htp_ss_b2_sq128_skv128_d512_hq8_dh64_v7x_i4_f32_1_alg».proof.Proof.Gen.KernelIdeal
import proofs.«900760_g7700000000000761_dist_attn_self_mha_htp_ss_b2_sq128_skv128_d512_hq8_dh64_v7x_i4_f32_1_alg».proof.Proof.Gen.KernelIdeal.Skeleton
import proofs.«900760_g7700000000000761_dist_attn_self_mha_htp_ss_b2_sq128_skv128_d512_hq8_dh64_v7x_i4_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

def lft (c : Dev nD) : Dev nD := ⟨(c.val + 3) % 4, Nat.mod_lt _ (by decide)⟩
def rgt (c : Dev nD) : Dev nD := ⟨(c.val + 1) % 4, Nat.mod_lt _ (by decide)⟩
def dia (c : Dev nD) : Dev nD := ⟨(c.val + 2) % 4, Nat.mod_lt _ (by decide)⟩

theorem lft_rgt (c : Dev nD) : lft (rgt c) = c := by revert c; decide
theorem rgt_lft (c : Dev nD) : rgt (lft c) = c := by revert c; decide
theorem dia_dia (c : Dev nD) : dia (dia c) = c := by revert c; decide

theorem dev1_eq (c : Dev nD) : (⟨k0_dev1 c, k0_dev1_lt c⟩ : Dev nD) = lft c := Fin.ext (k0_dev1_eq c)
theorem dev2_eq (c : Dev nD) : (⟨k0_dev2 c, k0_dev2_lt c⟩ : Dev nD) = rgt c := Fin.ext (k0_dev2_eq c)
theorem dev3_eq (c : Dev nD) : (⟨k0_dev3 c, k0_dev3_lt c⟩ : Dev nD) = dia c := Fin.ext (k0_dev3_eq c)
theorem dev4_eq (c : Dev nD) : (⟨k0_dev4 c, k0_dev4_lt c⟩ : Dev nD) = lft c := Fin.ext (k0_dev4_eq c)
theorem dev5_eq (c : Dev nD) : (⟨k0_dev5 c, k0_dev5_lt c⟩ : Dev nD) = rgt c := Fin.ext (k0_dev5_eq c)
theorem dev6_eq (c : Dev nD) : (⟨k0_dev6 c, k0_dev6_lt c⟩ : Dev nD) = dia c := Fin.ext (k0_dev6_eq c)
theorem dev7_eq (c : Dev nD) : (⟨k0_dev7 c, k0_dev7_lt c⟩ : Dev nD) = lft c := Fin.ext (k0_dev7_eq c)
theorem dev8_eq (c : Dev nD) : (⟨k0_dev8 c, k0_dev8_lt c⟩ : Dev nD) = rgt c := Fin.ext (k0_dev8_eq c)
theorem dev9_eq (c : Dev nD) : (⟨k0_dev9 c, k0_dev9_lt c⟩ : Dev nD) = dia c := Fin.ext (k0_dev9_eq c)
theorem dev10_eq (c : Dev nD) : (⟨k0_dev10 c, k0_dev10_lt c⟩ : Dev nD) = dia c := Fin.ext (k0_dev10_eq c)
theorem dev11_eq (c : Dev nD) : (⟨k0_dev11 c, k0_dev11_lt c⟩ : Dev nD) = lft c := Fin.ext (k0_dev11_eq c)
theorem dev12_eq (c : Dev nD) : (⟨k0_dev12 c, k0_dev12_lt c⟩ : Dev nD) = rgt c := Fin.ext (k0_dev12_eq c)
theorem dev13_eq (c : Dev nD) : (⟨k0_dev13 c, k0_dev13_lt c⟩ : Dev nD) = dia c := Fin.ext (k0_dev13_eq c)
theorem dev14_eq (c : Dev nD) : (⟨k0_dev14 c, k0_dev14_lt c⟩ : Dev nD) = lft c := Fin.ext (k0_dev14_eq c)
theorem dev15_eq (c : Dev nD) : (⟨k0_dev15 c, k0_dev15_lt c⟩ : Dev nD) = rgt c := Fin.ext (k0_dev15_eq c)

abbrev x0M : Memref sig .tc .vmem S2x128x512 .bf16 := Memref.whole cc0_scratch0
abbrev xlM : Memref sig .tc .vmem S2x128x512 .bf16 := Memref.whole cc0_scratch1
abbrev xrM : Memref sig .tc .vmem S2x128x512 .bf16 := Memref.whole cc0_scratch2
abbrev xdM : Memref sig .tc .vmem S2x128x512 .bf16 := Memref.whole cc0_scratch3
abbrev p0M : Memref sig .tc .vmem S2x128x512 .bf16 := Memref.whole cc0_scratch8
abbrev p1M : Memref sig .tc .vmem S2x128x512 .bf16 := Memref.whole cc0_scratch9
abbrev p2M : Memref sig .tc .vmem S2x128x512 .bf16 := Memref.whole cc0_scratch10
abbrev p3M : Memref sig .tc .vmem S2x128x512 .bf16 := Memref.whole cc0_scratch11
abbrev a1M : Memref sig .tc .vmem S2x128x512 .bf16 := Memref.whole cc0_scratch12
abbrev a2M : Memref sig .tc .vmem S2x128x512 .bf16 := Memref.whole cc0_scratch13
abbrev a3M : Memref sig .tc .vmem S2x128x512 .bf16 := Memref.whole cc0_scratch14

abbrev slab0 (M : Memref sig .tc .vmem S2x128x512 .bf16) : Memref sig .tc .vmem S128x512 .bf16 :=
  (M.slice (Rect.unit (s := S2x128x512) ![0, 0, 0] S1x128x512.size inb_S2x128x512_S1x128x512_0_0_0) (fun _ => rfl)).squeeze S128x512 squeezes_S1x128x512_S128x512
abbrev slab1 (M : Memref sig .tc .vmem S2x128x512 .bf16) : Memref sig .tc .vmem S128x512 .bf16 :=
  (M.slice (Rect.unit (s := S2x128x512) ![1, 0, 0] S1x128x512.size inb_S2x128x512_S1x128x512_1_0_0) (fun _ => rfl)).squeeze S128x512 squeezes_S1x128x512_S128x512
abbrev slab (b : Fin 2) (M : Memref sig .tc .vmem S2x128x512 .bf16) : Memref sig .tc .vmem S128x512 .bf16 :=
  match b with | 0 => slab0 M | 1 => slab1 M

abbrev barS : Sem sig := (SemArray.scalar (sig.barrier 0 rfl) : Sems sig S_).sem

abbrev dsem (k : Fin 24) : DmaSem sig := ⟨6 + k.val, by have := k.isLt; show 6 + k.val < 30; omega⟩

abbrev agS (i : Fin 6) : DmaSem sig := dsem ⟨i.val, by have := i.isLt; omega⟩
abbrev agR (i : Fin 6) : DmaSem sig := dsem ⟨6 + i.val, by have := i.isLt; omega⟩
abbrev rsS (i : Fin 6) : DmaSem sig := dsem ⟨12 + i.val, by have := i.isLt; omega⟩
abbrev rsR (i : Fin 6) : DmaSem sig := dsem ⟨18 + i.val, by have := i.isLt; omega⟩

abbrev barCell (c : Dev nD) : GSem nD τ sig := ((c : Thread nD τ), .reg barS)
abbrev dCell (c : Dev nD) (k : Fin 24) : GSem nD τ sig := ((c : Thread nD τ), .dma (dsem k))
abbrev agSCell (c : Dev nD) (i : Fin 6) : GSem nD τ sig := ((c : Thread nD τ), .dma (agS i))
abbrev agRCell (c : Dev nD) (i : Fin 6) : GSem nD τ sig := ((c : Thread nD τ), .dma (agR i))
abbrev rsSCell (c : Dev nD) (i : Fin 6) : GSem nD τ sig := ((c : Thread nD τ), .dma (rsS i))
abbrev rsRCell (c : Dev nD) (i : Fin 6) : GSem nD τ sig := ((c : Thread nD τ), .dma (rsR i))

theorem agS_sem (i : Fin 6) (h) : (((cc0_scratch15.slice (Rect.unit (s := S6) ![i.val] S1.size h)).squeeze S_ squeezes_S1_S_ : DmaSems sig S_)).sem = agS i := by
  revert h; revert i; decide

abbrev N : ℕ := (slab0 xrM : Memref sig .tc .vmem S128x512 .bf16).view.dmaCredit
theorem N_pos : 0 < N := View.dmaCredit_pos _ (by decide)

def xin (c : Dev nD) : (cc0_stg0_0 : Ref sig .tc).ty.Contents (Elt F) :=
  (win0_0.blk t0_0).view.read (Elt F) (m ((c : Thread nD τ).loc main_arg0))

def X0 (c : Dev nD) : (cc0_scratch0 : Ref sig .tc).ty.Contents (Elt F) := k0_pay2 (xin m c)

def mPts (c : Dev nD) (M : Memref sig .tc .vmem S128x512 .bf16) (q : PosShare TreeShare)
    (f : Buf (Elt F) (M.view.loc (c : Thread nD τ))) : sProp 𝕄 :=
  M.view.loc (c : Thread nD τ) ↦[M.view.set]{q} f

def mPtsE (c : Dev nD) (M : Memref sig .tc .vmem S128x512 .bf16) : sProp 𝕄 := iprop(∃ f, mPts (F := F) c M fullShare f)

def qA : PosShare TreeShare := fullShare.left.left
def qB : PosShare TreeShare := fullShare.left.right
def qC : PosShare TreeShare := fullShare.right.left
def qD : PosShare TreeShare := fullShare.right.right

def landedX (c : Dev nD) (dst : Memref sig .tc .vmem S128x512 .bf16) (v : S128x512.Idx → Elt F .bf16) : sProp 𝕄 :=
  iprop(∃ f, mPts (F := F) c dst fullShare f ∗ ⌜dst.view.read (Elt F) f = v⌝)

def X0s0 (p : Dev nD) : S128x512.Idx → Elt F .bf16 := (slab0 x0M).view.read (Elt F) (X0 m p)
def X0s1 (p : Dev nD) : S128x512.Idx → Elt F .bf16 := (slab1 x0M).view.read (Elt F) (X0 m p)

variable (PVok : Dev nD → Fin 3 → Fin 2 → (S128x512.Idx → Elt F .bf16) → Prop)

def landedP (c : Dev nD) (dst : Memref sig .tc .vmem S128x512 .bf16) (p : Dev nD) (k : Fin 3) (b : Fin 2) : sProp 𝕄 :=
  iprop(∃ f, mPts (F := F) c dst fullShare f ∗ ⌜PVok p k b (dst.view.read (Elt F) f)⌝)

def barTab (c : Dev nD) : ℕ → sProp 𝕄
  | 0 => iprop(mPtsE (F := F) (rgt c) (slab0 xlM) ∗ mPtsE (F := F) (rgt c) (slab1 xlM) ∗ mPtsE (F := F) (rgt c) (slab0 a2M) ∗ mPtsE (F := F) (rgt c) (slab1 a2M))
  | 1 => iprop(mPtsE (F := F) (lft c) (slab0 xrM) ∗ mPtsE (F := F) (lft c) (slab1 xrM) ∗ mPtsE (F := F) (lft c) (slab0 a1M) ∗ mPtsE (F := F) (lft c) (slab1 a1M))
  | _ => iprop(mPtsE (F := F) (dia c) (slab0 xdM) ∗ mPtsE (F := F) (dia c) (slab1 xdM) ∗ mPtsE (F := F) (dia c) (slab0 a3M) ∗ mPtsE (F := F) (dia c) (slab1 a3M))
def barPay (c : Dev nD) (d : Fin 3) : sProp 𝕄 := barTab (F := F) c d.val

def dmaTab (c : Dev nD) : ℕ → sProp 𝕄
  | 0 => mPts c (slab0 x0M) qA (X0 m c) | 1 => mPts c (slab1 x0M) qA (X0 m c)
  | 2 => mPts c (slab0 x0M) qB (X0 m c) | 3 => mPts c (slab1 x0M) qB (X0 m c)
  | 4 => mPts c (slab0 x0M) qC (X0 m c) | 5 => mPts c (slab1 x0M) qC (X0 m c)
  | 6 => landedX c (slab0 xrM) (X0s0 m (rgt c)) | 7 => landedX c (slab1 xrM) (X0s1 m (rgt c))
  | 8 => landedX c (slab0 xlM) (X0s0 m (lft c)) | 9 => landedX c (slab1 xlM) (X0s1 m (lft c))
  | 10 => landedX c (slab0 xdM) (X0s0 m (dia c)) | 11 => landedX c (slab1 xdM) (X0s1 m (dia c))
  | 12 => mPtsE (F := F) c (slab0 p2M) | 13 => mPtsE (F := F) c (slab1 p2M)
  | 14 => mPtsE (F := F) c (slab0 p1M) | 15 => mPtsE (F := F) c (slab1 p1M)
  | 16 => mPtsE (F := F) c (slab0 p3M) | 17 => mPtsE (F := F) c (slab1 p3M)
  | 18 => landedP PVok c (slab0 a3M) (dia c) 2 0 | 19 => landedP PVok c (slab1 a3M) (dia c) 2 1
  | 20 => landedP PVok c (slab0 a1M) (rgt c) 0 0 | 21 => landedP PVok c (slab1 a1M) (rgt c) 0 1
  | 22 => landedP PVok c (slab0 a2M) (lft c) 1 0 | 23 => landedP PVok c (slab1 a2M) (lft c) 1 1
  | _ => iprop(emp)
def dmaPay (c : Dev nD) (k : Fin 24) : sProp 𝕄 := dmaTab m PVok c k.val

def sched : Rounds.Schedule (GSem nD τ sig) (Fin 3) 𝕄 where
  duties g r := if r = 0 ∧ g.1.2 = .tc then
      (match g.2 with | .reg s => if s = barS then Finset.univ else ∅ | .dma q => if 6 ≤ q.val then {0} else ∅)
    else ∅
  unitless _ := False
  amount g _ _ := match g.2 with | .reg _ => 1 | .dma _ => N
  payload g _ d := match g.2 with
    | .reg s => if s = barS then barPay (F := F) g.1.1 d else iprop(emp)
    | .dma q => if h : 6 ≤ q.val then dmaPay m PVok g.1.1 ⟨q.val - 6, by have h2 : q.val < 30 := q.isLt; omega⟩ else iprop(emp)
  amount_pos g _ _ _ := by
    cases g.2 with
    | reg s => exact Nat.one_pos
    | dma q => exact N_pos

instance mPts_storable (c : Dev nD) (M : Memref sig .tc .vmem S128x512 .bf16) (q : PosShare TreeShare) (f) :
    BI.Storable (upEmb : UEmb _ 𝕄) (mPts (F := F) c M q f) := by unfold mPts; infer_instance
instance mPtsE_storable (c : Dev nD) (M : Memref sig .tc .vmem S128x512 .bf16) :
    BI.Storable (upEmb : UEmb _ 𝕄) (mPtsE (F := F) c M) := by unfold mPtsE; infer_instance
instance landedX_storable (c : Dev nD) (M : Memref sig .tc .vmem S128x512 .bf16) (v) :
    BI.Storable (upEmb : UEmb _ 𝕄) (landedX (F := F) c M v) := by unfold landedX; infer_instance
instance landedP_storable (c : Dev nD) (M : Memref sig .tc .vmem S128x512 .bf16) (p : Dev nD) (k : Fin 3) (b : Fin 2) :
    BI.Storable (upEmb : UEmb _ 𝕄) (landedP (F := F) PVok c M p k b) := by unfold landedP; infer_instance
instance barTab_storable (c : Dev nD) (n : ℕ) : BI.Storable (upEmb : UEmb _ 𝕄) (barTab (F := F) c n) := by
  unfold barTab; split <;> infer_instance
instance dmaTab_storable (c : Dev nD) (n : ℕ) : BI.Storable (upEmb : UEmb _ 𝕄) (dmaTab (F := F) m PVok c n) := by
  unfold dmaTab; split <;> infer_instance

instance sched_payload_storable (g : GSem nD τ sig) (r : ℕ) (d : Fin 3) :
    BI.Storable (upEmb : UEmb _ 𝕄) ((sched (F := F) m PVok).payload g r d) := by
  obtain ⟨⟨c, pk⟩, sm⟩ := g
  cases sm with
  | reg s =>
    show BI.Storable upEmb (if s = barS then barPay (F := F) c d else iprop(emp))
    unfold barPay; split <;> infer_instance
  | dma q =>
    show BI.Storable upEmb (if h : 6 ≤ q.val then dmaPay m PVok c ⟨q.val - 6, _⟩ else iprop(emp))
    unfold dmaPay; split <;> infer_instance

section Tables
variable (c : Dev nD)

theorem duties_bar : (sched (F := F) m PVok).duties (barCell c) 0 = Finset.univ := by
  dsimp only [sched]; rw [if_pos ⟨rfl, rfl⟩]; exact if_pos rfl
theorem duties_d (k : Fin 24) : (sched (F := F) m PVok).duties (dCell c k) 0 = {0} := by
  dsimp only [sched]; rw [if_pos ⟨rfl, rfl⟩]; exact if_pos (Nat.le_add_right 6 k.val)
theorem duties_later (g : GSem nD τ sig) : ∀ r, 1 ≤ r → (sched (F := F) m PVok).duties g r = ∅ :=
  fun r hr => by dsimp only [sched]; rw [if_neg fun h => by omega]
theorem amount_bar (d : Fin 3) : (sched (F := F) m PVok).amount (barCell c) 0 d = 1 := rfl
theorem amount_d (k : Fin 24) (d : Fin 3) : (sched (F := F) m PVok).amount (dCell c k) 0 d = N := rfl
theorem expect_bar : (sched (F := F) m PVok).expect (barCell c) 0 = 3 := by
  unfold Schedule.expect Schedule.amountOf
  rw [duties_bar, Finset.sum_congr rfl fun d _ => amount_bar m PVok c d, Finset.sum_const, Finset.card_univ, Fintype.card_fin, smul_eq_mul]
theorem expect_d (k : Fin 24) : (sched (F := F) m PVok).expect (dCell c k) 0 = N := by
  unfold Schedule.expect Schedule.amountOf; rw [duties_d, Finset.sum_singleton, amount_d]
theorem payload_bar (d : Fin 3) : (sched (F := F) m PVok).payload (barCell c) 0 d = barPay c d := by
  dsimp only [sched]; exact if_pos rfl
theorem payload_d (k : Fin 24) (d : Fin 3) : (sched (F := F) m PVok).payload (dCell c k) 0 d = dmaPay m PVok c k := by
  dsimp only [sched]; rw [dif_pos (Nat.le_add_right 6 k.val)]
  congr 1; exact Fin.ext (Nat.add_sub_cancel_left ..)

theorem rest_d (k : Fin 24) :
    bigSep ((sched (F := F) m PVok).duties (dCell c k) 0 \ ∅) (fun d => (sched (F := F) m PVok).payload (dCell c k) 0 d) = dmaPay m PVok c k := by
  rw [Finset.sdiff_empty, duties_d, bigSep_singleton, payload_d]

theorem rest_bar :
    bigSep ((sched (F := F) m PVok).duties (barCell c) 0 \ ∅) (fun d => (sched (F := F) m PVok).payload (barCell c) 0 d)
      = iprop(barPay (F := F) c 0 ∗ barPay (F := F) c 1 ∗ barPay (F := F) c 2) := by
  rw [Finset.sdiff_empty, duties_bar, bigSep_univ_eq_bigSepL [(0 : Fin 3), 1, 2] (by decide) (by decide)]
  simp only [payload_bar]
  rfl

end Tables

def payRev (c : Dev nD) : ℕ → CellTallies nD τ sig Unit
  | 0 => tallyAt (rsRCell (rgt c) 5) () N | 1 => tallyAt (rsRCell (lft c) 3) () N | 2 => tallyAt (rsRCell (dia c) 1) () N
  | 3 => tallyAt (rsRCell (rgt c) 4) () N | 4 => tallyAt (rsRCell (lft c) 2) () N | 5 => tallyAt (rsRCell (dia c) 0) () N
  | 6 => tallyAt (agRCell (dia c) 5) () N | 7 => tallyAt (agRCell (rgt c) 3) () N | 8 => tallyAt (agRCell (lft c) 1) () N
  | 9 => tallyAt (agRCell (dia c) 4) () N | 10 => tallyAt (agRCell (rgt c) 2) () N | 11 => tallyAt (agRCell (lft c) 0) () N
  | 12 => tallyAt (barCell (dia c)) () 1 | 13 => tallyAt (barCell (rgt c)) () 1 | 14 => tallyAt (barCell (lft c)) () 1
  | _ => 0

def oweRev (c : Dev nD) : ℕ → CellTallies nD τ sig Unit
  | 0 => 0
  | n + 1 => oweRev c n + payRev c n
def O₀ (c : Dev nD) : CellTallies nD τ sig Unit := oweRev c 15

def L (g : GSem nD τ sig) : Finset Unit := if g.1.2 = .tc then {()} else ∅

def lv (g : GSem nD τ sig) (_ : Unit) : ℕ :=
  match g.2 with
  | .reg s => if s = barS then 1 else 0
  | .dma q => if 12 ≤ q.val ∧ q.val < 18 then 2 else if 24 ≤ q.val then 3 else 0

theorem L_of_ne (g : GSem nD τ sig) (h : g.1.2 ≠ .tc) : L g = ∅ := if_neg h
theorem L_tc (c : Dev nD) (sm : SemLoc sig) : L ((c : Thread nD τ), sm) = {()} := if_pos rfl

abbrev csem (j : Fin 25) : SemLoc sig := if h : j.val = 0 then .reg barS else .dma (dsem ⟨j.val - 1, by have := j.isLt; omega⟩)
abbrev kcell (ck : Dev nD × Fin 25) : GSem nD τ sig := ((ck.1 : Thread nD τ), csem ck.2)

abbrev osem : Fin 24 → SemLoc sig := fun k => .dma (dsem k)

def records (K : Dev nD × Fin 25 → ℕ) : sProp 𝕄 :=
  iprop((bigSep Finset.univ fun ck : Dev nD × Fin 25 => cellInv ER (sched m PVok) (K ck) (kcell ck))
    ∗ bigSep Finset.univ fun ck : Dev nD × Fin 25 => reached ER (kcell ck) 0)

instance records_persistent (K : Dev nD × Fin 25 → ℕ) : BI.Persistent (records (F := F) m PVok K) := by unfold records; infer_instance

def payToks (c : Dev nD) : sProp 𝕄 :=
  iprop(dutyTok ER (barCell (lft c)) 0 (0 : Fin 3) ∗ dutyTok ER (barCell (rgt c)) 0 (1 : Fin 3) ∗ dutyTok ER (barCell (dia c)) 0 (2 : Fin 3)
    ∗ (bigSep Finset.univ fun i : Fin 2 => iprop(dutyTok ER (agRCell (lft c) ⟨i.val, by omega⟩) 0 (0 : Fin 3) ∗ dutyTok ER (agRCell (rgt c) ⟨2 + i.val, by omega⟩) 0 (0 : Fin 3)
        ∗ dutyTok ER (agRCell (dia c) ⟨4 + i.val, by omega⟩) 0 (0 : Fin 3)
        ∗ dutyTok ER (rsRCell (dia c) ⟨i.val, by omega⟩) 0 (0 : Fin 3) ∗ dutyTok ER (rsRCell (lft c) ⟨2 + i.val, by omega⟩) 0 (0 : Fin 3)
        ∗ dutyTok ER (rsRCell (rgt c) ⟨4 + i.val, by omega⟩) 0 (0 : Fin 3)))
    ∗ (bigSep Finset.univ fun i : Fin 6 => iprop(dutyTok ER (agSCell c i) 0 (0 : Fin 3) ∗ dutyTok ER (rsSCell c i) 0 (0 : Fin 3))))

def linear (c : Dev nD) : sProp 𝕄 :=
  iprop((bigSep Finset.univ fun j : Fin 25 => atPos ER (kcell (c, j)) 0 ∅ 0) ∗ payToks (F := F) c)

def ghost (K : Dev nD × Fin 25 → ℕ) (c : Dev nD) : sProp 𝕄 := iprop(records m PVok K ∗ linear (F := F) c)

def creds (c : Dev nD) : sProp 𝕄 :=
  iprop(cred (tallyAt (barCell c) () 3)
    ∗ bigSep Finset.univ fun i : Fin 6 => iprop(cred (tallyAt (agRCell c i) () N) ∗ cred (tallyAt (rsRCell c i) () N)))

def start (c : Dev nD) : sProp 𝕄 := iprop((∃ K, ghost m PVok K c) ∗ creds (F := F) c ∗ levAts L lv)

def Φ₀ (c : Dev nD) : sProp 𝕄 := iprop(start m PVok c ∗ Pipeline.scopedRest cfg0.spec c)
def Φ₁ (c : Dev nD) : sProp 𝕄 := iprop(Pipeline.ownSems0 osem c ∗ Pipeline.scopedRest cfg0.spec c)

variable (OutOk : Dev nD → (S2x128x512.Idx → Elt F .f32) → Prop)

def rdats (_ : Fin 1) (c : Dev nD) : Pipeline.RDat τ (Elt F) Unit ℕ UU ℕ cfg0 c where
  A w := m ((cfg0.win w).arr.view.loc (c : Thread nD τ))
  after w _ _ X := match w with
    | ⟨5, _⟩ => OutOk c X
    | _ => True
  Φ t := match t with
    | ⟨0, _⟩ => Φ₀ m PVok c
    | ⟨_ + 1, _⟩ => Φ₁ (F := F) c
  q _ := fullShare
  owed t := match t with
    | ⟨0, _⟩ => O₀ c
    | ⟨_ + 1, _⟩ => 0

abbrev 𝒱₀ : Variants := Variants.none

end Cert.KernelIdeal.Proto

end
-- ==== Proof.Steps.lean ====
import proofs.«900760_g7700000000000761_dist_attn_self_mha_htp_ss_b2_sq128_skv128_d512_hq8_dh64_v7x_i4_f32_1_alg».proof.Proof.Proto

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)
variable (PVok : Dev nD → Fin 3 → Fin 2 → (S128x512.Idx → Elt F .bf16) → Prop)

theorem agR_sem (i : Fin 6) (h) : (((cc0_scratch16.slice (Rect.unit (s := S6) ![i.val] S1.size h)).squeeze S_ squeezes_S1_S_ : DmaSems sig S_)).sem = agR i := by
  revert h; revert i; decide
theorem rsS_sem (i : Fin 6) (h) : (((cc0_scratch17.slice (Rect.unit (s := S6) ![i.val] S1.size h)).squeeze S_ squeezes_S1_S_ : DmaSems sig S_)).sem = rsS i := by
  revert h; revert i; decide
theorem rsR_sem (i : Fin 6) (h) : (((cc0_scratch18.slice (Rect.unit (s := S6) ![i.val] S1.size h)).squeeze S_ squeezes_S1_S_ : DmaSems sig S_)).sem = rsR i := by
  revert h; revert i; decide

theorem agS_semN (j : ℕ) (k : Fin 24) (hk : k.val = j) (h) :
    (((cc0_scratch15.slice (Rect.unit (s := S6) ![j] S1.size h)).squeeze S_ squeezes_S1_S_ : DmaSems sig S_)).sem = dsem k :=
  (agS_sem ⟨j, h 0⟩ h).trans (congrArg dsem (Fin.ext hk.symm))
theorem agR_semN (j : ℕ) (k : Fin 24) (hk : k.val = 6 + j) (h) :
    (((cc0_scratch16.slice (Rect.unit (s := S6) ![j] S1.size h)).squeeze S_ squeezes_S1_S_ : DmaSems sig S_)).sem = dsem k :=
  (agR_sem ⟨j, h 0⟩ h).trans (congrArg dsem (Fin.ext hk.symm))
theorem rsS_semN (j : ℕ) (k : Fin 24) (hk : k.val = 12 + j) (h) :
    (((cc0_scratch17.slice (Rect.unit (s := S6) ![j] S1.size h)).squeeze S_ squeezes_S1_S_ : DmaSems sig S_)).sem = dsem k :=
  (rsS_sem ⟨j, h 0⟩ h).trans (congrArg dsem (Fin.ext hk.symm))
theorem rsR_semN (j : ℕ) (k : Fin 24) (hk : k.val = 18 + j) (h) :
    (((cc0_scratch18.slice (Rect.unit (s := S6) ![j] S1.size h)).squeeze S_ squeezes_S1_S_ : DmaSems sig S_)).sem = dsem k :=
  (rsR_sem ⟨j, h 0⟩ h).trans (congrArg dsem (Fin.ext hk.symm))

theorem wp_send_slab (K : Dev nD × Fin 25 → ℕ) (c n : Dev nD) (kS kR : Fin 24)
    {src dst : Memref sig .tc .vmem S128x512 .bf16}
    {hsc : (dst : Memref sig (Dev.tc n : Thread nD τ).2.kind .vmem S128x512 .bf16).view.ref.isScScratch = false}
    {hsrc : src.view.WordExact} {hdst : dst.view.WordExact}
    {hsem : DmaTarget.Typed .vmem (.dma (dsem kR)) (.remote (Dev.tc n : Thread nD τ) dst (.dma (dsem kS)) hsc)}
    {α : Type} {Q : α → sProp 𝕄} {k : PUnit → Prog (TpuEff nD τ sig (Elt F) Λ₀ .tc) α}
    (q : PosShare TreeShare) (fs : Buf (Elt F) (src.view.loc (c : Thread nD τ))) (fd : Buf (Elt F) (dst.view.loc (n : Thread nD τ)))
    (O : CellTallies nD τ sig Unit) (W : Waits sig Unit)
    (hN : dst.view.amount (.dma (dsem kR)) = N)
    (hS : mPts (F := F) c src q fs ⊢ dmaPay m PVok c kS)
    (hR : mPts (F := F) n dst fullShare (dst.view.write (Elt F) fd (src.view.read (Elt F) fs) Finset.univ) ⊢ dmaPay m PVok n kR) :
    iprop(cellInv ER (sched m PVok) (K (c, kS.succ)) (dCell c kS) ∗ cellInv ER (sched m PVok) (K (n, kR.succ)) (dCell n kR)
        ∗ mPts (F := F) c src q fs ∗ mPts (F := F) n dst fullShare fd
        ∗ owes (c : Thread nD τ) (O + tallyAt (dCell n kR) () N) W
        ∗ dutyTok ER (dCell c kS) 0 (0 : Fin 3) ∗ reached ER (dCell c kS) 0
        ∗ dutyTok ER (dCell n kR) 0 (0 : Fin 3) ∗ reached ER (dCell n kR) 0)
      ⊢ iprop(((cred (tallyAt (dCell c kS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (dsem kS)) hsc) (.dma (dsem kR)) hsrc hdst hsem) k) Q) := by
  unfold mPts at hS hR ⊢
  exact Rounds.wp_send_pointsTo 𝒱₀ ER (sched m PVok) (c : Thread nD τ) none (κ₁ := K (c, kS.succ)) (κ₂ := K (n, kR.succ))
    (r₁ := 0) (r₂ := 0) (d₁ := (0 : Fin 3)) (d₂ := (0 : Fin 3)) (fd := fd)
    (by rw [duties_d]; exact Finset.mem_singleton_self _) (by rw [duties_d]; exact Finset.mem_singleton_self _)
    () () N hN (amount_d m PVok c kS 0) (amount_d m PVok n kR 0) O rfl (W := W)
    (by rw [payload_d]; exact hS)
    (by rw [payload_d]; exact hR)

theorem wp_wait_d (K : Dev nD × Fin 25 → ℕ) (c : Dev nD) (k : Fin 24)
    {sp sp' : Space} {s s' : Shape} {e e' : EltTy}
    {src : Memref sig .tc sp' s' e'} {κ' : Kind} {dst : Memref sig κ' sp s e} {hsrc : src.view.WordExact} {hdst : dst.view.WordExact}
    (hcr : dst.view.dmaCredit = N)
    {α : Type} {Q : α → sProp 𝕄} {kk : PUnit → Prog (TpuEff nD τ sig (Elt F) Λ₀ .tc) α}
    (O : CellTallies nD τ sig Unit) (W : Waits sig Unit) :
    iprop(cellInv ER (sched m PVok) (K (c, k.succ)) (dCell c k) ∗ cred (tallyAt (dCell c k) () N) ∗ owes (c : Thread nD τ) O W
        ∗ MayWait (c : Thread nD τ) (.dma (dsem k)) () O ∗ atPos ER (dCell c k) 0 ∅ 0)
      ⊢ iprop(((owes (c : Thread nD τ) O (insert (SemLoc.dma (dsem k), ()) W) ∗ atPos ER (dCell c k) 1 ∅ 0 ∗ dmaPay m PVok c k)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (dsem k) src dst hsrc hdst) kk) Q) := by
  iintro H Hk
  iapply (Rounds.wp_wait_rest_token 𝒱₀ ER (sched m PVok) (c : Thread nD τ) none (κ := K (c, k.succ))
      (sm := .dma (dsem k)) (k' := N)
      (fun K' => (wpE_waitDma2_eq 𝒱₀ (c : Thread nD τ) none Set.univ K').trans (by rw [hcr])) (Set.mem_univ _) () (O := O) (W := W) (R := 0) (m := 0) (T := ∅)
      (by rw [Nat.zero_add, expect_d])) $$ H
  iintro ⟨HO, Hat, -, Hpay⟩
  ihave Hp := (Entails.of_eq (rest_d m PVok c k)) $$ Hpay
  iapply Hk
  iframe HO Hat Hp

theorem close_d (K : Dev nD × Fin 25 → ℕ) (c : Dev nD) (k : Fin 24) :
    iprop(cellInv ER (sched m PVok) (K (c, k.succ)) (dCell c k) ∗ atPos ER (dCell c k) 1 ∅ 0)
      ⊢ (iprop(|={Set.univ}=> semVal (dCell c k) 0) : sProp 𝕄) :=
  Rounds.cell_close ER (sched m PVok) (Set.mem_univ (K (c, k.succ))) (fun h => h) (R := 1) (duties_later m PVok (dCell c k))

theorem wp_sig (K : Dev nD × Fin 25 → ℕ) (c n : Dev nD) (d : Fin 3)
    {α : Type} {Q : α → sProp 𝕄} {k : PUnit → Prog (TpuEff nD τ sig (Elt F) Λ₀ .tc) α}
    (O : CellTallies nD τ sig Unit) (W : Waits sig Unit) :
    iprop(cellInv ER (sched m PVok) (K (n, 0)) (barCell n) ∗ owes (c : Thread nD τ) (O + tallyAt (barCell n) () 1) W
        ∗ dutyTok ER (barCell n) 0 d ∗ barPay (F := F) n d ∗ reached ER (barCell n) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS (1#32 : BitVec 32).toNat) k) Q) := by
  rw [← payload_bar m PVok n d]
  exact Rounds.wp_signal 𝒱₀ ER (sched m PVok) (c : Thread nD τ) none (dst := (n : Thread nD τ)) (κ := K (n, 0))
    (d := d) (by rw [duties_bar]; exact Finset.mem_univ _) ((amount_bar m PVok n d).trans (by decide)) () O rfl

theorem wp_barwait (K : Dev nD × Fin 25 → ℕ) (c : Dev nD)
    {α : Type} {Q : α → sProp 𝕄} {k : PUnit → Prog (TpuEff nD τ sig (Elt F) Λ₀ .tc) α}
    (O : CellTallies nD τ sig Unit) (W : Waits sig Unit) :
    iprop(cellInv ER (sched m PVok) (K (c, 0)) (barCell c) ∗ cred (tallyAt (barCell c) () 3) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0
              ∗ barPay (F := F) c 0 ∗ barPay (F := F) c 1 ∗ barPay (F := F) c 2)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (3#32 : BitVec 32).toNat) k) Q) := by
  iintro H Hk
  iapply (Rounds.wp_wait_rest_token 𝒱₀ ER (sched m PVok) (c : Thread nD τ) none (κ := K (c, 0))
      (sm := .reg barS) (k' := 3)
      (fun K' => wpE_semWait_eq 𝒱₀ (c : Thread nD τ) none Set.univ K') (Set.mem_univ _) () (O := O) (W := W) (R := 0) (m := 0) (T := ∅)
      (by rw [expect_bar])) $$ H
  iintro ⟨HO, Hat, -, Hpay⟩
  ihave Hp := (Entails.of_eq (rest_bar m PVok c)) $$ Hpay
  iapply Hk
  iframe HO Hat Hp

theorem lv_bar (n : Dev nD) : lv (barCell n) () = 1 := rfl
theorem lv_agS (n : Dev nD) (i : Fin 6) : lv (agSCell n i) () = 0 := by
  have := i.isLt
  dsimp only [lv]; rw [if_neg (by omega), if_neg (by omega)]
theorem lv_agR (n : Dev nD) (i : Fin 6) : lv (agRCell n i) () = 2 := by
  have := i.isLt
  dsimp only [lv]; rw [if_pos (by omega)]
theorem lv_rsR (n : Dev nD) (i : Fin 6) : lv (rsRCell n i) () = 3 := by
  have := i.isLt
  dsimp only [lv]; rw [if_neg (by omega), if_pos (by omega)]

theorem oweRev_pos (c : Dev nD) : ∀ (n : ℕ) (g : GSem nD τ sig) (ι : Unit), 0 < oweRev c n g ι → ∃ j, j < n ∧ 0 < payRev c j g ι
  | 0, g, ι, h => absurd h (Nat.lt_irrefl 0)
  | n + 1, g, ι, h => (Nat.add_pos_iff_pos_or_pos.mp (h : 0 < oweRev c n g ι + payRev c n g ι)).elim
    (fun h0 => let ⟨j, hj, hp⟩ := oweRev_pos c n g ι h0; ⟨j, Nat.lt_succ_of_lt hj, hp⟩) fun hp => ⟨n, Nat.lt_succ_self n, hp⟩

theorem mayWait_of_lv (c : Dev nD) (sm : SemLoc sig) (n : ℕ)
    (h : ∀ j, j < n → ∃ (g : GSem nD τ sig) (k : ℕ), payRev c j = tallyAt g () k ∧ g.1.2 = .tc
      ∧ lv ((c : Thread nD τ), sm) () < lv g ()) :
    (levAts L lv : sProp 𝕄) ⊢ MayWait (c : Thread nD τ) sm () (oweRev c n) := by
  have key (g ι) (hg : 0 < oweRev c n g ι) : g.1.2 = .tc ∧ lv ((c : Thread nD τ), sm) () < lv g () := by
    obtain ⟨j, hj, hpos⟩ := oweRev_pos c n g ι hg
    obtain ⟨g', k, he, htc, hlt⟩ := h j hj
    rw [he] at hpos
    obtain ⟨rfl, -⟩ := Pipeline.tallyAt_pos hpos
    exact ⟨htc, hlt⟩
  exact MayOwe.of_cut (lv ((c : Thread nD τ), sm) ())
    (fun p hp => by rw [Finset.mem_singleton.mp hp, L_tc]; exact Finset.mem_singleton_self _)
    (fun g ι hg => by rw [L, if_pos (key g ι hg).1]; exact Finset.mem_singleton_self _)
    (fun p hp => by rw [Finset.mem_singleton.mp hp]) fun g ι hg => (key g ι hg).2

theorem mayWait_scatter (c : Dev nD) (sm : SemLoc sig) (n : ℕ) (hn : n ≤ 6) (h : lv ((c : Thread nD τ), sm) () < 3) :
    (levAts L lv : sProp 𝕄) ⊢ MayWait (c : Thread nD τ) sm () (oweRev c n) :=
  mayWait_of_lv c sm n fun j hj =>
    match j, Nat.lt_of_lt_of_le hj hn with
    | 0, _ | 1, _ | 2, _ | 3, _ | 4, _ | 5, _ => ⟨_, _, rfl, rfl, h.trans_eq (lv_rsR _ _).symm⟩
    | k + 6, hk => absurd hk (by omega)

theorem mayWait_copies (c : Dev nD) (sm : SemLoc sig) (n : ℕ) (hn : n ≤ 12) (h : lv ((c : Thread nD τ), sm) () < 2) :
    (levAts L lv : sProp 𝕄) ⊢ MayWait (c : Thread nD τ) sm () (oweRev c n) :=
  mayWait_of_lv c sm n fun j hj =>
    match j, Nat.lt_of_lt_of_le hj hn with
    | 0, _ | 1, _ | 2, _ | 3, _ | 4, _ | 5, _ => ⟨_, _, rfl, rfl, (h.trans (by decide)).trans_eq (lv_rsR _ _).symm⟩
    | 6, _ | 7, _ | 8, _ | 9, _ | 10, _ | 11, _ => ⟨_, _, rfl, rfl, h.trans_eq (lv_agR _ _).symm⟩
    | k + 12, hk => absurd hk (by omega)

theorem mayWait_bar12 (c : Dev nD) :
    (levAts L lv : sProp 𝕄) ⊢ MayWait (c : Thread nD τ) (.reg barS) () (oweRev c 12) :=
  mayWait_copies c _ 12 (le_refl _) (by rw [lv_bar]; decide)

theorem mayWait_agS6 (c : Dev nD) (i : Fin 6) :
    (levAts L lv : sProp 𝕄) ⊢ MayWait (c : Thread nD τ) (.dma (agS i)) () (oweRev c 6) :=
  mayWait_scatter c _ 6 (le_refl _) (by rw [lv_agS]; decide)
theorem mayWait_agS3 (c : Dev nD) (i : Fin 6) :
    (levAts L lv : sProp 𝕄) ⊢ MayWait (c : Thread nD τ) (.dma (agS i)) () (oweRev c 3) :=
  mayWait_scatter c _ 3 (by decide) (by rw [lv_agS]; decide)
theorem mayWait_agR6 (c : Dev nD) (i : Fin 6) :
    (levAts L lv : sProp 𝕄) ⊢ MayWait (c : Thread nD τ) (.dma (agR i)) () (oweRev c 6) :=
  mayWait_scatter c _ 6 (le_refl _) (by rw [lv_agR]; decide)
theorem mayWait_agR3 (c : Dev nD) (i : Fin 6) :
    (levAts L lv : sProp 𝕄) ⊢ MayWait (c : Thread nD τ) (.dma (agR i)) () (oweRev c 3) :=
  mayWait_scatter c _ 3 (by decide) (by rw [lv_agR]; decide)

end Cert.KernelIdeal.Proto

end
-- ==== Proof.Launch.lean ====
import proofs.«900760_g7700000000000761_dist_attn_self_mha_htp_ss_b2_sq128_skv128_d512_hq8_dh64_v7x_i4_f32_1_alg».proof.Proof.Steps

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (PVok : Dev nD → Fin 3 → Fin 2 → (S128x512.Idx → Elt F .bf16) → Prop)
variable (OutOk : Dev nD → (S2x128x512.Idx → Elt F .f32) → Prop)

theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · have h0 : lv ((c : Thread nD τ), .dma q) () = 0 := by
      dsimp only [lv]; rw [if_neg (fun h => by omega), if_neg (fun h => by omega)]
    exact mayWait_of_lv c _ 15 fun j hj =>
      match j, hj with
      | 0, _ | 1, _ | 2, _ | 3, _ | 4, _ | 5, _ => ⟨_, _, rfl, rfl, by rw [h0, lv_rsR]; decide⟩
      | 6, _ | 7, _ | 8, _ | 9, _ | 10, _ | 11, _ => ⟨_, _, rfl, rfl, by rw [h0, lv_agR]; decide⟩
      | 12, _ | 13, _ | 14, _ => ⟨_, _, rfl, rfl, by rw [h0, lv_bar]; decide⟩
      | k + 15, hk => absurd hk (by omega)
  · rw [MayWait_zero]; iintro -; iempintro

theorem ownSemFacts : Pipeline.OwnSemFacts cfg0.spec osem := by decide

theorem share_eq (c : Dev nD) (w : Fin cfg0.W) : (rdats m PVok OutOk 0 c).share w = fullShare := by
  unfold Pipeline.RDat.share; split <;> rfl

theorem csem_injective : Function.Injective (csem : Fin 25 → SemLoc sig) := fun j j' h => by
  have key : ∀ j : Fin 25, (match csem j with | .reg _ => 0 | .dma q => q.val - 5) = j.val := by decide
  have := key j
  rw [h, key j'] at this
  exact Fin.ext this.symm

theorem kcell_injective : Function.Injective (kcell : Dev nD × Fin 25 → GSem nD τ sig) := fun _ _ h =>
  Prod.ext (congrArg (fun g : GSem nD τ sig => g.1.1) h) (csem_injective (congrArg Prod.snd h))

def protoCells : Finset (GSem nD τ sig) := Finset.univ.map ⟨kcell, kcell_injective⟩

theorem waits (c : Dev nD) : (levAts L lv : sProp 𝕄) ⊢ Pipeline.RDat.cellsWaits cfgs (rdats m PVok OutOk) () 0 c :=
  Pipeline.RDat.cellsWaits_intro cfgs (rdats m PVok OutOk) () 0 c fun w s t =>
    mayWait_stage c _ (by fin_cases w <;> fin_cases s <;> decide) _ (by
      rcases t with ⟨_ | _, ht⟩
      · exact Or.inl rfl
      · exact Or.inr rfl)

abbrev tokOf (cj : Dev nD × (Fin 3 ⊕ Fin 24)) : GSem nD τ sig × ℕ × Fin 3 := match cj.2 with
  | .inl d => (barCell cj.1, 0, d)
  | .inr k => (dCell cj.1 k, 0, 0)

theorem tokOf_injective : Function.Injective (tokOf : Dev nD × (Fin 3 ⊕ Fin 24) → GSem nD τ sig × ℕ × Fin 3) := by
  rintro ⟨c, d | k⟩ ⟨c', d' | k'⟩ h
  · cases h; rfl
  · cases h
  · cases h
  · have e : 6 + k.val = 6 + k'.val := congrArg (fun x : GSem nD τ sig × ℕ × Fin 3 => match x.1.2 with | .dma q => q.val | .reg _ => 0) h
    obtain rfl : c = c' := congrArg (fun x : GSem nD τ sig × ℕ × Fin 3 => x.1.1.1) h
    rw [Fin.ext (Nat.add_left_cancel e)]

def protoToks : Finset (GSem nD τ sig × ℕ × Fin 3) := Finset.univ.map ⟨tokOf, tokOf_injective⟩

def u₀ : UU :=
  (initOf (Pipeline.cells cfgs cellOf_inj) (Pipeline.launchToks cfgs cellOf_inj), initOf protoCells protoToks)

def toks (c : Dev nD) : sProp 𝕄 :=
  iprop((bigSep Finset.univ fun d : Fin 3 => dutyTok ER (barCell c) 0 d)
    ∗ bigSep Finset.univ fun k : Fin 24 => dutyTok ER (dCell c k) 0 (0 : Fin 3))

def G (c : Dev nD) : sProp 𝕄 :=
  iprop((bigSep Finset.univ fun k : Fin 25 => roundState ER (sched m PVok) (kcell (c, k)) 0)
    ∗ (bigSep Finset.univ fun k : Fin 25 => iprop(atPos ER (kcell (c, k)) 0 ∅ 0 ∗ reached ER (kcell (c, k)) 0)) ∗ toks (F := F) c)

def G' (c : Dev nD) : sProp 𝕄 := iprop(∃ K, ghost m PVok K c)

private theorem bigSep_fin2 (Φ : Fin 2 → sProp 𝕄) : bigSep Finset.univ Φ = iprop(Φ 0 ∗ Φ 1) := bigSep_univ_eq_bigSepL [0, 1] (by decide) (by decide) Φ
private theorem bigSep_fin3 (Φ : Fin 3 → sProp 𝕄) : bigSep Finset.univ Φ = iprop(Φ 0 ∗ Φ 1 ∗ Φ 2) := bigSep_univ_eq_bigSepL [0, 1, 2] (by decide) (by decide) Φ
private theorem bigSep_fin6 (Φ : Fin 6 → sProp 𝕄) : bigSep Finset.univ Φ = iprop(Φ 0 ∗ Φ 1 ∗ Φ 2 ∗ Φ 3 ∗ Φ 4 ∗ Φ 5) := bigSep_univ_eq_bigSepL [0, 1, 2, 3, 4, 5] (by decide) (by decide) Φ
private theorem bigSep_fin24 (Φ : Fin 24 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) := bigSep_univ_eq_bigSepL [0, 1, 2, 3, 4, 5, 6, 7, 8, 9, 10, 11, 12, 13, 14, 15, 16, 17, 18, 19, 20, 21, 22, 23] (by decide) (by decide) Φ

theorem fund_proto : BI.own (ER (initOf protoCells protoToks)) ⊢ (|==> bigSep Finset.univ (G m PVok) : sProp 𝕄) := by
  have hX (Φ : GSem nD τ sig → sProp 𝕄) : bigSep protoCells Φ = bigSep Finset.univ fun c : Dev nD => bigSep Finset.univ fun k : Fin 25 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [BI.bigSep_univ_sum]; rfl
  have h := Rounds.fund ER (sched m PVok) protoCells protoToks
  simp only [hX, hT] at h
  unfold G; simp only [bigSep_sep']
  iintro HX
  imod h $$ HX with ⟨Hst, Hr, Hat, Htok⟩
  imodintro
  iframe Hst Hat Hr Htok

theorem bigSep_cells (c : Dev nD) (Φ : GSem nD τ sig → sProp 𝕄) :
    (bigSep Finset.univ fun k : Fin 25 => Φ (kcell (c, k))) = iprop(Φ (barCell c) ∗ bigSep Finset.univ fun k : Fin 24 => Φ (dCell c k)) := by
  rw [Fin.univ_succ, Finset.cons_eq_insert, BI.bigSep_insert (by simp), BI.bigSep_map]
  exact congrArg₂ _ rfl (bigSep_congr fun k _ => rfl)

theorem unscopedSems0_eq (c : Dev nD) : (unscopedSems0 c : sProp 𝕄) = semVal (barCell c) 0 := by
  unfold unscopedSems0; rw [bigSep_eq_bigSepL_of_eq [SemLoc.reg barS] (by decide) (by decide)]; rfl

def cellsOf (c : Dev nD) : sProp 𝕄 :=
  iprop((bigSep Finset.univ fun k => iprop(∃ κ : ℕ, cellInv ER (sched m PVok) κ (kcell (c, k))))
    ∗ (bigSep Finset.univ fun k : Fin 25 => iprop(atPos ER (kcell (c, k)) 0 ∅ 0 ∗ reached ER (kcell (c, k)) 0)) ∗ toks (F := F) c)

theorem core_alloc (c : Dev nD) :
    iprop(Pipeline.ownSems0 (Ix := Unit) (Name := ℕ) (U := UU) (Lvl := ℕ) (Val := Elt F) (τ := τ) osem c ∗ unscopedSems0 c ∗ G m PVok c)
      ⊢ |={Set.univ}=> cellsOf m PVok c := by
  unfold G cellsOf
  rw [unscopedSems0_eq]
  show iprop((bigSep Finset.univ fun k : Fin 24 => semVal (dCell c k) 0) ∗ _) ⊢ _
  iintro ⟨Hos, Hus, Hst, Hat, Htok⟩
  imod (show iprop((bigSep Finset.univ fun k : Fin 25 => semVal (kcell (c, k)) 0) ∗ bigSep Finset.univ fun k : Fin 25 => roundState ER (sched m PVok) (kcell (c, k)) 0)
      ⊢ (|={Set.univ}=> bigSep Finset.univ fun k => iprop(∃ κ : ℕ, cellInv ER (sched m PVok) κ (kcell (c, k))) : sProp 𝕄) from by
        rw [← bigSep_sep']
        exact (bigSep_mono fun k _ => (Rounds.body_intro ER (sched m PVok) (kcell (c, k))).trans inv_alloc).trans (bigSep_fupd _ _)) $$ [Hos Hus Hst] with Hinv
  · rw [bigSep_cells c fun g => semVal g 0]
    iframe Hos Hus Hst
  imodintro
  iframe Hinv Hat Htok

def lftE : Dev nD ≃ Dev nD := ⟨lft, rgt, rgt_lft, lft_rgt⟩
def rgtE : Dev nD ≃ Dev nD := ⟨rgt, lft, lft_rgt, rgt_lft⟩
def diaE : Dev nD ≃ Dev nD := ⟨dia, dia, dia_dia, dia_dia⟩

def toksOwn (c : Dev nD) : sProp 𝕄 :=
  iprop(dutyTok ER (barCell c) 0 (0 : Fin 3) ∗ dutyTok ER (barCell c) 0 (1 : Fin 3) ∗ dutyTok ER (barCell c) 0 (2 : Fin 3)
    ∗ (bigSep Finset.univ fun i : Fin 2 => iprop(dutyTok ER (agRCell c ⟨i.val, by omega⟩) 0 (0 : Fin 3) ∗ dutyTok ER (agRCell c ⟨2 + i.val, by omega⟩) 0 (0 : Fin 3)
        ∗ dutyTok ER (agRCell c ⟨4 + i.val, by omega⟩) 0 (0 : Fin 3)
        ∗ dutyTok ER (rsRCell c ⟨i.val, by omega⟩) 0 (0 : Fin 3) ∗ dutyTok ER (rsRCell c ⟨2 + i.val, by omega⟩) 0 (0 : Fin 3)
        ∗ dutyTok ER (rsRCell c ⟨4 + i.val, by omega⟩) 0 (0 : Fin 3)))
    ∗ (bigSep Finset.univ fun i : Fin 6 => iprop(dutyTok ER (agSCell c i) 0 (0 : Fin 3) ∗ dutyTok ER (rsSCell c i) 0 (0 : Fin 3))))

theorem toks_own (c : Dev nD) : (toks c : sProp 𝕄) ⊢ toksOwn c := by
  unfold toks toksOwn
  rw [bigSep_fin3, bigSep_fin24, bigSep_fin2, bigSep_fin6]
  iintro ⟨⟨B0, B1, B2⟩, D0, D1, D2, D3, D4, D5, D6, D7, D8, D9, D10, D11, D12, D13, D14, D15, D16, D17, D18, D19, D20, D21, D22, D23⟩
  iframe B0 B1 B2 D0 D1 D2 D3 D4 D5 D6 D7 D8 D9 D10 D11 D12 D13 D14 D15 D16 D17 D18 D19 D20 D21 D22 D23

theorem toks_around : (bigSep Finset.univ fun c : Dev nD => (toks c : sProp 𝕄)) ⊢ bigSep Finset.univ fun c : Dev nD => payToks c := by
  refine (bigSep_mono fun c _ => toks_own c).trans ?_
  unfold toksOwn payToks
  simp only [bigSep_sep']
  rw [bigSep_univ_equiv lftE (fun c => dutyTok ER (barCell c) 0 (0 : Fin 3)),
    bigSep_univ_equiv rgtE (fun c => dutyTok ER (barCell c) 0 (1 : Fin 3)),
    bigSep_univ_equiv diaE (fun c => dutyTok ER (barCell c) 0 (2 : Fin 3)),
    bigSep_univ_equiv lftE (fun c => bigSep Finset.univ fun i : Fin 2 => dutyTok ER (agRCell c ⟨i.val, by omega⟩) 0 (0 : Fin 3)),
    bigSep_univ_equiv rgtE (fun c => bigSep Finset.univ fun i : Fin 2 => dutyTok ER (agRCell c ⟨2 + i.val, by omega⟩) 0 (0 : Fin 3)),
    bigSep_univ_equiv diaE (fun c => bigSep Finset.univ fun i : Fin 2 => dutyTok ER (agRCell c ⟨4 + i.val, by omega⟩) 0 (0 : Fin 3)),
    bigSep_univ_equiv diaE (fun c => bigSep Finset.univ fun i : Fin 2 => dutyTok ER (rsRCell c ⟨i.val, by omega⟩) 0 (0 : Fin 3)),
    bigSep_univ_equiv lftE (fun c => bigSep Finset.univ fun i : Fin 2 => dutyTok ER (rsRCell c ⟨2 + i.val, by omega⟩) 0 (0 : Fin 3)),
    bigSep_univ_equiv rgtE (fun c => bigSep Finset.univ fun i : Fin 2 => dutyTok ER (rsRCell c ⟨4 + i.val, by omega⟩) 0 (0 : Fin 3))]
  exact Entails.refl _

private theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 25 → ℕ) (c : Dev nD) : iprop(records m PVok K ∗ linear (F := F) c) ⊢ G' m PVok c := by
  unfold G' ghost
  iintro H
  iexists K
  iexact H

theorem regroup : bigSep Finset.univ (cellsOf m PVok) ⊢ bigSep Finset.univ (G' m PVok) := by
  unfold cellsOf
  rw [bigSep_sep', bigSep_sep', ← bigSep_univ_prod (fun ck : Dev nD × Fin 25 => iprop(∃ κ : ℕ, cellInv ER (sched m PVok) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (sched m PVok) κ (kcell ck) : sProp 𝕄))) $$ HI
  icases HK with ⟨%K, #HI⟩
  ihave Htk := (toks_around (F := F)) $$ Htok
  iapply (bigSep_with_persistent (R := records m PVok K) fun c _ => ghost_intro m PVok K c)
  isplitr
  · unfold records; iframe HI HR
  · iapply ((Entails.of_eq (bigSep_sep' Finset.univ (fun c : Dev nD => bigSep Finset.univ fun k : Fin 25 => (atPos ER (kcell (c, k)) 0 ∅ 0 : sProp 𝕄)) payToks).symm).trans
      (bigSep_mono fun c _ => show _ ⊢ linear c from Entails.of_eq (by unfold linear; rfl)))
    iframe Hat Htk

theorem glob : (bigSep Finset.univ fun c => iprop(Pipeline.ownSems0 (Ix := Unit) (Name := ℕ) (U := UU) (Lvl := ℕ) (Val := Elt F) (τ := τ) osem c ∗ unscopedSems0 c ∗ G m PVok c) : sProp 𝕄)
    ⊢ |={Set.univ}=> bigSep Finset.univ (G' m PVok) :=
  ((bigSep_mono fun c _ => core_alloc m PVok c).trans (bigSep_fupd _ _)).trans (BI.fupd_mono (regroup m PVok))

private theorem cred3 (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  exact (sep_mono_right (cred_add _ _).2).trans (cred_add _ _).2

theorem launch_creds (c : Dev nD) : (Pipeline.launchCred O₀ c : sProp 𝕄) ⊢ creds c := by
  show Pipeline.launchCred (fun d => oweRev d 15) c ⊢ _
  simp only [oweRev, Pipeline.launchCred_add, payRev]
  iintro ⟨⟨⟨⟨⟨⟨⟨⟨⟨⟨⟨⟨⟨⟨⟨-, P0⟩, P1⟩, P2⟩, P3⟩, P4⟩, P5⟩, P6⟩, P7⟩, P8⟩, P9⟩, P10⟩, P11⟩, P12⟩, P13⟩, P14⟩
  ihave C0 := (Pipeline.launchCred_tallyAt (.dma (rsR 5)) rgt lft rgt_lft lft_rgt () N c) $$ P0
  ihave C1 := (Pipeline.launchCred_tallyAt (.dma (rsR 3)) lft rgt lft_rgt rgt_lft () N c) $$ P1
  ihave C2 := (Pipeline.launchCred_tallyAt (.dma (rsR 1)) dia dia dia_dia dia_dia () N c) $$ P2
  ihave C3 := (Pipeline.launchCred_tallyAt (.dma (rsR 4)) rgt lft rgt_lft lft_rgt () N c) $$ P3
  ihave C4 := (Pipeline.launchCred_tallyAt (.dma (rsR 2)) lft rgt lft_rgt rgt_lft () N c) $$ P4
  ihave C5 := (Pipeline.launchCred_tallyAt (.dma (rsR 0)) dia dia dia_dia dia_dia () N c) $$ P5
  ihave C6 := (Pipeline.launchCred_tallyAt (.dma (agR 5)) dia dia dia_dia dia_dia () N c) $$ P6
  ihave C7 := (Pipeline.launchCred_tallyAt (.dma (agR 3)) rgt lft rgt_lft lft_rgt () N c) $$ P7
  ihave C8 := (Pipeline.launchCred_tallyAt (.dma (agR 1)) lft rgt lft_rgt rgt_lft () N c) $$ P8
  ihave C9 := (Pipeline.launchCred_tallyAt (.dma (agR 4)) dia dia dia_dia dia_dia () N c) $$ P9
  ihave C10 := (Pipeline.launchCred_tallyAt (.dma (agR 2)) rgt lft rgt_lft lft_rgt () N c) $$ P10
  ihave C11 := (Pipeline.launchCred_tallyAt (.dma (agR 0)) lft rgt lft_rgt rgt_lft () N c) $$ P11
  ihave C12 := (Pipeline.launchCred_tallyAt (.reg barS) dia dia dia_dia dia_dia () 1 c) $$ P12
  ihave C13 := (Pipeline.launchCred_tallyAt (.reg barS) rgt lft rgt_lft lft_rgt () 1 c) $$ P13
  ihave C14 := (Pipeline.launchCred_tallyAt (.reg barS) lft rgt lft_rgt rgt_lft () 1 c) $$ P14
  unfold creds
  rw [bigSep_fin6]
  isplitl [C12 C13 C14]
  · iapply (cred3 (F := F) (barCell c))
    iframe C12 C13 C14
  iframe C0 C1 C2 C3 C4 C5 C6 C7 C8 C9 C10 C11

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m PVok c)
      ⊢ |={Set.univ}=> iprop(start m PVok c ∗ emp) := by
  iintro ⟨-, Hlev, Hcr, -, HG⟩
  ihave Hc := (launch_creds (F := F) c) $$ Hcr
  imodintro
  unfold start G'
  iframe HG Hc Hlev

theorem phi0_intro (c : Dev nD) :
    iprop(start m PVok c ∗ Pipeline.prefHeld Pipeline.Prefetch.none c (fun _ => fullShare.right) (fun k => k.elim0) ∗ Pipeline.scopedRest cfg0.spec c)
      ⊢ (rdats m PVok OutOk 0 c).Φ 0 := by
  rw [show (rdats m PVok OutOk 0 c).Φ 0 = Φ₀ m PVok c from rfl]
  unfold Φ₀
  iintro ⟨Hs, -, Hr⟩
  iframe Hs Hr

theorem phi1_exit (c : Dev nD) :
    (rdats m PVok OutOk 0 c).Φ (Fin.last cfg0.N) ⊢ iprop(emp ∗ Pipeline.ownSems0 osem c ∗ Pipeline.scopedRest cfg0.spec c) := by
  rw [show (rdats m PVok OutOk 0 c).Φ (Fin.last cfg0.N) = Φ₁ (F := F) c from rfl]
  unfold Φ₁
  iintro ⟨H1, H2⟩
  iframe H1 H2

theorem in_read (c : Dev nD) (w : Fin cfg0.W) (hw : (cfg0.win w).isOut = false)
    (G : Buf (Elt F) ((cfg0.win w).arr.view.loc (c : Thread nD τ)))
    (h : (rdats m PVok OutOk 0 c).ArrAt w cfg0.N G) : G = m ((cfg0.win w).arr.view.loc (c : Thread nD τ)) := by
  rw [Pipeline.RDat.ArrAt_in _ w hw] at h
  exact h

theorem write_out (c : Dev nD) (G₀ : Buf (Elt F) ((cfg0.win (5 : Fin 6)).arr.view.loc (c : Thread nD τ)))
    (X : (cfg0.win (5 : Fin 6)).block.Idx → Elt F (cfg0.win (5 : Fin 6)).elt) :
    ((cfg0.win (5 : Fin 6)).blk t0_0).view.write (Elt F) G₀ ((cfg0.win (5 : Fin 6)).cut (cfg0.grid.coords t0_0) X) Finset.univ = X := by
  funext i
  have hy : ((cfg0.win (5 : Fin 6)).blk t0_0).view.emb i = i := by
    funext a
    apply Fin.ext
    show 0 * _ + 1 * (i a).val = (i a).val
    omega
  have h := View.write_emb_of_mem (v := ((cfg0.win (5 : Fin 6)).blk t0_0).view) (Val := Elt F) G₀
    ((cfg0.win (5 : Fin 6)).cut (cfg0.grid.coords t0_0) X) (M := Finset.univ) (x := i) (Finset.mem_univ _)
  rw [hy] at h
  exact h

theorem out_read (c : Dev nD) (G : Buf (Elt F) ((cfg0.win (5 : Fin 6)).arr.view.loc (c : Thread nD τ)))
    (h : (rdats m PVok OutOk 0 c).ArrAt (5 : Fin 6) cfg0.N G) : ∃ X, OutOk c X ∧ G = X := by
  have h1 : (rdats m PVok OutOk 0 c).ArrAt (5 : Fin 6) (t0_0.val + 1) G := h
  rw [Pipeline.RDat.ArrAt_succ, if_pos (show (cfg0.win (5 : Fin 6)).flush t0_0 = true from rfl)] at h1
  obtain ⟨G₀, X, -, ⟨Y, -, hXY⟩, rfl⟩ := h1
  exact ⟨X, hXY, write_out c G₀ X⟩

set_option maxRecDepth 8000 in

theorem run_main (hbody : ∀ c, (rdats m PVok OutOk 0 c).BodyObligation (defs₀ (F := F)) 𝒱₀ () Set.univ) :
    θ_run defs (onTc (τ := τ) (main (F := F))) (s₀ m ρ) (fun r => ∀ c : Dev nD,
      (∃ X, OutOk c X ∧ r.2.mem ((c : Thread nD τ).loc main_v1) = X)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  Pipeline.RDat.θ_run_region_owing_glob_pf (fun p => (cfgs p).toPCfg) (fun p => (cfgs p).toPCfg_adm) (rdats m PVok OutOk) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m PVok OutOk)
    (hdistinct := winFacts0.arr_inj)
    (O₀ := O₀) (howed₀ := fun _ => rfl) (howedN := fun _ => rfl)
    (L := L) (lv := lv) (hL := L_of_ne) (hwaits := waits m PVok OutOk)
    (G := G m PVok) (G' := G' m PVok) (u₀ := u₀)
    (hu₀ := by
      unfold u₀
      iintro Hu
      ihave H := (ownU_pair _ _) $$ Hu
      icases H with ⟨HP, HX⟩
      imod (fund_proto m PVok) $$ HX with HG
      imodintro
      isplitl [HP] <;> iassumption)
    (hglob := glob m PVok)
    (hA := fun _ _ => rfl) (hpf := fun _ k => k.elim0)
    (X := start m PVok) (Y := fun _ => iprop(emp)) (Z := fun _ => iprop(emp))
    (hX := start_intro m ρ PVok) (hin := phi0_intro m PVok OutOk) (hout := phi1_exit m PVok OutOk)
    (QY := fun _ _ => True)
    (hY := fun c s' => by
      iintro ⟨-, -, HSI⟩
      imodintro
      iframe HSI)
    (hQ := fun s h c =>
      ⟨out_read m PVok OutOk c _ ((h c).1 (5 : Fin 6)),
        in_read m PVok OutOk c (0 : Fin 6) rfl _ ((h c).1 (0 : Fin 6)),
        in_read m PVok OutOk c (1 : Fin 6) rfl _ ((h c).1 (1 : Fin 6)),
        in_read m PVok OutOk c (2 : Fin 6) rfl _ ((h c).1 (2 : Fin 6)),
        in_read m PVok OutOk c (3 : Fin 6) rfl _ ((h c).1 (3 : Fin 6)),
        in_read m PVok OutOk c (4 : Fin 6) rfl _ ((h c).1 (4 : Fin 6))⟩)

end Cert.KernelIdeal.Proto

end
-- ==== Proof.Cut.lean ====
import proofs.«900760_g7700000000000761_dist_attn_self_mha_htp_ss_b2_sq128_skv128_d512_hq8_dh64_v7x_i4_f32_1_alg».proof.Proof.Proto
import Idealize.ShloMosaic.Lib.Pipeline.Value
import Idealize.ShloMosaic.Rules.PointsTo

noncomputable section

namespace Cert.KernelIdeal.Proto

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (PVok : Dev nD → Fin 3 → Fin 2 → (S128x512.Idx → Elt F .bf16) → Prop)
variable (OutOk : Dev nD → (S2x128x512.Idx → Elt F .f32) → Prop)

section Slabs
variable (M : Memref sig .tc .vmem S2x128x512 .bf16)

abbrev rect0 : Rect S2x128x512 := Rect.unit (s := S2x128x512) ![0, 0, 0] S1x128x512.size inb_S2x128x512_S1x128x512_0_0_0
abbrev rect1 : Rect S2x128x512 := Rect.unit (s := S2x128x512) ![1, 0, 0] S1x128x512.size inb_S2x128x512_S1x128x512_1_0_0

theorem slab0_set : (slab0 M).view.set = rect0.set.map M.view.emb := by
  show ((M.view.slice rect0).reshape S128x512 _).set = _
  rw [View.set_reshape, View.set_slice]
theorem slab1_set : (slab1 M).view.set = rect1.set.map M.view.emb := by
  show ((M.view.slice rect1).reshape S128x512 _).set = _
  rw [View.set_reshape, View.set_slice]

theorem rect01_disjoint : Disjoint rect0.set rect1.set :=
  Rect.unit_disjoint (0 : Fin S2x128x512.rank) (.inl (by decide))

theorem rect01_union : rect0.set ∪ rect1.set = Finset.univ := by
  ext i
  simp only [Finset.mem_union, Rect.mem_set_unit, Finset.mem_univ, iff_true]
  have h0 : (i 0).val < 2 := (i 0).isLt
  have h1 : (i 1).val < 128 := (i 1).isLt
  have h2 : (i 2).val < 512 := (i 2).isLt
  rcases Nat.lt_or_ge (i 0).val 1 with h | h
  · exact .inl fun | ⟨0, _⟩ => ⟨Nat.zero_le _, h⟩ | ⟨1, _⟩ => ⟨Nat.zero_le _, h1⟩ | ⟨2, _⟩ => ⟨Nat.zero_le _, h2⟩
  · exact .inr fun | ⟨0, _⟩ => ⟨h, h0⟩ | ⟨1, _⟩ => ⟨Nat.zero_le _, h1⟩ | ⟨2, _⟩ => ⟨Nat.zero_le _, h2⟩

theorem slabs_disjoint : Disjoint (slab0 M).view.set (slab1 M).view.set := by
  rw [slab0_set, slab1_set]
  exact (Finset.disjoint_map _).mpr rect01_disjoint

theorem slabs_union : (slab0 M).view.set ∪ (slab1 M).view.set = M.view.set := by
  rw [slab0_set, slab1_set, ← Finset.map_union, rect01_union]
  rfl

end Slabs

section SplitJoin
variable (M : Memref sig .tc .vmem S2x128x512 .bf16) (c : Dev nD) (q : PosShare TreeShare)

theorem split_slabs (f : Buf (Elt F) (M.view.loc (c : Thread nD τ))) :
    (M.view.loc (c : Thread nD τ) ↦[M.view.set]{q} f : sProp 𝕄) ⊣⊢ iprop(mPts c (slab0 M) q f ∗ mPts c (slab1 M) q f) := by
  unfold mPts
  rw [← slabs_union M]
  exact pointsTo_union (slabs_disjoint M)

theorem join_slabs (f0 f1 : Buf (Elt F) (M.view.loc (c : Thread nD τ))) :
    iprop(mPts c (slab0 M) q f0 ∗ mPts c (slab1 M) q f1)
      ⊢ (iprop(∃ f, M.view.loc (c : Thread nD τ) ↦[M.view.set]{q} f) : sProp 𝕄) := by
  unfold mPts
  refine (pointsTo_join (slabs_disjoint M)).trans ?_
  rw [slabs_union M]
  iintro H
  iexists _
  iexact H

end SplitJoin

section Quarters
variable (c : Dev nD) (Ms : Memref sig .tc .vmem S128x512 .bf16)

theorem split_quarters (f : Buf (Elt F) (Ms.view.loc (c : Thread nD τ))) :
    mPts c Ms fullShare f ⊣⊢ iprop(mPts c Ms qA f ∗ mPts c Ms qB f ∗ mPts c Ms qC f ∗ mPts c Ms qD f) := by
  unfold mPts qA qB qC qD
  exact (pointsTo_share (PosShare.mem_left_op_right fullShare)).trans
    ((sep_congr (pointsTo_share (PosShare.mem_left_op_right fullShare.left)) (pointsTo_share (PosShare.mem_left_op_right fullShare.right))).trans sep_assoc)

theorem join_quarters (f : Buf (Elt F) (Ms.view.loc (c : Thread nD τ))) :
    iprop(mPts c Ms qA f ∗ mPts c Ms qB f ∗ mPts c Ms qC f ∗ mPts c Ms qD f) ⊢ mPts c Ms fullShare f :=
  (split_quarters c Ms f).2

end Quarters

section Pieces
variable (M : Memref sig .tc .vmem S2x128x512 .bf16) (c : Dev nD)

theorem load_slab0 (q : PosShare TreeShare) (f : Buf (Elt F) (M.view.loc (c : Thread nD τ)))
    {hl : M.view.LoadsAt rect0.toLoadRect} {α : Type}
    {k : (rect0.toLoadRect.shape.Idx → Elt F .bf16) → Prog (TpuEff nD τ sig (Elt F) Λ₀ .tc) α} {Q : α → sProp 𝕄} :
    mPts c (slab0 M) q f
      ⊢ iprop((mPts c (slab0 M) q f -∗ wp frame (wpE (defs₀ (F := F)) 𝒱₀ (c : Thread nD τ) none) Set.univ (k (M.view.readAt (Elt F) rect0.toLoadRect f)) Q)
          -∗ wp frame (wpE (defs₀ (F := F)) 𝒱₀ (c : Thread nD τ) none) Set.univ (.op (.load M rect0.toLoadRect hl) k) Q) := by
  unfold mPts
  exact wp_load 𝒱₀ (c : Thread nD τ) none Set.univ (m := M) (subset_of_eq (slab0_set M).symm)

theorem load_slab1 (q : PosShare TreeShare) (f : Buf (Elt F) (M.view.loc (c : Thread nD τ)))
    {hl : M.view.LoadsAt rect1.toLoadRect} {α : Type}
    {k : (rect1.toLoadRect.shape.Idx → Elt F .bf16) → Prog (TpuEff nD τ sig (Elt F) Λ₀ .tc) α} {Q : α → sProp 𝕄} :
    mPts c (slab1 M) q f
      ⊢ iprop((mPts c (slab1 M) q f -∗ wp frame (wpE (defs₀ (F := F)) 𝒱₀ (c : Thread nD τ) none) Set.univ (k (M.view.readAt (Elt F) rect1.toLoadRect f)) Q)
          -∗ wp frame (wpE (defs₀ (F := F)) 𝒱₀ (c : Thread nD τ) none) Set.univ (.op (.load M rect1.toLoadRect hl) k) Q) := by
  unfold mPts
  exact wp_load 𝒱₀ (c : Thread nD τ) none Set.univ (m := M) (subset_of_eq (slab1_set M).symm)

theorem setOn_access1 : (M.access rect1).setOn Finset.univ = (slab1 M).view.set := by
  rw [View.setOn_univ, View.set_slice, slab1_set]

theorem store_slab1 (f : Buf (Elt F) (M.view.loc (c : Thread nD τ))) {w : rect1.shape.Idx → Elt F .bf16}
    {hx : (M.access rect1).Stores Finset.univ} {hm : (Finset.univ : Finset rect1.shape.Idx) = Finset.univ ∨ ∀ a, rect1.stride a = 1} {α : Type}
    {k : PUnit → Prog (TpuEff nD τ sig (Elt F) Λ₀ .tc) α} {Q : α → sProp 𝕄} :
    mPts c (slab1 M) fullShare f
      ⊢ iprop((mPts c (slab1 M) fullShare ((M.access rect1).write (Elt F) f w Finset.univ)
            -∗ wp frame (wpE (defs₀ (F := F)) 𝒱₀ (c : Thread nD τ) none) Set.univ (k ⟨⟩) Q)
          -∗ wp frame (wpE (defs₀ (F := F)) 𝒱₀ (c : Thread nD τ) none) Set.univ (.op (.store M rect1 w Finset.univ hx hm) k) Q) := by
  unfold mPts
  exact wp_store 𝒱₀ (c : Thread nD τ) none Set.univ (m := M) (r := rect1) (Mk := Finset.univ) (subset_of_eq (setOn_access1 M))

end Pieces

theorem staged (c : Dev nD) (t : Fin cfg0.N) (Y : (w : Fin cfg0.W) → (cfg0.win w).block.Idx → Elt F (cfg0.win w).elt)
    (hY : ∀ w, (rdats m PVok OutOk 0 c).Finds w t (Y w)) :
    Y 0 = xin m c
      ∧ Y 1 = (win0_1.blk t0_0).view.read (Elt F) (m ((c : Thread nD τ).loc main_arg1))
      ∧ Y 2 = (win0_2.blk t0_0).view.read (Elt F) (m ((c : Thread nD τ).loc main_arg2))
      ∧ Y 3 = (win0_3.blk t0_0).view.read (Elt F) (m ((c : Thread nD τ).loc main_arg3))
      ∧ Y 4 = (win0_4.blk t0_0).view.read (Elt F) (m ((c : Thread nD τ).loc main_arg4)) := by
  rw [fin_N0 t] at hY
  have k {w} (hw) := ((rdats m PVok OutOk 0 c).finds_of_fetch (w := w) (t := t0_0) hw (Y w)).mp (hY w)
  exact ⟨(k (w := 0) rfl).elim fun _ h => h, (k (w := 1) rfl).elim fun _ h => h, (k (w := 2) rfl).elim fun _ h => h,
    (k (w := 3) rfl).elim fun _ h => h, (k (w := 4) rfl).elim fun _ h => h⟩

end Cert.KernelIdeal.Proto

end
-- ==== Proof.Finish.lean ====
import proofs.«900760_g7700000000000761_dist_attn_self_mha_htp_ss_b2_sq128_skv128_d512_hq8_dh64_v7x_i4_f32_1_alg».proof.Proof.Proto

noncomputable section

namespace Cert.KernelIdeal.Proto

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (PVok : Dev nD → Fin 3 → Fin 2 → (S128x512.Idx → Elt F .bf16) → Prop)
variable (OutOk : Dev nD → (S2x128x512.Idx → Elt F .f32) → Prop)

section Finish
variable (c : Dev nD)

theorem scratch_back :
    (iprop((∃ f, (Memref.whole cc0_scratch0 : Memref sig .tc .vmem _ _).view.loc (c : Thread nD τ) ↦{fullShare} f)
      ∗ (∃ f, (Memref.whole cc0_scratch1 : Memref sig .tc .vmem _ _).view.loc (c : Thread nD τ) ↦{fullShare} f)
      ∗ (∃ f, (Memref.whole cc0_scratch2 : Memref sig .tc .vmem _ _).view.loc (c : Thread nD τ) ↦{fullShare} f)
      ∗ (∃ f, (Memref.whole cc0_scratch3 : Memref sig .tc .vmem _ _).view.loc (c : Thread nD τ) ↦{fullShare} f)
      ∗ (∃ f, (Memref.whole cc0_scratch4 : Memref sig .tc .vmem _ _).view.loc (c : Thread nD τ) ↦{fullShare} f)
      ∗ (∃ f, (Memref.whole cc0_scratch5 : Memref sig .tc .vmem _ _).view.loc (c : Thread nD τ) ↦{fullShare} f)
      ∗ (∃ f, (Memref.whole cc0_scratch6 : Memref sig .tc .vmem _ _).view.loc (c : Thread nD τ) ↦{fullShare} f)
      ∗ (∃ f, (Memref.whole cc0_scratch7 : Memref sig .tc .vmem _ _).view.loc (c : Thread nD τ) ↦{fullShare} f)
      ∗ (∃ f, (Memref.whole cc0_scratch8 : Memref sig .tc .vmem _ _).view.loc (c : Thread nD τ) ↦{fullShare} f)
      ∗ (∃ f, (Memref.whole cc0_scratch9 : Memref sig .tc .vmem _ _).view.loc (c : Thread nD τ) ↦{fullShare} f)
      ∗ (∃ f, (Memref.whole cc0_scratch10 : Memref sig .tc .vmem _ _).view.loc (c : Thread nD τ) ↦{fullShare} f)
      ∗ (∃ f, (Memref.whole cc0_scratch11 : Memref sig .tc .vmem _ _).view.loc (c : Thread nD τ) ↦{fullShare} f)
      ∗ (∃ f, (Memref.whole cc0_scratch12 : Memref sig .tc .vmem _ _).view.loc (c : Thread nD τ) ↦{fullShare} f)
      ∗ (∃ f, (Memref.whole cc0_scratch13 : Memref sig .tc .vmem _ _).view.loc (c : Thread nD τ) ↦{fullShare} f)
      ∗ (∃ f, (Memref.whole cc0_scratch14 : Memref sig .tc .vmem _ _).view.loc (c : Thread nD τ) ↦{fullShare} f)) : sProp 𝕄)
      ⊢ Pipeline.scopedRest cfg0.spec c :=
  Entails.of_eq (scopedRest0_eq (Ix := Unit) (Val := Elt F) (Name := ℕ) (U := UU) (Lvl := ℕ) c).symm

theorem sems_back :
    (iprop(semVal (dCell c 0) 0 ∗ semVal (dCell c 1) 0 ∗ semVal (dCell c 2) 0 ∗ semVal (dCell c 3) 0 ∗ semVal (dCell c 4) 0 ∗ semVal (dCell c 5) 0 ∗ semVal (dCell c 6) 0 ∗ semVal (dCell c 7) 0 ∗ semVal (dCell c 8) 0 ∗ semVal (dCell c 9) 0 ∗ semVal (dCell c 10) 0 ∗ semVal (dCell c 11) 0 ∗ semVal (dCell c 12) 0 ∗ semVal (dCell c 13) 0 ∗ semVal (dCell c 14) 0 ∗ semVal (dCell c 15) 0 ∗ semVal (dCell c 16) 0 ∗ semVal (dCell c 17) 0 ∗ semVal (dCell c 18) 0 ∗ semVal (dCell c 19) 0 ∗ semVal (dCell c 20) 0 ∗ semVal (dCell c 21) 0 ∗ semVal (dCell c 22) 0 ∗ semVal (dCell c 23) 0) : sProp 𝕄)
      ⊢ Pipeline.ownSems0 osem c :=
  Entails.of_eq (Pipeline.ownSems0_eq_of_list (Ix := Unit) (Name := ℕ) (U := UU) (Lvl := ℕ) (Val := Elt F) (τ := τ) (c := c) osem
    [(0 : Fin 24), 1, 2, 3, 4, 5, 6, 7, 8, 9, 10, 11, 12, 13, 14, 15, 16, 17, 18, 19, 20, 21, 22, 23] (by decide) (by decide)).symm

end Finish

end Cert.KernelIdeal.Proto

end
-- ==== Proof.Concrete.lean ====
import proofs.«900760_g7700000000000761_dist_attn_self_mha_htp_ss_b2_sq128_skv128_d512_hq8_dh64_v7x_i4_f32_1_alg».proof.Proof.Proto
import Idealize.ShloMosaic.Lib.Pipeline.Frame

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (PVok : Dev nD → Fin 3 → Fin 2 → (S128x512.Idx → Elt F .bf16) → Prop)

theorem conc_hb0 : ∀ p : Dev nD, barPay (F := F) p 0 = iprop(mPtsE (F := F) (rgt p) (slab0 xlM) ∗ mPtsE (F := F) (rgt p) (slab1 xlM) ∗ mPtsE (F := F) (rgt p) (slab0 a2M) ∗ mPtsE (F := F) (rgt p) (slab1 a2M)) :=
  fun p => rfl

theorem conc_hb1 : ∀ p : Dev nD, barPay (F := F) p 1 = iprop(mPtsE (F := F) (lft p) (slab0 xrM) ∗ mPtsE (F := F) (lft p) (slab1 xrM) ∗ mPtsE (F := F) (lft p) (slab0 a1M) ∗ mPtsE (F := F) (lft p) (slab1 a1M)) :=
  fun p => rfl

theorem conc_hb2 : ∀ p : Dev nD, barPay (F := F) p 2 = iprop(mPtsE (F := F) (dia p) (slab0 xdM) ∗ mPtsE (F := F) (dia p) (slab1 xdM) ∗ mPtsE (F := F) (dia p) (slab0 a3M) ∗ mPtsE (F := F) (dia p) (slab1 a3M)) :=
  fun p => rfl

theorem conc_hd0 : ∀ p : Dev nD, dmaPay m PVok p 0 = mPts p (slab0 x0M) qA (X0 m p) :=
  fun p => rfl

theorem conc_hd1 : ∀ p : Dev nD, dmaPay m PVok p 1 = mPts p (slab1 x0M) qA (X0 m p) :=
  fun p => rfl

theorem conc_hd2 : ∀ p : Dev nD, dmaPay m PVok p 2 = mPts p (slab0 x0M) qB (X0 m p) :=
  fun p => rfl

theorem conc_hd3 : ∀ p : Dev nD, dmaPay m PVok p 3 = mPts p (slab1 x0M) qB (X0 m p) :=
  fun p => rfl

theorem conc_hd4 : ∀ p : Dev nD, dmaPay m PVok p 4 = mPts p (slab0 x0M) qC (X0 m p) :=
  fun p => rfl

theorem conc_hd5 : ∀ p : Dev nD, dmaPay m PVok p 5 = mPts p (slab1 x0M) qC (X0 m p) :=
  fun p => rfl

theorem conc_hd6 : ∀ p : Dev nD, dmaPay m PVok p 6 = landedX p (slab0 xrM) (X0s0 m (rgt p)) :=
  fun p => rfl

theorem conc_hd7 : ∀ p : Dev nD, dmaPay m PVok p 7 = landedX p (slab1 xrM) (X0s1 m (rgt p)) :=
  fun p => rfl

theorem conc_hd8 : ∀ p : Dev nD, dmaPay m PVok p 8 = landedX p (slab0 xlM) (X0s0 m (lft p)) :=
  fun p => rfl

theorem conc_hd9 : ∀ p : Dev nD, dmaPay m PVok p 9 = landedX p (slab1 xlM) (X0s1 m (lft p)) :=
  fun p => rfl

theorem conc_hd10 : ∀ p : Dev nD, dmaPay m PVok p 10 = landedX p (slab0 xdM) (X0s0 m (dia p)) :=
  fun p => rfl

theorem conc_hd11 : ∀ p : Dev nD, dmaPay m PVok p 11 = landedX p (slab1 xdM) (X0s1 m (dia p)) :=
  fun p => rfl

theorem conc_hd12 : ∀ p : Dev nD, dmaPay m PVok p 12 = mPtsE (F := F) p (slab0 p2M) :=
  fun p => rfl

theorem conc_hd13 : ∀ p : Dev nD, dmaPay m PVok p 13 = mPtsE (F := F) p (slab1 p2M) :=
  fun p => rfl

theorem conc_hd14 : ∀ p : Dev nD, dmaPay m PVok p 14 = mPtsE (F := F) p (slab0 p1M) :=
  fun p => rfl

theorem conc_hd15 : ∀ p : Dev nD, dmaPay m PVok p 15 = mPtsE (F := F) p (slab1 p1M) :=
  fun p => rfl

theorem conc_hd16 : ∀ p : Dev nD, dmaPay m PVok p 16 = mPtsE (F := F) p (slab0 p3M) :=
  fun p => rfl

theorem conc_hd17 : ∀ p : Dev nD, dmaPay m PVok p 17 = mPtsE (F := F) p (slab1 p3M) :=
  fun p => rfl

theorem conc_hd18 : ∀ p : Dev nD, dmaPay m PVok p 18 = landedP PVok p (slab0 a3M) (dia p) 2 0 :=
  fun p => rfl

theorem conc_hd19 : ∀ p : Dev nD, dmaPay m PVok p 19 = landedP PVok p (slab1 a3M) (dia p) 2 1 :=
  fun p => rfl

theorem conc_hd20 : ∀ p : Dev nD, dmaPay m PVok p 20 = landedP PVok p (slab0 a1M) (rgt p) 0 0 :=
  fun p => rfl

theorem conc_hd21 : ∀ p : Dev nD, dmaPay m PVok p 21 = landedP PVok p (slab1 a1M) (rgt p) 0 1 :=
  fun p => rfl

theorem conc_hd22 : ∀ p : Dev nD, dmaPay m PVok p 22 = landedP PVok p (slab0 a2M) (lft p) 1 0 :=
  fun p => rfl

theorem conc_hd23 : ∀ p : Dev nD, dmaPay m PVok p 23 = landedP PVok p (slab1 a2M) (lft p) 1 1 :=
  fun p => rfl

theorem conc_hxs0 (c : Dev nD) : X0s0 m c = (slab0 x0M).view.read (Elt F) (X0 m c) := rfl

theorem conc_hxs1 (c : Dev nD) : X0s1 m c = (slab1 x0M).view.read (Elt F) (X0 m c) := rfl

theorem zero3 : (![0, 0, 0] : Fin 3 → Nat) = fun _ => 0 :=
  funext fun a => match a with | ⟨0, _⟩ => rfl | ⟨1, _⟩ => rfl | ⟨2, _⟩ => rfl

theorem load_staged_x (y : (cc0_stg0_0 : Ref sig .tc).ty.Contents (Elt F)) :
    View.readAt (Elt F) (Memref.whole cc0_stg0_0 : Memref sig .tc .vmem S2x128x512 .f32).view
        (Rect.unit (s := S2x128x512) ![0, 0, 0] ![2, 128, 512] inb_S2x128x512_S2x128x512_0_0_0).toLoadRect
        (Memref.IsWhole.unread (Memref.isWhole_whole cc0_stg0_0) y) = y :=
  (Memref.readAt_unit_zero (Elt F) cc0_stg0_0 zero3 _ _).trans
    (Memref.IsWhole.unread_read (Memref.isWhole_whole cc0_stg0_0) y)

theorem store_x0_whole (f w : (cc0_scratch0 : Ref sig .tc).ty.Contents (Elt F)) :
    ((x0M : Memref sig .tc .vmem S2x128x512 .bf16).access
      (Rect.unit (s := S2x128x512) ![0, 0, 0] S2x128x512.size inb_S2x128x512_S2x128x512_0_0_0) : View sig .tc _ _ _).write
      (Elt F) f w Finset.univ = w :=
  Memref.write_access_unit_zero_univ (Elt F) cc0_scratch0 zero3 _ f w

theorem conc_hx0w (c : Dev nD) : ∀ f : Buf (Elt F) (x0M.view.loc (c : Thread nD τ)),
    x0M.view.writes (Elt F) f
        [⟨Rect.unit (s := S2x128x512) ![0, 0, 0] ![2, 128, 512] inb_S2x128x512_S2x128x512_0_0_0,
          k0_pay2 (View.readAt (Elt F) (Memref.whole cc0_stg0_0 : Memref sig .tc .vmem S2x128x512 .f32).view
            (Rect.unit (s := S2x128x512) ![0, 0, 0] ![2, 128, 512] inb_S2x128x512_S2x128x512_0_0_0).toLoadRect
            (Memref.IsWhole.unread (Memref.isWhole_whole cc0_stg0_0) (xin m c)))⟩] = X0 m c := by
  intro f
  rw [load_staged_x (xin m c)]
  exact store_x0_whole f _

end Cert.KernelIdeal.Proto

end
-- ==== Proof.BodyRunV.lean ====
import proofs.«900760_g7700000000000761_dist_attn_self_mha_htp_ss_b2_sq128_skv128_d512_hq8_dh64_v7x_i4_f32_1_alg».proof.Proof.Proto
import proofs.«900760_g7700000000000761_dist_attn_self_mha_htp_ss_b2_sq128_skv128_d512_hq8_dh64_v7x_i4_f32_1_alg».proof.Proof.Cut
import proofs.«900760_g7700000000000761_dist_attn_self_mha_htp_ss_b2_sq128_skv128_d512_hq8_dh64_v7x_i4_f32_1_alg».proof.Proof.Steps
import proofs.«900760_g7700000000000761_dist_attn_self_mha_htp_ss_b2_sq128_skv128_d512_hq8_dh64_v7x_i4_f32_1_alg».proof.Proof.Finish
import proofs.«900760_g7700000000000761_dist_attn_self_mha_htp_ss_b2_sq128_skv128_d512_hq8_dh64_v7x_i4_f32_1_alg».proof.Proof.Concrete

noncomputable section

namespace Cert.KernelIdeal.Proto

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (PVok : Dev nD → Fin 3 → Fin 2 → (S128x512.Idx → Elt F .bf16) → Prop)
variable (OutOk : Dev nD → (S2x128x512.Idx → Elt F .f32) → Prop)

private theorem slab0_amount (A : Memref sig .tc .vmem S2x128x512 .bf16) (k : DmaSem sig) : (slab0 A).view.amount (.dma k) = N := by
  show sig.dmaCredit _ _ _ _ _ = sig.dmaCredit _ _ _ _ _
  rfl
private theorem slab1_amount (A : Memref sig .tc .vmem S2x128x512 .bf16) (k : DmaSem sig) : (slab1 A).view.amount (.dma k) = N := by
  show sig.dmaCredit _ _ _ _ _ = sig.dmaCredit _ _ _ _ _
  rfl

private theorem landedX_intro (p : Dev nD) (src dst : Memref sig .tc .vmem S128x512 .bf16) {c : Dev nD}
    (fs : Buf (Elt F) (src.view.loc (c : Thread nD τ))) (fd : Buf (Elt F) (dst.view.loc (p : Thread nD τ)))
    (v : S128x512.Idx → Elt F .bf16) (hv : v = src.view.read (Elt F) fs) :
    mPts (F := F) p dst fullShare (dst.view.write (Elt F) fd (src.view.read (Elt F) fs) Finset.univ) ⊢ landedX p dst v := by
  unfold landedX
  iintro H
  iexists _
  isplitl; · iexact H
  ipureintro
  rw [hv]; exact View.read_write_univ _ _

private theorem inv_at (K : Dev nD × Fin 25 → ℕ) (ck : Dev nD × Fin 25) :
    (bigSep Finset.univ fun ck : Dev nD × Fin 25 => (cellInv ER (sched m PVok) (K ck) (kcell ck) : sProp 𝕄)) ⊢ cellInv ER (sched m PVok) (K ck) (kcell ck) :=
  bigSep_elim (Finset.mem_univ ck)
private theorem reached_at (ck : Dev nD × Fin 25) :
    (bigSep Finset.univ fun ck : Dev nD × Fin 25 => (reached ER (kcell ck) 0 : sProp 𝕄)) ⊢ reached ER (kcell ck) 0 :=
  bigSep_elim (Finset.mem_univ ck)
private theorem rec_inv (K : Dev nD × Fin 25 → ℕ) (ck : Dev nD × Fin 25) :
    records m PVok K ⊢ (cellInv ER (sched m PVok) (K ck) (kcell ck) : sProp 𝕄) := by
  unfold records
  iintro ⟨#HI, -⟩
  iapply (inv_at m PVok K ck); iexact HI
private theorem rec_reached (K : Dev nD × Fin 25 → ℕ) (ck : Dev nD × Fin 25) :
    records m PVok K ⊢ (reached ER (kcell ck) 0 : sProp 𝕄) := by
  unfold records
  iintro ⟨-, #HR⟩
  iapply (reached_at (F := F) ck); iexact HR

private theorem bigSep_fin2 (Φ : Fin 2 → sProp 𝕄) : bigSep Finset.univ Φ = iprop(Φ 0 ∗ Φ 1) :=
  bigSep_univ_eq_bigSepL [(0 : Fin 2), (1 : Fin 2)] (by decide) (by decide) Φ
private theorem bigSep_fin6 (Φ : Fin 6 → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ
private theorem bigSep_fin25 (Φ : Fin 25 → sProp 𝕄) : bigSep Finset.univ Φ = iprop(Φ (0 : Fin 25) ∗ Φ (1 : Fin 25) ∗ Φ (2 : Fin 25) ∗ Φ (3 : Fin 25) ∗ Φ (4 : Fin 25) ∗ Φ (5 : Fin 25) ∗ Φ (6 : Fin 25) ∗ Φ (7 : Fin 25) ∗ Φ (8 : Fin 25) ∗ Φ (9 : Fin 25) ∗ Φ (10 : Fin 25) ∗ Φ (11 : Fin 25) ∗ Φ (12 : Fin 25) ∗ Φ (13 : Fin 25) ∗ Φ (14 : Fin 25) ∗ Φ (15 : Fin 25) ∗ Φ (16 : Fin 25) ∗ Φ (17 : Fin 25) ∗ Φ (18 : Fin 25) ∗ Φ (19 : Fin 25) ∗ Φ (20 : Fin 25) ∗ Φ (21 : Fin 25) ∗ Φ (22 : Fin 25) ∗ Φ (23 : Fin 25) ∗ Φ (24 : Fin 25)) :=
  bigSep_univ_eq_bigSepL [(0 : Fin 25), (1 : Fin 25), (2 : Fin 25), (3 : Fin 25), (4 : Fin 25), (5 : Fin 25), (6 : Fin 25), (7 : Fin 25), (8 : Fin 25), (9 : Fin 25), (10 : Fin 25), (11 : Fin 25), (12 : Fin 25), (13 : Fin 25), (14 : Fin 25), (15 : Fin 25), (16 : Fin 25), (17 : Fin 25), (18 : Fin 25), (19 : Fin 25), (20 : Fin 25), (21 : Fin 25), (22 : Fin 25), (23 : Fin 25), (24 : Fin 25)] (by decide) (by decide) Φ

private theorem wp_send_slab_at (K : Dev nD × Fin 25 → ℕ) (c n n' : Dev nD) (hn : n' = n) (kS kR : Fin 24)
    {src dst : Memref sig .tc .vmem S128x512 .bf16}
    {hsc : (dst : Memref sig (Dev.tc n' : Thread nD τ).2.kind .vmem S128x512 .bf16).view.ref.isScScratch = false}
    {hsrc : src.view.WordExact} {hdst : dst.view.WordExact}
    {hsem : DmaTarget.Typed .vmem (.dma (dsem kR)) (.remote (Dev.tc n' : Thread nD τ) dst (.dma (dsem kS)) hsc)}
    {α : Type} {Q : α → sProp 𝕄} {k : PUnit → Prog (TpuEff nD τ sig (Elt F) Λ₀ .tc) α}
    (q : PosShare TreeShare) (fs : Buf (Elt F) (src.view.loc (c : Thread nD τ))) (fd : Buf (Elt F) (dst.view.loc (n : Thread nD τ)))
    (O : CellTallies nD τ sig Unit) (W : Waits sig Unit)
    (hN : dst.view.amount (.dma (dsem kR)) = N)
    (hS : mPts (F := F) c src q fs ⊢ dmaPay m PVok c kS)
    (hR : mPts (F := F) n dst fullShare (dst.view.write (Elt F) fd (src.view.read (Elt F) fs) Finset.univ) ⊢ dmaPay m PVok n kR) :
    iprop(cellInv ER (sched m PVok) (K (c, kS.succ)) (dCell c kS) ∗ cellInv ER (sched m PVok) (K (n, kR.succ)) (dCell n kR)
        ∗ mPts (F := F) c src q fs ∗ mPts (F := F) n dst fullShare fd
        ∗ owes (c : Thread nD τ) (O + tallyAt (dCell n kR) () N) W
        ∗ dutyTok ER (dCell c kS) 0 (0 : Fin 3) ∗ reached ER (dCell c kS) 0
        ∗ dutyTok ER (dCell n kR) 0 (0 : Fin 3) ∗ reached ER (dCell n kR) 0)
      ⊢ iprop(((cred (tallyAt (dCell c kS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma (dsem kS)) hsc) (.dma (dsem kR)) hsrc hdst hsem) k) Q) := by
  subst hn
  exact wp_send_slab m PVok K c n' kS kR q fs fd O W hN hS hR

private theorem credit_any (M : Memref sig .tc .vmem S128x512 .bf16) : M.view.dmaCredit = N := by
  show sig.dmaCredit _ _ _ _ _ = sig.dmaCredit _ _ _ _ _
  rfl

private theorem mPtsE_intro (p : Dev nD) (M : Memref sig .tc .vmem S128x512 .bf16) (f : Buf (Elt F) (M.view.loc (p : Thread nD τ))) :
    mPts (F := F) p M fullShare f ⊢ mPtsE (F := F) p M := by
  unfold mPtsE; iintro H; iexists f; iexact H

private theorem wp_wait_close (K : Dev nD × Fin 25 → ℕ) (c : Dev nD) (k : Fin 24)
    {sp sp' : Space} {s s' : Shape} {e e' : EltTy}
    {src : Memref sig .tc sp' s' e'} {κ' : Kind} {dst : Memref sig κ' sp s e} {hsrc : src.view.WordExact} {hdst : dst.view.WordExact}
    (hcr : dst.view.dmaCredit = N)
    {α : Type} {Q : α → sProp 𝕄} {kk : PUnit → Prog (TpuEff nD τ sig (Elt F) Λ₀ .tc) α}
    (O : CellTallies nD τ sig Unit) (W : Waits sig Unit) :
    iprop(cellInv ER (sched m PVok) (K (c, k.succ)) (dCell c k) ∗ cred (tallyAt (dCell c k) () N) ∗ owes (c : Thread nD τ) O W
        ∗ MayWait (c : Thread nD τ) (.dma (dsem k)) () O ∗ atPos ER (dCell c k) 0 ∅ 0)
      ⊢ iprop(((owes (c : Thread nD τ) O (insert (SemLoc.dma (dsem k), ()) W) ∗ semVal (dCell c k) 0 ∗ dmaPay m PVok c k)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (dsem k) src dst hsrc hdst) kk) Q) := by
  iintro ⟨#HI, Hc, HO, HM, Ha⟩ Hk
  iapply (wp_wait_d m PVok K c k hcr O W) $$ [Hc HO HM Ha]
  · iframe HI Hc HO HM Ha
  iintro ⟨HO, Ha, Hp⟩
  imod (close_d m PVok K c k) $$ [Ha] with Hz
  · iframe HI Ha
  iapply Hk
  iframe HO Hz Hp

private theorem pay_exec (c : Dev nD) (k : Fin 24) (g : GSem nD τ sig) (hg : g = dCell c k) :
    (bigSep ((sched (F := F) m PVok).duties g 0) fun d => (sched (F := F) m PVok).payload g 0 d) = dmaPay m PVok c k := by
  subst hg
  rw [duties_d, bigSep_singleton, payload_d]

private theorem pts_name_whole {sp : Space} {s : Shape} {e : EltTy} (c : Dev nD) (A : Memref sig .tc sp s e) (f : Buf (Elt F) (A.view.loc (c : Thread nD τ))) :
    (A.view.loc (c : Thread nD τ) ↦[A.view.set]{fullShare} f : sProp 𝕄) ⊢ iprop(∃ g, ⌜g = f⌝ ∗ (A.view.loc (c : Thread nD τ) ↦[A.view.set]{fullShare} g)) := by
  iintro H
  iexists f
  isplitr; · ipureintro; rfl
  iexact H

private theorem mPts_name (p : Dev nD) (M : Memref sig .tc .vmem S128x512 .bf16) (f : Buf (Elt F) (M.view.loc (p : Thread nD τ))) :
    mPts (F := F) p M fullShare f ⊢ iprop(∃ g, ⌜g = f⌝ ∗ mPts (F := F) p M fullShare g) := by
  iintro H
  iexists f
  isplitr; · ipureintro; rfl
  iexact H

private theorem store_slab1_list (M : Memref sig .tc .vmem S2x128x512 .bf16) (c : Dev nD) (f : Buf (Elt F) (M.view.loc (c : Thread nD τ)))
    (L : List (View.Piece (Elt F) S2x128x512 EltTy.bf16)) {w : rect1.shape.Idx → Elt F .bf16}
    {hx : (M.access rect1).Stores Finset.univ} {hm : Finset.univ = Finset.univ ∨ ∀ a, rect1.stride a = 1} {α : Type}
    {k : PUnit → Prog (TpuEff nD τ sig (Elt F) Λ₀ .tc) α} {Q : α → sProp 𝕄} :
    mPts (F := F) c (slab1 M) fullShare (M.view.writes (Elt F) f L) ⊢
      iprop((mPts (F := F) c (slab1 M) fullShare (M.view.writes (Elt F) f (⟨rect1, w⟩ :: L)) -∗ wp frame (wpE (defs₀ (F := F)) 𝒱₀ (c : Thread nD τ) none) Set.univ (k ⟨⟩) Q)
        -∗ wp frame (wpE (defs₀ (F := F)) 𝒱₀ (c : Thread nD τ) none) Set.univ (.op (.store M rect1 w Finset.univ hx hm) k) Q) :=
  store_slab1 M c (M.view.writes (Elt F) f L)

private theorem landedP_intro_val (p : Dev nD) (src dst : Memref sig .tc .vmem S128x512 .bf16) {c : Dev nD}
    (fs : Buf (Elt F) (src.view.loc (c : Thread nD τ))) (fd : Buf (Elt F) (dst.view.loc (p : Thread nD τ)))
    (s : Dev nD) (k : Fin 3) (b : Fin 2) (hp : PVok s k b (src.view.read (Elt F) fs)) :
    mPts (F := F) p dst fullShare (dst.view.write (Elt F) fd (src.view.read (Elt F) fs) Finset.univ) ⊢ landedP PVok p dst s k b := by
  unfold landedP
  iintro H
  iexists _
  isplitl; · iexact H
  ipureintro
  rw [View.read_write_univ]; exact hp

private theorem wp_send_slab_V (K : Dev nD × Fin 25 → ℕ) (c n n' : Dev nD) (hn : n' = n) (kS kR : Fin 24)
    {src dst : Memref sig .tc .vmem S128x512 .bf16}
    {hsc : (dst : Memref sig (Dev.tc n' : Thread nD τ).2.kind .vmem S128x512 .bf16).view.ref.isScScratch = false}
    {hsrc : src.view.WordExact} {hdst : dst.view.WordExact}
    {hsem : DmaTarget.Typed .vmem (.dma (dsem kR)) (.remote (Dev.tc n' : Thread nD τ) dst (.dma (dsem kS)) hsc)}
    {α : Type} {Q : α → sProp 𝕄} {k : PUnit → Prog (TpuEff nD τ sig (Elt F) Λ₀ .tc) α}
    (s : Dev nD) (kk : Fin 3) (b : Fin 2)
    (O : CellTallies nD τ sig Unit) (W : Waits sig Unit)
    (hN : dst.view.amount (.dma (dsem kR)) = N)
    (hS : ∀ fs, mPts (F := F) c src fullShare fs ⊢ dmaPay m PVok c kS)
    (hR : dmaPay m PVok n kR = landedP PVok n dst s kk b) :
    iprop(cellInv ER (sched m PVok) (K (c, kS.succ)) (dCell c kS) ∗ cellInv ER (sched m PVok) (K (n, kR.succ)) (dCell n kR)
        ∗ (∃ fs, mPts (F := F) c src fullShare fs ∗ ⌜PVok s kk b (src.view.read (Elt F) fs)⌝) ∗ mPtsE (F := F) n dst
        ∗ owes (c : Thread nD τ) (O + tallyAt (dCell n kR) () N) W
        ∗ dutyTok ER (dCell c kS) 0 (0 : Fin 3) ∗ reached ER (dCell c kS) 0
        ∗ dutyTok ER (dCell n kR) 0 (0 : Fin 3) ∗ reached ER (dCell n kR) 0)
      ⊢ iprop(((cred (tallyAt (dCell c kS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma (dsem kS)) hsc) (.dma (dsem kR)) hsrc hdst hsem) k) Q) := by
  unfold mPtsE
  iintro ⟨HI1, HI2, ⟨%fs, Hs, %hp⟩, ⟨%fd, Hd⟩, HO, Ht1, Hr1, Ht2, Hr2⟩
  iapply (wp_send_slab_at m PVok K c n n' hn kS kR fullShare fs fd O W hN (hS fs)
    (by rw [hR]; exact landedP_intro_val PVok n src dst fs fd s kk b hp))
  iframe HI1 HI2 Hs Hd HO Ht1 Hr1 Ht2 Hr2

private def dsems :=
  And.intro (agS_semN 0 0 rfl) <| And.intro (agR_semN 0 6 rfl) <| And.intro (rsS_semN 0 12 rfl) <| And.intro (rsR_semN 0 18 rfl) <| And.intro (agS_semN 1 1 rfl) <| And.intro (agR_semN 1 7 rfl) <| And.intro (rsS_semN 1 13 rfl) <| And.intro (rsR_semN 1 19 rfl) <| And.intro (agS_semN 2 2 rfl) <| And.intro (agR_semN 2 8 rfl) <| And.intro (rsS_semN 2 14 rfl) <| And.intro (rsR_semN 2 20 rfl) <| And.intro (agS_semN 3 3 rfl) <| And.intro (agR_semN 3 9 rfl) <| And.intro (rsS_semN 3 15 rfl) <| And.intro (rsR_semN 3 21 rfl) <| And.intro (agS_semN 4 4 rfl) <| And.intro (agR_semN 4 10 rfl) <| And.intro (rsS_semN 4 16 rfl) <| And.intro (rsR_semN 4 22 rfl) <| And.intro (agS_semN 5 5 rfl) <| And.intro (agR_semN 5 11 rfl) <| And.intro (rsS_semN 5 17 rfl) <| rsR_semN 5 23 rfl

end Cert.KernelIdeal.Proto

namespace Cert.KernelIdeal.Proto

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 8192 in
set_option maxHeartbeats 12800000 in

noncomputable def bodyRun (c : Dev nD) (A0 : Memref sig .tc .vmem S2x128x512 .f32) (hA0 : A0.IsWhole) (A1 : Memref sig .tc .vmem S512x512 .f32) (hA1 : A1.IsWhole) (A2 : Memref sig .tc .vmem S512x512 .f32) (hA2 : A2.IsWhole) (A3 : Memref sig .tc .vmem S512x512 .f32) (hA3 : A3.IsWhole) (A4 : Memref sig .tc .vmem S512x512 .f32) (hA4 : A4.IsWhole) (A5 : Memref sig .tc .vmem S2x128x512 .f32) (hA5 : A5.IsWhole) (A6 : Memref sig .tc .vmem S2x128x512 .bf16) (hA6 : A6.IsWhole) (A7 : Memref sig .tc .vmem S2x128x512 .bf16) (hA7 : A7.IsWhole) (A8 : Memref sig .tc .vmem S2x128x512 .bf16) (hA8 : A8.IsWhole) (A9 : Memref sig .tc .vmem S2x128x512 .bf16) (hA9 : A9.IsWhole) (A10 : Memref sig .tc .vmem S2x512x512 .bf16) (hA10 : A10.IsWhole) (A11 : Memref sig .tc .vmem S2x512x512 .bf16) (hA11 : A11.IsWhole) (A12 : Memref sig .tc .vmem S2x512x512 .bf16) (hA12 : A12.IsWhole) (A13 : Memref sig .tc .vmem S2x512x512 .bf16) (hA13 : A13.IsWhole) (A14 : Memref sig .tc .vmem S2x128x512 .bf16) (hA14 : A14.IsWhole) (A15 : Memref sig .tc .vmem S2x128x512 .bf16) (hA15 : A15.IsWhole) (A16 : Memref sig .tc .vmem S2x128x512 .bf16) (hA16 : A16.IsWhole) (A17 : Memref sig .tc .vmem S2x128x512 .bf16) (hA17 : A17.IsWhole) (A18 : Memref sig .tc .vmem S2x128x512 .bf16) (hA18 : A18.IsWhole) (A19 : Memref sig .tc .vmem S2x128x512 .bf16) (hA19 : A19.IsWhole) (A20 : Memref sig .tc .vmem S2x128x512 .bf16) (hA20 : A20.IsWhole)
    (y0 : Vec F S2x128x512 .f32) (y1 : Vec F S512x512 .f32) (y2 : Vec F S512x512 .f32) (y3 : Vec F S512x512 .f32) (y4 : Vec F S512x512 .f32) (y5 : Vec F S2x128x512 .f32)
    (f6 : Buf (Elt F) (A6.view.loc (c : Thread nD τ))) (f7 : Buf (Elt F) (A7.view.loc (c : Thread nD τ))) (f8 : Buf (Elt F) (A8.view.loc (c : Thread nD τ))) (f9 : Buf (Elt F) (A9.view.loc (c : Thread nD τ))) (f10 : Buf (Elt F) (A10.view.loc (c : Thread nD τ))) (f11 : Buf (Elt F) (A11.view.loc (c : Thread nD τ))) (f12 : Buf (Elt F) (A12.view.loc (c : Thread nD τ))) (f13 : Buf (Elt F) (A13.view.loc (c : Thread nD τ))) (f14 : Buf (Elt F) (A14.view.loc (c : Thread nD τ))) (f15 : Buf (Elt F) (A15.view.loc (c : Thread nD τ))) (f16 : Buf (Elt F) (A16.view.loc (c : Thread nD τ))) (f17 : Buf (Elt F) (A17.view.loc (c : Thread nD τ))) (f18 : Buf (Elt F) (A18.view.loc (c : Thread nD τ))) (f19 : Buf (Elt F) (A19.view.loc (c : Thread nD τ))) (f20 : Buf (Elt F) (A20.view.loc (c : Thread nD τ)))
    (X0A : (p : Dev nD) → Buf (Elt F) (A6.view.loc (p : Thread nD τ))) :
    { Wt : (Buf (Elt F) (A7.view.loc (c : Thread nD τ)) → Buf (Elt F) (A8.view.loc (c : Thread nD τ)) → Buf (Elt F) (A9.view.loc (c : Thread nD τ)) → List (View.Piece (Elt F) S2x128x512 EltTy.bf16)) × (Buf (Elt F) (A7.view.loc (c : Thread nD τ)) → Buf (Elt F) (A8.view.loc (c : Thread nD τ)) → Buf (Elt F) (A9.view.loc (c : Thread nD τ)) → List (View.Piece (Elt F) S2x128x512 EltTy.bf16)) × (Buf (Elt F) (A7.view.loc (c : Thread nD τ)) → Buf (Elt F) (A8.view.loc (c : Thread nD τ)) → Buf (Elt F) (A9.view.loc (c : Thread nD τ)) → List (View.Piece (Elt F) S2x128x512 EltTy.bf16)) × (Buf (Elt F) (A7.view.loc (c : Thread nD τ)) → Buf (Elt F) (A8.view.loc (c : Thread nD τ)) → Buf (Elt F) (A9.view.loc (c : Thread nD τ)) → Buf (Elt F) (A7.view.loc (c : Thread nD τ)) → Buf (Elt F) (A8.view.loc (c : Thread nD τ)) → Buf (Elt F) (A9.view.loc (c : Thread nD τ)) → List (View.Piece (Elt F) S2x128x512 EltTy.bf16)) × (Buf (Elt F) (A7.view.loc (c : Thread nD τ)) → Buf (Elt F) (A8.view.loc (c : Thread nD τ)) → Buf (Elt F) (A9.view.loc (c : Thread nD τ)) → Buf (Elt F) (A7.view.loc (c : Thread nD τ)) → Buf (Elt F) (A8.view.loc (c : Thread nD τ)) → Buf (Elt F) (A9.view.loc (c : Thread nD τ)) → List (View.Piece (Elt F) S2x128x512 EltTy.bf16)) × (Buf (Elt F) (A7.view.loc (c : Thread nD τ)) → Buf (Elt F) (A8.view.loc (c : Thread nD τ)) → Buf (Elt F) (A9.view.loc (c : Thread nD τ)) → Buf (Elt F) (A7.view.loc (c : Thread nD τ)) → Buf (Elt F) (A8.view.loc (c : Thread nD τ)) → Buf (Elt F) (A9.view.loc (c : Thread nD τ)) → List (View.Piece (Elt F) S2x128x512 EltTy.bf16)) × (Buf (Elt F) (A7.view.loc (c : Thread nD τ)) → Buf (Elt F) (A8.view.loc (c : Thread nD τ)) → Buf (Elt F) (A9.view.loc (c : Thread nD τ)) → Buf (Elt F) (A7.view.loc (c : Thread nD τ)) → Buf (Elt F) (A8.view.loc (c : Thread nD τ)) → Buf (Elt F) (A9.view.loc (c : Thread nD τ)) → Buf (Elt F) (A18.view.loc (c : Thread nD τ)) → Buf (Elt F) (A18.view.loc (c : Thread nD τ)) → Buf (Elt F) (A19.view.loc (c : Thread nD τ)) → Buf (Elt F) (A19.view.loc (c : Thread nD τ)) → Buf (Elt F) (A20.view.loc (c : Thread nD τ)) → Buf (Elt F) (A20.view.loc (c : Thread nD τ)) → List (View.Piece (Elt F) S2x128x512 EltTy.f32)) //
      ∀ (K : Dev nD × Fin 25 → ℕ) (PVok : Dev nD → Fin 3 → Fin 2 → (S128x512.Idx → Elt F .bf16) → Prop)
        (OutOk : Dev nD → (S2x128x512.Idx → Elt F .f32) → Prop)
        (hb0 : ∀ p : Dev nD, barPay (F := F) p 0 = iprop(mPtsE (F := F) (rgt p) (slab0 A7) ∗ mPtsE (F := F) (rgt p) (slab1 A7) ∗ mPtsE (F := F) (rgt p) (slab0 A19) ∗ mPtsE (F := F) (rgt p) (slab1 A19)))
        (hb1 : ∀ p : Dev nD, barPay (F := F) p 1 = iprop(mPtsE (F := F) (lft p) (slab0 A8) ∗ mPtsE (F := F) (lft p) (slab1 A8) ∗ mPtsE (F := F) (lft p) (slab0 A18) ∗ mPtsE (F := F) (lft p) (slab1 A18)))
        (hb2 : ∀ p : Dev nD, barPay (F := F) p 2 = iprop(mPtsE (F := F) (dia p) (slab0 A9) ∗ mPtsE (F := F) (dia p) (slab1 A9) ∗ mPtsE (F := F) (dia p) (slab0 A20) ∗ mPtsE (F := F) (dia p) (slab1 A20)))
        (hd0 : ∀ p : Dev nD, dmaPay m PVok p 0 = mPts p (slab0 A6) qA (X0A p)) (hd1 : ∀ p : Dev nD, dmaPay m PVok p 1 = mPts p (slab1 A6) qA (X0A p))
        (hd2 : ∀ p : Dev nD, dmaPay m PVok p 2 = mPts p (slab0 A6) qB (X0A p)) (hd3 : ∀ p : Dev nD, dmaPay m PVok p 3 = mPts p (slab1 A6) qB (X0A p))
        (hd4 : ∀ p : Dev nD, dmaPay m PVok p 4 = mPts p (slab0 A6) qC (X0A p)) (hd5 : ∀ p : Dev nD, dmaPay m PVok p 5 = mPts p (slab1 A6) qC (X0A p))
        (hd6 : ∀ p : Dev nD, dmaPay m PVok p 6 = landedX p (slab0 A8) (X0s0 m (rgt p))) (hd7 : ∀ p : Dev nD, dmaPay m PVok p 7 = landedX p (slab1 A8) (X0s1 m (rgt p)))
        (hd8 : ∀ p : Dev nD, dmaPay m PVok p 8 = landedX p (slab0 A7) (X0s0 m (lft p))) (hd9 : ∀ p : Dev nD, dmaPay m PVok p 9 = landedX p (slab1 A7) (X0s1 m (lft p)))
        (hd10 : ∀ p : Dev nD, dmaPay m PVok p 10 = landedX p (slab0 A9) (X0s0 m (dia p))) (hd11 : ∀ p : Dev nD, dmaPay m PVok p 11 = landedX p (slab1 A9) (X0s1 m (dia p)))
        (hd12 : ∀ p : Dev nD, dmaPay m PVok p 12 = mPtsE (F := F) p (slab0 A16)) (hd13 : ∀ p : Dev nD, dmaPay m PVok p 13 = mPtsE (F := F) p (slab1 A16))
        (hd14 : ∀ p : Dev nD, dmaPay m PVok p 14 = mPtsE (F := F) p (slab0 A15)) (hd15 : ∀ p : Dev nD, dmaPay m PVok p 15 = mPtsE (F := F) p (slab1 A15))
        (hd16 : ∀ p : Dev nD, dmaPay m PVok p 16 = mPtsE (F := F) p (slab0 A17)) (hd17 : ∀ p : Dev nD, dmaPay m PVok p 17 = mPtsE (F := F) p (slab1 A17))
        (hd18 : ∀ p : Dev nD, dmaPay m PVok p 18 = landedP PVok p (slab0 A20) (dia p) 2 0) (hd19 : ∀ p : Dev nD, dmaPay m PVok p 19 = landedP PVok p (slab1 A20) (dia p) 2 1)
        (hd20 : ∀ p : Dev nD, dmaPay m PVok p 20 = landedP PVok p (slab0 A18) (rgt p) 0 0) (hd21 : ∀ p : Dev nD, dmaPay m PVok p 21 = landedP PVok p (slab1 A18) (rgt p) 0 1)
        (hd22 : ∀ p : Dev nD, dmaPay m PVok p 22 = landedP PVok p (slab0 A19) (lft p) 1 0) (hd23 : ∀ p : Dev nD, dmaPay m PVok p 23 = landedP PVok p (slab1 A19) (lft p) 1 1)
        (hxs0 : X0s0 m c = (slab0 A6).view.read (Elt F) (X0A c)) (hxs1 : X0s1 m c = (slab1 A6).view.read (Elt F) (X0A c))
        (hx0w : ∀ f : Buf (Elt F) (A6.view.loc (c : Thread nD τ)), A6.view.writes (Elt F) f
            [⟨Rect.unit (s := S2x128x512) ![0, 0, 0] ![2, 128, 512] inb_S2x128x512_S2x128x512_0_0_0,
              k0_pay2 (View.readAt (Elt F) A0.view (Rect.unit (s := S2x128x512) ![0, 0, 0] ![2, 128, 512] inb_S2x128x512_S2x128x512_0_0_0).toLoadRect (hA0.unread y0))⟩] = X0A c)
        (hPV20 : ∀ (lx0 : Buf (Elt F) (A7.view.loc (c : Thread nD τ))) (rx0 : Buf (Elt F) (A8.view.loc (c : Thread nD τ))) (dx0 : Buf (Elt F) (A9.view.loc (c : Thread nD τ))),
          (slab0 A7).view.read (Elt F) lx0 = X0s0 m (lft c) → (slab0 A8).view.read (Elt F) rx0 = X0s0 m (rgt c) → (slab0 A9).view.read (Elt F) dx0 = X0s0 m (dia c) →
          ∀ L, L = Wt.1 lx0 rx0 dx0 →
          PVok c 2 0 ((slab0 A16).view.read (Elt F) (A16.view.writes (Elt F) f16 L)))
        (hPV00 : ∀ (lx0 : Buf (Elt F) (A7.view.loc (c : Thread nD τ))) (rx0 : Buf (Elt F) (A8.view.loc (c : Thread nD τ))) (dx0 : Buf (Elt F) (A9.view.loc (c : Thread nD τ))),
          (slab0 A7).view.read (Elt F) lx0 = X0s0 m (lft c) → (slab0 A8).view.read (Elt F) rx0 = X0s0 m (rgt c) → (slab0 A9).view.read (Elt F) dx0 = X0s0 m (dia c) →
          ∀ L, L = Wt.2.1 lx0 rx0 dx0 →
          PVok c 0 0 ((slab0 A15).view.read (Elt F) (A15.view.writes (Elt F) f15 L)))
        (hPV10 : ∀ (lx0 : Buf (Elt F) (A7.view.loc (c : Thread nD τ))) (rx0 : Buf (Elt F) (A8.view.loc (c : Thread nD τ))) (dx0 : Buf (Elt F) (A9.view.loc (c : Thread nD τ))),
          (slab0 A7).view.read (Elt F) lx0 = X0s0 m (lft c) → (slab0 A8).view.read (Elt F) rx0 = X0s0 m (rgt c) → (slab0 A9).view.read (Elt F) dx0 = X0s0 m (dia c) →
          ∀ L, L = Wt.2.2.1 lx0 rx0 dx0 →
          PVok c 1 0 ((slab0 A17).view.read (Elt F) (A17.view.writes (Elt F) f17 L)))
        (hPV21 : ∀ (lx0 : Buf (Elt F) (A7.view.loc (c : Thread nD τ))) (rx0 : Buf (Elt F) (A8.view.loc (c : Thread nD τ))) (dx0 : Buf (Elt F) (A9.view.loc (c : Thread nD τ))) (lx1 : Buf (Elt F) (A7.view.loc (c : Thread nD τ))) (rx1 : Buf (Elt F) (A8.view.loc (c : Thread nD τ))) (dx1 : Buf (Elt F) (A9.view.loc (c : Thread nD τ))),
          (slab0 A7).view.read (Elt F) lx0 = X0s0 m (lft c) → (slab0 A8).view.read (Elt F) rx0 = X0s0 m (rgt c) → (slab0 A9).view.read (Elt F) dx0 = X0s0 m (dia c) →
          (slab1 A7).view.read (Elt F) lx1 = X0s1 m (lft c) → (slab1 A8).view.read (Elt F) rx1 = X0s1 m (rgt c) → (slab1 A9).view.read (Elt F) dx1 = X0s1 m (dia c) →
          ∀ L, L = Wt.2.2.2.1 lx0 rx0 dx0 lx1 rx1 dx1 →
          PVok c 2 1 ((slab1 A16).view.read (Elt F) (A16.view.writes (Elt F) f16 L)))
        (hPV01 : ∀ (lx0 : Buf (Elt F) (A7.view.loc (c : Thread nD τ))) (rx0 : Buf (Elt F) (A8.view.loc (c : Thread nD τ))) (dx0 : Buf (Elt F) (A9.view.loc (c : Thread nD τ))) (lx1 : Buf (Elt F) (A7.view.loc (c : Thread nD τ))) (rx1 : Buf (Elt F) (A8.view.loc (c : Thread nD τ))) (dx1 : Buf (Elt F) (A9.view.loc (c : Thread nD τ))),
          (slab0 A7).view.read (Elt F) lx0 = X0s0 m (lft c) → (slab0 A8).view.read (Elt F) rx0 = X0s0 m (rgt c) → (slab0 A9).view.read (Elt F) dx0 = X0s0 m (dia c) →
          (slab1 A7).view.read (Elt F) lx1 = X0s1 m (lft c) → (slab1 A8).view.read (Elt F) rx1 = X0s1 m (rgt c) → (slab1 A9).view.read (Elt F) dx1 = X0s1 m (dia c) →
          ∀ L, L = Wt.2.2.2.2.1 lx0 rx0 dx0 lx1 rx1 dx1 →
          PVok c 0 1 ((slab1 A15).view.read (Elt F) (A15.view.writes (Elt F) f15 L)))
        (hPV11 : ∀ (lx0 : Buf (Elt F) (A7.view.loc (c : Thread nD τ))) (rx0 : Buf (Elt F) (A8.view.loc (c : Thread nD τ))) (dx0 : Buf (Elt F) (A9.view.loc (c : Thread nD τ))) (lx1 : Buf (Elt F) (A7.view.loc (c : Thread nD τ))) (rx1 : Buf (Elt F) (A8.view.loc (c : Thread nD τ))) (dx1 : Buf (Elt F) (A9.view.loc (c : Thread nD τ))),
          (slab0 A7).view.read (Elt F) lx0 = X0s0 m (lft c) → (slab0 A8).view.read (Elt F) rx0 = X0s0 m (rgt c) → (slab0 A9).view.read (Elt F) dx0 = X0s0 m (dia c) →
          (slab1 A7).view.read (Elt F) lx1 = X0s1 m (lft c) → (slab1 A8).view.read (Elt F) rx1 = X0s1 m (rgt c) → (slab1 A9).view.read (Elt F) dx1 = X0s1 m (dia c) →
          ∀ L, L = Wt.2.2.2.2.2.1 lx0 rx0 dx0 lx1 rx1 dx1 →
          PVok c 1 1 ((slab1 A17).view.read (Elt F) (A17.view.writes (Elt F) f17 L)))
        (hOutV : ∀ (lx0 : Buf (Elt F) (A7.view.loc (c : Thread nD τ))) (rx0 : Buf (Elt F) (A8.view.loc (c : Thread nD τ))) (dx0 : Buf (Elt F) (A9.view.loc (c : Thread nD τ))) (lx1 : Buf (Elt F) (A7.view.loc (c : Thread nD τ))) (rx1 : Buf (Elt F) (A8.view.loc (c : Thread nD τ))) (dx1 : Buf (Elt F) (A9.view.loc (c : Thread nD τ)))
            (a10 a11 : Buf (Elt F) (A18.view.loc (c : Thread nD τ))) (a20 a21 : Buf (Elt F) (A19.view.loc (c : Thread nD τ))) (a30 a31 : Buf (Elt F) (A20.view.loc (c : Thread nD τ))),
          (slab0 A7).view.read (Elt F) lx0 = X0s0 m (lft c) → (slab0 A8).view.read (Elt F) rx0 = X0s0 m (rgt c) → (slab0 A9).view.read (Elt F) dx0 = X0s0 m (dia c) →
          (slab1 A7).view.read (Elt F) lx1 = X0s1 m (lft c) → (slab1 A8).view.read (Elt F) rx1 = X0s1 m (rgt c) → (slab1 A9).view.read (Elt F) dx1 = X0s1 m (dia c) →
          PVok (rgt c) 0 0 ((slab0 A18).view.read (Elt F) a10) → PVok (rgt c) 0 1 ((slab1 A18).view.read (Elt F) a11) →
          PVok (lft c) 1 0 ((slab0 A19).view.read (Elt F) a20) → PVok (lft c) 1 1 ((slab1 A19).view.read (Elt F) a21) →
          PVok (dia c) 2 0 ((slab0 A20).view.read (Elt F) a30) → PVok (dia c) 2 1 ((slab1 A20).view.read (Elt F) a31) →
          ∀ L, L = Wt.2.2.2.2.2.2 lx0 rx0 dx0 lx1 rx1 dx1 a10 a11 a20 a21 a30 a31 →
          OutOk c (A5.view.read (Elt F) (A5.view.writes (Elt F) (hA5.unread y5) L)))
        (W : Waits sig Unit) (Kt : PUnit → sProp 𝕄),
        iprop(records m PVok K ∗ (bigSep Finset.univ fun j : Fin 25 => atPos ER (kcell (c, j)) 0 ∅ 0) ∗ payToks (F := F) c ∗ creds (F := F) c ∗ levAts L lv
          ∗ owes (c : Thread nD τ) (O₀ c) W
          ∗ owns (c : Thread nD τ) A0 fullShare y0 ∗ owns (c : Thread nD τ) A1 fullShare y1 ∗ owns (c : Thread nD τ) A2 fullShare y2 ∗ owns (c : Thread nD τ) A3 fullShare y3 ∗ owns (c : Thread nD τ) A4 fullShare y4 ∗ owns (c : Thread nD τ) A5 fullShare y5
          ∗ (A6.view.loc (c : Thread nD τ) ↦[A6.view.set]{fullShare} f6) ∗ (A7.view.loc (c : Thread nD τ) ↦[A7.view.set]{fullShare} f7) ∗ (A8.view.loc (c : Thread nD τ) ↦[A8.view.set]{fullShare} f8) ∗ (A9.view.loc (c : Thread nD τ) ↦[A9.view.set]{fullShare} f9) ∗ (A10.view.loc (c : Thread nD τ) ↦[A10.view.set]{fullShare} f10) ∗ (A11.view.loc (c : Thread nD τ) ↦[A11.view.set]{fullShare} f11) ∗ (A12.view.loc (c : Thread nD τ) ↦[A12.view.set]{fullShare} f12) ∗ (A13.view.loc (c : Thread nD τ) ↦[A13.view.set]{fullShare} f13) ∗ (A14.view.loc (c : Thread nD τ) ↦[A14.view.set]{fullShare} f14) ∗ (A15.view.loc (c : Thread nD τ) ↦[A15.view.set]{fullShare} f15) ∗ (A16.view.loc (c : Thread nD τ) ↦[A16.view.set]{fullShare} f16) ∗ (A17.view.loc (c : Thread nD τ) ↦[A17.view.set]{fullShare} f17) ∗ (A18.view.loc (c : Thread nD τ) ↦[A18.view.set]{fullShare} f18) ∗ (A19.view.loc (c : Thread nD τ) ↦[A19.view.set]{fullShare} f19) ∗ (A20.view.loc (c : Thread nD τ) ↦[A20.view.set]{fullShare} f20)
          ∗ (iprop((semVal (dCell c 0) 0 ∗ semVal (dCell c 1) 0 ∗ semVal (dCell c 2) 0 ∗ semVal (dCell c 3) 0 ∗ semVal (dCell c 4) 0 ∗ semVal (dCell c 5) 0 ∗ semVal (dCell c 6) 0 ∗ semVal (dCell c 7) 0 ∗ semVal (dCell c 8) 0 ∗ semVal (dCell c 9) 0 ∗ semVal (dCell c 10) 0 ∗ semVal (dCell c 11) 0 ∗ semVal (dCell c 12) 0 ∗ semVal (dCell c 13) 0 ∗ semVal (dCell c 14) 0 ∗ semVal (dCell c 15) 0 ∗ semVal (dCell c 16) 0 ∗ semVal (dCell c 17) 0 ∗ semVal (dCell c 18) 0 ∗ semVal (dCell c 19) 0 ∗ semVal (dCell c 20) 0 ∗ semVal (dCell c 21) 0 ∗ semVal (dCell c 22) 0 ∗ semVal (dCell c 23) 0)
            ∗ ((∃ f, A6.view.loc (c : Thread nD τ) ↦[A6.view.set]{fullShare} f) ∗ (∃ f, A7.view.loc (c : Thread nD τ) ↦[A7.view.set]{fullShare} f) ∗ (∃ f, A8.view.loc (c : Thread nD τ) ↦[A8.view.set]{fullShare} f) ∗ (∃ f, A9.view.loc (c : Thread nD τ) ↦[A9.view.set]{fullShare} f) ∗ (∃ f, A10.view.loc (c : Thread nD τ) ↦[A10.view.set]{fullShare} f) ∗ (∃ f, A11.view.loc (c : Thread nD τ) ↦[A11.view.set]{fullShare} f) ∗ (∃ f, A12.view.loc (c : Thread nD τ) ↦[A12.view.set]{fullShare} f) ∗ (∃ f, A13.view.loc (c : Thread nD τ) ↦[A13.view.set]{fullShare} f) ∗ (∃ f, A14.view.loc (c : Thread nD τ) ↦[A14.view.set]{fullShare} f) ∗ (∃ f, A15.view.loc (c : Thread nD τ) ↦[A15.view.set]{fullShare} f) ∗ (∃ f, A16.view.loc (c : Thread nD τ) ↦[A16.view.set]{fullShare} f) ∗ (∃ f, A17.view.loc (c : Thread nD τ) ↦[A17.view.set]{fullShare} f) ∗ (∃ f, A18.view.loc (c : Thread nD τ) ↦[A18.view.set]{fullShare} f) ∗ (∃ f, A19.view.loc (c : Thread nD τ) ↦[A19.view.set]{fullShare} f) ∗ (∃ f, A20.view.loc (c : Thread nD τ) ↦[A20.view.set]{fullShare} f))
            ∗ (∃ W', owes (c : Thread nD τ) 0 W')
            ∗ owns (c : Thread nD τ) A0 fullShare y0 ∗ owns (c : Thread nD τ) A1 fullShare y1 ∗ owns (c : Thread nD τ) A2 fullShare y2 ∗ owns (c : Thread nD τ) A3 fullShare y3 ∗ owns (c : Thread nD τ) A4 fullShare y4
            ∗ (∃ g, ⌜OutOk c (A5.view.read (Elt F) g)⌝ ∗ (A5.view.loc (c : Thread nD τ) ↦[A5.view.set]{fullShare} g))) -∗ Kt ⟨⟩))
          ⊢ wp frame (wpE (defs₀ (F := F)) 𝒱₀ c none) Set.univ (cc0_body A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 cc0_scratch15 cc0_scratch16 cc0_scratch17 cc0_scratch18) Kt  } := by
  refine ⟨⟨?_, ?_, ?_, ?_, ?_, ?_, ?_⟩, fun K PVok OutOk hb0 hb1 hb2 hd0 hd1 hd2 hd3 hd4 hd5 hd6 hd7 hd8 hd9 hd10 hd11 hd12 hd13 hd14 hd15 hd16 hd17 hd18 hd19 hd20 hd21 hd22 hd23 hxs0 hxs1 hx0w hPV20 hPV00 hPV10 hPV21 hPV01 hPV11 hOutV W Kt => ?run⟩
  case run =>
    simp only [cc0_body_eq_skeleton]; unfold cc0_body_skel
    unfold owns
    iintro ⟨#Hrec, Hat, Htok, Hcr, #Hlev, HO, ⟨%g0, %hg0, Hx⟩, ⟨%g1, %hg1, Hw1⟩, ⟨%g2, %hg2, Hw2⟩, ⟨%g3, %hg3, Hw3⟩, ⟨%g4, %hg4, Hw4⟩, ⟨%g5, %hg5, Hout⟩,
      Hs0, Hs1, Hs2, Hs3, Hs4, Hs5, Hs6, Hs7, Hs8, Hs9, Hs10, Hs11, Hs12, Hs13, Hs14, Hk⟩
    obtain rfl := hA0.eq_unread hg0; obtain rfl := hA1.eq_unread hg1; obtain rfl := hA2.eq_unread hg2
    obtain rfl := hA3.eq_unread hg3; obtain rfl := hA4.eq_unread hg4; obtain rfl := hA5.eq_unread hg5
    unfold payToks creds
    simp only [bigSep_fin2, bigSep_fin6, bigSep_fin25]
    icases Htok with ⟨HtBL, HtBR, HtBD, ⟨⟨HtAL0, HtAR2, HtAD4, HtRD0, HtRL2, HtRR4⟩, ⟨HtAL1, HtAR3, HtAD5, HtRD1, HtRL3, HtRR5⟩⟩,
      ⟨HtA0, HtS0⟩, ⟨HtA1, HtS1⟩, ⟨HtA2, HtS2⟩, ⟨HtA3, HtS3⟩, ⟨HtA4, HtS4⟩, ⟨HtA5, HtS5⟩⟩
    icases Hcr with ⟨HcB, ⟨HcA0, HcR0⟩, ⟨HcA1, HcR1⟩, ⟨HcA2, HcR2⟩, ⟨HcA3, HcR3⟩, ⟨HcA4, HcR4⟩, ⟨HcA5, HcR5⟩⟩
    icases Hat with ⟨HaB, Ha0, Ha1, Ha2, Ha3, Ha4, Ha5, Ha6, Ha7, Ha8, Ha9, Ha10, Ha11, Ha12, Ha13, Ha14, Ha15, Ha16, Ha17, Ha18, Ha19, Ha20, Ha21, Ha22, Ha23⟩
    sl_exec
    simp only [dev1_eq, dev2_eq, dev3_eq]

    ihave #HIb_lft := (rec_inv m PVok K (lft c, 0)) $$ Hrec
    ihave #Hrb_lft := (rec_reached m PVok K (lft c, 0)) $$ Hrec
    ihave Hc_xl := (split_slabs A7 c fullShare f7).1 $$ Hs1
    icases Hc_xl with ⟨Hxl0, Hxl1⟩
    ihave Hc_a2 := (split_slabs A19 c fullShare f19).1 $$ Hs13
    icases Hc_a2 with ⟨Ha20, Ha21⟩
    iapply (wp_sig m PVok K c (lft c) (0 : Fin 3) (oweRev c 14) W) $$ [HO HtBL Hxl0 Hxl1 Ha20 Ha21]
    · isplitr; · iexact HIb_lft
      isplitl [HO]; · iexact HO
      isplitl [HtBL]; · iexact HtBL
      isplitl [Hxl0 Hxl1 Ha20 Ha21]
      · rw [hb0 (lft c), rgt_lft c]; unfold mPtsE
        isplitl [Hxl0]; · iexists _; iexact Hxl0
        isplitl [Hxl1]; · iexists _; iexact Hxl1
        isplitl [Ha20]; · iexists _; iexact Ha20
        iexists _; iexact Ha21
      · iexact Hrb_lft
    iintro HO
    sl_exec

    ihave #HIb_rgt := (rec_inv m PVok K (rgt c, 0)) $$ Hrec
    ihave #Hrb_rgt := (rec_reached m PVok K (rgt c, 0)) $$ Hrec
    ihave Hc_xr := (split_slabs A8 c fullShare f8).1 $$ Hs2
    icases Hc_xr with ⟨Hxr0, Hxr1⟩
    ihave Hc_a1 := (split_slabs A18 c fullShare f18).1 $$ Hs12
    icases Hc_a1 with ⟨Ha10, Ha11⟩
    iapply (wp_sig m PVok K c (rgt c) (1 : Fin 3) (oweRev c 13) W) $$ [HO HtBR Hxr0 Hxr1 Ha10 Ha11]
    · isplitr; · iexact HIb_rgt
      isplitl [HO]; · iexact HO
      isplitl [HtBR]; · iexact HtBR
      isplitl [Hxr0 Hxr1 Ha10 Ha11]
      · rw [hb1 (rgt c), lft_rgt c]; unfold mPtsE
        isplitl [Hxr0]; · iexists _; iexact Hxr0
        isplitl [Hxr1]; · iexists _; iexact Hxr1
        isplitl [Ha10]; · iexists _; iexact Ha10
        iexists _; iexact Ha11
      · iexact Hrb_rgt
    iintro HO
    sl_exec

    ihave #HIb_dia := (rec_inv m PVok K (dia c, 0)) $$ Hrec
    ihave #Hrb_dia := (rec_reached m PVok K (dia c, 0)) $$ Hrec
    ihave Hc_xd := (split_slabs A9 c fullShare f9).1 $$ Hs3
    icases Hc_xd with ⟨Hxd0, Hxd1⟩
    ihave Hc_a3 := (split_slabs A20 c fullShare f20).1 $$ Hs14
    icases Hc_a3 with ⟨Ha30, Ha31⟩
    iapply (wp_sig m PVok K c (dia c) (2 : Fin 3) (oweRev c 12) W) $$ [HO HtBD Hxd0 Hxd1 Ha30 Ha31]
    · isplitr; · iexact HIb_dia
      isplitl [HO]; · iexact HO
      isplitl [HtBD]; · iexact HtBD
      isplitl [Hxd0 Hxd1 Ha30 Ha31]
      · rw [hb2 (dia c), dia_dia c]; unfold mPtsE
        isplitl [Hxd0]; · iexists _; iexact Hxd0
        isplitl [Hxd1]; · iexists _; iexact Hxd1
        isplitl [Ha30]; · iexists _; iexact Ha30
        iexists _; iexact Ha31
      · iexact Hrb_dia
    iintro HO
    sl_exec

    ihave #HIbC := (rec_inv m PVok K (c, 0)) $$ Hrec
    iapply (wp_barwait m PVok K c (oweRev c 12) W) $$ [HcB HO HaB]
    · isplitr; · iexact HIbC
      isplitl [HcB]; · iexact HcB
      isplitl [HO]; · iexact HO
      isplitr; · iapply (mayWait_bar12 c); iexact Hlev
      iexact HaB
    iintro ⟨HO, HaB, Hp0, Hp1, Hp2⟩
    ihave Hp0 := (Entails.of_eq (hb0 c)) $$ Hp0
    ihave Hp1 := (Entails.of_eq (hb1 c)) $$ Hp1
    ihave Hp2 := (Entails.of_eq (hb2 c)) $$ Hp2
    unfold mPtsE
    icases Hp0 with ⟨⟨%gl0, HRxl0⟩, ⟨%gl1, HRxl1⟩, ⟨%ga20, HRa20⟩, ⟨%ga21, HRa21⟩⟩
    icases Hp1 with ⟨⟨%gr0, HLxr0⟩, ⟨%gr1, HLxr1⟩, ⟨%ga10, HLa10⟩, ⟨%ga11, HLa11⟩⟩
    icases Hp2 with ⟨⟨%gd0, HDxd0⟩, ⟨%gd1, HDxd1⟩, ⟨%ga30, HDa30⟩, ⟨%ga31, HDa31⟩⟩
    sl_exec

    ihave Hs0 := (Entails.of_eq (by rw [hx0w f6] : (A6.view.loc (c : Thread nD τ) ↦[A6.view.set]{fullShare} _ : sProp 𝕄) = (A6.view.loc (c : Thread nD τ) ↦[A6.view.set]{fullShare} X0A c))) $$ Hs0
    ihave Hc_x0 := (split_slabs A6 c fullShare (X0A c)).1 $$ Hs0
    icases Hc_x0 with ⟨Hx00, Hx01⟩
    ihave Hq0 := (split_quarters c (slab0 A6) (X0A c)).1 $$ Hx00
    icases Hq0 with ⟨Hx0A, Hx0B, Hx0C, Hx0D⟩
    ihave Hq1 := (split_quarters c (slab1 A6) (X0A c)).1 $$ Hx01
    icases Hq1 with ⟨Hx1A, Hx1B, Hx1C, Hx1D⟩
    simp only [dsems, dev4_eq, dev5_eq, dev6_eq, dev7_eq, dev8_eq, dev9_eq, dev10_eq, dev11_eq, dev12_eq, dev13_eq, dev14_eq, dev15_eq]

    ihave #HIs0 := (rec_inv m PVok K (c, (0 : Fin 24).succ)) $$ Hrec
    ihave #HIr6lft := (rec_inv m PVok K (lft c, (6 : Fin 24).succ)) $$ Hrec
    ihave #Hrs0 := (rec_reached m PVok K (c, (0 : Fin 24).succ)) $$ Hrec
    ihave #Hrr6lft := (rec_reached m PVok K (lft c, (6 : Fin 24).succ)) $$ Hrec
    iapply (wp_send_slab_at m PVok K c (lft c) ⟨k0_dev4 c, k0_dev4_lt c⟩ (dev4_eq c) 0 6 (src := slab0 A6) (dst := slab0 A8) qA (X0A c) gr0 (oweRev c 11) (insert (SemLoc.reg barS, ()) W)
        (slab0_amount A8 _) (Entails.of_eq (hd0 c).symm)
        (by rw [hd6 (lft c), rgt_lft c]; exact landedX_intro (lft c) (slab0 A6) (slab0 A8) (X0A c) gr0 _ hxs0)) $$ [HO Hx0A HLxr0 HtA0 HtAL0]
    · isplitr; · iexact HIs0
      isplitr; · iexact HIr6lft
      isplitl [Hx0A]; · iexact Hx0A
      isplitl [HLxr0]; · iexact HLxr0
      isplitl [HO]; · iexact HO
      isplitl [HtA0]; · iexact HtA0
      isplitr; · iexact Hrs0
      isplitl [HtAL0]; · iexact HtAL0
      iexact Hrr6lft
    iintro ⟨HcS0, HO⟩

    ihave #HIs2 := (rec_inv m PVok K (c, (2 : Fin 24).succ)) $$ Hrec
    ihave #HIr8rgt := (rec_inv m PVok K (rgt c, (8 : Fin 24).succ)) $$ Hrec
    ihave #Hrs2 := (rec_reached m PVok K (c, (2 : Fin 24).succ)) $$ Hrec
    ihave #Hrr8rgt := (rec_reached m PVok K (rgt c, (8 : Fin 24).succ)) $$ Hrec
    iapply (wp_send_slab_at m PVok K c (rgt c) ⟨k0_dev5 c, k0_dev5_lt c⟩ (dev5_eq c) 2 8 (src := slab0 A6) (dst := slab0 A7) qB (X0A c) gl0 (oweRev c 10) (insert (SemLoc.reg barS, ()) W)
        (slab0_amount A7 _) (Entails.of_eq (hd2 c).symm)
        (by rw [hd8 (rgt c), lft_rgt c]; exact landedX_intro (rgt c) (slab0 A6) (slab0 A7) (X0A c) gl0 _ hxs0)) $$ [HO Hx0B HRxl0 HtA2 HtAR2]
    · isplitr; · iexact HIs2
      isplitr; · iexact HIr8rgt
      isplitl [Hx0B]; · iexact Hx0B
      isplitl [HRxl0]; · iexact HRxl0
      isplitl [HO]; · iexact HO
      isplitl [HtA2]; · iexact HtA2
      isplitr; · iexact Hrs2
      isplitl [HtAR2]; · iexact HtAR2
      iexact Hrr8rgt
    iintro ⟨HcS2, HO⟩

    ihave #HIs4 := (rec_inv m PVok K (c, (4 : Fin 24).succ)) $$ Hrec
    ihave #HIr10dia := (rec_inv m PVok K (dia c, (10 : Fin 24).succ)) $$ Hrec
    ihave #Hrs4 := (rec_reached m PVok K (c, (4 : Fin 24).succ)) $$ Hrec
    ihave #Hrr10dia := (rec_reached m PVok K (dia c, (10 : Fin 24).succ)) $$ Hrec
    iapply (wp_send_slab_at m PVok K c (dia c) ⟨k0_dev6 c, k0_dev6_lt c⟩ (dev6_eq c) 4 10 (src := slab0 A6) (dst := slab0 A9) qC (X0A c) gd0 (oweRev c 9) (insert (SemLoc.reg barS, ()) W)
        (slab0_amount A9 _) (Entails.of_eq (hd4 c).symm)
        (by rw [hd10 (dia c), dia_dia c]; exact landedX_intro (dia c) (slab0 A6) (slab0 A9) (X0A c) gd0 _ hxs0)) $$ [HO Hx0C HDxd0 HtA4 HtAD4]
    · isplitr; · iexact HIs4
      isplitr; · iexact HIr10dia
      isplitl [Hx0C]; · iexact Hx0C
      isplitl [HDxd0]; · iexact HDxd0
      isplitl [HO]; · iexact HO
      isplitl [HtA4]; · iexact HtA4
      isplitr; · iexact Hrs4
      isplitl [HtAD4]; · iexact HtAD4
      iexact Hrr10dia
    iintro ⟨HcS4, HO⟩
    simp only [Prog.bind]
    sl_exec
    simp only [dsems]

    ihave #HIs1 := (rec_inv m PVok K (c, (1 : Fin 24).succ)) $$ Hrec
    ihave #HIr7lft := (rec_inv m PVok K (lft c, (7 : Fin 24).succ)) $$ Hrec
    ihave #Hrs1 := (rec_reached m PVok K (c, (1 : Fin 24).succ)) $$ Hrec
    ihave #Hrr7lft := (rec_reached m PVok K (lft c, (7 : Fin 24).succ)) $$ Hrec
    iapply (wp_send_slab_at m PVok K c (lft c) ⟨k0_dev7 c, k0_dev7_lt c⟩ (dev7_eq c) 1 7 (src := slab1 A6) (dst := slab1 A8) qA (X0A c) gr1 (oweRev c 8) (insert (SemLoc.reg barS, ()) W)
        (slab1_amount A8 _) (Entails.of_eq (hd1 c).symm)
        (by rw [hd7 (lft c), rgt_lft c]; exact landedX_intro (lft c) (slab1 A6) (slab1 A8) (X0A c) gr1 _ hxs1)) $$ [HO Hx1A HLxr1 HtA1 HtAL1]
    · isplitr; · iexact HIs1
      isplitr; · iexact HIr7lft
      isplitl [Hx1A]; · iexact Hx1A
      isplitl [HLxr1]; · iexact HLxr1
      isplitl [HO]; · iexact HO
      isplitl [HtA1]; · iexact HtA1
      isplitr; · iexact Hrs1
      isplitl [HtAL1]; · iexact HtAL1
      iexact Hrr7lft
    iintro ⟨HcS1, HO⟩

    ihave #HIs3 := (rec_inv m PVok K (c, (3 : Fin 24).succ)) $$ Hrec
    ihave #HIr9rgt := (rec_inv m PVok K (rgt c, (9 : Fin 24).succ)) $$ Hrec
    ihave #Hrs3 := (rec_reached m PVok K (c, (3 : Fin 24).succ)) $$ Hrec
    ihave #Hrr9rgt := (rec_reached m PVok K (rgt c, (9 : Fin 24).succ)) $$ Hrec
    iapply (wp_send_slab_at m PVok K c (rgt c) ⟨k0_dev8 c, k0_dev8_lt c⟩ (dev8_eq c) 3 9 (src := slab1 A6) (dst := slab1 A7) qB (X0A c) gl1 (oweRev c 7) (insert (SemLoc.reg barS, ()) W)
        (slab1_amount A7 _) (Entails.of_eq (hd3 c).symm)
        (by rw [hd9 (rgt c), lft_rgt c]; exact landedX_intro (rgt c) (slab1 A6) (slab1 A7) (X0A c) gl1 _ hxs1)) $$ [HO Hx1B HRxl1 HtA3 HtAR3]
    · isplitr; · iexact HIs3
      isplitr; · iexact HIr9rgt
      isplitl [Hx1B]; · iexact Hx1B
      isplitl [HRxl1]; · iexact HRxl1
      isplitl [HO]; · iexact HO
      isplitl [HtA3]; · iexact HtA3
      isplitr; · iexact Hrs3
      isplitl [HtAR3]; · iexact HtAR3
      iexact Hrr9rgt
    iintro ⟨HcS3, HO⟩
    simp only [Prog.bind]
    sl_exec
    simp only [dsems]

    ihave #HIs5 := (rec_inv m PVok K (c, (5 : Fin 24).succ)) $$ Hrec
    ihave #HIr11dia := (rec_inv m PVok K (dia c, (11 : Fin 24).succ)) $$ Hrec
    ihave #Hrs5 := (rec_reached m PVok K (c, (5 : Fin 24).succ)) $$ Hrec
    ihave #Hrr11dia := (rec_reached m PVok K (dia c, (11 : Fin 24).succ)) $$ Hrec
    iapply (wp_send_slab_at m PVok K c (dia c) ⟨k0_dev9 c, k0_dev9_lt c⟩ (dev9_eq c) 5 11 (src := slab1 A6) (dst := slab1 A9) qC (X0A c) gd1 (oweRev c 6) (insert (SemLoc.reg barS, ()) W)
        (slab1_amount A9 _) (Entails.of_eq (hd5 c).symm)
        (by rw [hd11 (dia c), dia_dia c]; exact landedX_intro (dia c) (slab1 A6) (slab1 A9) (X0A c) gd1 _ hxs1)) $$ [HO Hx1C HDxd1 HtA5 HtAD5]
    · isplitr; · iexact HIs5
      isplitr; · iexact HIr11dia
      isplitl [Hx1C]; · iexact Hx1C
      isplitl [HDxd1]; · iexact HDxd1
      isplitl [HO]; · iexact HO
      isplitl [HtA5]; · iexact HtA5
      isplitr; · iexact Hrs5
      isplitl [HtAD5]; · iexact HtAD5
      iexact Hrr11dia
    iintro ⟨HcS5, HO⟩
    sl_exec
    iapply (load_slab0 A6 c qD (X0A c)) $$ Hx0D
    iintro Hx0D
    try simp only [Prog.bind]
    try sl_exec
    try simp only [dsems]
    iapply (load_slab1 A6 c qD (X0A c)) $$ Hx1D
    iintro Hx1D
    try simp only [Prog.bind]
    try sl_exec
    try simp only [dsems]

    ihave #HIw2 := (rec_inv m PVok K (c, (2 : Fin 24).succ)) $$ Hrec
    iapply (wp_wait_close m PVok K c 2 (credit_any _) (oweRev c 6) (insert (SemLoc.reg barS, ()) W)) $$ [HcS2 HO Ha2]
    · isplitr; · iexact HIw2
      isplitl [HcS2]; · iexact HcS2
      isplitl [HO]; · iexact HO
      isplitr; · iapply (mayWait_agS6 c 2); iexact Hlev
      iexact Ha2
    iintro ⟨HO, Hz2, Hp2⟩
    ihave Hx0B := (Entails.of_eq (hd2 c)) $$ Hp2
    try simp only [Prog.bind]
    try sl_exec
    try simp only [dsems]

    ihave #HIw8 := (rec_inv m PVok K (c, (8 : Fin 24).succ)) $$ Hrec
    iapply (wp_wait_close m PVok K c 8 (credit_any _) (oweRev c 6) (insert (SemLoc.dma (dsem 2), ()) (insert (SemLoc.reg barS, ()) W))) $$ [HcA2 HO Ha8]
    · isplitr; · iexact HIw8
      isplitl [HcA2]; · iexact HcA2
      isplitl [HO]; · iexact HO
      isplitr; · iapply (mayWait_agR6 c 2); iexact Hlev
      iexact Ha8
    iintro ⟨HO, Hz8, Hp8⟩
    ihave Hp8 := (Entails.of_eq (hd8 c)) $$ Hp8
    unfold landedX
    icases Hp8 with ⟨%lxl0, Hlxl0, %hlxl0⟩
    try simp only [Prog.bind]
    try sl_exec
    try simp only [dsems]
    iapply (load_slab0 A7 c fullShare lxl0) $$ Hlxl0
    iintro Hlxl0
    try simp only [Prog.bind]
    try sl_exec
    try simp only [dsems]

    ihave #HIw0 := (rec_inv m PVok K (c, (0 : Fin 24).succ)) $$ Hrec
    iapply (wp_wait_close m PVok K c 0 (credit_any _) (oweRev c 6) (insert (SemLoc.dma (dsem 8), ()) (insert (SemLoc.dma (dsem 2), ()) (insert (SemLoc.reg barS, ()) W)))) $$ [HcS0 HO Ha0]
    · isplitr; · iexact HIw0
      isplitl [HcS0]; · iexact HcS0
      isplitl [HO]; · iexact HO
      isplitr; · iapply (mayWait_agS6 c 0); iexact Hlev
      iexact Ha0
    iintro ⟨HO, Hz0, Hp0⟩
    ihave Hx0A := (Entails.of_eq (hd0 c)) $$ Hp0
    try simp only [Prog.bind]
    try sl_exec
    try simp only [dsems]

    ihave #HIw6 := (rec_inv m PVok K (c, (6 : Fin 24).succ)) $$ Hrec
    iapply (wp_wait_close m PVok K c 6 (credit_any _) (oweRev c 6) (insert (SemLoc.dma (dsem 0), ()) (insert (SemLoc.dma (dsem 8), ()) (insert (SemLoc.dma (dsem 2), ()) (insert (SemLoc.reg barS, ()) W))))) $$ [HcA0 HO Ha6]
    · isplitr; · iexact HIw6
      isplitl [HcA0]; · iexact HcA0
      isplitl [HO]; · iexact HO
      isplitr; · iapply (mayWait_agR6 c 0); iexact Hlev
      iexact Ha6
    iintro ⟨HO, Hz6, Hp6⟩
    ihave Hp6 := (Entails.of_eq (hd6 c)) $$ Hp6
    unfold landedX
    icases Hp6 with ⟨%lxr0, Hlxr0, %hlxr0⟩
    try simp only [Prog.bind]
    try sl_exec
    try simp only [dsems]
    iapply (load_slab0 A8 c fullShare lxr0) $$ Hlxr0
    iintro Hlxr0
    try simp only [Prog.bind]
    try sl_exec
    try simp only [dsems]

    ihave #HIw4 := (rec_inv m PVok K (c, (4 : Fin 24).succ)) $$ Hrec
    iapply (wp_wait_close m PVok K c 4 (credit_any _) (oweRev c 6) (insert (SemLoc.dma (dsem 6), ()) (insert (SemLoc.dma (dsem 0), ()) (insert (SemLoc.dma (dsem 8), ()) (insert (SemLoc.dma (dsem 2), ()) (insert (SemLoc.reg barS, ()) W)))))) $$ [HcS4 HO Ha4]
    · isplitr; · iexact HIw4
      isplitl [HcS4]; · iexact HcS4
      isplitl [HO]; · iexact HO
      isplitr; · iapply (mayWait_agS6 c 4); iexact Hlev
      iexact Ha4
    iintro ⟨HO, Hz4, Hp4⟩
    ihave Hx0C := (Entails.of_eq (hd4 c)) $$ Hp4
    try simp only [Prog.bind]
    try sl_exec
    try simp only [dsems]

    ihave #HIw10 := (rec_inv m PVok K (c, (10 : Fin 24).succ)) $$ Hrec
    iapply (wp_wait_close m PVok K c 10 (credit_any _) (oweRev c 6) (insert (SemLoc.dma (dsem 4), ()) (insert (SemLoc.dma (dsem 6), ()) (insert (SemLoc.dma (dsem 0), ()) (insert (SemLoc.dma (dsem 8), ()) (insert (SemLoc.dma (dsem 2), ()) (insert (SemLoc.reg barS, ()) W))))))) $$ [HcA4 HO Ha10]
    · isplitr; · iexact HIw10
      isplitl [HcA4]; · iexact HcA4
      isplitl [HO]; · iexact HO
      isplitr; · iapply (mayWait_agR6 c 4); iexact Hlev
      iexact Ha10
    iintro ⟨HO, Hz10, Hp10⟩
    ihave Hp10 := (Entails.of_eq (hd10 c)) $$ Hp10
    unfold landedX
    icases Hp10 with ⟨%lxd0, Hlxd0, %hlxd0⟩
    try simp only [Prog.bind]
    try sl_exec
    try simp only [dsems]
    iapply (load_slab0 A9 c fullShare lxd0) $$ Hlxd0
    iintro Hlxd0
    try simp only [Prog.bind]
    try sl_exec
    try simp only [dsems]
    ihave Hcutp2 := (split_slabs A16 c fullShare _).1 $$ Hs10
    icases Hcutp2 with ⟨Hp2s0, Hp2s1⟩

    ihave #HIs12 := (rec_inv m PVok K (c, (12 : Fin 24).succ)) $$ Hrec
    ihave #HIr18dia := (rec_inv m PVok K (dia c, (18 : Fin 24).succ)) $$ Hrec
    ihave #Hrs12 := (rec_reached m PVok K (c, (12 : Fin 24).succ)) $$ Hrec
    ihave #Hrr18dia := (rec_reached m PVok K (dia c, (18 : Fin 24).succ)) $$ Hrec
    ihave Hp2s0 := (mPts_name c (slab0 A16) _) $$ Hp2s0
    icases Hp2s0 with ⟨%gHp2s0, %hgHp2s0, Hp2s0⟩
    ihave HDa30 := (mPtsE_intro (dia c) (slab0 A20) ga30) $$ HDa30
    iapply (wp_send_slab_V m PVok K c (dia c) ⟨k0_dev10 c, k0_dev10_lt c⟩ (dev10_eq c) 12 18 (src := slab0 A16) (dst := slab0 A20) c 2 0 (oweRev c 5) (insert (SemLoc.dma (dsem 10), ()) (insert (SemLoc.dma (dsem 4), ()) (insert (SemLoc.dma (dsem 6), ()) (insert (SemLoc.dma (dsem 0), ()) (insert (SemLoc.dma (dsem 8), ()) (insert (SemLoc.dma (dsem 2), ()) (insert (SemLoc.reg barS, ()) W)))))))
        (slab0_amount A20 _) (fun fs => by rw [hd12 c]; exact mPtsE_intro c _ fs)
        (by rw [hd18 (dia c), dia_dia c])) $$ [HO Hp2s0 HDa30 HtS0 HtRD0]
    · isplitr; · iexact HIs12
      isplitr; · iexact HIr18dia
      isplitl [Hp2s0]
      · iexists gHp2s0
        isplitl [Hp2s0]; · iexact Hp2s0
        ipureintro; subst hgHp2s0; refine hPV20 lxl0 lxr0 lxd0 hlxl0 hlxr0 hlxd0 _ ?_; exact rfl
      isplitl [HDa30]; · iexact HDa30
      isplitl [HO]; · iexact HO
      isplitl [HtS0]; · iexact HtS0
      isplitr; · iexact Hrs12
      isplitl [HtRD0]; · iexact HtRD0
      iexact Hrr18dia
    iintro ⟨HcS12, HO⟩
    try simp only [Prog.bind]
    try sl_exec
    try simp only [dsems]
    ihave Hcutp1 := (split_slabs A15 c fullShare _).1 $$ Hs9
    icases Hcutp1 with ⟨Hp1s0, Hp1s1⟩

    ihave #HIs14 := (rec_inv m PVok K (c, (14 : Fin 24).succ)) $$ Hrec
    ihave #HIr20lft := (rec_inv m PVok K (lft c, (20 : Fin 24).succ)) $$ Hrec
    ihave #Hrs14 := (rec_reached m PVok K (c, (14 : Fin 24).succ)) $$ Hrec
    ihave #Hrr20lft := (rec_reached m PVok K (lft c, (20 : Fin 24).succ)) $$ Hrec
    ihave Hp1s0 := (mPts_name c (slab0 A15) _) $$ Hp1s0
    icases Hp1s0 with ⟨%gHp1s0, %hgHp1s0, Hp1s0⟩
    ihave HLa10 := (mPtsE_intro (lft c) (slab0 A18) ga10) $$ HLa10
    iapply (wp_send_slab_V m PVok K c (lft c) ⟨k0_dev11 c, k0_dev11_lt c⟩ (dev11_eq c) 14 20 (src := slab0 A15) (dst := slab0 A18) c 0 0 (oweRev c 4) (insert (SemLoc.dma (dsem 10), ()) (insert (SemLoc.dma (dsem 4), ()) (insert (SemLoc.dma (dsem 6), ()) (insert (SemLoc.dma (dsem 0), ()) (insert (SemLoc.dma (dsem 8), ()) (insert (SemLoc.dma (dsem 2), ()) (insert (SemLoc.reg barS, ()) W)))))))
        (slab0_amount A18 _) (fun fs => by rw [hd14 c]; exact mPtsE_intro c _ fs)
        (by rw [hd20 (lft c), rgt_lft c])) $$ [HO Hp1s0 HLa10 HtS2 HtRL2]
    · isplitr; · iexact HIs14
      isplitr; · iexact HIr20lft
      isplitl [Hp1s0]
      · iexists gHp1s0
        isplitl [Hp1s0]; · iexact Hp1s0
        ipureintro; subst hgHp1s0; refine hPV00 lxl0 lxr0 lxd0 hlxl0 hlxr0 hlxd0 _ ?_; exact rfl
      isplitl [HLa10]; · iexact HLa10
      isplitl [HO]; · iexact HO
      isplitl [HtS2]; · iexact HtS2
      isplitr; · iexact Hrs14
      isplitl [HtRL2]; · iexact HtRL2
      iexact Hrr20lft
    iintro ⟨HcS14, HO⟩
    try simp only [Prog.bind]
    try sl_exec
    try simp only [dsems]
    ihave Hcutp3 := (split_slabs A17 c fullShare _).1 $$ Hs11
    icases Hcutp3 with ⟨Hp3s0, Hp3s1⟩

    ihave #HIs16 := (rec_inv m PVok K (c, (16 : Fin 24).succ)) $$ Hrec
    ihave #HIr22rgt := (rec_inv m PVok K (rgt c, (22 : Fin 24).succ)) $$ Hrec
    ihave #Hrs16 := (rec_reached m PVok K (c, (16 : Fin 24).succ)) $$ Hrec
    ihave #Hrr22rgt := (rec_reached m PVok K (rgt c, (22 : Fin 24).succ)) $$ Hrec
    ihave Hp3s0 := (mPts_name c (slab0 A17) _) $$ Hp3s0
    icases Hp3s0 with ⟨%gHp3s0, %hgHp3s0, Hp3s0⟩
    ihave HRa20 := (mPtsE_intro (rgt c) (slab0 A19) ga20) $$ HRa20
    iapply (wp_send_slab_V m PVok K c (rgt c) ⟨k0_dev12 c, k0_dev12_lt c⟩ (dev12_eq c) 16 22 (src := slab0 A17) (dst := slab0 A19) c 1 0 (oweRev c 3) (insert (SemLoc.dma (dsem 10), ()) (insert (SemLoc.dma (dsem 4), ()) (insert (SemLoc.dma (dsem 6), ()) (insert (SemLoc.dma (dsem 0), ()) (insert (SemLoc.dma (dsem 8), ()) (insert (SemLoc.dma (dsem 2), ()) (insert (SemLoc.reg barS, ()) W)))))))
        (slab0_amount A19 _) (fun fs => by rw [hd16 c]; exact mPtsE_intro c _ fs)
        (by rw [hd22 (rgt c), lft_rgt c])) $$ [HO Hp3s0 HRa20 HtS4 HtRR4]
    · isplitr; · iexact HIs16
      isplitr; · iexact HIr22rgt
      isplitl [Hp3s0]
      · iexists gHp3s0
        isplitl [Hp3s0]; · iexact Hp3s0
        ipureintro; subst hgHp3s0; refine hPV10 lxl0 lxr0 lxd0 hlxl0 hlxr0 hlxd0 _ ?_; exact rfl
      isplitl [HRa20]; · iexact HRa20
      isplitl [HO]; · iexact HO
      isplitl [HtS4]; · iexact HtS4
      isplitr; · iexact Hrs16
      isplitl [HtRR4]; · iexact HtRR4
      iexact Hrr22rgt
    iintro ⟨HcS16, HO⟩
    try simp only [Prog.bind]
    try sl_exec
    try simp only [dsems]

    ihave #HIw3 := (rec_inv m PVok K (c, (3 : Fin 24).succ)) $$ Hrec
    iapply (wp_wait_close m PVok K c 3 (credit_any _) (oweRev c 3) (insert (SemLoc.dma (dsem 10), ()) (insert (SemLoc.dma (dsem 4), ()) (insert (SemLoc.dma (dsem 6), ()) (insert (SemLoc.dma (dsem 0), ()) (insert (SemLoc.dma (dsem 8), ()) (insert (SemLoc.dma (dsem 2), ()) (insert (SemLoc.reg barS, ()) W)))))))) $$ [HcS3 HO Ha3]
    · isplitr; · iexact HIw3
      isplitl [HcS3]; · iexact HcS3
      isplitl [HO]; · iexact HO
      isplitr; · iapply (mayWait_agS3 c 3); iexact Hlev
      iexact Ha3
    iintro ⟨HO, Hz3, Hp3⟩
    ihave Hx1B := (Entails.of_eq (hd3 c)) $$ Hp3
    try simp only [Prog.bind]
    try sl_exec
    try simp only [dsems]

    ihave #HIw9 := (rec_inv m PVok K (c, (9 : Fin 24).succ)) $$ Hrec
    iapply (wp_wait_close m PVok K c 9 (credit_any _) (oweRev c 3) (insert (SemLoc.dma (dsem 3), ()) (insert (SemLoc.dma (dsem 10), ()) (insert (SemLoc.dma (dsem 4), ()) (insert (SemLoc.dma (dsem 6), ()) (insert (SemLoc.dma (dsem 0), ()) (insert (SemLoc.dma (dsem 8), ()) (insert (SemLoc.dma (dsem 2), ()) (insert (SemLoc.reg barS, ()) W))))))))) $$ [HcA3 HO Ha9]
    · isplitr; · iexact HIw9
      isplitl [HcA3]; · iexact HcA3
      isplitl [HO]; · iexact HO
      isplitr; · iapply (mayWait_agR3 c 3); iexact Hlev
      iexact Ha9
    iintro ⟨HO, Hz9, Hp9⟩
    ihave Hp9 := (Entails.of_eq (hd9 c)) $$ Hp9
    unfold landedX
    icases Hp9 with ⟨%lxl1, Hlxl1, %hlxl1⟩
    try simp only [Prog.bind]
    try sl_exec
    try simp only [dsems]
    iapply (load_slab1 A7 c fullShare lxl1) $$ Hlxl1
    iintro Hlxl1
    try simp only [Prog.bind]
    try sl_exec
    try simp only [dsems]

    ihave #HIw1 := (rec_inv m PVok K (c, (1 : Fin 24).succ)) $$ Hrec
    iapply (wp_wait_close m PVok K c 1 (credit_any _) (oweRev c 3) (insert (SemLoc.dma (dsem 9), ()) (insert (SemLoc.dma (dsem 3), ()) (insert (SemLoc.dma (dsem 10), ()) (insert (SemLoc.dma (dsem 4), ()) (insert (SemLoc.dma (dsem 6), ()) (insert (SemLoc.dma (dsem 0), ()) (insert (SemLoc.dma (dsem 8), ()) (insert (SemLoc.dma (dsem 2), ()) (insert (SemLoc.reg barS, ()) W)))))))))) $$ [HcS1 HO Ha1]
    · isplitr; · iexact HIw1
      isplitl [HcS1]; · iexact HcS1
      isplitl [HO]; · iexact HO
      isplitr; · iapply (mayWait_agS3 c 1); iexact Hlev
      iexact Ha1
    iintro ⟨HO, Hz1, Hp1⟩
    ihave Hx1A := (Entails.of_eq (hd1 c)) $$ Hp1
    try simp only [Prog.bind]
    try sl_exec
    try simp only [dsems]

    ihave #HIw7 := (rec_inv m PVok K (c, (7 : Fin 24).succ)) $$ Hrec
    iapply (wp_wait_close m PVok K c 7 (credit_any _) (oweRev c 3) (insert (SemLoc.dma (dsem 1), ()) (insert (SemLoc.dma (dsem 9), ()) (insert (SemLoc.dma (dsem 3), ()) (insert (SemLoc.dma (dsem 10), ()) (insert (SemLoc.dma (dsem 4), ()) (insert (SemLoc.dma (dsem 6), ()) (insert (SemLoc.dma (dsem 0), ()) (insert (SemLoc.dma (dsem 8), ()) (insert (SemLoc.dma (dsem 2), ()) (insert (SemLoc.reg barS, ()) W))))))))))) $$ [HcA1 HO Ha7]
    · isplitr; · iexact HIw7
      isplitl [HcA1]; · iexact HcA1
      isplitl [HO]; · iexact HO
      isplitr; · iapply (mayWait_agR3 c 1); iexact Hlev
      iexact Ha7
    iintro ⟨HO, Hz7, Hp7⟩
    ihave Hp7 := (Entails.of_eq (hd7 c)) $$ Hp7
    unfold landedX
    icases Hp7 with ⟨%lxr1, Hlxr1, %hlxr1⟩
    try simp only [Prog.bind]
    try sl_exec
    try simp only [dsems]
    iapply (load_slab1 A8 c fullShare lxr1) $$ Hlxr1
    iintro Hlxr1
    try simp only [Prog.bind]
    try sl_exec
    try simp only [dsems]

    ihave #HIw5 := (rec_inv m PVok K (c, (5 : Fin 24).succ)) $$ Hrec
    iapply (wp_wait_close m PVok K c 5 (credit_any _) (oweRev c 3) (insert (SemLoc.dma (dsem 7), ()) (insert (SemLoc.dma (dsem 1), ()) (insert (SemLoc.dma (dsem 9), ()) (insert (SemLoc.dma (dsem 3), ()) (insert (SemLoc.dma (dsem 10), ()) (insert (SemLoc.dma (dsem 4), ()) (insert (SemLoc.dma (dsem 6), ()) (insert (SemLoc.dma (dsem 0), ()) (insert (SemLoc.dma (dsem 8), ()) (insert (SemLoc.dma (dsem 2), ()) (insert (SemLoc.reg barS, ()) W)))))))))))) $$ [HcS5 HO Ha5]
    · isplitr; · iexact HIw5
      isplitl [HcS5]; · iexact HcS5
      isplitl [HO]; · iexact HO
      isplitr; · iapply (mayWait_agS3 c 5); iexact Hlev
      iexact Ha5
    iintro ⟨HO, Hz5, Hp5⟩
    ihave Hx1C := (Entails.of_eq (hd5 c)) $$ Hp5
    try simp only [Prog.bind]
    try sl_exec
    try simp only [dsems]

    ihave #HIw11 := (rec_inv m PVok K (c, (11 : Fin 24).succ)) $$ Hrec
    iapply (wp_wait_close m PVok K c 11 (credit_any _) (oweRev c 3) (insert (SemLoc.dma (dsem 5), ()) (insert (SemLoc.dma (dsem 7), ()) (insert (SemLoc.dma (dsem 1), ()) (insert (SemLoc.dma (dsem 9), ()) (insert (SemLoc.dma (dsem 3), ()) (insert (SemLoc.dma (dsem 10), ()) (insert (SemLoc.dma (dsem 4), ()) (insert (SemLoc.dma (dsem 6), ()) (insert (SemLoc.dma (dsem 0), ()) (insert (SemLoc.dma (dsem 8), ()) (insert (SemLoc.dma (dsem 2), ()) (insert (SemLoc.reg barS, ()) W))))))))))))) $$ [HcA5 HO Ha11]
    · isplitr; · iexact HIw11
      isplitl [HcA5]; · iexact HcA5
      isplitl [HO]; · iexact HO
      isplitr; · iapply (mayWait_agR3 c 5); iexact Hlev
      iexact Ha11
    iintro ⟨HO, Hz11, Hp11⟩
    ihave Hp11 := (Entails.of_eq (hd11 c)) $$ Hp11
    unfold landedX
    icases Hp11 with ⟨%lxd1, Hlxd1, %hlxd1⟩
    try simp only [Prog.bind]
    try sl_exec
    try simp only [dsems]
    iapply (load_slab1 A9 c fullShare lxd1) $$ Hlxd1
    iintro Hlxd1
    try simp only [Prog.bind]
    try sl_exec
    try simp only [dsems]

    iapply (load_slab1 A16 c fullShare _) $$ Hp2s1
    iintro Hp2s1
    try simp only [Prog.bind]
    try sl_exec
    try simp only [dsems]
    iapply (store_slab1_list A16 c _ _) $$ Hp2s1
    iintro Hp2s1
    try simp only [Prog.bind]
    try sl_exec
    try simp only [dsems]

    ihave #HIs13 := (rec_inv m PVok K (c, (13 : Fin 24).succ)) $$ Hrec
    ihave #HIr19dia := (rec_inv m PVok K (dia c, (19 : Fin 24).succ)) $$ Hrec
    ihave #Hrs13 := (rec_reached m PVok K (c, (13 : Fin 24).succ)) $$ Hrec
    ihave #Hrr19dia := (rec_reached m PVok K (dia c, (19 : Fin 24).succ)) $$ Hrec
    ihave Hp2s1 := (mPts_name c (slab1 A16) _) $$ Hp2s1
    icases Hp2s1 with ⟨%gHp2s1, %hgHp2s1, Hp2s1⟩
    ihave HDa31 := (mPtsE_intro (dia c) (slab1 A20) ga31) $$ HDa31
    iapply (wp_send_slab_V m PVok K c (dia c) ⟨k0_dev13 c, k0_dev13_lt c⟩ (dev13_eq c) 13 19 (src := slab1 A16) (dst := slab1 A20) c 2 1 (oweRev c 2) (insert (SemLoc.dma (dsem 11), ()) (insert (SemLoc.dma (dsem 5), ()) (insert (SemLoc.dma (dsem 7), ()) (insert (SemLoc.dma (dsem 1), ()) (insert (SemLoc.dma (dsem 9), ()) (insert (SemLoc.dma (dsem 3), ()) (insert (SemLoc.dma (dsem 10), ()) (insert (SemLoc.dma (dsem 4), ()) (insert (SemLoc.dma (dsem 6), ()) (insert (SemLoc.dma (dsem 0), ()) (insert (SemLoc.dma (dsem 8), ()) (insert (SemLoc.dma (dsem 2), ()) (insert (SemLoc.reg barS, ()) W)))))))))))))
        (slab1_amount A20 _) (fun fs => by rw [hd13 c]; exact mPtsE_intro c _ fs)
        (by rw [hd19 (dia c), dia_dia c])) $$ [HO Hp2s1 HDa31 HtS1 HtRD1]
    · isplitr; · iexact HIs13
      isplitr; · iexact HIr19dia
      isplitl [Hp2s1]
      · iexists gHp2s1
        isplitl [Hp2s1]; · iexact Hp2s1
        ipureintro; subst hgHp2s1; refine hPV21 lxl0 lxr0 lxd0 lxl1 lxr1 lxd1 hlxl0 hlxr0 hlxd0 hlxl1 hlxr1 hlxd1 _ ?_; exact rfl
      isplitl [HDa31]; · iexact HDa31
      isplitl [HO]; · iexact HO
      isplitl [HtS1]; · iexact HtS1
      isplitr; · iexact Hrs13
      isplitl [HtRD1]; · iexact HtRD1
      iexact Hrr19dia
    iintro ⟨HcS13, HO⟩
    try simp only [Prog.bind]
    try sl_exec
    try simp only [dsems]

    iapply (load_slab1 A15 c fullShare _) $$ Hp1s1
    iintro Hp1s1
    try simp only [Prog.bind]
    try sl_exec
    try simp only [dsems]
    iapply (store_slab1_list A15 c _ _) $$ Hp1s1
    iintro Hp1s1
    try simp only [Prog.bind]
    try sl_exec
    try simp only [dsems]

    ihave #HIs15 := (rec_inv m PVok K (c, (15 : Fin 24).succ)) $$ Hrec
    ihave #HIr21lft := (rec_inv m PVok K (lft c, (21 : Fin 24).succ)) $$ Hrec
    ihave #Hrs15 := (rec_reached m PVok K (c, (15 : Fin 24).succ)) $$ Hrec
    ihave #Hrr21lft := (rec_reached m PVok K (lft c, (21 : Fin 24).succ)) $$ Hrec
    ihave Hp1s1 := (mPts_name c (slab1 A15) _) $$ Hp1s1
    icases Hp1s1 with ⟨%gHp1s1, %hgHp1s1, Hp1s1⟩
    ihave HLa11 := (mPtsE_intro (lft c) (slab1 A18) ga11) $$ HLa11
    iapply (wp_send_slab_V m PVok K c (lft c) ⟨k0_dev14 c, k0_dev14_lt c⟩ (dev14_eq c) 15 21 (src := slab1 A15) (dst := slab1 A18) c 0 1 (oweRev c 1) (insert (SemLoc.dma (dsem 11), ()) (insert (SemLoc.dma (dsem 5), ()) (insert (SemLoc.dma (dsem 7), ()) (insert (SemLoc.dma (dsem 1), ()) (insert (SemLoc.dma (dsem 9), ()) (insert (SemLoc.dma (dsem 3), ()) (insert (SemLoc.dma (dsem 10), ()) (insert (SemLoc.dma (dsem 4), ()) (insert (SemLoc.dma (dsem 6), ()) (insert (SemLoc.dma (dsem 0), ()) (insert (SemLoc.dma (dsem 8), ()) (insert (SemLoc.dma (dsem 2), ()) (insert (SemLoc.reg barS, ()) W)))))))))))))
        (slab1_amount A18 _) (fun fs => by rw [hd15 c]; exact mPtsE_intro c _ fs)
        (by rw [hd21 (lft c), rgt_lft c])) $$ [HO Hp1s1 HLa11 HtS3 HtRL3]
    · isplitr; · iexact HIs15
      isplitr; · iexact HIr21lft
      isplitl [Hp1s1]
      · iexists gHp1s1
        isplitl [Hp1s1]; · iexact Hp1s1
        ipureintro; subst hgHp1s1; refine hPV01 lxl0 lxr0 lxd0 lxl1 lxr1 lxd1 hlxl0 hlxr0 hlxd0 hlxl1 hlxr1 hlxd1 _ ?_; exact rfl
      isplitl [HLa11]; · iexact HLa11
      isplitl [HO]; · iexact HO
      isplitl [HtS3]; · iexact HtS3
      isplitr; · iexact Hrs15
      isplitl [HtRL3]; · iexact HtRL3
      iexact Hrr21lft
    iintro ⟨HcS15, HO⟩
    try simp only [Prog.bind]
    try sl_exec
    try simp only [dsems]

    iapply (load_slab1 A17 c fullShare _) $$ Hp3s1
    iintro Hp3s1
    try simp only [Prog.bind]
    try sl_exec
    try simp only [dsems]
    iapply (store_slab1_list A17 c _ _) $$ Hp3s1
    iintro Hp3s1
    try simp only [Prog.bind]
    try sl_exec
    try simp only [dsems]

    ihave #HIs17 := (rec_inv m PVok K (c, (17 : Fin 24).succ)) $$ Hrec
    ihave #HIr23rgt := (rec_inv m PVok K (rgt c, (23 : Fin 24).succ)) $$ Hrec
    ihave #Hrs17 := (rec_reached m PVok K (c, (17 : Fin 24).succ)) $$ Hrec
    ihave #Hrr23rgt := (rec_reached m PVok K (rgt c, (23 : Fin 24).succ)) $$ Hrec
    ihave Hp3s1 := (mPts_name c (slab1 A17) _) $$ Hp3s1
    icases Hp3s1 with ⟨%gHp3s1, %hgHp3s1, Hp3s1⟩
    ihave HRa21 := (mPtsE_intro (rgt c) (slab1 A19) ga21) $$ HRa21
    iapply (wp_send_slab_V m PVok K c (rgt c) ⟨k0_dev15 c, k0_dev15_lt c⟩ (dev15_eq c) 17 23 (src := slab1 A17) (dst := slab1 A19) c 1 1 (oweRev c 0) (insert (SemLoc.dma (dsem 11), ()) (insert (SemLoc.dma (dsem 5), ()) (insert (SemLoc.dma (dsem 7), ()) (insert (SemLoc.dma (dsem 1), ()) (insert (SemLoc.dma (dsem 9), ()) (insert (SemLoc.dma (dsem 3), ()) (insert (SemLoc.dma (dsem 10), ()) (insert (SemLoc.dma (dsem 4), ()) (insert (SemLoc.dma (dsem 6), ()) (insert (SemLoc.dma (dsem 0), ()) (insert (SemLoc.dma (dsem 8), ()) (insert (SemLoc.dma (dsem 2), ()) (insert (SemLoc.reg barS, ()) W)))))))))))))
        (slab1_amount A19 _) (fun fs => by rw [hd17 c]; exact mPtsE_intro c _ fs)
        (by rw [hd23 (rgt c), lft_rgt c])) $$ [HO Hp3s1 HRa21 HtS5 HtRR5]
    · isplitr; · iexact HIs17
      isplitr; · iexact HIr23rgt
      isplitl [Hp3s1]
      · iexists gHp3s1
        isplitl [Hp3s1]; · iexact Hp3s1
        ipureintro; subst hgHp3s1; refine hPV11 lxl0 lxr0 lxd0 lxl1 lxr1 lxd1 hlxl0 hlxr0 hlxd0 hlxl1 hlxr1 hlxd1 _ ?_; exact rfl
      isplitl [HRa21]; · iexact HRa21
      isplitl [HO]; · iexact HO
      isplitl [HtS5]; · iexact HtS5
      isplitr; · iexact Hrs17
      isplitl [HtRR5]; · iexact HtRR5
      iexact Hrr23rgt
    iintro ⟨HcS17, HO⟩
    try simp only [Prog.bind]
    try sl_exec
    try simp only [dsems]

    ihave #HIw12 := (rec_inv m PVok K (c, (12 : Fin 24).succ)) $$ Hrec
    imod (close_d m PVok K c 12) $$ [Ha12] with Hz12
    · isplitr; · iexact HIw12
      iexact Ha12
    ihave Hp12 := (Entails.of_eq (pay_exec m PVok c 12 (kcell (c, 13)) rfl)) $$ Ha12_pay1
    ihave Hp12 := (Entails.of_eq (hd12 c)) $$ Hp12
    unfold mPtsE
    icases Hp12 with ⟨%rp20, Hp2s0⟩

    ihave #HIw18 := (rec_inv m PVok K (c, (18 : Fin 24).succ)) $$ Hrec
    iapply (wp_wait_close m PVok K c 18 (credit_any _) (oweRev c 0) (insert (SemLoc.dma (dsem 12), ()) (insert (SemLoc.dma (dsem 11), ()) (insert (SemLoc.dma (dsem 5), ()) (insert (SemLoc.dma (dsem 7), ()) (insert (SemLoc.dma (dsem 1), ()) (insert (SemLoc.dma (dsem 9), ()) (insert (SemLoc.dma (dsem 3), ()) (insert (SemLoc.dma (dsem 10), ()) (insert (SemLoc.dma (dsem 4), ()) (insert (SemLoc.dma (dsem 6), ()) (insert (SemLoc.dma (dsem 0), ()) (insert (SemLoc.dma (dsem 8), ()) (insert (SemLoc.dma (dsem 2), ()) (insert (SemLoc.reg barS, ()) W))))))))))))))) $$ [HcR0 HO Ha18]
    · isplitr; · iexact HIw18
      isplitl [HcR0]; · iexact HcR0
      isplitl [HO]; · iexact HO
      isplitr; · iapply (mayWait_of_lv c (SemLoc.dma (dsem 18)) 0 (fun j hj => absurd hj (Nat.not_lt_zero j))); iexact Hlev
      iexact Ha18
    iintro ⟨HO, Hz18, Hp18⟩
    ihave Hp18 := (Entails.of_eq (hd18 c)) $$ Hp18
    unfold landedP
    icases Hp18 with ⟨%la30, Hla30, %hla30⟩
    try simp only [Prog.bind]
    try sl_exec
    try simp only [dsems]

    ihave #HIw14 := (rec_inv m PVok K (c, (14 : Fin 24).succ)) $$ Hrec
    imod (close_d m PVok K c 14) $$ [Ha14] with Hz14
    · isplitr; · iexact HIw14
      iexact Ha14
    ihave Hp14 := (Entails.of_eq (pay_exec m PVok c 14 (kcell (c, 15)) rfl)) $$ Ha14_pay1
    ihave Hp14 := (Entails.of_eq (hd14 c)) $$ Hp14
    unfold mPtsE
    icases Hp14 with ⟨%rp10, Hp1s0⟩

    ihave #HIw20 := (rec_inv m PVok K (c, (20 : Fin 24).succ)) $$ Hrec
    iapply (wp_wait_close m PVok K c 20 (credit_any _) (oweRev c 0) (insert (SemLoc.dma (dsem 14), ()) (insert (SemLoc.dma (dsem 18), ()) (insert (SemLoc.dma (dsem 12), ()) (insert (SemLoc.dma (dsem 11), ()) (insert (SemLoc.dma (dsem 5), ()) (insert (SemLoc.dma (dsem 7), ()) (insert (SemLoc.dma (dsem 1), ()) (insert (SemLoc.dma (dsem 9), ()) (insert (SemLoc.dma (dsem 3), ()) (insert (SemLoc.dma (dsem 10), ()) (insert (SemLoc.dma (dsem 4), ()) (insert (SemLoc.dma (dsem 6), ()) (insert (SemLoc.dma (dsem 0), ()) (insert (SemLoc.dma (dsem 8), ()) (insert (SemLoc.dma (dsem 2), ()) (insert (SemLoc.reg barS, ()) W))))))))))))))))) $$ [HcR2 HO Ha20]
    · isplitr; · iexact HIw20
      isplitl [HcR2]; · iexact HcR2
      isplitl [HO]; · iexact HO
      isplitr; · iapply (mayWait_of_lv c (SemLoc.dma (dsem 20)) 0 (fun j hj => absurd hj (Nat.not_lt_zero j))); iexact Hlev
      iexact Ha20
    iintro ⟨HO, Hz20, Hp20⟩
    ihave Hp20 := (Entails.of_eq (hd20 c)) $$ Hp20
    unfold landedP
    icases Hp20 with ⟨%la10, Hla10, %hla10⟩
    try simp only [Prog.bind]
    try sl_exec
    try simp only [dsems]

    ihave #HIw16 := (rec_inv m PVok K (c, (16 : Fin 24).succ)) $$ Hrec
    imod (close_d m PVok K c 16) $$ [Ha16] with Hz16
    · isplitr; · iexact HIw16
      iexact Ha16
    ihave Hp16 := (Entails.of_eq (pay_exec m PVok c 16 (kcell (c, 17)) rfl)) $$ Ha16_pay1
    ihave Hp16 := (Entails.of_eq (hd16 c)) $$ Hp16
    unfold mPtsE
    icases Hp16 with ⟨%rp30, Hp3s0⟩

    ihave #HIw22 := (rec_inv m PVok K (c, (22 : Fin 24).succ)) $$ Hrec
    iapply (wp_wait_close m PVok K c 22 (credit_any _) (oweRev c 0) (insert (SemLoc.dma (dsem 16), ()) (insert (SemLoc.dma (dsem 20), ()) (insert (SemLoc.dma (dsem 14), ()) (insert (SemLoc.dma (dsem 18), ()) (insert (SemLoc.dma (dsem 12), ()) (insert (SemLoc.dma (dsem 11), ()) (insert (SemLoc.dma (dsem 5), ()) (insert (SemLoc.dma (dsem 7), ()) (insert (SemLoc.dma (dsem 1), ()) (insert (SemLoc.dma (dsem 9), ()) (insert (SemLoc.dma (dsem 3), ()) (insert (SemLoc.dma (dsem 10), ()) (insert (SemLoc.dma (dsem 4), ()) (insert (SemLoc.dma (dsem 6), ()) (insert (SemLoc.dma (dsem 0), ()) (insert (SemLoc.dma (dsem 8), ()) (insert (SemLoc.dma (dsem 2), ()) (insert (SemLoc.reg barS, ()) W))))))))))))))))))) $$ [HcR4 HO Ha22]
    · isplitr; · iexact HIw22
      isplitl [HcR4]; · iexact HcR4
      isplitl [HO]; · iexact HO
      isplitr; · iapply (mayWait_of_lv c (SemLoc.dma (dsem 22)) 0 (fun j hj => absurd hj (Nat.not_lt_zero j))); iexact Hlev
      iexact Ha22
    iintro ⟨HO, Hz22, Hp22⟩
    ihave Hp22 := (Entails.of_eq (hd22 c)) $$ Hp22
    unfold landedP
    icases Hp22 with ⟨%la20, Hla20, %hla20⟩
    try simp only [Prog.bind]
    try sl_exec
    try simp only [dsems]
    iapply (load_slab0 A18 c fullShare la10) $$ Hla10
    iintro Hla10
    try simp only [Prog.bind]
    try sl_exec
    try simp only [dsems]
    iapply (load_slab0 A19 c fullShare la20) $$ Hla20
    iintro Hla20
    try simp only [Prog.bind]
    try sl_exec
    try simp only [dsems]
    iapply (load_slab0 A20 c fullShare la30) $$ Hla30
    iintro Hla30
    try simp only [Prog.bind]
    try sl_exec
    try simp only [dsems]

    ihave #HIw13 := (rec_inv m PVok K (c, (13 : Fin 24).succ)) $$ Hrec
    imod (close_d m PVok K c 13) $$ [Ha13] with Hz13
    · isplitr; · iexact HIw13
      iexact Ha13
    ihave Hp13 := (Entails.of_eq (pay_exec m PVok c 13 (kcell (c, 14)) rfl)) $$ Ha13_pay1
    ihave Hp13 := (Entails.of_eq (hd13 c)) $$ Hp13
    unfold mPtsE
    icases Hp13 with ⟨%rp21, Hp2s1⟩

    ihave #HIw19 := (rec_inv m PVok K (c, (19 : Fin 24).succ)) $$ Hrec
    iapply (wp_wait_close m PVok K c 19 (credit_any _) (oweRev c 0) (insert (SemLoc.dma (dsem 13), ()) (insert (SemLoc.dma (dsem 22), ()) (insert (SemLoc.dma (dsem 16), ()) (insert (SemLoc.dma (dsem 20), ()) (insert (SemLoc.dma (dsem 14), ()) (insert (SemLoc.dma (dsem 18), ()) (insert (SemLoc.dma (dsem 12), ()) (insert (SemLoc.dma (dsem 11), ()) (insert (SemLoc.dma (dsem 5), ()) (insert (SemLoc.dma (dsem 7), ()) (insert (SemLoc.dma (dsem 1), ()) (insert (SemLoc.dma (dsem 9), ()) (insert (SemLoc.dma (dsem 3), ()) (insert (SemLoc.dma (dsem 10), ()) (insert (SemLoc.dma (dsem 4), ()) (insert (SemLoc.dma (dsem 6), ()) (insert (SemLoc.dma (dsem 0), ()) (insert (SemLoc.dma (dsem 8), ()) (insert (SemLoc.dma (dsem 2), ()) (insert (SemLoc.reg barS, ()) W))))))))))))))))))))) $$ [HcR1 HO Ha19]
    · isplitr; · iexact HIw19
      isplitl [HcR1]; · iexact HcR1
      isplitl [HO]; · iexact HO
      isplitr; · iapply (mayWait_of_lv c (SemLoc.dma (dsem 19)) 0 (fun j hj => absurd hj (Nat.not_lt_zero j))); iexact Hlev
      iexact Ha19
    iintro ⟨HO, Hz19, Hp19⟩
    ihave Hp19 := (Entails.of_eq (hd19 c)) $$ Hp19
    unfold landedP
    icases Hp19 with ⟨%la31, Hla31, %hla31⟩
    try simp only [Prog.bind]
    try sl_exec
    try simp only [dsems]

    ihave #HIw15 := (rec_inv m PVok K (c, (15 : Fin 24).succ)) $$ Hrec
    imod (close_d m PVok K c 15) $$ [Ha15] with Hz15
    · isplitr; · iexact HIw15
      iexact Ha15
    ihave Hp15 := (Entails.of_eq (pay_exec m PVok c 15 (kcell (c, 16)) rfl)) $$ Ha15_pay1
    ihave Hp15 := (Entails.of_eq (hd15 c)) $$ Hp15
    unfold mPtsE
    icases Hp15 with ⟨%rp11, Hp1s1⟩

    ihave #HIw21 := (rec_inv m PVok K (c, (21 : Fin 24).succ)) $$ Hrec
    iapply (wp_wait_close m PVok K c 21 (credit_any _) (oweRev c 0) (insert (SemLoc.dma (dsem 15), ()) (insert (SemLoc.dma (dsem 19), ()) (insert (SemLoc.dma (dsem 13), ()) (insert (SemLoc.dma (dsem 22), ()) (insert (SemLoc.dma (dsem 16), ()) (insert (SemLoc.dma (dsem 20), ()) (insert (SemLoc.dma (dsem 14), ()) (insert (SemLoc.dma (dsem 18), ()) (insert (SemLoc.dma (dsem 12), ()) (insert (SemLoc.dma (dsem 11), ()) (insert (SemLoc.dma (dsem 5), ()) (insert (SemLoc.dma (dsem 7), ()) (insert (SemLoc.dma (dsem 1), ()) (insert (SemLoc.dma (dsem 9), ()) (insert (SemLoc.dma (dsem 3), ()) (insert (SemLoc.dma (dsem 10), ()) (insert (SemLoc.dma (dsem 4), ()) (insert (SemLoc.dma (dsem 6), ()) (insert (SemLoc.dma (dsem 0), ()) (insert (SemLoc.dma (dsem 8), ()) (insert (SemLoc.dma (dsem 2), ()) (insert (SemLoc.reg barS, ()) W))))))))))))))))))))))) $$ [HcR3 HO Ha21]
    · isplitr; · iexact HIw21
      isplitl [HcR3]; · iexact HcR3
      isplitl [HO]; · iexact HO
      isplitr; · iapply (mayWait_of_lv c (SemLoc.dma (dsem 21)) 0 (fun j hj => absurd hj (Nat.not_lt_zero j))); iexact Hlev
      iexact Ha21
    iintro ⟨HO, Hz21, Hp21⟩
    ihave Hp21 := (Entails.of_eq (hd21 c)) $$ Hp21
    unfold landedP
    icases Hp21 with ⟨%la11, Hla11, %hla11⟩
    try simp only [Prog.bind]
    try sl_exec
    try simp only [dsems]

    ihave #HIw17 := (rec_inv m PVok K (c, (17 : Fin 24).succ)) $$ Hrec
    imod (close_d m PVok K c 17) $$ [Ha17] with Hz17
    · isplitr; · iexact HIw17
      iexact Ha17
    ihave Hp17 := (Entails.of_eq (pay_exec m PVok c 17 (kcell (c, 18)) rfl)) $$ Ha17_pay1
    ihave Hp17 := (Entails.of_eq (hd17 c)) $$ Hp17
    unfold mPtsE
    icases Hp17 with ⟨%rp31, Hp3s1⟩

    ihave #HIw23 := (rec_inv m PVok K (c, (23 : Fin 24).succ)) $$ Hrec
    iapply (wp_wait_close m PVok K c 23 (credit_any _) (oweRev c 0) (insert (SemLoc.dma (dsem 17), ()) (insert (SemLoc.dma (dsem 21), ()) (insert (SemLoc.dma (dsem 15), ()) (insert (SemLoc.dma (dsem 19), ()) (insert (SemLoc.dma (dsem 13), ()) (insert (SemLoc.dma (dsem 22), ()) (insert (SemLoc.dma (dsem 16), ()) (insert (SemLoc.dma (dsem 20), ()) (insert (SemLoc.dma (dsem 14), ()) (insert (SemLoc.dma (dsem 18), ()) (insert (SemLoc.dma (dsem 12), ()) (insert (SemLoc.dma (dsem 11), ()) (insert (SemLoc.dma (dsem 5), ()) (insert (SemLoc.dma (dsem 7), ()) (insert (SemLoc.dma (dsem 1), ()) (insert (SemLoc.dma (dsem 9), ()) (insert (SemLoc.dma (dsem 3), ()) (insert (SemLoc.dma (dsem 10), ()) (insert (SemLoc.dma (dsem 4), ()) (insert (SemLoc.dma (dsem 6), ()) (insert (SemLoc.dma (dsem 0), ()) (insert (SemLoc.dma (dsem 8), ()) (insert (SemLoc.dma (dsem 2), ()) (insert (SemLoc.reg barS, ()) W))))))))))))))))))))))))) $$ [HcR5 HO Ha23]
    · isplitr; · iexact HIw23
      isplitl [HcR5]; · iexact HcR5
      isplitl [HO]; · iexact HO
      isplitr; · iapply (mayWait_of_lv c (SemLoc.dma (dsem 23)) 0 (fun j hj => absurd hj (Nat.not_lt_zero j))); iexact Hlev
      iexact Ha23
    iintro ⟨HO, Hz23, Hp23⟩
    ihave Hp23 := (Entails.of_eq (hd23 c)) $$ Hp23
    unfold landedP
    icases Hp23 with ⟨%la21, Hla21, %hla21⟩
    try simp only [Prog.bind]
    try sl_exec
    try simp only [dsems]
    iapply (load_slab1 A18 c fullShare la11) $$ Hla11
    iintro Hla11
    try simp only [Prog.bind]
    try sl_exec
    try simp only [dsems]
    iapply (load_slab1 A19 c fullShare la21) $$ Hla21
    iintro Hla21
    try simp only [Prog.bind]
    try sl_exec
    try simp only [dsems]
    iapply (load_slab1 A20 c fullShare la31) $$ Hla31
    iintro Hla31
    try simp only [Prog.bind]
    try sl_exec
    try simp only [dsems]

    sl_step
    ihave Hout := (pts_name_whole c A5 _) $$ Hout
    icases Hout with ⟨%gHout, %hgHout, Hout⟩
    iapply Hk
    isplitl [Hz0 Hz1 Hz2 Hz3 Hz4 Hz5 Hz6 Hz7 Hz8 Hz9 Hz10 Hz11 Hz12 Hz13 Hz14 Hz15 Hz16 Hz17 Hz18 Hz19 Hz20 Hz21 Hz22 Hz23]
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      isplitl [Hz9]; · iexact Hz9
      isplitl [Hz10]; · iexact Hz10
      isplitl [Hz11]; · iexact Hz11
      isplitl [Hz12]; · iexact Hz12
      isplitl [Hz13]; · iexact Hz13
      isplitl [Hz14]; · iexact Hz14
      isplitl [Hz15]; · iexact Hz15
      isplitl [Hz16]; · iexact Hz16
      isplitl [Hz17]; · iexact Hz17
      isplitl [Hz18]; · iexact Hz18
      isplitl [Hz19]; · iexact Hz19
      isplitl [Hz20]; · iexact Hz20
      isplitl [Hz21]; · iexact Hz21
      isplitl [Hz22]; · iexact Hz22
      iexact Hz23
    isplitl [Hx0A Hx0B Hx0C Hx0D Hx1A Hx1B Hx1C Hx1D Hlxl0 Hlxl1 Hlxr0 Hlxr1 Hlxd0 Hlxd1 Hs4 Hs5 Hs6 Hs7 Hs8 Hp1s0 Hp1s1 Hp2s0 Hp2s1 Hp3s0 Hp3s1 Hla10 Hla11 Hla20 Hla21 Hla30 Hla31]
    · isplitl [Hx0A Hx0B Hx0C Hx0D Hx1A Hx1B Hx1C Hx1D]
      · iexists (X0A c)
        iapply (split_slabs A6 c fullShare (X0A c)).2
        isplitl [Hx0A Hx0B Hx0C Hx0D]
        · iapply (join_quarters c (slab0 A6) (X0A c))
          isplitl [Hx0A]; · iexact Hx0A
          isplitl [Hx0B]; · iexact Hx0B
          isplitl [Hx0C]; · iexact Hx0C
          iexact Hx0D
        · iapply (join_quarters c (slab1 A6) (X0A c))
          isplitl [Hx1A]; · iexact Hx1A
          isplitl [Hx1B]; · iexact Hx1B
          isplitl [Hx1C]; · iexact Hx1C
          iexact Hx1D
      isplitl [Hlxl0 Hlxl1]
      · iapply (join_slabs A7 c fullShare lxl0 lxl1)
        isplitl [Hlxl0]; · iexact Hlxl0
        iexact Hlxl1
      isplitl [Hlxr0 Hlxr1]
      · iapply (join_slabs A8 c fullShare lxr0 lxr1)
        isplitl [Hlxr0]; · iexact Hlxr0
        iexact Hlxr1
      isplitl [Hlxd0 Hlxd1]
      · iapply (join_slabs A9 c fullShare lxd0 lxd1)
        isplitl [Hlxd0]; · iexact Hlxd0
        iexact Hlxd1
      isplitl [Hs4]; · iexists _; iexact Hs4
      isplitl [Hs5]; · iexists _; iexact Hs5
      isplitl [Hs6]; · iexists _; iexact Hs6
      isplitl [Hs7]; · iexists _; iexact Hs7
      isplitl [Hs8]; · iexists _; iexact Hs8
      isplitl [Hp1s0 Hp1s1]
      · iapply (join_slabs A15 c fullShare rp10 rp11)
        isplitl [Hp1s0]; · iexact Hp1s0
        iexact Hp1s1
      isplitl [Hp2s0 Hp2s1]
      · iapply (join_slabs A16 c fullShare rp20 rp21)
        isplitl [Hp2s0]; · iexact Hp2s0
        iexact Hp2s1
      isplitl [Hp3s0 Hp3s1]
      · iapply (join_slabs A17 c fullShare rp30 rp31)
        isplitl [Hp3s0]; · iexact Hp3s0
        iexact Hp3s1
      isplitl [Hla10 Hla11]
      · iapply (join_slabs A18 c fullShare la10 la11)
        isplitl [Hla10]; · iexact Hla10
        iexact Hla11
      isplitl [Hla20 Hla21]
      · iapply (join_slabs A19 c fullShare la20 la21)
        isplitl [Hla20]; · iexact Hla20
        iexact Hla21
      iapply (join_slabs A20 c fullShare la30 la31)
      isplitl [Hla30]; · iexact Hla30
      iexact Hla31
    isplitl [HO]; · iexists _; iexact HO
    isplitl [Hx]
    · iexists (hA0.unread y0); isplitr; · ipureintro; exact hg0
      iexact Hx
    isplitl [Hw1]
    · iexists (hA1.unread y1); isplitr; · ipureintro; exact hg1
      iexact Hw1
    isplitl [Hw2]
    · iexists (hA2.unread y2); isplitr; · ipureintro; exact hg2
      iexact Hw2
    isplitl [Hw3]
    · iexists (hA3.unread y3); isplitr; · ipureintro; exact hg3
      iexact Hw3
    isplitl [Hw4]
    · iexists (hA4.unread y4); isplitr; · ipureintro; exact hg4
      iexact Hw4
    iexists gHout
    isplitr
    · ipureintro; subst hgHout
      refine hOutV lxl0 lxr0 lxd0 lxl1 lxr1 lxd1 la10 la11 la20 la21 la30 la31 hlxl0 hlxr0 hlxd0 hlxl1 hlxr1 hlxd1 hla10 hla11 hla20 hla21 hla30 hla31 _ ?_; exact rfl
    iexact Hout

end Cert.KernelIdeal.Proto
end
-- ==== Proof.BodyOf.lean ====
import proofs.«900760_g7700000000000761_dist_attn_self_mha_htp_ss_b2_sq128_skv128_d512_hq8_dh64_v7x_i4_f32_1_alg».proof.Proof.BodyRunV

noncomputable section

namespace Cert.KernelIdeal.Proto

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (PVok : Dev nD → Fin 3 → Fin 2 → (S128x512.Idx → Elt F .bf16) → Prop)
variable (OutOk : Dev nD → (S2x128x512.Idx → Elt F .f32) → Prop)

private theorem pts_whole {c : Dev nD} {q : PosShare TreeShare} {b : Ref sig .tc} {f : Buf (Elt F) ((c : Thread nD τ).loc b)} :
    (((Memref.whole b : Memref sig .tc _ _ _).view.loc (c : Thread nD τ)) ↦[(Memref.whole b : Memref sig .tc _ _ _).view.set]{q} f : sProp 𝕄)
      = (((c : Thread nD τ).loc b) ↦{q} f) := by
  show ((((c : Thread nD τ).loc b)) ↦[(View.whole b : View sig .tc _ _ _).set]{q} f : sProp 𝕄) = _
  rw [View.set_whole]

/-- The body's run at the program's own buffers. -/
abbrev runAt (c : Dev nD) (Y : (w : Fin cfg0.W) → (cfg0.win w).block.Idx → Elt F (cfg0.win w).elt) :=
  fun f0 f1 f2 f3 f4 f5 f6 f7 f8 f9 f10 f11 f12 f13 f14 =>
    bodyRun m c (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Y 0) (Y 1) (Y 2) (Y 3) (Y 4) (Y 5) f0 f1 f2 f3 f4 f5 f6 f7 f8 f9 f10 f11 f12 f13 f14 (fun p => X0 m p)

set_option maxRecDepth 8192 in
set_option maxHeartbeats 1600000 in
/-- The pipeline's obligation for the body follows from any run of it at the program's own buffers. -/
theorem body_obligation_of (c : Dev nD)
    (hsb : ∀ (K : Dev nD × Fin 25 → ℕ) (Y : (w : Fin cfg0.W) → (cfg0.win w).block.Idx → Elt F (cfg0.win w).elt),
      (Y 0 = xin m c
      ∧ Y 1 = (win0_1.blk t0_0).view.read (Elt F) (m ((c : Thread nD τ).loc main_arg1))
      ∧ Y 2 = (win0_2.blk t0_0).view.read (Elt F) (m ((c : Thread nD τ).loc main_arg2))
      ∧ Y 3 = (win0_3.blk t0_0).view.read (Elt F) (m ((c : Thread nD τ).loc main_arg3))
      ∧ Y 4 = (win0_4.blk t0_0).view.read (Elt F) (m ((c : Thread nD τ).loc main_arg4))) →
      ∀ (f0 : Buf (Elt F) ((Memref.whole cc0_scratch0 : Memref sig .tc .vmem S2x128x512 .bf16).view.loc (c : Thread nD τ))) (f1 : Buf (Elt F) ((Memref.whole cc0_scratch1 : Memref sig .tc .vmem S2x128x512 .bf16).view.loc (c : Thread nD τ))) (f2 : Buf (Elt F) ((Memref.whole cc0_scratch2 : Memref sig .tc .vmem S2x128x512 .bf16).view.loc (c : Thread nD τ))) (f3 : Buf (Elt F) ((Memref.whole cc0_scratch3 : Memref sig .tc .vmem S2x128x512 .bf16).view.loc (c : Thread nD τ))) (f4 : Buf (Elt F) ((Memref.whole cc0_scratch4 : Memref sig .tc .vmem S2x512x512 .bf16).view.loc (c : Thread nD τ))) (f5 : Buf (Elt F) ((Memref.whole cc0_scratch5 : Memref sig .tc .vmem S2x512x512 .bf16).view.loc (c : Thread nD τ))) (f6 : Buf (Elt F) ((Memref.whole cc0_scratch6 : Memref sig .tc .vmem S2x512x512 .bf16).view.loc (c : Thread nD τ))) (f7 : Buf (Elt F) ((Memref.whole cc0_scratch7 : Memref sig .tc .vmem S2x512x512 .bf16).view.loc (c : Thread nD τ))) (f8 : Buf (Elt F) ((Memref.whole cc0_scratch8 : Memref sig .tc .vmem S2x128x512 .bf16).view.loc (c : Thread nD τ))) (f9 : Buf (Elt F) ((Memref.whole cc0_scratch9 : Memref sig .tc .vmem S2x128x512 .bf16).view.loc (c : Thread nD τ))) (f10 : Buf (Elt F) ((Memref.whole cc0_scratch10 : Memref sig .tc .vmem S2x128x512 .bf16).view.loc (c : Thread nD τ))) (f11 : Buf (Elt F) ((Memref.whole cc0_scratch11 : Memref sig .tc .vmem S2x128x512 .bf16).view.loc (c : Thread nD τ))) (f12 : Buf (Elt F) ((Memref.whole cc0_scratch12 : Memref sig .tc .vmem S2x128x512 .bf16).view.loc (c : Thread nD τ))) (f13 : Buf (Elt F) ((Memref.whole cc0_scratch13 : Memref sig .tc .vmem S2x128x512 .bf16).view.loc (c : Thread nD τ))) (f14 : Buf (Elt F) ((Memref.whole cc0_scratch14 : Memref sig .tc .vmem S2x128x512 .bf16).view.loc (c : Thread nD τ)))
        (W : Waits sig Unit) (Kt : PUnit → sProp 𝕄),
        iprop(records m PVok K ∗ (bigSep Finset.univ fun j : Fin 25 => atPos ER (kcell (c, j)) 0 ∅ 0) ∗ payToks (F := F) c ∗ creds (F := F) c ∗ levAts L lv
      ∗ owes (c : Thread nD τ) (O₀ c) W
      ∗ owns (c : Thread nD τ) (Memref.whole cc0_stg0_0 : Memref sig .tc .vmem S2x128x512 .f32) fullShare (Y 0) ∗ owns (c : Thread nD τ) (Memref.whole cc0_stg1_0 : Memref sig .tc .vmem S512x512 .f32) fullShare (Y 1) ∗ owns (c : Thread nD τ) (Memref.whole cc0_stg2_0 : Memref sig .tc .vmem S512x512 .f32) fullShare (Y 2) ∗ owns (c : Thread nD τ) (Memref.whole cc0_stg3_0 : Memref sig .tc .vmem S512x512 .f32) fullShare (Y 3) ∗ owns (c : Thread nD τ) (Memref.whole cc0_stg4_0 : Memref sig .tc .vmem S512x512 .f32) fullShare (Y 4) ∗ owns (c : Thread nD τ) (Memref.whole cc0_stg5_0 : Memref sig .tc .vmem S2x128x512 .f32) fullShare (Y 5)
      ∗ ((Memref.whole cc0_scratch0 : Memref sig .tc .vmem S2x128x512 .bf16).view.loc (c : Thread nD τ) ↦[(Memref.whole cc0_scratch0 : Memref sig .tc .vmem S2x128x512 .bf16).view.set]{fullShare} f0) ∗ ((Memref.whole cc0_scratch1 : Memref sig .tc .vmem S2x128x512 .bf16).view.loc (c : Thread nD τ) ↦[(Memref.whole cc0_scratch1 : Memref sig .tc .vmem S2x128x512 .bf16).view.set]{fullShare} f1) ∗ ((Memref.whole cc0_scratch2 : Memref sig .tc .vmem S2x128x512 .bf16).view.loc (c : Thread nD τ) ↦[(Memref.whole cc0_scratch2 : Memref sig .tc .vmem S2x128x512 .bf16).view.set]{fullShare} f2) ∗ ((Memref.whole cc0_scratch3 : Memref sig .tc .vmem S2x128x512 .bf16).view.loc (c : Thread nD τ) ↦[(Memref.whole cc0_scratch3 : Memref sig .tc .vmem S2x128x512 .bf16).view.set]{fullShare} f3) ∗ ((Memref.whole cc0_scratch4 : Memref sig .tc .vmem S2x512x512 .bf16).view.loc (c : Thread nD τ) ↦[(Memref.whole cc0_scratch4 : Memref sig .tc .vmem S2x512x512 .bf16).view.set]{fullShare} f4) ∗ ((Memref.whole cc0_scratch5 : Memref sig .tc .vmem S2x512x512 .bf16).view.loc (c : Thread nD τ) ↦[(Memref.whole cc0_scratch5 : Memref sig .tc .vmem S2x512x512 .bf16).view.set]{fullShare} f5) ∗ ((Memref.whole cc0_scratch6 : Memref sig .tc .vmem S2x512x512 .bf16).view.loc (c : Thread nD τ) ↦[(Memref.whole cc0_scratch6 : Memref sig .tc .vmem S2x512x512 .bf16).view.set]{fullShare} f6) ∗ ((Memref.whole cc0_scratch7 : Memref sig .tc .vmem S2x512x512 .bf16).view.loc (c : Thread nD τ) ↦[(Memref.whole cc0_scratch7 : Memref sig .tc .vmem S2x512x512 .bf16).view.set]{fullShare} f7) ∗ ((Memref.whole cc0_scratch8 : Memref sig .tc .vmem S2x128x512 .bf16).view.loc (c : Thread nD τ) ↦[(Memref.whole cc0_scratch8 : Memref sig .tc .vmem S2x128x512 .bf16).view.set]{fullShare} f8) ∗ ((Memref.whole cc0_scratch9 : Memref sig .tc .vmem S2x128x512 .bf16).view.loc (c : Thread nD τ) ↦[(Memref.whole cc0_scratch9 : Memref sig .tc .vmem S2x128x512 .bf16).view.set]{fullShare} f9) ∗ ((Memref.whole cc0_scratch10 : Memref sig .tc .vmem S2x128x512 .bf16).view.loc (c : Thread nD τ) ↦[(Memref.whole cc0_scratch10 : Memref sig .tc .vmem S2x128x512 .bf16).view.set]{fullShare} f10) ∗ ((Memref.whole cc0_scratch11 : Memref sig .tc .vmem S2x128x512 .bf16).view.loc (c : Thread nD τ) ↦[(Memref.whole cc0_scratch11 : Memref sig .tc .vmem S2x128x512 .bf16).view.set]{fullShare} f11) ∗ ((Memref.whole cc0_scratch12 : Memref sig .tc .vmem S2x128x512 .bf16).view.loc (c : Thread nD τ) ↦[(Memref.whole cc0_scratch12 : Memref sig .tc .vmem S2x128x512 .bf16).view.set]{fullShare} f12) ∗ ((Memref.whole cc0_scratch13 : Memref sig .tc .vmem S2x128x512 .bf16).view.loc (c : Thread nD τ) ↦[(Memref.whole cc0_scratch13 : Memref sig .tc .vmem S2x128x512 .bf16).view.set]{fullShare} f13) ∗ ((Memref.whole cc0_scratch14 : Memref sig .tc .vmem S2x128x512 .bf16).view.loc (c : Thread nD τ) ↦[(Memref.whole cc0_scratch14 : Memref sig .tc .vmem S2x128x512 .bf16).view.set]{fullShare} f14)
      ∗ (iprop((semVal (dCell c 0) 0 ∗ semVal (dCell c 1) 0 ∗ semVal (dCell c 2) 0 ∗ semVal (dCell c 3) 0 ∗ semVal (dCell c 4) 0 ∗ semVal (dCell c 5) 0 ∗ semVal (dCell c 6) 0 ∗ semVal (dCell c 7) 0 ∗ semVal (dCell c 8) 0 ∗ semVal (dCell c 9) 0 ∗ semVal (dCell c 10) 0 ∗ semVal (dCell c 11) 0 ∗ semVal (dCell c 12) 0 ∗ semVal (dCell c 13) 0 ∗ semVal (dCell c 14) 0 ∗ semVal (dCell c 15) 0 ∗ semVal (dCell c 16) 0 ∗ semVal (dCell c 17) 0 ∗ semVal (dCell c 18) 0 ∗ semVal (dCell c 19) 0 ∗ semVal (dCell c 20) 0 ∗ semVal (dCell c 21) 0 ∗ semVal (dCell c 22) 0 ∗ semVal (dCell c 23) 0)
      ∗ ((∃ f, (Memref.whole cc0_scratch0 : Memref sig .tc .vmem S2x128x512 .bf16).view.loc (c : Thread nD τ) ↦[(Memref.whole cc0_scratch0 : Memref sig .tc .vmem S2x128x512 .bf16).view.set]{fullShare} f) ∗ (∃ f, (Memref.whole cc0_scratch1 : Memref sig .tc .vmem S2x128x512 .bf16).view.loc (c : Thread nD τ) ↦[(Memref.whole cc0_scratch1 : Memref sig .tc .vmem S2x128x512 .bf16).view.set]{fullShare} f) ∗ (∃ f, (Memref.whole cc0_scratch2 : Memref sig .tc .vmem S2x128x512 .bf16).view.loc (c : Thread nD τ) ↦[(Memref.whole cc0_scratch2 : Memref sig .tc .vmem S2x128x512 .bf16).view.set]{fullShare} f) ∗ (∃ f, (Memref.whole cc0_scratch3 : Memref sig .tc .vmem S2x128x512 .bf16).view.loc (c : Thread nD τ) ↦[(Memref.whole cc0_scratch3 : Memref sig .tc .vmem S2x128x512 .bf16).view.set]{fullShare} f) ∗ (∃ f, (Memref.whole cc0_scratch4 : Memref sig .tc .vmem S2x512x512 .bf16).view.loc (c : Thread nD τ) ↦[(Memref.whole cc0_scratch4 : Memref sig .tc .vmem S2x512x512 .bf16).view.set]{fullShare} f) ∗ (∃ f, (Memref.whole cc0_scratch5 : Memref sig .tc .vmem S2x512x512 .bf16).view.loc (c : Thread nD τ) ↦[(Memref.whole cc0_scratch5 : Memref sig .tc .vmem S2x512x512 .bf16).view.set]{fullShare} f) ∗ (∃ f, (Memref.whole cc0_scratch6 : Memref sig .tc .vmem S2x512x512 .bf16).view.loc (c : Thread nD τ) ↦[(Memref.whole cc0_scratch6 : Memref sig .tc .vmem S2x512x512 .bf16).view.set]{fullShare} f) ∗ (∃ f, (Memref.whole cc0_scratch7 : Memref sig .tc .vmem S2x512x512 .bf16).view.loc (c : Thread nD τ) ↦[(Memref.whole cc0_scratch7 : Memref sig .tc .vmem S2x512x512 .bf16).view.set]{fullShare} f) ∗ (∃ f, (Memref.whole cc0_scratch8 : Memref sig .tc .vmem S2x128x512 .bf16).view.loc (c : Thread nD τ) ↦[(Memref.whole cc0_scratch8 : Memref sig .tc .vmem S2x128x512 .bf16).view.set]{fullShare} f) ∗ (∃ f, (Memref.whole cc0_scratch9 : Memref sig .tc .vmem S2x128x512 .bf16).view.loc (c : Thread nD τ) ↦[(Memref.whole cc0_scratch9 : Memref sig .tc .vmem S2x128x512 .bf16).view.set]{fullShare} f) ∗ (∃ f, (Memref.whole cc0_scratch10 : Memref sig .tc .vmem S2x128x512 .bf16).view.loc (c : Thread nD τ) ↦[(Memref.whole cc0_scratch10 : Memref sig .tc .vmem S2x128x512 .bf16).view.set]{fullShare} f) ∗ (∃ f, (Memref.whole cc0_scratch11 : Memref sig .tc .vmem S2x128x512 .bf16).view.loc (c : Thread nD τ) ↦[(Memref.whole cc0_scratch11 : Memref sig .tc .vmem S2x128x512 .bf16).view.set]{fullShare} f) ∗ (∃ f, (Memref.whole cc0_scratch12 : Memref sig .tc .vmem S2x128x512 .bf16).view.loc (c : Thread nD τ) ↦[(Memref.whole cc0_scratch12 : Memref sig .tc .vmem S2x128x512 .bf16).view.set]{fullShare} f) ∗ (∃ f, (Memref.whole cc0_scratch13 : Memref sig .tc .vmem S2x128x512 .bf16).view.loc (c : Thread nD τ) ↦[(Memref.whole cc0_scratch13 : Memref sig .tc .vmem S2x128x512 .bf16).view.set]{fullShare} f) ∗ (∃ f, (Memref.whole cc0_scratch14 : Memref sig .tc .vmem S2x128x512 .bf16).view.loc (c : Thread nD τ) ↦[(Memref.whole cc0_scratch14 : Memref sig .tc .vmem S2x128x512 .bf16).view.set]{fullShare} f))
      ∗ (∃ W', owes (c : Thread nD τ) 0 W')
      ∗ owns (c : Thread nD τ) (Memref.whole cc0_stg0_0 : Memref sig .tc .vmem S2x128x512 .f32) fullShare (Y 0) ∗ owns (c : Thread nD τ) (Memref.whole cc0_stg1_0 : Memref sig .tc .vmem S512x512 .f32) fullShare (Y 1) ∗ owns (c : Thread nD τ) (Memref.whole cc0_stg2_0 : Memref sig .tc .vmem S512x512 .f32) fullShare (Y 2) ∗ owns (c : Thread nD τ) (Memref.whole cc0_stg3_0 : Memref sig .tc .vmem S512x512 .f32) fullShare (Y 3) ∗ owns (c : Thread nD τ) (Memref.whole cc0_stg4_0 : Memref sig .tc .vmem S512x512 .f32) fullShare (Y 4)
      ∗ (∃ g, ⌜OutOk c ((Memref.whole cc0_stg5_0 : Memref sig .tc .vmem S2x128x512 .f32).view.read (Elt F) g)⌝ ∗ ((Memref.whole cc0_stg5_0 : Memref sig .tc .vmem S2x128x512 .f32).view.loc (c : Thread nD τ) ↦[(Memref.whole cc0_stg5_0 : Memref sig .tc .vmem S2x128x512 .f32).view.set]{fullShare} g))) -∗ Kt ⟨⟩))
          ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _)
              cc0_scratch15 cc0_scratch16 cc0_scratch17 cc0_scratch18) Kt) :
    (rdats m PVok OutOk 0 c).BodyObligation (defs₀ (F := F)) 𝒱₀ () Set.univ := fun t Y hY => by
  have hst := staged m PVok OutOk c t Y hY
  rw [fin_N0 t]
  rw [bigSep_W0, bigSep_W0]
  rw [show (rdats m PVok OutOk 0 c).Φ t0_0.castSucc = Φ₀ m PVok c from rfl]
  unfold Φ₀ start ghost linear
  rw [scopedRest0_eq]
  iintro ⟨⟨⟨⟨%K, #Hrec, Hat, Htok⟩, Hcr, #Hlev⟩, ⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%f8, Hs8⟩, ⟨%f9, Hs9⟩, ⟨%f10, Hs10⟩, ⟨%f11, Hs11⟩, ⟨%f12, Hs12⟩, ⟨%f13, Hs13⟩, ⟨%f14, Hs14⟩⟩,
    Ho, Hy0, Hy1, Hy2, Hy3, Hy4, Hy5⟩
  unfold Pipeline.RDat.owesAt Pipeline.owesWithin
  icases Ho with ⟨%W, %hW, HO⟩
  rw [show (rdats m PVok OutOk 0 c).owed t0_0.castSucc = O₀ c from rfl]
  iapply (hsb K Y hst f0 f1 f2 f3 f4 f5 f6 f7 f8 f9 f10 f11 f12 f13 f14 W _)
  iframe Hrec Hat Htok Hcr Hlev HO Hy0 Hy1 Hy2 Hy3 Hy4 Hy5
  isplitl [Hs0]; · iapply (Entails.of_eq pts_whole.symm); iexact Hs0
  isplitl [Hs1]; · iapply (Entails.of_eq pts_whole.symm); iexact Hs1
  isplitl [Hs2]; · iapply (Entails.of_eq pts_whole.symm); iexact Hs2
  isplitl [Hs3]; · iapply (Entails.of_eq pts_whole.symm); iexact Hs3
  isplitl [Hs4]; · iapply (Entails.of_eq pts_whole.symm); iexact Hs4
  isplitl [Hs5]; · iapply (Entails.of_eq pts_whole.symm); iexact Hs5
  isplitl [Hs6]; · iapply (Entails.of_eq pts_whole.symm); iexact Hs6
  isplitl [Hs7]; · iapply (Entails.of_eq pts_whole.symm); iexact Hs7
  isplitl [Hs8]; · iapply (Entails.of_eq pts_whole.symm); iexact Hs8
  isplitl [Hs9]; · iapply (Entails.of_eq pts_whole.symm); iexact Hs9
  isplitl [Hs10]; · iapply (Entails.of_eq pts_whole.symm); iexact Hs10
  isplitl [Hs11]; · iapply (Entails.of_eq pts_whole.symm); iexact Hs11
  isplitl [Hs12]; · iapply (Entails.of_eq pts_whole.symm); iexact Hs12
  isplitl [Hs13]; · iapply (Entails.of_eq pts_whole.symm); iexact Hs13
  isplitl [Hs14]; · iapply (Entails.of_eq pts_whole.symm); iexact Hs14
  iintro ⟨Hz, Hb, ⟨%W', HO'⟩, Hy0, Hy1, Hy2, Hy3, Hy4, ⟨%g5, %hg5, Hy5⟩⟩
  rw [show (rdats m PVok OutOk 0 c).Φ t0_0.succ = Φ₁ (F := F) c from rfl]
  unfold Φ₁
  isplitl [Hz Hb]
  · isplitl [Hz]; · iapply (sems_back (F := F) c); iexact Hz
    iapply (scratch_back (F := F) c)
    icases Hb with ⟨⟨%r0, Hb0⟩, ⟨%r1, Hb1⟩, ⟨%r2, Hb2⟩, ⟨%r3, Hb3⟩, ⟨%r4, Hb4⟩, ⟨%r5, Hb5⟩, ⟨%r6, Hb6⟩, ⟨%r7, Hb7⟩, ⟨%r8, Hb8⟩, ⟨%r9, Hb9⟩, ⟨%r10, Hb10⟩, ⟨%r11, Hb11⟩, ⟨%r12, Hb12⟩, ⟨%r13, Hb13⟩, ⟨%r14, Hb14⟩⟩
    isplitl [Hb0]; · iexists r0; iapply (Entails.of_eq pts_whole); iexact Hb0
    isplitl [Hb1]; · iexists r1; iapply (Entails.of_eq pts_whole); iexact Hb1
    isplitl [Hb2]; · iexists r2; iapply (Entails.of_eq pts_whole); iexact Hb2
    isplitl [Hb3]; · iexists r3; iapply (Entails.of_eq pts_whole); iexact Hb3
    isplitl [Hb4]; · iexists r4; iapply (Entails.of_eq pts_whole); iexact Hb4
    isplitl [Hb5]; · iexists r5; iapply (Entails.of_eq pts_whole); iexact Hb5
    isplitl [Hb6]; · iexists r6; iapply (Entails.of_eq pts_whole); iexact Hb6
    isplitl [Hb7]; · iexists r7; iapply (Entails.of_eq pts_whole); iexact Hb7
    isplitl [Hb8]; · iexists r8; iapply (Entails.of_eq pts_whole); iexact Hb8
    isplitl [Hb9]; · iexists r9; iapply (Entails.of_eq pts_whole); iexact Hb9
    isplitl [Hb10]; · iexists r10; iapply (Entails.of_eq pts_whole); iexact Hb10
    isplitl [Hb11]; · iexists r11; iapply (Entails.of_eq pts_whole); iexact Hb11
    isplitl [Hb12]; · iexists r12; iapply (Entails.of_eq pts_whole); iexact Hb12
    isplitl [Hb13]; · iexists r13; iapply (Entails.of_eq pts_whole); iexact Hb13
    iexists r14; iapply (Entails.of_eq pts_whole); iexact Hb14
  isplitl [HO']
  · iexists W'
    isplitr; · ipureintro; exact fun _ _ => Or.inl trivial
    iexact HO'
  isplitl [Hy0]
  · iexists (Y 0); isplitr; · ipureintro; trivial
    iexact Hy0
  isplitl [Hy1]
  · iexists (Y 1); isplitr; · ipureintro; trivial
    iexact Hy1
  isplitl [Hy2]
  · iexists (Y 2); isplitr; · ipureintro; trivial
    iexact Hy2
  isplitl [Hy3]
  · iexists (Y 3); isplitr; · ipureintro; trivial
    iexact Hy3
  isplitl [Hy4]
  · iexists (Y 4); isplitr; · ipureintro; trivial
    iexact Hy4
  iexists ((Memref.whole cc0_stg5_0 : Memref sig .tc .vmem S2x128x512 .f32).view.read (Elt F) g5)
  isplitr; · ipureintro; exact hg5
  unfold owns
  iexists g5
  isplitr; · ipureintro; rfl
  iexact Hy5

set_option maxRecDepth 8192 in
set_option maxHeartbeats 1600000 in
/-- At value relations that hold of everything the seven value facts asked by the run are immediate. -/
theorem body_obligation (hPV : ∀ p k b v, PVok p k b v) (hOut : ∀ p X, OutOk p X) (c : Dev nD) :
    (rdats m PVok OutOk 0 c).BodyObligation (defs₀ (F := F)) 𝒱₀ () Set.univ :=
  body_obligation_of m PVok OutOk c fun K Y hst f0 f1 f2 f3 f4 f5 f6 f7 f8 f9 f10 f11 f12 f13 f14 W Kt =>
    (runAt m c Y f0 f1 f2 f3 f4 f5 f6 f7 f8 f9 f10 f11 f12 f13 f14).2 K PVok OutOk conc_hb0 conc_hb1 conc_hb2
      (conc_hd0 m PVok) (conc_hd1 m PVok) (conc_hd2 m PVok) (conc_hd3 m PVok) (conc_hd4 m PVok) (conc_hd5 m PVok) (conc_hd6 m PVok) (conc_hd7 m PVok) (conc_hd8 m PVok) (conc_hd9 m PVok) (conc_hd10 m PVok) (conc_hd11 m PVok) (conc_hd12 m PVok) (conc_hd13 m PVok) (conc_hd14 m PVok) (conc_hd15 m PVok) (conc_hd16 m PVok) (conc_hd17 m PVok) (conc_hd18 m PVok) (conc_hd19 m PVok) (conc_hd20 m PVok) (conc_hd21 m PVok) (conc_hd22 m PVok) (conc_hd23 m PVok)
      (conc_hxs0 m c) (conc_hxs1 m c) (by rw [hst.1]; exact conc_hx0w m c)
      (fun _ _ _ _ _ _ _ _ => hPV _ _ _ _) (fun _ _ _ _ _ _ _ _ => hPV _ _ _ _) (fun _ _ _ _ _ _ _ _ => hPV _ _ _ _)
      (fun _ _ _ _ _ _ _ _ _ _ _ _ _ _ => hPV _ _ _ _) (fun _ _ _ _ _ _ _ _ _ _ _ _ _ _ => hPV _ _ _ _)
      (fun _ _ _ _ _ _ _ _ _ _ _ _ _ _ => hPV _ _ _ _)
      (fun _ _ _ _ _ _ _ _ _ _ _ _ _ _ _ _ _ _ _ _ _ _ _ _ _ _ => hOut _ _) W Kt

end Cert.KernelIdeal.Proto

end
-- ==== Proof.PayProj.lean ====
import proofs.«900760_g7700000000000761_dist_attn_self_mha_htp_ss_b2_sq128_skv128_d512_hq8_dh64_v7x_i4_f32_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayProj

open Cert.KernelIdeal Cert.KernelIdeal.Gen Idealize.ShloMosaic Idealize.ShloMosaic.ValueIdx Idealize.SL.Sem
open scoped BigOperators

def col3 (j : Fin 3) (n : Fin 512) : Fin 1536 :=
  ⟨j.val * 512 + n.val, by have := j.isLt; have := n.isLt; omega⟩

section Dot
variable {M K N : ℕ} {φ₁ φ₂ : FTy}

-- A rows-by-columns product into the zero accumulator, at an entry, is the sum over the one contracted coordinate.
theorem plain_apply (X : FVec Ideal ⟨2, ![M, K]⟩ φ₁) (W : FVec Ideal ⟨2, ![K, N]⟩ φ₂) (r : Fin M) (m : Fin N) :
    matmul (DotDims.plain M K N) none X W (constant (F := Ideal) ⟨2, ![M, N]⟩ .f32 0x00000000#32) (ix2 r m)
      = ∑ e : Fin K, X (ix2 r e) * W (ix2 e m) := by
  refine (Ideal.matmul_constant_zero_apply _ none X W (ix2 r m)).trans ?_
  rw [← Equiv.sum_comp (contrEquiv1 (DotDims.plain M K N) K rfl rfl).symm]
  refine Finset.sum_congr rfl fun k _ => ?_
  have hk := contrEquiv1_symm_val (DotDims.plain M K N) K rfl rfl k
  congr 2 <;> funext a <;> apply Fin.ext <;> match a with
    | ⟨0, _⟩ => first | rfl | exact hk
    | ⟨1, _⟩ => first | rfl | exact hk

-- The same with the right factor contracted on its last axis.
theorem transposedRhs_apply (X : FVec Ideal ⟨2, ![M, K]⟩ φ₁) (W : FVec Ideal ⟨2, ![N, K]⟩ φ₂) (r : Fin M) (m : Fin N) :
    matmul (DotDims.transposedRhs M K N) none X W (constant (F := Ideal) ⟨2, ![M, N]⟩ .f32 0x00000000#32) (ix2 r m)
      = ∑ e : Fin K, X (ix2 r e) * W (ix2 m e) := by
  refine (Ideal.matmul_constant_zero_apply _ none X W (ix2 r m)).trans ?_
  rw [← Equiv.sum_comp (contrEquiv1 (DotDims.transposedRhs M K N) K rfl rfl).symm]
  refine Finset.sum_congr rfl fun k _ => ?_
  have hk := contrEquiv1_symm_val (DotDims.transposedRhs M K N) K rfl rfl k
  congr 2 <;> funext a <;> apply Fin.ext <;> match a with
    | ⟨0, _⟩ => first | rfl | exact hk
    | ⟨1, _⟩ => first | rfl | exact hk

end Dot

theorem pay2_apply (v17 : Vec Ideal S2x128x512 .f32) (b : Fin 2) (r : Fin 128) (e : Fin 512) :
    k0_pay2 (F := Ideal) v17 (ix3 b r e) = v17 (ix3 b r e) := by
  unfold k0_pay2
  simp only [shapeCast_self]
  rfl

theorem pay4_apply (v93 : Vec Ideal S512x512 .f32) (f : Fin 512) (n : Fin 512) :
    k0_pay4 (F := Ideal) v93 (ix2 f n) = v93 (ix2 f n) := by
  unfold k0_pay4
  rw [shapeCast_self]
  rfl

-- Column `col3 j n` of three 512-column blocks laid side by side is column `n` of block `j`.
theorem concat3_apply {α : Type} (xs : List ((s : Shape) × (s.Idx → α))) (h : Shape.Concatenates (xs.map (·.1)) S512x1536 1)
    (j : Fin 3) (hj : j.val < xs.length) (x : S512x512.Idx → α) (hx : xs[j.val] = ⟨S512x512, x⟩)
    (hpre : (((xs.take j.val).map (·.1)).map fun s => if h : s.rank = S512x1536.rank then s.size ((1 : Fin S512x1536.rank).cast h.symm) else 0).sum = j.val * 512)
    (e n : Fin 512) : concatenate S512x1536 1 xs h (ix2 e (col3 j n)) = x (ix2 e n) :=
  concatenate_apply_piece (t := S512x1536) 1 xs h _ j.val hj S512x512 x hx rfl _ hpre (ix2 e n) (fun b => by
    match b with
    | ⟨0, _⟩ => exact fun _ => rfl
    | ⟨1, _⟩ => exact fun h => absurd rfl h) rfl

theorem pay3_q (v83 v87 v89 : Vec Ideal S512x512 .f32) (e : Fin 512) (n : Fin 512) :
    k0_pay3 (F := Ideal) v83 v87 v89 (ix2 e (col3 0 n)) = v83 (ix2 e n) * Ideal.ofBits .f32 0x3E000000#32 := by
  unfold k0_pay3
  refine (truncf_apply (φ := .f32) (ψ := .bf16) _ bitsLt_bf16_f32 _).trans ((concat3_apply _ _ 0 (by show (0 : ℕ) < 3; decide) _ rfl rfl e n).trans ?_)
  rw [mulf_apply, broadcast_apply, shapeCast_self]
  rfl

theorem pay3_k (v83 v87 v89 : Vec Ideal S512x512 .f32) (e : Fin 512) (n : Fin 512) :
    k0_pay3 (F := Ideal) v83 v87 v89 (ix2 e (col3 1 n)) = v87 (ix2 e n) := by
  unfold k0_pay3
  refine (truncf_apply (φ := .f32) (ψ := .bf16) _ bitsLt_bf16_f32 _).trans ((concat3_apply _ _ 1 (by show (1 : ℕ) < 3; decide) _ rfl rfl e n).trans ?_)
  rw [shapeCast_self]

theorem pay3_v (v83 v87 v89 : Vec Ideal S512x512 .f32) (e : Fin 512) (n : Fin 512) :
    k0_pay3 (F := Ideal) v83 v87 v89 (ix2 e (col3 2 n)) = v89 (ix2 e n) := by
  unfold k0_pay3
  refine (truncf_apply (φ := .f32) (ψ := .bf16) _ bitsLt_bf16_f32 _).trans ((concat3_apply _ _ 2 (by show (2 : ℕ) < 3; decide) _ rfl rfl e n).trans ?_)
  rw [shapeCast_self]

end Cert.KernelIdeal.PayProj

end
-- ==== Proof.StageProj.lean ====
import proofs.«900760_g7700000000000761_dist_attn_self_mha_htp_ss_b2_sq128_skv128_d512_hq8_dh64_v7x_i4_f32_1_alg».proof.Proof.PayProj
import proofs.«900760_g7700000000000761_dist_attn_self_mha_htp_ss_b2_sq128_skv128_d512_hq8_dh64_v7x_i4_f32_1_alg».proof.Proof.Spec

noncomputable section

namespace Cert.KernelIdeal.StageProj

open Cert.KernelIdeal Cert.KernelIdeal.Gen Cert.KernelIdeal.PayProj Cert.Spec
open Idealize.ShloMosaic Idealize.ShloMosaic.ValueIdx Idealize.SL.Sem
open scoped BigOperators

variable (c : Fin 4) (xb : Fin 4 → Fin 2 → Fin 128 → Fin 512 → EReal)
  (Wqb Wkb Wvb Wob : Fin 4 → Fin 512 → Fin 512 → EReal)

theorem chunk_rowAt (s : Fin 4) (r : Fin 128) : chunk (rowAt s r) = s := by
  apply Fin.ext
  have := r.isLt
  show (s.val * 128 + r.val) / 128 = s.val
  omega

theorem crow_rowAt (s : Fin 4) (r : Fin 128) : crow (rowAt s r) = r := by
  apply Fin.ext
  have := r.isLt
  show (s.val * 128 + r.val) % 128 = r.val
  omega

theorem xLoc_rowAt (s : Fin 4) (b : Fin 2) (r : Fin 128) (e : Fin 512) :
    xLoc c xb b (rowAt s r) e = xb (srcDev c s) b r e := by
  unfold xLoc
  rw [chunk_rowAt, crow_rowAt]

theorem fused_q (v83 v87 v89 : Vec Ideal S512x512 .f32) (hq : ∀ e n, v83 (ix2 e n) = Wqb c e n) (e n : Fin 512) :
    k0_pay3 (F := Ideal) v83 v87 v89 (ix2 e (col3 0 n)) = Wqb c e n * eighth :=
  (pay3_q v83 v87 v89 e n).trans (by rw [hq, ofBits_eighth])

theorem fused_k (v83 v87 v89 : Vec Ideal S512x512 .f32) (hk : ∀ e n, v87 (ix2 e n) = Wkb c e n) (e n : Fin 512) :
    k0_pay3 (F := Ideal) v83 v87 v89 (ix2 e (col3 1 n)) = Wkb c e n :=
  (pay3_k v83 v87 v89 e n).trans (hk e n)

theorem fused_v (v83 v87 v89 : Vec Ideal S512x512 .f32) (hv : ∀ e n, v89 (ix2 e n) = Wvb c e n) (e n : Fin 512) :
    k0_pay3 (F := Ideal) v83 v87 v89 (ix2 e (col3 2 n)) = Wvb c e n :=
  (pay3_v v83 v87 v89 e n).trans (hv e n)

theorem wo_cast (v93 : Vec Ideal S512x512 .f32) (ho : ∀ f n, v93 (ix2 f n) = Wob c f n) (f n : Fin 512) :
    k0_pay4 (F := Ideal) v93 (ix2 f n) = Wob c f n :=
  (pay4_apply v93 f n).trans (ho f n)

-- Dropping the leading unit axis of a slab keeps its entries.
theorem cast_slab {x : Vec Ideal S1x128x512 .bf16} {g : Fin 128 → Fin 512 → EReal} (hx : ∀ r e, x (ix3 (0 : Fin 1) r e) = g r e)
    (r : Fin 128) (e : Fin 512) :
    (shapeCast S128x512 x shapeCasts_S1x128x512_S128x512 : FVec Ideal S128x512 .bf16) (ix2 r e) = g r e :=
  (shapeCast_1ab_ab_apply (a := 128) (b := 512) x shapeCasts_S1x128x512_S128x512 r e).trans (hx r e)

-- A 512-column third of slab times fused weights, read at a row, is that row's local projection.
theorem third_stage {X : FVec Ideal S128x512 .bf16} {W : FVec Ideal S512x1536 .bf16} (j : Fin 3) (o : ℕ) (ho : o = j.val * 512)
    (h : S128x1536.Slices ![0, o] S128x512) {s : Fin 4} {b : Fin 2} {w : Fin 512 → Fin 512 → EReal}
    (hx : ∀ r e, X (ix2 r e) = xb (srcDev c s) b r e) (hW : ∀ e n, W (ix2 e (col3 j n)) = w e n)
    (u : Fin 1) (r : Fin 128) (n : Fin 512) :
    shapeCast S1x128x512 (extractStridedSlice S128x512 ![0, o]
        (truncf .bf16 (matmul dot_S128x512_S512x1536_S128x1536_1_0_0_1_n_n none X W (constant (F := Ideal) S128x1536 .f32 0x00000000#32)) bitsLt_bf16_f32 : FVec Ideal S128x1536 .bf16) h)
      shapeCasts_S128x512_S1x128x512 (ix3 u r n) = ∑ e, xLoc c xb b (rowAt s r) e * w e n :=
  (shapeCast_ab_1ab_apply (a := 128) (b := 512) _ shapeCasts_S128x512_S1x128x512 u r n).trans
    ((slice2_axis1_apply (n0 := 128) (n1 := 1536) (m := 512) o _ h r n (col3 j n) (by subst ho; rfl)).trans
      ((truncf_apply (φ := .f32) (ψ := .bf16) _ bitsLt_bf16_f32 _).trans
        ((plain_apply (M := 128) (K := 512) (N := 1536) X W r (col3 j n)).trans
          (Finset.sum_congr rfl fun e _ => by rw [hx, hW, xLoc_rowAt]))))

-- The local attention output times the output weights, read at a row, is that row's partial output.
theorem oproj_stage {X : FVec Ideal S128x512 .bf16} {wo : FVec Ideal S512x512 .bf16} {s : Fin 4} {b : Fin 2}
    (ho : ∀ r f, X (ix2 r f) = oLoc c xb Wqb Wkb Wvb b (rowAt s r) f) (hw : ∀ f n, wo (ix2 f n) = Wob c f n)
    (u : Fin 1) (r : Fin 128) (n : Fin 512) :
    shapeCast S1x128x512
        (truncf .bf16 (matmul dot_S128x512_S512x512_S128x512_1_0_0_1_n_n none X wo (constant (F := Ideal) S128x512 .f32 0x00000000#32)) bitsLt_bf16_f32 : FVec Ideal S128x512 .bf16)
      shapeCasts_S128x512_S1x128x512 (ix3 u r n) = partOut c xb Wqb Wkb Wvb Wob b (rowAt s r) n :=
  (shapeCast_ab_1ab_apply (a := 128) (b := 512) _ shapeCasts_S128x512_S1x128x512 u r n).trans
    ((truncf_apply (φ := .f32) (ψ := .bf16) _ bitsLt_bf16_f32 _).trans
      ((plain_apply (M := 128) (K := 512) (N := 512) X wo r n).trans (Finset.sum_congr rfl fun f _ => by rw [ho, hw])))

theorem widen_apply (p : Vec Ideal S1x128x512 .bf16) (r : Fin 128) (n : Fin 512) :
    (extf .f32 (shapeCast S128x512 p shapeCasts_S1x128x512_S128x512 : FVec Ideal S128x512 .bf16) bitsLt_bf16_f32 : FVec Ideal S128x512 .f32) (ix2 r n)
      = p (ix3 (0 : Fin 1) r n) :=
  cast_slab (fun _ _ => rfl) r n

theorem pay80_stage (p0 a1 a2 a3 : Vec Ideal S1x128x512 .bf16) (b : Fin 2)
    (h0 : ∀ r n, p0 (ix3 (0 : Fin 1) r n) = partOut c xb Wqb Wkb Wvb Wob b (rowAt 0 r) n)
    (h1 : ∀ r n, a1 (ix3 (0 : Fin 1) r n) = partOut (c + 1) xb Wqb Wkb Wvb Wob b (rowAt 1 r) n)
    (h2 : ∀ r n, a2 (ix3 (0 : Fin 1) r n) = partOut (c + 3) xb Wqb Wkb Wvb Wob b (rowAt 3 r) n)
    (h3 : ∀ r n, a3 (ix3 (0 : Fin 1) r n) = partOut (c + 2) xb Wqb Wkb Wvb Wob b (rowAt 2 r) n)
    (u : Fin 1) (r : Fin 128) (n : Fin 512) :
    k0_pay80 (F := Ideal) p0 a1 a2 a3 (ix3 u r n) = kerOut c xb Wqb Wkb Wvb Wob b r n := by
  unfold k0_pay80
  refine (shapeCast_ab_1ab_apply (a := 128) (b := 512) _ shapeCasts_S128x512_S1x128x512 u r n).trans ?_
  rw [addf_apply, addf_apply, addf_apply, widen_apply, widen_apply, widen_apply, widen_apply, h0, h1, h2, h3]
  rfl

theorem pay1_82_stage (p0 a1 a2 a3 : Vec Ideal S1x128x512 .bf16) (b : Fin 2)
    (h0 : ∀ r n, p0 (ix3 (0 : Fin 1) r n) = partOut c xb Wqb Wkb Wvb Wob b (rowAt 0 r) n)
    (h1 : ∀ r n, a1 (ix3 (0 : Fin 1) r n) = partOut (c + 1) xb Wqb Wkb Wvb Wob b (rowAt 1 r) n)
    (h2 : ∀ r n, a2 (ix3 (0 : Fin 1) r n) = partOut (c + 3) xb Wqb Wkb Wvb Wob b (rowAt 3 r) n)
    (h3 : ∀ r n, a3 (ix3 (0 : Fin 1) r n) = partOut (c + 2) xb Wqb Wkb Wvb Wob b (rowAt 2 r) n)
    (u : Fin 1) (r : Fin 128) (n : Fin 512) :
    k0_pay1 (F := Ideal) (k0_pay82 (F := Ideal) p0 a1) a2 a3 (ix3 u r n) = kerOut c xb Wqb Wkb Wvb Wob b r n := by
  unfold k0_pay1 k0_pay82
  refine (shapeCast_ab_1ab_apply (a := 128) (b := 512) _ shapeCasts_S128x512_S1x128x512 u r n).trans ?_
  rw [addf_apply, addf_apply, addf_apply, widen_apply, widen_apply, widen_apply, widen_apply, h0, h1, h2, h3]
  rfl

end Cert.KernelIdeal.StageProj

end
-- ==== Proof.PayAttn.lean ====
import proofs.«900760_g7700000000000761_dist_attn_self_mha_htp_ss_b2_sq128_skv128_d512_hq8_dh64_v7x_i4_f32_1_alg».proof.Proof.Gen.KernelIdeal.Skeleton
import proofs.«900760_g7700000000000761_dist_attn_self_mha_htp_ss_b2_sq128_skv128_d512_hq8_dh64_v7x_i4_f32_1_alg».proof.Proof.PayProj
import Idealize.ShloMosaic.PureOps.Ideal
import Idealize.ShloMosaic.Lib.ValueIdx
import Idealize.ShloMosaic.Lib.Pipeline.Value
import Idealize.ShloMosaic.Lib.ValueLayout
import Idealize.ShloMosaic.Lib.IdealHost

noncomputable section

namespace Cert.KernelIdeal.PayAttn

open Cert.KernelIdeal Cert.KernelIdeal.Gen
open Idealize.ShloMosaic Idealize.ShloMosaic.ValueIdx
open scoped BigOperators

section Chain
variable {F : FTy → Type} [FloatOps F]

def expScores (qc kc : FVec F S512x64 .bf16) : FVec F S512x512 .bf16 :=
  Idealize.ShloMosaic.exp
    (truncf .bf16 (matmul dot_S512x64_S512x64_S512x512_1_1_0_0_n_n none qc kc (constant S512x512 .f32 0x00000000#32)) bitsLt_bf16_f32)

def valuesExt (vc : FVec F S512x64 .bf16) : FVec F S512x65 .bf16 :=
  concatenate S512x65 1 [⟨S512x64, vc⟩, ⟨S512x1, broadcast S512x1 (Scalar.ofBits .bf16 0x3F80#16)⟩]
    concatenates_S512x64_S512x1_S512x65_d1

def numDen (p : FVec F S512x512 .bf16) (ve : FVec F S512x65 .bf16) : FVec F S512x65 .f32 :=
  matmul dot_S512x512_S512x65_S512x65_1_0_0_1_n_n none p ve (constant S512x65 .f32 0x00000000#32)

def normalize (pv : FVec F S512x65 .f32) : FVec F S512x64 .bf16 :=
  truncf .bf16
    (mulf (extractStridedSlice S512x64 ![0, 0] pv slices_S512x65_o0_0_S512x64)
      (broadcastTo S512x64
        (divf (broadcast S512x1 (Scalar.ofBits .f32 0x3F800000#32))
          (extractStridedSlice S512x1 ![0, 64] pv slices_S512x65_o0_64_S512x1))
        broadcasts_S512x1_S512x64))
    bitsLt_bf16_f32

def headMat (qc kc vc : FVec F S512x64 .bf16) : FVec F S512x64 .bf16 :=
  normalize (numDen (expScores qc kc) (valuesExt vc))

def headTerm (q k v : Vec F S1x512x64 .bf16) : FVec F S1x512x64 .bf16 :=
  shapeCast S1x512x64
    (headMat (shapeCast S512x64 q shapeCasts_S1x512x64_S512x64) (shapeCast S512x64 k shapeCasts_S1x512x64_S512x64)
      (shapeCast S512x64 v shapeCasts_S1x512x64_S512x64))
    shapeCasts_S512x64_S1x512x64

end Chain

section AtIdeal

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem expScores_apply (qc kc : FVec Ideal S512x64 .bf16) (i j : Fin 512) :
    expScores qc kc (ix2 i j) = Ideal.exp (∑ d : Fin 64, qc (ix2 i d) * kc (ix2 j d)) :=
  congrArg Ideal.exp (PayProj.transposedRhs_apply qc kc i j)

theorem valuesExt_apply_left (vc : FVec Ideal S512x64 .bf16) (j : Fin 512) (d : Fin 64) :
    valuesExt vc (ix2 j d.castSucc) = vc (ix2 j d) := by
  unfold valuesExt
  refine concatenate_pair_apply_left (1 : Fin S512x65.rank) vc _ concatenates_S512x64_S512x1_S512x65_d1
    (ix2 j d.castSucc) rfl (ix2 j d) fun b => ?_
  match b with
  | ⟨0, _⟩ => rfl
  | ⟨1, _⟩ => rfl

theorem valuesExt_apply_last (vc : FVec Ideal S512x64 .bf16) (j : Fin 512) :
    valuesExt vc (ix2 j (Fin.last 64)) = (1 : EReal) := by
  unfold valuesExt
  refine (concatenate_pair_apply_right (1 : Fin S512x65.rank) vc _ concatenates_S512x64_S512x1_S512x65_d1
    (ix2 j (Fin.last 64)) rfl rfl (ix2 j (0 : Fin 1)) (fun b hb => ?_) rfl).trans Ideal.ofBits_one_bf16
  match b with
  | ⟨0, _⟩ => rfl
  | ⟨1, _⟩ => exact absurd rfl hb

theorem normalize_apply (pv : FVec Ideal S512x65 .f32) (i : Fin 512) (d : Fin 64) :
    normalize pv (ix2 i d) = pv (ix2 i d.castSucc) * Ideal.div 1 (pv (ix2 i (Fin.last 64))) := by
  have e1 : extractStridedSlice S512x64 ![0, 0] pv slices_S512x65_o0_0_S512x64 (ix2 i d) = pv (ix2 i d.castSucc) :=
    slice2_axis1_apply 0 pv slices_S512x65_o0_0_S512x64 i d d.castSucc (by simp)
  have e2 : extractStridedSlice S512x1 ![0, 64] pv slices_S512x65_o0_64_S512x1 (ix2 i (0 : Fin 1)) = pv (ix2 i (Fin.last 64)) :=
    slice2_axis1_apply 64 pv slices_S512x65_o0_64_S512x1 i (0 : Fin 1) (Fin.last 64) rfl
  refine (congrArg₂ (· * ·) e1 (broadcastTo_a1_ab_apply _ broadcasts_S512x1_S512x64 i d)).trans ?_
  show pv (ix2 i d.castSucc) * Ideal.div (Ideal.ofBits .f32 0x3F800000#32)
      (extractStridedSlice S512x1 ![0, 64] pv slices_S512x65_o0_64_S512x1 (ix2 i (0 : Fin 1))) = _
  rw [e2, Ideal.ofBits_one_f32]

def vext (v : Vec Ideal S1x512x64 .bf16) (j : Fin 512) (d' : Fin 65) : EReal :=
  if h : d'.val < 64 then v (ix3 (0 : Fin 1) j ⟨d'.val, h⟩) else 1

theorem vext_castSucc (v : Vec Ideal S1x512x64 .bf16) (j : Fin 512) (d : Fin 64) :
    vext v j d.castSucc = v (ix3 (0 : Fin 1) j d) := dif_pos d.isLt

theorem vext_last (v : Vec Ideal S1x512x64 .bf16) (j : Fin 512) : vext v j (Fin.last 64) = 1 :=
  dif_neg (Nat.lt_irrefl 64)

-- One head: softmax-weighted values, as numerator over denominator, the denominator being the all-ones extra column.
theorem head_apply_vext (q k v : Vec Ideal S1x512x64 .bf16) (i : Fin 512) (d : Fin 64) :
    headTerm q k v (ix3 (0 : Fin 1) i d)
      = (∑ j : Fin 512, Ideal.exp (∑ d' : Fin 64, q (ix3 (0 : Fin 1) i d') * k (ix3 (0 : Fin 1) j d')) * vext v j d.castSucc)
        * Ideal.div 1 (∑ j : Fin 512, Ideal.exp (∑ d' : Fin 64, q (ix3 (0 : Fin 1) i d') * k (ix3 (0 : Fin 1) j d')) * vext v j (Fin.last 64)) := by
  refine (shapeCast_ab_1ab_apply _ shapeCasts_S512x64_S1x512x64 (0 : Fin 1) i d).trans ((normalize_apply _ i d).trans ?_)
  have hn := fun d' => PayProj.plain_apply (expScores (shapeCast S512x64 q shapeCasts_S1x512x64_S512x64) (shapeCast S512x64 k shapeCasts_S1x512x64_S512x64))
    (valuesExt (shapeCast S512x64 v shapeCasts_S1x512x64_S512x64)) i d'
  refine congrArg₂ (· * ·) ((hn _).trans (Finset.sum_congr rfl fun j _ => ?_)) (congrArg (Ideal.div 1) ((hn _).trans (Finset.sum_congr rfl fun j _ => ?_)))
  · rw [expScores_apply, valuesExt_apply_left, vext_castSucc]
    simp only [shapeCast_1ab_ab_apply]
  · rw [expScores_apply, valuesExt_apply_last, vext_last]
    simp only [shapeCast_1ab_ab_apply]

end AtIdeal

end Cert.KernelIdeal.PayAttn

end
-- ==== Proof.StageHead.lean ====
import proofs.«900760_g7700000000000761_dist_attn_self_mha_htp_ss_b2_sq128_skv128_d512_hq8_dh64_v7x_i4_f32_1_alg».proof.Proof.PayAttn
import proofs.«900760_g7700000000000761_dist_attn_self_mha_htp_ss_b2_sq128_skv128_d512_hq8_dh64_v7x_i4_f32_1_alg».proof.Proof.Spec

noncomputable section

namespace Cert.KernelIdeal.StageHead

open Cert.KernelIdeal Cert.KernelIdeal.Gen Cert.KernelIdeal.PayAttn
open Idealize.ShloMosaic Idealize.ShloMosaic.ValueIdx
open scoped BigOperators

theorem chead_col (hh : Fin 8) (d : Fin 64) : Spec.chead (Spec.col hh d) = hh :=
  Fin.ext (by show (hh.val * 64 + d.val) / 64 = hh.val; have := d.isLt; omega)

theorem cdim_col (hh : Fin 8) (d : Fin 64) : Spec.cdim (Spec.col hh d) = d :=
  Fin.ext (by show (hh.val * 64 + d.val) % 64 = d.val; have := d.isLt; omega)

section Head
variable (c : Fin 4) (xb : Fin 4 → Fin 2 → Fin 128 → Fin 512 → EReal) (Wqb Wkb Wvb : Fin 4 → Fin 512 → Fin 512 → EReal)
  (b : Fin 2) (hh : Fin 8) (q k v : Vec Ideal S1x512x64 .bf16)
  (hq : ∀ i d, q (ix3 (0 : Fin 1) i d) = Spec.qLoc c xb Wqb b i (Spec.col hh d))
  (hk : ∀ i d, k (ix3 (0 : Fin 1) i d) = Spec.kLoc c xb Wkb b i (Spec.col hh d))
  (hv : ∀ i d, v (ix3 (0 : Fin 1) i d) = Spec.vLoc c xb Wvb b i (Spec.col hh d))
  (i : Fin 512) (d : Fin 64)
include hq hk hv

-- One head of attention over columns `col hh ·` of the local q, k, v is column `col hh d` of the local attention output.
theorem head_stage_o :
    headTerm q k v (ix3 (0 : Fin 1) i d) = Spec.oLoc c xb Wqb Wkb Wvb b i (Spec.col hh d) := by
  have hx : ∀ j d', vext v j d' = Spec.vExt c xb Wvb b hh j d' := fun j d' => by
    unfold vext Spec.vExt
    split
    · exact hv _ _
    · rfl
  rw [head_apply_vext]
  unfold Spec.oLoc Spec.headOut Spec.pvLoc Spec.pLoc Spec.sLoc
  simp only [chead_col, cdim_col, hq, hk, hx]

end Head

end Cert.KernelIdeal.StageHead

end
-- ==== Proof.ViewRead.lean ====
import proofs.«900760_g7700000000000761_dist_attn_self_mha_htp_ss_b2_sq128_skv128_d512_hq8_dh64_v7x_i4_f32_1_alg».proof.Proof.Gen.KernelIdeal
import Idealize.ShloMosaic.Lib.Pipeline.Value
import Idealize.ShloMosaic.Lib.ValueIdx
import Idealize.ShloMosaic.Lib.ValueLayout

namespace Cert.ViewRead

open Idealize.ShloMosaic Idealize.ShloMosaic.ValueIdx

theorem forall_fin3 {P : Fin 3 → Prop} (h0 : P 0) (h1 : P 1) (h2 : P 2) : ∀ a, P a :=
  fun a => match a with | ⟨0, _⟩ => h0 | ⟨1, _⟩ => h1 | ⟨2, _⟩ => h2

section Load

variable {sig : RefSig} {κ : Kind} (Val : EltTy → Type)

theorem idx_unit_val {s : Shape} (off size : Fin s.rank → Nat) (inb : ∀ a, off a + size a ≤ s.size a)
    (i : (Rect.unit off size inb).shape.Idx) (a : Fin s.rank) :
    (((Rect.unit off size inb).idx i) a).val = off a + (i a).val := by
  show off a + 1 * (i a).val = off a + (i a).val
  rw [Nat.one_mul]

theorem idx_unit_ix3 {n0 n1 n2 m0 m1 m2 : Nat} (o0 o1 o2 : Nat)
    (inb : ∀ a, (![o0, o1, o2] : Fin 3 → Nat) a + (![m0, m1, m2] : Fin 3 → Nat) a ≤ (⟨3, ![n0, n1, n2]⟩ : Shape).size a)
    (i0 : Fin m0) (i1 : Fin m1) (i2 : Fin m2) (j0 : Fin n0) (j1 : Fin n1) (j2 : Fin n2)
    (h0 : j0.val = o0 + i0.val) (h1 : j1.val = o1 + i1.val) (h2 : j2.val = o2 + i2.val) :
    (Rect.unit (s := ⟨3, ![n0, n1, n2]⟩) ![o0, o1, o2] ![m0, m1, m2] inb).idx (ix3 i0 i1 i2) = ix3 j0 j1 j2 := by
  funext a
  apply Fin.ext
  rw [idx_unit_val]
  match a with
  | ⟨0, _⟩ => exact h0.symm
  | ⟨1, _⟩ => exact h1.symm
  | ⟨2, _⟩ => exact h2.symm

theorem readAt_unit_ix3 {sp : Space} {e : EltTy} {n0 n1 n2 m0 m1 m2 : Nat} (v : View sig κ sp ⟨3, ![n0, n1, n2]⟩ e)
    (o0 o1 o2 : Nat)
    (inb : ∀ a, (![o0, o1, o2] : Fin 3 → Nat) a + (![m0, m1, m2] : Fin 3 → Nat) a ≤ (⟨3, ![n0, n1, n2]⟩ : Shape).size a)
    (f : v.ty.Contents Val) (i0 : Fin m0) (i1 : Fin m1) (i2 : Fin m2) (j0 : Fin n0) (j1 : Fin n1) (j2 : Fin n2)
    (h0 : j0.val = o0 + i0.val) (h1 : j1.val = o1 + i1.val) (h2 : j2.val = o2 + i2.val) :
    v.readAt Val (Rect.unit (s := ⟨3, ![n0, n1, n2]⟩) ![o0, o1, o2] ![m0, m1, m2] inb).toLoadRect f (ix3 i0 i1 i2)
      = v.read Val f (ix3 j0 j1 j2) := by
  rw [View.readAt_apply, idx_unit_ix3 o0 o1 o2 inb i0 i1 i2 j0 j1 j2 h0 h1 h2]

end Load

section Store

variable {sig : RefSig} {κ : Kind} (Val : EltTy → Type)

end Store

section Slab

variable {sig : RefSig} {κ : Kind} (Val : EltTy → Type)

theorem read_slab_ix2 {sp : Space} {e : EltTy} {N n1 n2 : Nat} (v : View sig κ sp ⟨3, ![N, n1, n2]⟩ e) (o0 : Nat)
    (inb : ∀ a, (![o0, 0, 0] : Fin 3 → Nat) a + (![1, n1, n2] : Fin 3 → Nat) a ≤ (⟨3, ![N, n1, n2]⟩ : Shape).size a)
    (hn : (⟨2, ![n1, n2]⟩ : Shape).numel = (⟨3, ![1, n1, n2]⟩ : Shape).numel)
    (f : v.ty.Contents Val) (r : Fin n1) (n : Fin n2) (j0 : Fin N) (hj0 : j0.val = o0) :
    ((v.slice (Rect.unit (s := ⟨3, ![N, n1, n2]⟩) ![o0, 0, 0] ![1, n1, n2] inb)).reshape ⟨2, ![n1, n2]⟩ hn).read Val f (ix2 r n)
      = v.read Val f (ix3 j0 r n) := by
  have hemb : ((v.slice (Rect.unit (s := ⟨3, ![N, n1, n2]⟩) ![o0, 0, 0] ![1, n1, n2] inb)).reshape ⟨2, ![n1, n2]⟩ hn).emb (ix2 r n)
      = v.emb (ix3 j0 r n) := by
    rw [View.emb_reshape, View.emb_slice]
    show v.emb ((Rect.unit (s := ⟨3, ![N, n1, n2]⟩) ![o0, 0, 0] ![1, n1, n2] inb).idx (Shape.reshapeEquiv hn (ix2 r n))) = _
    rw [reshapeEquiv_ix2_1ab hn r n,
      idx_unit_ix3 o0 0 0 inb ⟨0, Nat.one_pos⟩ r n j0 r n (by rw [hj0]; rfl) (Nat.zero_add _).symm (Nat.zero_add _).symm]
  rw [View.read_apply, View.read_apply]
  exact congrArg _ (congrArg f hemb)

end Slab

section Instances
open Cert.KernelIdeal Cert.KernelIdeal.Gen

abbrev slab0 (M : Memref sig .tc .vmem S2x128x512 .bf16) : Memref sig .tc .vmem S128x512 .bf16 :=
  (M.slice (Rect.unit (s := S2x128x512) ![0, 0, 0] S1x128x512.size inb_S2x128x512_S1x128x512_0_0_0) (fun _ => rfl)).squeeze S128x512 squeezes_S1x128x512_S128x512
abbrev slab1 (M : Memref sig .tc .vmem S2x128x512 .bf16) : Memref sig .tc .vmem S128x512 .bf16 :=
  (M.slice (Rect.unit (s := S2x128x512) ![1, 0, 0] S1x128x512.size inb_S2x128x512_S1x128x512_1_0_0) (fun _ => rfl)).squeeze S128x512 squeezes_S1x128x512_S128x512

end Instances

end Cert.ViewRead
-- ==== Proof.WritesRead.lean ====
import proofs.«900760_g7700000000000761_dist_attn_self_mha_htp_ss_b2_sq128_skv128_d512_hq8_dh64_v7x_i4_f32_1_alg».proof.Proof.ViewRead
import Idealize.ShloMosaic.Lib.Writes
import Idealize.ShloMosaic.Lib.Exec
import Idealize.ShloMosaic.Lib.WholeRead
import Idealize.ShloMosaic.Lib.ValueIdx

namespace Cert.WritesRead

open Idealize.ShloMosaic Idealize.ShloMosaic.ValueIdx Cert.ViewRead

variable {sig : RefSig} {κ : Kind} (Val : EltTy → Type)

section Walk

variable {sp : Space} {e : EltTy} {n0 n1 n2 m0 m1 m2 : Nat} (v : View sig κ sp ⟨3, ![n0, n1, n2]⟩ e)
  (f : v.ty.Contents Val)

theorem read_writes_cons_ix3_mem (o0 o1 o2 : Nat)
    (inb : ∀ a, (![o0, o1, o2] : Fin 3 → Nat) a + (![m0, m1, m2] : Fin 3 → Nat) a ≤ (⟨3, ![n0, n1, n2]⟩ : Shape).size a)
    (w : (⟨3, ![m0, m1, m2]⟩ : Shape).Idx → Val e) (ps : List (View.Piece Val ⟨3, ![n0, n1, n2]⟩ e))
    (j0 : Fin n0) (j1 : Fin n1) (j2 : Fin n2) (i0 : Fin m0) (i1 : Fin m1) (i2 : Fin m2)
    (h0 : j0.val = o0 + i0.val) (h1 : j1.val = o1 + i1.val) (h2 : j2.val = o2 + i2.val) :
    v.read Val (v.writes Val f (⟨Rect.unit (s := ⟨3, ![n0, n1, n2]⟩) ![o0, o1, o2] ![m0, m1, m2] inb, w⟩ :: ps)) (ix3 j0 j1 j2)
      = w (ix3 i0 i1 i2) := by
  rw [← idx_unit_ix3 o0 o1 o2 inb i0 i1 i2 j0 j1 j2 h0 h1 h2]
  exact View.read_writes_cons_emb v f (Rect.unit (s := ⟨3, ![n0, n1, n2]⟩) ![o0, o1, o2] ![m0, m1, m2] inb) w ps (ix3 i0 i1 i2)

theorem read_writes_cons_ix3_not_mem (o0 o1 o2 : Nat)
    (inb : ∀ a, (![o0, o1, o2] : Fin 3 → Nat) a + (![m0, m1, m2] : Fin 3 → Nat) a ≤ (⟨3, ![n0, n1, n2]⟩ : Shape).size a)
    (w : (⟨3, ![m0, m1, m2]⟩ : Shape).Idx → Val e) (ps : List (View.Piece Val ⟨3, ![n0, n1, n2]⟩ e))
    (j0 : Fin n0) (j1 : Fin n1) (j2 : Fin n2)
    (hout : (j0.val < o0 ∨ o0 + m0 ≤ j0.val) ∨ (j1.val < o1 ∨ o1 + m1 ≤ j1.val) ∨ (j2.val < o2 ∨ o2 + m2 ≤ j2.val)) :
    v.read Val (v.writes Val f (⟨Rect.unit (s := ⟨3, ![n0, n1, n2]⟩) ![o0, o1, o2] ![m0, m1, m2] inb, w⟩ :: ps)) (ix3 j0 j1 j2)
      = v.read Val (v.writes Val f ps) (ix3 j0 j1 j2) := by
  rw [View.writes_cons]
  refine View.read_slice_write_of_not_mem _ _ _ _ ?_
  rw [Rect.map_emb_univ, Rect.mem_set_unit]
  intro hall
  have a0 : o0 ≤ j0.val ∧ j0.val < o0 + m0 := hall 0
  have a1 : o1 ≤ j1.val ∧ j1.val < o1 + m1 := hall 1
  have a2 : o2 ≤ j2.val ∧ j2.val < o2 + m2 := hall 2
  omega

end Walk

section Loads

variable {sp : Space} {e : EltTy} {n0 n1 n2 m0 m1 m2 : Nat} (v : View sig κ sp ⟨3, ![n0, n1, n2]⟩ e)

theorem readCov_ix3 [∀ e, Nonempty (Val e)] (L : List (View.Piece Val ⟨3, ![n0, n1, n2]⟩ e)) (o0 o1 o2 : Nat)
    (inb : ∀ a, (![o0, o1, o2] : Fin 3 → Nat) a + (![m0, m1, m2] : Fin 3 → Nat) a ≤ (⟨3, ![n0, n1, n2]⟩ : Shape).size a)
    (i0 : Fin m0) (i1 : Fin m1) (i2 : Fin m2) (j0 : Fin n0) (j1 : Fin n1) (j2 : Fin n2)
    (h0 : j0.val = o0 + i0.val) (h1 : j1.val = o1 + i1.val) (h2 : j2.val = o2 + i2.val) :
    v.readCov L (Rect.unit (s := ⟨3, ![n0, n1, n2]⟩) ![o0, o1, o2] ![m0, m1, m2] inb).toLoadRect (ix3 i0 i1 i2)
      = v.read Val (v.writes Val v.junk L) (ix3 j0 j1 j2) :=
  readAt_unit_ix3 Val v o0 o1 o2 inb (v.writes Val v.junk L) i0 i1 i2 j0 j1 j2 h0 h1 h2

end Loads

section Slabs

variable {sp : Space} {e : EltTy} {N n1 n2 : Nat}

theorem slab_read_ix2 (A : Memref sig κ sp ⟨3, ![N, n1, n2]⟩ e) (o0 : Nat)
    (inb : ∀ a, (![o0, 0, 0] : Fin 3 → Nat) a + (![1, n1, n2] : Fin 3 → Nat) a ≤ (⟨3, ![N, n1, n2]⟩ : Shape).size a)
    (hr : ∀ a, (Rect.unit (s := ⟨3, ![N, n1, n2]⟩) ![o0, 0, 0] ![1, n1, n2] inb).stride a = 1)
    (hq : (⟨3, ![1, n1, n2]⟩ : Shape).Squeezes ⟨2, ![n1, n2]⟩)
    (g : A.view.ty.Contents Val) (r : Fin n1) (n : Fin n2) (j0 : Fin N) (hj0 : j0.val = o0) :
    ((A.slice (Rect.unit (s := ⟨3, ![N, n1, n2]⟩) ![o0, 0, 0] ![1, n1, n2] inb) hr).squeeze ⟨2, ![n1, n2]⟩ hq).view.read Val g (ix2 r n)
      = A.view.read Val g (ix3 j0 r n) :=
  read_slab_ix2 Val A.view o0 inb hq.numel_eq g r n j0 hj0

end Slabs

end Cert.WritesRead
-- ==== Proof.Dataflow.lean ====
import proofs.«900760_g7700000000000761_dist_attn_self_mha_htp_ss_b2_sq128_skv128_d512_hq8_dh64_v7x_i4_f32_1_alg».proof.Proof.StageProj
import proofs.«900760_g7700000000000761_dist_attn_self_mha_htp_ss_b2_sq128_skv128_d512_hq8_dh64_v7x_i4_f32_1_alg».proof.Proof.StageHead
import proofs.«900760_g7700000000000761_dist_attn_self_mha_htp_ss_b2_sq128_skv128_d512_hq8_dh64_v7x_i4_f32_1_alg».proof.Proof.WritesRead

noncomputable section

namespace Cert.Dataflow

open Idealize.ShloMosaic Idealize.ShloMosaic.ValueIdx Cert.Spec Cert.ViewRead Cert.WritesRead
open Cert.KernelIdeal Cert.KernelIdeal.Gen Cert.KernelIdeal.StageProj Cert.KernelIdeal.StageHead

section Tools

variable {sig : RefSig} {κ : Kind} {Val : EltTy → Type} {sp : Space} {e : EltTy} {n0 n1 n2 : Nat}

def Agrees (G : Fin n0 → Fin n1 → Fin n2 → Val e) (p : View.Piece Val ⟨3, ![n0, n1, n2]⟩ e) : Prop :=
  ∀ x : p.1.shape.Idx, p.2 x = G ((p.1.emb x) 0) ((p.1.emb x) 1) ((p.1.emb x) 2)

theorem agrees_unit (G : Fin n0 → Fin n1 → Fin n2 → Val e) {m0 m1 m2 : Nat} (o0 o1 o2 : Nat)
    (inb : ∀ a, (![o0, o1, o2] : Fin 3 → Nat) a + (![m0, m1, m2] : Fin 3 → Nat) a ≤ (⟨3, ![n0, n1, n2]⟩ : Shape).size a)
    (w : (⟨3, ![m0, m1, m2]⟩ : Shape).Idx → Val e)
    (hw : ∀ (i0 : Fin m0) (i1 : Fin m1) (i2 : Fin m2) (j0 : Fin n0) (j1 : Fin n1) (j2 : Fin n2),
      j0.val = o0 + i0.val → j1.val = o1 + i1.val → j2.val = o2 + i2.val → w (ix3 i0 i1 i2) = G j0 j1 j2) :
    Agrees G ⟨Rect.unit (s := ⟨3, ![n0, n1, n2]⟩) ![o0, o1, o2] ![m0, m1, m2] inb, w⟩ := fun x =>
  (congrArg w (eq_ix3 x)).trans (hw (x 0) (x 1) (x 2) _ _ _ (idx_unit_val _ _ inb x 0) (idx_unit_val _ _ inb x 1)
    (idx_unit_val _ _ inb x 2))

variable (v : View sig κ sp ⟨3, ![n0, n1, n2]⟩ e)

theorem readCov_of_agrees [∀ e, Nonempty (Val e)] (G : Fin n0 → Fin n1 → Fin n2 → Val e)
    (L : List (View.Piece Val ⟨3, ![n0, n1, n2]⟩ e)) (hL : ∀ p ∈ L, Agrees G p) {m0 m1 m2 : Nat} (o0 o1 o2 : Nat)
    (inb : ∀ a, (![o0, o1, o2] : Fin 3 → Nat) a + (![m0, m1, m2] : Fin 3 → Nat) a ≤ (⟨3, ![n0, n1, n2]⟩ : Shape).size a)
    (i0 : Fin m0) (i1 : Fin m1) (i2 : Fin m2) (j0 : Fin n0) (j1 : Fin n1) (j2 : Fin n2)
    (h0 : j0.val = o0 + i0.val) (h1 : j1.val = o1 + i1.val) (h2 : j2.val = o2 + i2.val)
    (hc : ∃ p ∈ L, ix3 j0 j1 j2 ∈ p.1.set) :
    v.readCov L (Rect.unit (s := ⟨3, ![n0, n1, n2]⟩) ![o0, o1, o2] ![m0, m1, m2] inb).toLoadRect (ix3 i0 i1 i2) = G j0 j1 j2 :=
  (readCov_ix3 Val v L o0 o1 o2 inb i0 i1 i2 j0 j1 j2 h0 h1 h2).trans (View.read_writes_apply_of_pieces v v.junk (fun y => G (y 0) (y 1) (y 2)) L hL (ix3 j0 j1 j2) hc)

theorem mem_unit_ix3 {m0 m1 m2 : Nat} (o0 o1 o2 : Nat)
    (inb : ∀ a, (![o0, o1, o2] : Fin 3 → Nat) a + (![m0, m1, m2] : Fin 3 → Nat) a ≤ (⟨3, ![n0, n1, n2]⟩ : Shape).size a)
    (j0 : Fin n0) (j1 : Fin n1) (j2 : Fin n2)
    (h : (o0 ≤ j0.val ∧ j0.val < o0 + m0) ∧ (o1 ≤ j1.val ∧ j1.val < o1 + m1) ∧ (o2 ≤ j2.val ∧ j2.val < o2 + m2)) :
    ix3 j0 j1 j2 ∈ (Rect.unit (s := ⟨3, ![n0, n1, n2]⟩) ![o0, o1, o2] ![m0, m1, m2] inb).set := by
  rw [Rect.mem_set_unit]
  exact forall_fin3 h.1 h.2.1 h.2.2

end Tools

abbrev Pc : Type := View.Piece (Elt Ideal) S2x512x512 EltTy.bf16

abbrev rowP (b0 o1 : Nat) (inb : ∀ a, (![b0, o1, 0] : Fin 3 → Nat) a + S1x128x512.size a ≤ S2x512x512.size a)
    (p : FVec Ideal S1x128x512 .bf16) : Pc :=
  ⟨Rect.unit (s := S2x512x512) ![b0, o1, 0] S1x128x512.size inb, p⟩

abbrev colP (b0 o2 : Nat) (inb : ∀ a, (![b0, 0, o2] : Fin 3 → Nat) a + S1x512x64.size a ≤ S2x512x512.size a)
    (p : FVec Ideal S1x512x64 .bf16) : Pc :=
  ⟨Rect.unit (s := S2x512x512) ![b0, 0, o2] S1x512x64.size inb, p⟩

abbrev colLd (v : View sig .tc .vmem S2x512x512 .bf16) (L : List Pc) (b0 o2 : Nat)
    (inb : ∀ a, (![b0, 0, o2] : Fin 3 → Nat) a + S1x512x64.size a ≤ S2x512x512.size a) : Vec Ideal S1x512x64 .bf16 :=
  v.readCov L (Rect.unit (s := S2x512x512) ![b0, 0, o2] S1x512x64.size inb).toLoadRect

abbrev rowLd (v : View sig .tc .vmem S2x512x512 .bf16) (L : List Pc) (b0 o1 : Nat)
    (inb : ∀ a, (![b0, o1, 0] : Fin 3 → Nat) a + S1x128x512.size a ≤ S2x512x512.size a) : Vec Ideal S1x128x512 .bf16 :=
  v.readCov L (Rect.unit (s := S2x512x512) ![b0, o1, 0] S1x128x512.size inb).toLoadRect

section Values

variable (c : Fin 4) (xb : Fin 4 → Fin 2 → Fin 128 → Fin 512 → EReal)
  (Wqb Wkb Wvb Wob : Fin 4 → Fin 512 → Fin 512 → EReal)
  (vq vk vv vo : View sig .tc .vmem S2x512x512 .bf16)
  (vp : View sig .tc .vmem S2x128x512 .bf16)
  (w1 w2 w3 w4 : Vec Ideal S512x512 .f32)
  (o0 o1 xl0 xl1 xr0 xr1 xd0 xd1 : Vec Ideal S1x128x512 .bf16)
  (la1_0 la1_1 la2_0 la2_1 la3_0 la3_1 : Vec Ideal S1x128x512 .bf16)

def wF : FVec Ideal S512x1536 .bf16 := k0_pay3 (F := Ideal) w1 w3 w4

def wO : FVec Ideal S512x512 .bf16 := k0_pay4 (F := Ideal) w2

def qP00 : FVec Ideal S1x128x512 .bf16 := k0_pay6 (F := Ideal) w1 w3 w4 o0
def kP00 : FVec Ideal S1x128x512 .bf16 := k0_pay7 (F := Ideal) w1 w3 w4 o0
def vP00 : FVec Ideal S1x128x512 .bf16 := k0_pay8 (F := Ideal) w1 w3 w4 o0
def qP10 : FVec Ideal S1x128x512 .bf16 := k0_pay11 (F := Ideal) (wF w1 w3 w4) (k0_pay9 (F := Ideal) o1)
def kP10 : FVec Ideal S1x128x512 .bf16 := k0_pay12 (F := Ideal) (wF w1 w3 w4) (k0_pay9 (F := Ideal) o1)
def vP10 : FVec Ideal S1x128x512 .bf16 := k0_pay13 (F := Ideal) (wF w1 w3 w4) (k0_pay9 (F := Ideal) o1)
def qP01 : FVec Ideal S1x128x512 .bf16 := k0_pay15 (F := Ideal) (wF w1 w3 w4) xl0
def kP01 : FVec Ideal S1x128x512 .bf16 := k0_pay16 (F := Ideal) (wF w1 w3 w4) xl0
def vP01 : FVec Ideal S1x128x512 .bf16 := k0_pay17 (F := Ideal) (wF w1 w3 w4) xl0
def qP03 : FVec Ideal S1x128x512 .bf16 := k0_pay19 (F := Ideal) (wF w1 w3 w4) xr0
def kP03 : FVec Ideal S1x128x512 .bf16 := k0_pay20 (F := Ideal) (wF w1 w3 w4) xr0
def vP03 : FVec Ideal S1x128x512 .bf16 := k0_pay21 (F := Ideal) (wF w1 w3 w4) xr0
def qP02 : FVec Ideal S1x128x512 .bf16 := k0_pay23 (F := Ideal) (wF w1 w3 w4) xd0
def kP02 : FVec Ideal S1x128x512 .bf16 := k0_pay24 (F := Ideal) (wF w1 w3 w4) xd0
def vP02 : FVec Ideal S1x128x512 .bf16 := k0_pay25 (F := Ideal) (wF w1 w3 w4) xd0

def rows5 (p00 p10 p01 p03 p02 : FVec Ideal S1x128x512 .bf16) : List Pc :=
  [rowP 0 256 inb_S2x512x512_S1x128x512_0_256_0 p02, rowP 0 384 inb_S2x512x512_S1x128x512_0_384_0 p03,
   rowP 0 128 inb_S2x512x512_S1x128x512_0_128_0 p01, rowP 1 0 inb_S2x512x512_S1x128x512_1_0_0 p10,
   rowP 0 0 inb_S2x512x512_S1x128x512_0_0_0 p00]

def rows3 (p11 p13 p12 : FVec Ideal S1x128x512 .bf16) (L : List Pc) : List Pc :=
  rowP 1 256 inb_S2x512x512_S1x128x512_1_256_0 p12 :: rowP 1 384 inb_S2x512x512_S1x128x512_1_384_0 p13 ::
    rowP 1 128 inb_S2x512x512_S1x128x512_1_128_0 p11 :: L

def qL5 : List Pc :=
  rows5 (qP00 w1 w3 w4 o0) (qP10 w1 w3 w4 o1) (qP01 w1 w3 w4 xl0) (qP03 w1 w3 w4 xr0) (qP02 w1 w3 w4 xd0)

def kL5 : List Pc :=
  rows5 (kP00 w1 w3 w4 o0) (kP10 w1 w3 w4 o1) (kP01 w1 w3 w4 xl0) (kP03 w1 w3 w4 xr0) (kP02 w1 w3 w4 xd0)

def vL5 : List Pc :=
  rows5 (vP00 w1 w3 w4 o0) (vP10 w1 w3 w4 o1) (vP01 w1 w3 w4 xl0) (vP03 w1 w3 w4 xr0) (vP02 w1 w3 w4 xd0)

def Q0 (o2 : Nat) (inb : ∀ a, (![0, 0, o2] : Fin 3 → Nat) a + S1x512x64.size a ≤ S2x512x512.size a) : Vec Ideal S1x512x64 .bf16 :=
  colLd vq (qL5 w1 w3 w4 o0 o1 xl0 xr0 xd0) 0 o2 inb
def K0 (o2 : Nat) (inb : ∀ a, (![0, 0, o2] : Fin 3 → Nat) a + S1x512x64.size a ≤ S2x512x512.size a) : Vec Ideal S1x512x64 .bf16 :=
  colLd vk (kL5 w1 w3 w4 o0 o1 xl0 xr0 xd0) 0 o2 inb
def V0 (o2 : Nat) (inb : ∀ a, (![0, 0, o2] : Fin 3 → Nat) a + S1x512x64.size a ≤ S2x512x512.size a) : Vec Ideal S1x512x64 .bf16 :=
  colLd vv (vL5 w1 w3 w4 o0 o1 xl0 xr0 xd0) 0 o2 inb

def oP0_0 : FVec Ideal S1x512x64 .bf16 :=
  k0_pay28 (F := Ideal) (k0_pay26 (F := Ideal) (Q0 vq w1 w3 w4 o0 o1 xl0 xr0 xd0 0 inb_S2x512x512_S1x512x64_0_0_0))
    (k0_pay27 (F := Ideal) (K0 vk w1 w3 w4 o0 o1 xl0 xr0 xd0 0 inb_S2x512x512_S1x512x64_0_0_0))
    (V0 vv w1 w3 w4 o0 o1 xl0 xr0 xd0 0 inb_S2x512x512_S1x512x64_0_0_0)
def oP0_1 : FVec Ideal S1x512x64 .bf16 :=
  k0_pay30 (F := Ideal) (k0_pay29 (F := Ideal) (Q0 vq w1 w3 w4 o0 o1 xl0 xr0 xd0 64 inb_S2x512x512_S1x512x64_0_0_64)
    (K0 vk w1 w3 w4 o0 o1 xl0 xr0 xd0 64 inb_S2x512x512_S1x512x64_0_0_64)
    (V0 vv w1 w3 w4 o0 o1 xl0 xr0 xd0 64 inb_S2x512x512_S1x512x64_0_0_64))
def oP0_2 : FVec Ideal S1x512x64 .bf16 :=
  k0_pay31 (F := Ideal) (Q0 vq w1 w3 w4 o0 o1 xl0 xr0 xd0 128 inb_S2x512x512_S1x512x64_0_0_128)
    (K0 vk w1 w3 w4 o0 o1 xl0 xr0 xd0 128 inb_S2x512x512_S1x512x64_0_0_128)
    (V0 vv w1 w3 w4 o0 o1 xl0 xr0 xd0 128 inb_S2x512x512_S1x512x64_0_0_128)
def oP0_3 : FVec Ideal S1x512x64 .bf16 :=
  k0_pay35 (F := Ideal) (k0_pay32 (F := Ideal) (Q0 vq w1 w3 w4 o0 o1 xl0 xr0 xd0 192 inb_S2x512x512_S1x512x64_0_0_192))
    (k0_pay33 (F := Ideal) (K0 vk w1 w3 w4 o0 o1 xl0 xr0 xd0 192 inb_S2x512x512_S1x512x64_0_0_192))
    (k0_pay34 (F := Ideal) (V0 vv w1 w3 w4 o0 o1 xl0 xr0 xd0 192 inb_S2x512x512_S1x512x64_0_0_192))
def oP0_4 : FVec Ideal S1x512x64 .bf16 :=
  k0_pay37 (F := Ideal) (k0_pay36 (F := Ideal) (Q0 vq w1 w3 w4 o0 o1 xl0 xr0 xd0 256 inb_S2x512x512_S1x512x64_0_0_256)
    (K0 vk w1 w3 w4 o0 o1 xl0 xr0 xd0 256 inb_S2x512x512_S1x512x64_0_0_256)
    (V0 vv w1 w3 w4 o0 o1 xl0 xr0 xd0 256 inb_S2x512x512_S1x512x64_0_0_256))
def oP0_5 : FVec Ideal S1x512x64 .bf16 :=
  k0_pay38 (F := Ideal) (Q0 vq w1 w3 w4 o0 o1 xl0 xr0 xd0 320 inb_S2x512x512_S1x512x64_0_0_320)
    (K0 vk w1 w3 w4 o0 o1 xl0 xr0 xd0 320 inb_S2x512x512_S1x512x64_0_0_320)
    (V0 vv w1 w3 w4 o0 o1 xl0 xr0 xd0 320 inb_S2x512x512_S1x512x64_0_0_320)
def oP0_6 : FVec Ideal S1x512x64 .bf16 :=
  k0_pay41 (F := Ideal) (k0_pay39 (F := Ideal) (V0 vv w1 w3 w4 o0 o1 xl0 xr0 xd0 384 inb_S2x512x512_S1x512x64_0_0_384))
    (k0_pay40 (F := Ideal) (Q0 vq w1 w3 w4 o0 o1 xl0 xr0 xd0 384 inb_S2x512x512_S1x512x64_0_0_384)
      (K0 vk w1 w3 w4 o0 o1 xl0 xr0 xd0 384 inb_S2x512x512_S1x512x64_0_0_384))
def oP0_7 : FVec Ideal S1x512x64 .bf16 :=
  k0_pay42 (F := Ideal) (Q0 vq w1 w3 w4 o0 o1 xl0 xr0 xd0 448 inb_S2x512x512_S1x512x64_0_0_448)
    (K0 vk w1 w3 w4 o0 o1 xl0 xr0 xd0 448 inb_S2x512x512_S1x512x64_0_0_448)
    (V0 vv w1 w3 w4 o0 o1 xl0 xr0 xd0 448 inb_S2x512x512_S1x512x64_0_0_448)

def cols8 (p0 p1 p2 p3 p4 p5 p6 p7 : FVec Ideal S1x512x64 .bf16) : List Pc :=
  [colP 0 448 inb_S2x512x512_S1x512x64_0_0_448 p7, colP 0 384 inb_S2x512x512_S1x512x64_0_0_384 p6,
   colP 0 320 inb_S2x512x512_S1x512x64_0_0_320 p5, colP 0 256 inb_S2x512x512_S1x512x64_0_0_256 p4,
   colP 0 192 inb_S2x512x512_S1x512x64_0_0_192 p3, colP 0 128 inb_S2x512x512_S1x512x64_0_0_128 p2,
   colP 0 64 inb_S2x512x512_S1x512x64_0_0_64 p1, colP 0 0 inb_S2x512x512_S1x512x64_0_0_0 p0]

def oL8 : List Pc :=
  cols8 (oP0_0 vq vk vv w1 w3 w4 o0 o1 xl0 xr0 xd0) (oP0_1 vq vk vv w1 w3 w4 o0 o1 xl0 xr0 xd0)
    (oP0_2 vq vk vv w1 w3 w4 o0 o1 xl0 xr0 xd0) (oP0_3 vq vk vv w1 w3 w4 o0 o1 xl0 xr0 xd0)
    (oP0_4 vq vk vv w1 w3 w4 o0 o1 xl0 xr0 xd0) (oP0_5 vq vk vv w1 w3 w4 o0 o1 xl0 xr0 xd0)
    (oP0_6 vq vk vv w1 w3 w4 o0 o1 xl0 xr0 xd0) (oP0_7 vq vk vv w1 w3 w4 o0 o1 xl0 xr0 xd0)

def part0_2 : FVec Ideal S1x128x512 .bf16 :=
  k0_pay43 (F := Ideal) (wO w2) (rowLd vo (oL8 vq vk vv w1 w3 w4 o0 o1 xl0 xr0 xd0) 0 256 inb_S2x512x512_S1x128x512_0_256_0)
def part0_1 : FVec Ideal S1x128x512 .bf16 :=
  k0_pay44 (F := Ideal) (wO w2) (rowLd vo (oL8 vq vk vv w1 w3 w4 o0 o1 xl0 xr0 xd0) 0 128 inb_S2x512x512_S1x128x512_0_128_0)
def part0_3 : FVec Ideal S1x128x512 .bf16 :=
  k0_pay45 (F := Ideal) (wO w2) (rowLd vo (oL8 vq vk vv w1 w3 w4 o0 o1 xl0 xr0 xd0) 0 384 inb_S2x512x512_S1x128x512_0_384_0)

def part0_0 (L : List Pc) : FVec Ideal S1x128x512 .bf16 :=
  k0_pay79 (F := Ideal) (wO w2) (rowLd vo L 0 0 inb_S2x512x512_S1x128x512_0_0_0)

def p0L1 (L : List Pc) : List (View.Piece (Elt Ideal) S2x128x512 EltTy.bf16) :=
  [⟨Rect.unit (s := S2x128x512) ![0, 0, 0] S1x128x512.size inb_S2x128x512_S1x128x512_0_0_0, part0_0 vo w2 L⟩]

def p0Ld0 (L : List Pc) : Vec Ideal S1x128x512 .bf16 :=
  vp.readCov (p0L1 vo w2 L) (Rect.unit (s := S2x128x512) ![0, 0, 0] S1x128x512.size inb_S2x128x512_S1x128x512_0_0_0).toLoadRect

def out0 (L : List Pc) : FVec Ideal S1x128x512 .f32 :=
  k0_pay80 (F := Ideal) (p0Ld0 vo vp w2 L) la1_0 la2_0 la3_0

structure InOk : Prop where
  hw1 : ∀ e n, w1 (ix2 e n) = Wqb c e n
  hw2 : ∀ f n, w2 (ix2 f n) = Wob c f n
  hw3 : ∀ e n, w3 (ix2 e n) = Wkb c e n
  hw4 : ∀ e n, w4 (ix2 e n) = Wvb c e n
  hown0 : ∀ r e, o0 (ix3 (0 : Fin 1) r e) = xb (srcDev c 0) 0 r e
  hown1 : ∀ r e, o1 (ix3 (0 : Fin 1) r e) = xb (srcDev c 0) 1 r e
  hxl0 : ∀ r e, xl0 (ix3 (0 : Fin 1) r e) = xb (srcDev c 1) 0 r e
  hxl1 : ∀ r e, xl1 (ix3 (0 : Fin 1) r e) = xb (srcDev c 1) 1 r e
  hxr0 : ∀ r e, xr0 (ix3 (0 : Fin 1) r e) = xb (srcDev c 3) 0 r e
  hxr1 : ∀ r e, xr1 (ix3 (0 : Fin 1) r e) = xb (srcDev c 3) 1 r e
  hxd0 : ∀ r e, xd0 (ix3 (0 : Fin 1) r e) = xb (srcDev c 2) 0 r e
  hxd1 : ∀ r e, xd1 (ix3 (0 : Fin 1) r e) = xb (srcDev c 2) 1 r e

end Values

section Shapes

variable (G : Fin 2 → Fin 512 → Fin 512 → EReal)

-- `p` is the block of 128 rows number `s` of batch `b` of `G`
abbrev IsRow (b : Fin 2) (s : Fin 4) (p : FVec Ideal S1x128x512 .bf16) : Prop :=
  ∀ (u : Fin 1) (r : Fin 128) (n : Fin 512), p (ix3 u r n) = G b (rowAt s r) n

-- `p` is the block of 64 columns number `hh` of batch `b` of `G`
abbrev IsCol (b : Fin 2) (hh : Fin 8) (p : FVec Ideal S1x512x64 .bf16) : Prop :=
  ∀ (i : Fin 512) (d : Fin 64), p (ix3 (0 : Fin 1) i d) = G b i (col hh d)

theorem agrees_row (b0 o1 : Nat) (bb : Fin 2) (hb : bb.val = b0) (s : Fin 4)
    (ho : o1 = s.val * 128) (inb : ∀ a, (![b0, o1, 0] : Fin 3 → Nat) a + S1x128x512.size a ≤ S2x512x512.size a)
    (p : FVec Ideal S1x128x512 .bf16) (hp : IsRow G bb s p) : Agrees G (rowP b0 o1 inb p) := by
  refine agrees_unit (Val := Elt Ideal) (e := EltTy.bf16) G b0 o1 0 inb p fun i0 i1 i2 j0 j1 j2 h0 h1 h2 => ?_
  have hi0 := i0.isLt
  have e0 : j0 = bb := Fin.ext (by omega)
  have e1 : j1 = rowAt s i1 := Fin.ext (by show j1.val = s.val * 128 + i1.val; omega)
  have e2 : j2 = i2 := Fin.ext (by omega)
  rw [e0, e1, e2]
  exact hp i0 i1 i2

theorem agrees_col (b0 o2 : Nat) (bb : Fin 2) (hb : bb.val = b0) (hh : Fin 8)
    (ho : o2 = hh.val * 64) (inb : ∀ a, (![b0, 0, o2] : Fin 3 → Nat) a + S1x512x64.size a ≤ S2x512x512.size a)
    (p : FVec Ideal S1x512x64 .bf16) (hp : IsCol G bb hh p) : Agrees G (colP b0 o2 inb p) := by
  refine agrees_unit (Val := Elt Ideal) (e := EltTy.bf16) G b0 0 o2 inb p fun i0 i1 i2 j0 j1 j2 h0 h1 h2 => ?_
  have hi0 := i0.isLt
  have e0 : j0 = bb := Fin.ext (by omega)
  have e1 : j1 = i1 := Fin.ext (by omega)
  have e2 : j2 = col hh i2 := Fin.ext (by show j2.val = hh.val * 64 + i2.val; omega)
  have e3 : i0 = 0 := Fin.ext (by show i0.val = 0; omega)
  rw [e0, e1, e2, e3]
  exact hp i1 i2

-- a row block that occurs in `L` contains every index of its batch whose row lies in the block
theorem cover_row {L : List Pc} (b : Fin 2) (b0 : Nat) (hb : b.val = b0) (o1 : Nat)
    (inb : ∀ a, (![b0, o1, 0] : Fin 3 → Nat) a + S1x128x512.size a ≤ S2x512x512.size a) (p : FVec Ideal S1x128x512 .bf16)
    (hm : rowP b0 o1 inb p ∈ L) (i n : Fin 512) (h : o1 ≤ i.val ∧ i.val < o1 + 128) : ∃ q ∈ L, ix3 b i n ∈ q.1.set :=
  ⟨_, hm, mem_unit_ix3 b0 o1 0 inb b i n ⟨⟨by omega, by omega⟩, h, Nat.zero_le _, by have := n.isLt; omega⟩⟩

theorem cover_col {L : List Pc} (b : Fin 2) (b0 : Nat) (hb : b.val = b0) (o2 : Nat)
    (inb : ∀ a, (![b0, 0, o2] : Fin 3 → Nat) a + S1x512x64.size a ≤ S2x512x512.size a) (p : FVec Ideal S1x512x64 .bf16)
    (hm : colP b0 o2 inb p ∈ L) (i n : Fin 512) (h : o2 ≤ n.val ∧ n.val < o2 + 64) : ∃ q ∈ L, ix3 b i n ∈ q.1.set :=
  ⟨_, hm, mem_unit_ix3 b0 0 o2 inb b i n ⟨⟨by omega, by omega⟩, ⟨Nat.zero_le _, by have := i.isLt; omega⟩, h⟩⟩

-- pieces that agree with `G` and cover batch `b`: a column block read back is that block of `G`
theorem colLd_eq (v : View sig .tc .vmem S2x512x512 .bf16) (L : List Pc) (hL : ∀ p ∈ L, Agrees G p) (b : Fin 2)
    (hc : ∀ i n : Fin 512, ∃ p ∈ L, ix3 b i n ∈ p.1.set) (hh : Fin 8) (o2 : Nat) (ho : o2 = hh.val * 64)
    (inb : ∀ a, (![b.val, 0, o2] : Fin 3 → Nat) a + S1x512x64.size a ≤ S2x512x512.size a) :
    IsCol G b hh (colLd v L b.val o2 inb) := fun i d =>
  readCov_of_agrees (Val := Elt Ideal) (e := EltTy.bf16) v G L hL b.val 0 o2 inb (0 : Fin 1) i d b i (col hh d) rfl
    (Nat.zero_add _).symm (by rw [ho]; rfl) (hc i (col hh d))

theorem rowLd_eq (v : View sig .tc .vmem S2x512x512 .bf16) (L : List Pc) (hL : ∀ p ∈ L, Agrees G p) (b : Fin 2)
    (hc : ∀ i n : Fin 512, ∃ p ∈ L, ix3 b i n ∈ p.1.set) (s : Fin 4) (o1 : Nat) (ho : o1 = s.val * 128)
    (inb : ∀ a, (![b.val, o1, 0] : Fin 3 → Nat) a + S1x128x512.size a ≤ S2x512x512.size a) (r : Fin 128) (f : Fin 512) :
    rowLd v L b.val o1 inb (ix3 (0 : Fin 1) r f) = G b (rowAt s r) f :=
  readCov_of_agrees (Val := Elt Ideal) (e := EltTy.bf16) v G L hL b.val o1 0 inb (0 : Fin 1) r f b (rowAt s r) f rfl
    (by rw [ho]; rfl) (Nat.zero_add _).symm (hc (rowAt s r) f)

theorem rows5_agrees (p00 p10 p01 p03 p02 : FVec Ideal S1x128x512 .bf16) (h00 : IsRow G 0 0 p00) (h10 : IsRow G 1 0 p10)
    (h01 : IsRow G 0 1 p01) (h03 : IsRow G 0 3 p03) (h02 : IsRow G 0 2 p02) :
    ∀ p ∈ rows5 p00 p10 p01 p03 p02, Agrees G p :=
  List.forall_mem_cons.mpr ⟨agrees_row G 0 256 0 rfl 2 rfl _ p02 h02,
    List.forall_mem_cons.mpr ⟨agrees_row G 0 384 0 rfl 3 rfl _ p03 h03,
    List.forall_mem_cons.mpr ⟨agrees_row G 0 128 0 rfl 1 rfl _ p01 h01,
    List.forall_mem_cons.mpr ⟨agrees_row G 1 0 1 rfl 0 rfl _ p10 h10,
    List.forall_mem_cons.mpr ⟨agrees_row G 0 0 0 rfl 0 rfl _ p00 h00, fun _ h => absurd h List.not_mem_nil⟩⟩⟩⟩⟩

theorem rows3_agrees (p11 p13 p12 : FVec Ideal S1x128x512 .bf16) (L : List Pc) (hL : ∀ p ∈ L, Agrees G p)
    (h11 : IsRow G 1 1 p11) (h13 : IsRow G 1 3 p13) (h12 : IsRow G 1 2 p12) : ∀ p ∈ rows3 p11 p13 p12 L, Agrees G p :=
  List.forall_mem_cons.mpr ⟨agrees_row G 1 256 1 rfl 2 rfl _ p12 h12,
    List.forall_mem_cons.mpr ⟨agrees_row G 1 384 1 rfl 3 rfl _ p13 h13,
    List.forall_mem_cons.mpr ⟨agrees_row G 1 128 1 rfl 1 rfl _ p11 h11, hL⟩⟩⟩

omit G in
theorem rows5_cover0 (p00 p10 p01 p03 p02 : FVec Ideal S1x128x512 .bf16) (i n : Fin 512) :
    ∃ p ∈ rows5 p00 p10 p01 p03 p02, ix3 (0 : Fin 2) i n ∈ p.1.set := by
  have hi := i.isLt
  have hc : i.val / 128 = 0 ∨ i.val / 128 = 1 ∨ i.val / 128 = 2 ∨ i.val / 128 = 3 := by omega
  rcases hc with hc | hc | hc | hc
  · exact cover_row 0 0 rfl 0 inb_S2x512x512_S1x128x512_0_0_0 p00 (by simp [rows5]) i n ⟨by omega, by omega⟩
  · exact cover_row 0 0 rfl 128 inb_S2x512x512_S1x128x512_0_128_0 p01 (by simp [rows5]) i n ⟨by omega, by omega⟩
  · exact cover_row 0 0 rfl 256 inb_S2x512x512_S1x128x512_0_256_0 p02 (by simp [rows5]) i n ⟨by omega, by omega⟩
  · exact cover_row 0 0 rfl 384 inb_S2x512x512_S1x128x512_0_384_0 p03 (by simp [rows5]) i n ⟨by omega, by omega⟩

theorem cols8_agrees (p0 p1 p2 p3 p4 p5 p6 p7 : FVec Ideal S1x512x64 .bf16) (h0 : IsCol G 0 0 p0) (h1 : IsCol G 0 1 p1)
    (h2 : IsCol G 0 2 p2) (h3 : IsCol G 0 3 p3) (h4 : IsCol G 0 4 p4) (h5 : IsCol G 0 5 p5) (h6 : IsCol G 0 6 p6)
    (h7 : IsCol G 0 7 p7) : ∀ p ∈ cols8 p0 p1 p2 p3 p4 p5 p6 p7, Agrees G p :=
  List.forall_mem_cons.mpr ⟨agrees_col G 0 448 0 rfl 7 rfl _ p7 h7,
    List.forall_mem_cons.mpr ⟨agrees_col G 0 384 0 rfl 6 rfl _ p6 h6,
    List.forall_mem_cons.mpr ⟨agrees_col G 0 320 0 rfl 5 rfl _ p5 h5,
    List.forall_mem_cons.mpr ⟨agrees_col G 0 256 0 rfl 4 rfl _ p4 h4,
    List.forall_mem_cons.mpr ⟨agrees_col G 0 192 0 rfl 3 rfl _ p3 h3,
    List.forall_mem_cons.mpr ⟨agrees_col G 0 128 0 rfl 2 rfl _ p2 h2,
    List.forall_mem_cons.mpr ⟨agrees_col G 0 64 0 rfl 1 rfl _ p1 h1,
    List.forall_mem_cons.mpr ⟨agrees_col G 0 0 0 rfl 0 rfl _ p0 h0, fun _ h => absurd h List.not_mem_nil⟩⟩⟩⟩⟩⟩⟩⟩

omit G in
theorem cols8_cover0 (p0 p1 p2 p3 p4 p5 p6 p7 : FVec Ideal S1x512x64 .bf16) (i n : Fin 512) :
    ∃ p ∈ cols8 p0 p1 p2 p3 p4 p5 p6 p7, ix3 (0 : Fin 2) i n ∈ p.1.set := by
  have hn := n.isLt
  have hc : n.val / 64 = 0 ∨ n.val / 64 = 1 ∨ n.val / 64 = 2 ∨ n.val / 64 = 3 ∨ n.val / 64 = 4 ∨ n.val / 64 = 5
      ∨ n.val / 64 = 6 ∨ n.val / 64 = 7 := by omega
  rcases hc with hc | hc | hc | hc | hc | hc | hc | hc
  · exact cover_col 0 0 rfl 0 inb_S2x512x512_S1x512x64_0_0_0 p0 (by simp [cols8]) i n ⟨by omega, by omega⟩
  · exact cover_col 0 0 rfl 64 inb_S2x512x512_S1x512x64_0_0_64 p1 (by simp [cols8]) i n ⟨by omega, by omega⟩
  · exact cover_col 0 0 rfl 128 inb_S2x512x512_S1x512x64_0_0_128 p2 (by simp [cols8]) i n ⟨by omega, by omega⟩
  · exact cover_col 0 0 rfl 192 inb_S2x512x512_S1x512x64_0_0_192 p3 (by simp [cols8]) i n ⟨by omega, by omega⟩
  · exact cover_col 0 0 rfl 256 inb_S2x512x512_S1x512x64_0_0_256 p4 (by simp [cols8]) i n ⟨by omega, by omega⟩
  · exact cover_col 0 0 rfl 320 inb_S2x512x512_S1x512x64_0_0_320 p5 (by simp [cols8]) i n ⟨by omega, by omega⟩
  · exact cover_col 0 0 rfl 384 inb_S2x512x512_S1x512x64_0_0_384 p6 (by simp [cols8]) i n ⟨by omega, by omega⟩
  · exact cover_col 0 0 rfl 448 inb_S2x512x512_S1x512x64_0_0_448 p7 (by simp [cols8]) i n ⟨by omega, by omega⟩

end Shapes

section Chain

variable {c : Fin 4} {xb : Fin 4 → Fin 2 → Fin 128 → Fin 512 → EReal}
  {Wqb Wkb Wvb Wob : Fin 4 → Fin 512 → Fin 512 → EReal}
  {vq vk vv vo : View sig .tc .vmem S2x512x512 .bf16}
  {vp : View sig .tc .vmem S2x128x512 .bf16}
  {w1 w2 w3 w4 : Vec Ideal S512x512 .f32}
  {o0 o1 xl0 xl1 xr0 xr1 xd0 xd1 : Vec Ideal S1x128x512 .bf16}
  {la1_0 la2_0 la3_0 : Vec Ideal S1x128x512 .bf16}
  (H : InOk c xb Wqb Wkb Wvb Wob w1 w2 w3 w4 o0 o1 xl0 xl1 xr0 xr1 xd0 xd1)
include H

theorem wF_q (e n : Fin 512) : wF w1 w3 w4 (ix2 e (PayProj.col3 0 n)) = Wqb c e n * eighth :=
  StageProj.fused_q c Wqb w1 w3 w4 H.hw1 e n

theorem wF_k (e n : Fin 512) : wF w1 w3 w4 (ix2 e (PayProj.col3 1 n)) = Wkb c e n :=
  StageProj.fused_k c Wkb w1 w3 w4 H.hw3 e n

theorem wF_v (e n : Fin 512) : wF w1 w3 w4 (ix2 e (PayProj.col3 2 n)) = Wvb c e n :=
  StageProj.fused_v c Wvb w1 w3 w4 H.hw4 e n

theorem wO_eq (f n : Fin 512) : wO w2 (ix2 f n) = Wob c f n :=
  StageProj.wo_cast c Wob w2 H.hw2 f n

theorem own1c_eq (r : Fin 128) (e : Fin 512) :
    k0_pay9 (F := Ideal) o1 (ix2 r e) = xb (srcDev c 0) 1 r e :=
  cast_slab H.hown1 r e

theorem qL5_agrees : ∀ p ∈ qL5 w1 w3 w4 o0 o1 xl0 xr0 xd0, Agrees (qLoc c xb Wqb) p :=
  rows5_agrees (qLoc c xb Wqb) _ _ _ _ _ (third_stage c xb 0 0 rfl (by decide) (cast_slab H.hown0) (wF_q H))
    (third_stage c xb 0 0 rfl (by decide) (own1c_eq H) (wF_q H))
    (third_stage c xb 0 0 rfl (by decide) (cast_slab H.hxl0) (wF_q H))
    (third_stage c xb 0 0 rfl (by decide) (cast_slab H.hxr0) (wF_q H))
    (third_stage c xb 0 0 rfl (by decide) (cast_slab H.hxd0) (wF_q H))

theorem kL5_agrees : ∀ p ∈ kL5 w1 w3 w4 o0 o1 xl0 xr0 xd0, Agrees (kLoc c xb Wkb) p :=
  rows5_agrees (kLoc c xb Wkb) _ _ _ _ _ (third_stage c xb 1 512 rfl (by decide) (cast_slab H.hown0) (wF_k H))
    (third_stage c xb 1 512 rfl (by decide) (own1c_eq H) (wF_k H))
    (third_stage c xb 1 512 rfl (by decide) (cast_slab H.hxl0) (wF_k H))
    (third_stage c xb 1 512 rfl (by decide) (cast_slab H.hxr0) (wF_k H))
    (third_stage c xb 1 512 rfl (by decide) (cast_slab H.hxd0) (wF_k H))

theorem vL5_agrees : ∀ p ∈ vL5 w1 w3 w4 o0 o1 xl0 xr0 xd0, Agrees (vLoc c xb Wvb) p :=
  rows5_agrees (vLoc c xb Wvb) _ _ _ _ _ (third_stage c xb 2 1024 rfl (by decide) (cast_slab H.hown0) (wF_v H))
    (third_stage c xb 2 1024 rfl (by decide) (own1c_eq H) (wF_v H))
    (third_stage c xb 2 1024 rfl (by decide) (cast_slab H.hxl0) (wF_v H))
    (third_stage c xb 2 1024 rfl (by decide) (cast_slab H.hxr0) (wF_v H))
    (third_stage c xb 2 1024 rfl (by decide) (cast_slab H.hxd0) (wF_v H))

theorem Q0_eq (hh : Fin 8) (o2 : Nat) (ho : o2 = hh.val * 64)
    (inb : ∀ a, (![0, 0, o2] : Fin 3 → Nat) a + S1x512x64.size a ≤ S2x512x512.size a) :
    IsCol (qLoc c xb Wqb) 0 hh (Q0 vq w1 w3 w4 o0 o1 xl0 xr0 xd0 o2 inb) :=
  colLd_eq _ vq _ (qL5_agrees H) 0 (rows5_cover0 _ _ _ _ _) hh o2 ho inb
theorem K0_eq (hh : Fin 8) (o2 : Nat) (ho : o2 = hh.val * 64)
    (inb : ∀ a, (![0, 0, o2] : Fin 3 → Nat) a + S1x512x64.size a ≤ S2x512x512.size a) :
    IsCol (kLoc c xb Wkb) 0 hh (K0 vk w1 w3 w4 o0 o1 xl0 xr0 xd0 o2 inb) :=
  colLd_eq _ vk _ (kL5_agrees H) 0 (rows5_cover0 _ _ _ _ _) hh o2 ho inb
theorem V0_eq (hh : Fin 8) (o2 : Nat) (ho : o2 = hh.val * 64)
    (inb : ∀ a, (![0, 0, o2] : Fin 3 → Nat) a + S1x512x64.size a ≤ S2x512x512.size a) :
    IsCol (vLoc c xb Wvb) 0 hh (V0 vv w1 w3 w4 o0 o1 xl0 xr0 xd0 o2 inb) :=
  colLd_eq _ vv _ (vL5_agrees H) 0 (rows5_cover0 _ _ _ _ _) hh o2 ho inb

theorem oL8_agrees : ∀ p ∈ oL8 vq vk vv w1 w3 w4 o0 o1 xl0 xr0 xd0, Agrees (oLoc c xb Wqb Wkb Wvb) p :=
  cols8_agrees (oLoc c xb Wqb Wkb Wvb) _ _ _ _ _ _ _ _
    (head_stage_o c xb Wqb Wkb Wvb 0 0 _ _ _ (Q0_eq H 0 0 rfl _) (K0_eq H 0 0 rfl _) (V0_eq H 0 0 rfl _))
    (head_stage_o c xb Wqb Wkb Wvb 0 1 _ _ _ (Q0_eq H 1 64 rfl _) (K0_eq H 1 64 rfl _) (V0_eq H 1 64 rfl _))
    (head_stage_o c xb Wqb Wkb Wvb 0 2 _ _ _ (Q0_eq H 2 128 rfl _) (K0_eq H 2 128 rfl _) (V0_eq H 2 128 rfl _))
    (head_stage_o c xb Wqb Wkb Wvb 0 3 _ _ _ (Q0_eq H 3 192 rfl _) (K0_eq H 3 192 rfl _) (V0_eq H 3 192 rfl _))
    (head_stage_o c xb Wqb Wkb Wvb 0 4 _ _ _ (Q0_eq H 4 256 rfl _) (K0_eq H 4 256 rfl _) (V0_eq H 4 256 rfl _))
    (head_stage_o c xb Wqb Wkb Wvb 0 5 _ _ _ (Q0_eq H 5 320 rfl _) (K0_eq H 5 320 rfl _) (V0_eq H 5 320 rfl _))
    (head_stage_o c xb Wqb Wkb Wvb 0 6 _ _ _ (Q0_eq H 6 384 rfl _) (K0_eq H 6 384 rfl _) (V0_eq H 6 384 rfl _))
    (head_stage_o c xb Wqb Wkb Wvb 0 7 _ _ _ (Q0_eq H 7 448 rfl _) (K0_eq H 7 448 rfl _) (V0_eq H 7 448 rfl _))

theorem part0_2_eq (u : Fin 1) (r : Fin 128) (n : Fin 512) :
    part0_2 vq vk vv vo w1 w2 w3 w4 o0 o1 xl0 xr0 xd0 (ix3 u r n) = partOut c xb Wqb Wkb Wvb Wob 0 (rowAt 2 r) n :=
  oproj_stage c xb Wqb Wkb Wvb Wob (cast_slab
    (rowLd_eq _ vo _ (oL8_agrees H) 0 (cols8_cover0 _ _ _ _ _ _ _ _) 2 256 rfl _)) (wO_eq H) u r n
theorem part0_1_eq (u : Fin 1) (r : Fin 128) (n : Fin 512) :
    part0_1 vq vk vv vo w1 w2 w3 w4 o0 o1 xl0 xr0 xd0 (ix3 u r n) = partOut c xb Wqb Wkb Wvb Wob 0 (rowAt 1 r) n :=
  oproj_stage c xb Wqb Wkb Wvb Wob (cast_slab
    (rowLd_eq _ vo _ (oL8_agrees H) 0 (cols8_cover0 _ _ _ _ _ _ _ _) 1 128 rfl _)) (wO_eq H) u r n
theorem part0_3_eq (u : Fin 1) (r : Fin 128) (n : Fin 512) :
    part0_3 vq vk vv vo w1 w2 w3 w4 o0 o1 xl0 xr0 xd0 (ix3 u r n) = partOut c xb Wqb Wkb Wvb Wob 0 (rowAt 3 r) n :=
  oproj_stage c xb Wqb Wkb Wvb Wob (cast_slab
    (rowLd_eq _ vo _ (oL8_agrees H) 0 (cols8_cover0 _ _ _ _ _ _ _ _) 3 384 rfl _)) (wO_eq H) u r n

variable (L : List Pc) (hL : ∀ p ∈ L, Agrees (oLoc c xb Wqb Wkb Wvb) p)
  (hc : ∀ i n : Fin 512, ∃ p ∈ L, ix3 (0 : Fin 2) i n ∈ p.1.set)
include hL hc

theorem part0_0_eq (u : Fin 1) (r : Fin 128) (n : Fin 512) :
    part0_0 vo w2 L (ix3 u r n) = partOut c xb Wqb Wkb Wvb Wob 0 (rowAt 0 r) n :=
  oproj_stage c xb Wqb Wkb Wvb Wob (cast_slab
    (rowLd_eq _ vo L hL 0 hc 0 0 rfl _)) (wO_eq H) u r n

theorem p0Ld0_eq (r : Fin 128) (n : Fin 512) :
    p0Ld0 vo vp w2 L (ix3 (0 : Fin 1) r n) = partOut c xb Wqb Wkb Wvb Wob 0 (rowAt 0 r) n :=
  (readCov_ix3 (Elt Ideal) vp _ 0 0 0 inb_S2x128x512_S1x128x512_0_0_0 (0 : Fin 1) r n (0 : Fin 2) r n rfl
    (Nat.zero_add _).symm (Nat.zero_add _).symm).trans <|
  (read_writes_cons_ix3_mem (Elt Ideal) vp vp.junk 0 0 0 inb_S2x128x512_S1x128x512_0_0_0 _ _ (0 : Fin 2) r n (0 : Fin 1) r n rfl
    (Nat.zero_add _).symm (Nat.zero_add _).symm).trans (part0_0_eq H L hL hc 0 r n)

theorem out0_eq
    (ha1 : ∀ r n, la1_0 (ix3 (0 : Fin 1) r n) = partOut (c + 1) xb Wqb Wkb Wvb Wob 0 (rowAt 1 r) n)
    (ha2 : ∀ r n, la2_0 (ix3 (0 : Fin 1) r n) = partOut (c + 3) xb Wqb Wkb Wvb Wob 0 (rowAt 3 r) n)
    (ha3 : ∀ r n, la3_0 (ix3 (0 : Fin 1) r n) = partOut (c + 2) xb Wqb Wkb Wvb Wob 0 (rowAt 2 r) n)
    (u : Fin 1) (r : Fin 128) (n : Fin 512) :
    out0 vo vp w2 la1_0 la2_0 la3_0 L (ix3 u r n) = kerOut c xb Wqb Wkb Wvb Wob 0 r n :=
  StageProj.pay80_stage c xb Wqb Wkb Wvb Wob (p0Ld0 vo vp w2 L) la1_0 la2_0 la3_0 0 (p0Ld0_eq H L hL hc) ha1 ha2 ha3 u r n

end Chain

end Cert.Dataflow

end
-- ==== Proof.WalkOP.lean ====
import proofs.«900760_g7700000000000761_dist_attn_self_mha_htp_ss_b2_sq128_skv128_d512_hq8_dh64_v7x_i4_f32_1_alg».proof.Proof.WritesRead

namespace Cert.WalkOP

open Idealize.ShloMosaic Idealize.ShloMosaic.ValueIdx Cert.WritesRead

variable {sig : RefSig} {κ : Kind} (Val : EltTy → Type)

section Loads

variable {sp : Space} {e : EltTy} {N n1 n2 : Nat} (v : View sig κ sp ⟨3, ![N, n1, n2]⟩ e) (g : v.ty.Contents Val)

theorem loadCov_head [∀ e, Nonempty (Val e)] (o0 : Nat) (ho0 : o0 < N)
    (inbL : ∀ a, (![o0, 0, 0] : Fin 3 → Nat) a + (![1, n1, n2] : Fin 3 → Nat) a ≤ (⟨3, ![N, n1, n2]⟩ : Shape).size a)
    (inbP : ∀ a, (![o0, 0, 0] : Fin 3 → Nat) a + (![1, n1, n2] : Fin 3 → Nat) a ≤ (⟨3, ![N, n1, n2]⟩ : Shape).size a)
    (w : (⟨3, ![1, n1, n2]⟩ : Shape).Idx → Val e) (ps : List (View.Piece Val ⟨3, ![N, n1, n2]⟩ e))
    (r : Fin n1) (n : Fin n2) :
    v.readCov (⟨Rect.unit (s := ⟨3, ![N, n1, n2]⟩) ![o0, 0, 0] ![1, n1, n2] inbP, w⟩ :: ps)
        (Rect.unit (s := ⟨3, ![N, n1, n2]⟩) ![o0, 0, 0] ![1, n1, n2] inbL).toLoadRect (ix3 (0 : Fin 1) r n)
      = w (ix3 (0 : Fin 1) r n) :=
  (readCov_ix3 Val v _ o0 0 0 inbL (0 : Fin 1) r n ⟨o0, ho0⟩ r n rfl (Nat.zero_add _).symm (Nat.zero_add _).symm).trans
    (read_writes_cons_ix3_mem Val v v.junk o0 0 0 inbP w ps ⟨o0, ho0⟩ r n (0 : Fin 1) r n rfl (Nat.zero_add _).symm
      (Nat.zero_add _).symm)

end Loads

section Slabs

variable {sp : Space} {e : EltTy} {N n1 n2 : Nat} (A : Memref sig κ sp ⟨3, ![N, n1, n2]⟩ e) (g : A.view.ty.Contents Val)

theorem slab_head (o0 : Nat) (ho0 : o0 < N)
    (inbS : ∀ a, (![o0, 0, 0] : Fin 3 → Nat) a + (![1, n1, n2] : Fin 3 → Nat) a ≤ (⟨3, ![N, n1, n2]⟩ : Shape).size a)
    (hr : ∀ a, (Rect.unit (s := ⟨3, ![N, n1, n2]⟩) ![o0, 0, 0] ![1, n1, n2] inbS).stride a = 1)
    (hq : (⟨3, ![1, n1, n2]⟩ : Shape).Squeezes ⟨2, ![n1, n2]⟩)
    (inbP : ∀ a, (![o0, 0, 0] : Fin 3 → Nat) a + (![1, n1, n2] : Fin 3 → Nat) a ≤ (⟨3, ![N, n1, n2]⟩ : Shape).size a)
    (w : (⟨3, ![1, n1, n2]⟩ : Shape).Idx → Val e) (ps : List (View.Piece Val ⟨3, ![N, n1, n2]⟩ e))
    (r : Fin n1) (n : Fin n2) :
    ((A.slice (Rect.unit (s := ⟨3, ![N, n1, n2]⟩) ![o0, 0, 0] ![1, n1, n2] inbS) hr).squeeze ⟨2, ![n1, n2]⟩ hq).view.read Val
        (A.view.writes Val g (⟨Rect.unit (s := ⟨3, ![N, n1, n2]⟩) ![o0, 0, 0] ![1, n1, n2] inbP, w⟩ :: ps)) (ix2 r n)
      = w (ix3 (0 : Fin 1) r n) :=
  (slab_read_ix2 Val A o0 inbS hr hq _ r n ⟨o0, ho0⟩ rfl).trans
    (read_writes_cons_ix3_mem Val A.view g o0 0 0 inbP w ps ⟨o0, ho0⟩ r n (0 : Fin 1) r n rfl (Nat.zero_add _).symm
      (Nat.zero_add _).symm)

theorem load_landed (o0 : Nat) (ho0 : o0 < N)
    (inbS : ∀ a, (![o0, 0, 0] : Fin 3 → Nat) a + (![1, n1, n2] : Fin 3 → Nat) a ≤ (⟨3, ![N, n1, n2]⟩ : Shape).size a)
    (hr : ∀ a, (Rect.unit (s := ⟨3, ![N, n1, n2]⟩) ![o0, 0, 0] ![1, n1, n2] inbS).stride a = 1)
    (hq : (⟨3, ![1, n1, n2]⟩ : Shape).Squeezes ⟨2, ![n1, n2]⟩)
    (inbL : ∀ a, (![o0, 0, 0] : Fin 3 → Nat) a + (![1, n1, n2] : Fin 3 → Nat) a ≤ (⟨3, ![N, n1, n2]⟩ : Shape).size a)
    (vv : (⟨2, ![n1, n2]⟩ : Shape).Idx → Val e)
    (hread : ((A.slice (Rect.unit (s := ⟨3, ![N, n1, n2]⟩) ![o0, 0, 0] ![1, n1, n2] inbS) hr).squeeze ⟨2, ![n1, n2]⟩ hq).view.read Val g = vv)
    (r : Fin n1) (n : Fin n2) :
    View.readAt Val A.view (Rect.unit (s := ⟨3, ![N, n1, n2]⟩) ![o0, 0, 0] ![1, n1, n2] inbL).toLoadRect g (ix3 (0 : Fin 1) r n)
      = vv (ix2 r n) :=
  (Cert.ViewRead.readAt_unit_ix3 Val A.view o0 0 0 inbL g (0 : Fin 1) r n ⟨o0, ho0⟩ r n rfl (Nat.zero_add _).symm (Nat.zero_add _).symm).trans <|
  (slab_read_ix2 Val A o0 inbS hr hq g r n ⟨o0, ho0⟩ rfl).symm.trans (congrFun hread (ix2 r n))

end Slabs

end Cert.WalkOP
-- ==== Proof.DataflowB1.lean ====
import proofs.«900760_g7700000000000761_dist_attn_self_mha_htp_ss_b2_sq128_skv128_d512_hq8_dh64_v7x_i4_f32_1_alg».proof.Proof.Dataflow
import proofs.«900760_g7700000000000761_dist_attn_self_mha_htp_ss_b2_sq128_skv128_d512_hq8_dh64_v7x_i4_f32_1_alg».proof.Proof.WalkOP

noncomputable section

namespace Cert.Dataflow

open Idealize.ShloMosaic Idealize.ShloMosaic.ValueIdx Cert.Spec Cert.ViewRead Cert.WritesRead
open Cert.KernelIdeal Cert.KernelIdeal.Gen Cert.KernelIdeal.PayProj Cert.KernelIdeal.StageProj Cert.KernelIdeal.StageHead

section Batch1

variable (c : Fin 4) (xb : Fin 4 → Fin 2 → Fin 128 → Fin 512 → EReal)
  (Wqb Wkb Wvb Wob : Fin 4 → Fin 512 → Fin 512 → EReal)
  (vq vk vv vo : View sig .tc .vmem S2x512x512 .bf16)
  (vp : View sig .tc .vmem S2x128x512 .bf16)
  (w1 w2 w3 w4 : Vec Ideal S512x512 .f32)
  (o0 o1 : Vec Ideal S1x128x512 .bf16) (xl0 xl1 xr0 xr1 xd0 xd1 : Vec Ideal S1x128x512 .bf16)
  (la1_0 la1_1 la2_0 la2_1 la3_0 la3_1 : Vec Ideal S1x128x512 .bf16)

def qP11 : FVec Ideal S1x128x512 .bf16 := k0_pay47 (F := Ideal) (wF w1 w3 w4) xl1
def kP11 : FVec Ideal S1x128x512 .bf16 := k0_pay48 (F := Ideal) (wF w1 w3 w4) xl1
def vP11 : FVec Ideal S1x128x512 .bf16 := k0_pay49 (F := Ideal) (wF w1 w3 w4) xl1
def qP13 : FVec Ideal S1x128x512 .bf16 := k0_pay51 (F := Ideal) (wF w1 w3 w4) xr1
def kP13 : FVec Ideal S1x128x512 .bf16 := k0_pay52 (F := Ideal) (wF w1 w3 w4) xr1
def vP13 : FVec Ideal S1x128x512 .bf16 := k0_pay54 (F := Ideal) (k0_pay53 (F := Ideal) (wF w1 w3 w4) xr1)
def qP12 : FVec Ideal S1x128x512 .bf16 := k0_pay56 (F := Ideal) (wF w1 w3 w4) xd1
def kP12 : FVec Ideal S1x128x512 .bf16 := k0_pay57 (F := Ideal) (wF w1 w3 w4) xd1
def vP12 : FVec Ideal S1x128x512 .bf16 := k0_pay58 (F := Ideal) (k0_pay55 (F := Ideal) (wF w1 w3 w4) xd1)

def qL8 : List Pc := rows3 (qP11 w1 w3 w4 xl1) (qP13 w1 w3 w4 xr1) (qP12 w1 w3 w4 xd1) (qL5 w1 w3 w4 o0 o1 xl0 xr0 xd0)

def kL8 : List Pc := rows3 (kP11 w1 w3 w4 xl1) (kP13 w1 w3 w4 xr1) (kP12 w1 w3 w4 xd1) (kL5 w1 w3 w4 o0 o1 xl0 xr0 xd0)

def vL8 : List Pc := rows3 (vP11 w1 w3 w4 xl1) (vP13 w1 w3 w4 xr1) (vP12 w1 w3 w4 xd1) (vL5 w1 w3 w4 o0 o1 xl0 xr0 xd0)

def Q1 (o2 : Nat) (inb : ∀ a, (![1, 0, o2] : Fin 3 → Nat) a + S1x512x64.size a ≤ S2x512x512.size a) : Vec Ideal S1x512x64 .bf16 :=
  colLd vq (qL8 w1 w3 w4 o0 o1 xl0 xl1 xr0 xr1 xd0 xd1) 1 o2 inb
def K1 (o2 : Nat) (inb : ∀ a, (![1, 0, o2] : Fin 3 → Nat) a + S1x512x64.size a ≤ S2x512x512.size a) : Vec Ideal S1x512x64 .bf16 :=
  colLd vk (kL8 w1 w3 w4 o0 o1 xl0 xl1 xr0 xr1 xd0 xd1) 1 o2 inb
def V1 (o2 : Nat) (inb : ∀ a, (![1, 0, o2] : Fin 3 → Nat) a + S1x512x64.size a ≤ S2x512x512.size a) : Vec Ideal S1x512x64 .bf16 :=
  colLd vv (vL8 w1 w3 w4 o0 o1 xl0 xl1 xr0 xr1 xd0 xd1) 1 o2 inb

def oP1_0 : FVec Ideal S1x512x64 .bf16 :=
  k0_pay59 (F := Ideal) (Q1 vq w1 w3 w4 o0 o1 xl0 xl1 xr0 xr1 xd0 xd1 0 inb_S2x512x512_S1x512x64_1_0_0) (K1 vk w1 w3 w4 o0 o1 xl0 xl1 xr0 xr1 xd0 xd1 0 inb_S2x512x512_S1x512x64_1_0_0) (V1 vv w1 w3 w4 o0 o1 xl0 xl1 xr0 xr1 xd0 xd1 0 inb_S2x512x512_S1x512x64_1_0_0)
def oP1_1 : FVec Ideal S1x512x64 .bf16 :=
  k0_pay62 (F := Ideal) (k0_pay60 (F := Ideal) (Q1 vq w1 w3 w4 o0 o1 xl0 xl1 xr0 xr1 xd0 xd1 64 inb_S2x512x512_S1x512x64_1_0_64)) (k0_pay61 (F := Ideal) (K1 vk w1 w3 w4 o0 o1 xl0 xl1 xr0 xr1 xd0 xd1 64 inb_S2x512x512_S1x512x64_1_0_64)) (V1 vv w1 w3 w4 o0 o1 xl0 xl1 xr0 xr1 xd0 xd1 64 inb_S2x512x512_S1x512x64_1_0_64)
def oP1_2 : FVec Ideal S1x512x64 .bf16 :=
  k0_pay64 (F := Ideal) (k0_pay63 (F := Ideal) (Q1 vq w1 w3 w4 o0 o1 xl0 xl1 xr0 xr1 xd0 xd1 128 inb_S2x512x512_S1x512x64_1_0_128) (K1 vk w1 w3 w4 o0 o1 xl0 xl1 xr0 xr1 xd0 xd1 128 inb_S2x512x512_S1x512x64_1_0_128) (V1 vv w1 w3 w4 o0 o1 xl0 xl1 xr0 xr1 xd0 xd1 128 inb_S2x512x512_S1x512x64_1_0_128))
def oP1_3 : FVec Ideal S1x512x64 .bf16 :=
  k0_pay65 (F := Ideal) (Q1 vq w1 w3 w4 o0 o1 xl0 xl1 xr0 xr1 xd0 xd1 192 inb_S2x512x512_S1x512x64_1_0_192) (K1 vk w1 w3 w4 o0 o1 xl0 xl1 xr0 xr1 xd0 xd1 192 inb_S2x512x512_S1x512x64_1_0_192) (V1 vv w1 w3 w4 o0 o1 xl0 xl1 xr0 xr1 xd0 xd1 192 inb_S2x512x512_S1x512x64_1_0_192)
def oP1_4 : FVec Ideal S1x512x64 .bf16 :=
  k0_pay69 (F := Ideal) (k0_pay66 (F := Ideal) (Q1 vq w1 w3 w4 o0 o1 xl0 xl1 xr0 xr1 xd0 xd1 256 inb_S2x512x512_S1x512x64_1_0_256)) (k0_pay67 (F := Ideal) (K1 vk w1 w3 w4 o0 o1 xl0 xl1 xr0 xr1 xd0 xd1 256 inb_S2x512x512_S1x512x64_1_0_256)) (k0_pay68 (F := Ideal) (V1 vv w1 w3 w4 o0 o1 xl0 xl1 xr0 xr1 xd0 xd1 256 inb_S2x512x512_S1x512x64_1_0_256))
def oP1_5 : FVec Ideal S1x512x64 .bf16 :=
  k0_pay71 (F := Ideal) (k0_pay70 (F := Ideal) (Q1 vq w1 w3 w4 o0 o1 xl0 xl1 xr0 xr1 xd0 xd1 320 inb_S2x512x512_S1x512x64_1_0_320) (K1 vk w1 w3 w4 o0 o1 xl0 xl1 xr0 xr1 xd0 xd1 320 inb_S2x512x512_S1x512x64_1_0_320) (V1 vv w1 w3 w4 o0 o1 xl0 xl1 xr0 xr1 xd0 xd1 320 inb_S2x512x512_S1x512x64_1_0_320))
def oP1_6 : FVec Ideal S1x512x64 .bf16 :=
  k0_pay72 (F := Ideal) (Q1 vq w1 w3 w4 o0 o1 xl0 xl1 xr0 xr1 xd0 xd1 384 inb_S2x512x512_S1x512x64_1_0_384) (K1 vk w1 w3 w4 o0 o1 xl0 xl1 xr0 xr1 xd0 xd1 384 inb_S2x512x512_S1x512x64_1_0_384) (V1 vv w1 w3 w4 o0 o1 xl0 xl1 xr0 xr1 xd0 xd1 384 inb_S2x512x512_S1x512x64_1_0_384)
def oP1_7 : FVec Ideal S1x512x64 .bf16 :=
  k0_pay75 (F := Ideal) (k0_pay73 (F := Ideal) (V1 vv w1 w3 w4 o0 o1 xl0 xl1 xr0 xr1 xd0 xd1 448 inb_S2x512x512_S1x512x64_1_0_448)) (k0_pay74 (F := Ideal) (Q1 vq w1 w3 w4 o0 o1 xl0 xl1 xr0 xr1 xd0 xd1 448 inb_S2x512x512_S1x512x64_1_0_448) (K1 vk w1 w3 w4 o0 o1 xl0 xl1 xr0 xr1 xd0 xd1 448 inb_S2x512x512_S1x512x64_1_0_448))

def cols8b (p0 p1 p2 p3 p4 p5 p6 p7 : FVec Ideal S1x512x64 .bf16) (L : List Pc) : List Pc :=
  colP 1 448 inb_S2x512x512_S1x512x64_1_0_448 p7 :: colP 1 384 inb_S2x512x512_S1x512x64_1_0_384 p6 ::
  colP 1 320 inb_S2x512x512_S1x512x64_1_0_320 p5 :: colP 1 256 inb_S2x512x512_S1x512x64_1_0_256 p4 ::
  colP 1 192 inb_S2x512x512_S1x512x64_1_0_192 p3 :: colP 1 128 inb_S2x512x512_S1x512x64_1_0_128 p2 ::
  colP 1 64 inb_S2x512x512_S1x512x64_1_0_64 p1 :: colP 1 0 inb_S2x512x512_S1x512x64_1_0_0 p0 :: L

def oL16 : List Pc :=
  cols8b (oP1_0 vq vk vv w1 w3 w4 o0 o1 xl0 xl1 xr0 xr1 xd0 xd1)
    (oP1_1 vq vk vv w1 w3 w4 o0 o1 xl0 xl1 xr0 xr1 xd0 xd1)
    (oP1_2 vq vk vv w1 w3 w4 o0 o1 xl0 xl1 xr0 xr1 xd0 xd1)
    (oP1_3 vq vk vv w1 w3 w4 o0 o1 xl0 xl1 xr0 xr1 xd0 xd1)
    (oP1_4 vq vk vv w1 w3 w4 o0 o1 xl0 xl1 xr0 xr1 xd0 xd1)
    (oP1_5 vq vk vv w1 w3 w4 o0 o1 xl0 xl1 xr0 xr1 xd0 xd1)
    (oP1_6 vq vk vv w1 w3 w4 o0 o1 xl0 xl1 xr0 xr1 xd0 xd1)
    (oP1_7 vq vk vv w1 w3 w4 o0 o1 xl0 xl1 xr0 xr1 xd0 xd1)
    (oL8 vq vk vv w1 w3 w4 o0 o1 xl0 xr0 xd0)

def part1_2 : FVec Ideal S1x128x512 .bf16 :=
  k0_pay76 (F := Ideal) (wO w2) (rowLd vo (oL16 vq vk vv w1 w3 w4 o0 o1 xl0 xl1 xr0 xr1 xd0 xd1) 1 256 inb_S2x512x512_S1x128x512_1_256_0)
def part1_1 : FVec Ideal S1x128x512 .bf16 :=
  k0_pay77 (F := Ideal) (wO w2) (rowLd vo (oL16 vq vk vv w1 w3 w4 o0 o1 xl0 xl1 xr0 xr1 xd0 xd1) 1 128 inb_S2x512x512_S1x128x512_1_128_0)
def part1_3 : FVec Ideal S1x128x512 .bf16 :=
  k0_pay78 (F := Ideal) (wO w2) (rowLd vo (oL16 vq vk vv w1 w3 w4 o0 o1 xl0 xl1 xr0 xr1 xd0 xd1) 1 384 inb_S2x512x512_S1x128x512_1_384_0)
def part1_0 : FVec Ideal S1x128x512 .bf16 :=
  k0_pay81 (F := Ideal) (wO w2) (rowLd vo (oL16 vq vk vv w1 w3 w4 o0 o1 xl0 xl1 xr0 xr1 xd0 xd1) 1 0 inb_S2x512x512_S1x128x512_1_0_0)

def p0L2 : List (View.Piece (Elt Ideal) S2x128x512 EltTy.bf16) :=
  ⟨Rect.unit (s := S2x128x512) ![1, 0, 0] S1x128x512.size inb_S2x128x512_S1x128x512_1_0_0, part1_0 vq vk vv vo w1 w2 w3 w4 o0 o1 xl0 xl1 xr0 xr1 xd0 xd1⟩ ::
    p0L1 vo w2 (oL16 vq vk vv w1 w3 w4 o0 o1 xl0 xl1 xr0 xr1 xd0 xd1)

def p0Ld1 : Vec Ideal S1x128x512 .bf16 :=
  vp.readCov (p0L2 vq vk vv vo w1 w2 w3 w4 o0 o1 xl0 xl1 xr0 xr1 xd0 xd1) (Rect.unit (s := S2x128x512) ![1, 0, 0] S1x128x512.size inb_S2x128x512_S1x128x512_1_0_0).toLoadRect

def out1 : FVec Ideal S1x128x512 .f32 :=
  k0_pay1 (F := Ideal) (k0_pay82 (F := Ideal) (p0Ld1 vq vk vv vo vp w1 w2 w3 w4 o0 o1 xl0 xl1 xr0 xr1 xd0 xd1) la1_1) la2_1 la3_1

end Batch1

section Agree

theorem rows8_cover1 (p00 p10 p01 p03 p02 p11 p13 p12 : FVec Ideal S1x128x512 .bf16) (i n : Fin 512) :
    ∃ p ∈ rows3 p11 p13 p12 (rows5 p00 p10 p01 p03 p02), ix3 (1 : Fin 2) i n ∈ p.1.set := by
  have hi := i.isLt
  have hc : i.val / 128 = 0 ∨ i.val / 128 = 1 ∨ i.val / 128 = 2 ∨ i.val / 128 = 3 := by omega
  rcases hc with hc | hc | hc | hc
  · exact cover_row 1 1 rfl 0 inb_S2x512x512_S1x128x512_1_0_0 p10 (by simp [rows3, rows5]) i n ⟨by omega, by omega⟩
  · exact cover_row 1 1 rfl 128 inb_S2x512x512_S1x128x512_1_128_0 p11 (by simp [rows3, rows5]) i n ⟨by omega, by omega⟩
  · exact cover_row 1 1 rfl 256 inb_S2x512x512_S1x128x512_1_256_0 p12 (by simp [rows3, rows5]) i n ⟨by omega, by omega⟩
  · exact cover_row 1 1 rfl 384 inb_S2x512x512_S1x128x512_1_384_0 p13 (by simp [rows3, rows5]) i n ⟨by omega, by omega⟩

theorem cols8b_agrees (G : Fin 2 → Fin 512 → Fin 512 → EReal) (p0 p1 p2 p3 p4 p5 p6 p7 : FVec Ideal S1x512x64 .bf16) (L : List Pc)
    (hL : ∀ p ∈ L, Agrees G p) (h0 : IsCol G 1 0 p0) (h1 : IsCol G 1 1 p1) (h2 : IsCol G 1 2 p2) (h3 : IsCol G 1 3 p3)
    (h4 : IsCol G 1 4 p4) (h5 : IsCol G 1 5 p5) (h6 : IsCol G 1 6 p6) (h7 : IsCol G 1 7 p7) :
    ∀ p ∈ cols8b p0 p1 p2 p3 p4 p5 p6 p7 L, Agrees G p :=
  List.forall_mem_cons.mpr ⟨agrees_col G 1 448 1 rfl 7 rfl _ p7 h7, List.forall_mem_cons.mpr ⟨agrees_col G 1 384 1 rfl 6 rfl _ p6 h6,
    List.forall_mem_cons.mpr ⟨agrees_col G 1 320 1 rfl 5 rfl _ p5 h5, List.forall_mem_cons.mpr ⟨agrees_col G 1 256 1 rfl 4 rfl _ p4 h4,
    List.forall_mem_cons.mpr ⟨agrees_col G 1 192 1 rfl 3 rfl _ p3 h3, List.forall_mem_cons.mpr ⟨agrees_col G 1 128 1 rfl 2 rfl _ p2 h2,
    List.forall_mem_cons.mpr ⟨agrees_col G 1 64 1 rfl 1 rfl _ p1 h1, List.forall_mem_cons.mpr ⟨agrees_col G 1 0 1 rfl 0 rfl _ p0 h0, hL⟩⟩⟩⟩⟩⟩⟩⟩

theorem cols8b_cover1 (p0 p1 p2 p3 p4 p5 p6 p7 : FVec Ideal S1x512x64 .bf16) (L : List Pc) (i n : Fin 512) :
    ∃ p ∈ cols8b p0 p1 p2 p3 p4 p5 p6 p7 L, ix3 (1 : Fin 2) i n ∈ p.1.set := by
  have hn := n.isLt
  have hc : n.val / 64 = 0 ∨ n.val / 64 = 1 ∨ n.val / 64 = 2 ∨ n.val / 64 = 3 ∨ n.val / 64 = 4 ∨ n.val / 64 = 5
      ∨ n.val / 64 = 6 ∨ n.val / 64 = 7 := by omega
  rcases hc with hc | hc | hc | hc | hc | hc | hc | hc
  · exact cover_col 1 1 rfl 0 inb_S2x512x512_S1x512x64_1_0_0 p0 (by simp [cols8b]) i n ⟨by omega, by omega⟩
  · exact cover_col 1 1 rfl 64 inb_S2x512x512_S1x512x64_1_0_64 p1 (by simp [cols8b]) i n ⟨by omega, by omega⟩
  · exact cover_col 1 1 rfl 128 inb_S2x512x512_S1x512x64_1_0_128 p2 (by simp [cols8b]) i n ⟨by omega, by omega⟩
  · exact cover_col 1 1 rfl 192 inb_S2x512x512_S1x512x64_1_0_192 p3 (by simp [cols8b]) i n ⟨by omega, by omega⟩
  · exact cover_col 1 1 rfl 256 inb_S2x512x512_S1x512x64_1_0_256 p4 (by simp [cols8b]) i n ⟨by omega, by omega⟩
  · exact cover_col 1 1 rfl 320 inb_S2x512x512_S1x512x64_1_0_320 p5 (by simp [cols8b]) i n ⟨by omega, by omega⟩
  · exact cover_col 1 1 rfl 384 inb_S2x512x512_S1x512x64_1_0_384 p6 (by simp [cols8b]) i n ⟨by omega, by omega⟩
  · exact cover_col 1 1 rfl 448 inb_S2x512x512_S1x512x64_1_0_448 p7 (by simp [cols8b]) i n ⟨by omega, by omega⟩

theorem cols8b_cover_of (p0 p1 p2 p3 p4 p5 p6 p7 : FVec Ideal S1x512x64 .bf16) (L : List Pc) (y : S2x512x512.Idx)
    (h : ∃ p ∈ L, y ∈ p.1.set) : ∃ p ∈ cols8b p0 p1 p2 p3 p4 p5 p6 p7 L, y ∈ p.1.set := by
  obtain ⟨p, hp, hy⟩ := h
  exact ⟨p, by simp [cols8b, hp], hy⟩

end Agree

section Chain1

variable {c : Fin 4} {xb : Fin 4 → Fin 2 → Fin 128 → Fin 512 → EReal}
  {Wqb Wkb Wvb Wob : Fin 4 → Fin 512 → Fin 512 → EReal}
  {vq vk vv vo : View sig .tc .vmem S2x512x512 .bf16}
  {vp : View sig .tc .vmem S2x128x512 .bf16}
  {w1 w2 w3 w4 : Vec Ideal S512x512 .f32}
  {o0 o1 : Vec Ideal S1x128x512 .bf16} {xl0 xl1 xr0 xr1 xd0 xd1 : Vec Ideal S1x128x512 .bf16}
  {la1_1 la2_1 la3_1 : Vec Ideal S1x128x512 .bf16}
  (H : InOk c xb Wqb Wkb Wvb Wob w1 w2 w3 w4 o0 o1 xl0 xl1 xr0 xr1 xd0 xd1)
include H

theorem qL8_agrees : ∀ p ∈ qL8 w1 w3 w4 o0 o1 xl0 xl1 xr0 xr1 xd0 xd1, Agrees (qLoc c xb Wqb) p :=
  rows3_agrees (qLoc c xb Wqb) _ _ _ _ (qL5_agrees H) (third_stage c xb 0 0 rfl (by decide) (cast_slab H.hxl1) (wF_q H))
    (third_stage c xb 0 0 rfl (by decide) (cast_slab H.hxr1) (wF_q H)) (third_stage c xb 0 0 rfl (by decide) (cast_slab H.hxd1) (wF_q H))
theorem kL8_agrees : ∀ p ∈ kL8 w1 w3 w4 o0 o1 xl0 xl1 xr0 xr1 xd0 xd1, Agrees (kLoc c xb Wkb) p :=
  rows3_agrees (kLoc c xb Wkb) _ _ _ _ (kL5_agrees H) (third_stage c xb 1 512 rfl (by decide) (cast_slab H.hxl1) (wF_k H))
    (third_stage c xb 1 512 rfl (by decide) (cast_slab H.hxr1) (wF_k H)) (third_stage c xb 1 512 rfl (by decide) (cast_slab H.hxd1) (wF_k H))
theorem vL8_agrees : ∀ p ∈ vL8 w1 w3 w4 o0 o1 xl0 xl1 xr0 xr1 xd0 xd1, Agrees (vLoc c xb Wvb) p :=
  rows3_agrees (vLoc c xb Wvb) _ _ _ _ (vL5_agrees H) (third_stage c xb 2 1024 rfl (by decide) (cast_slab H.hxl1) (wF_v H))
    (third_stage c xb 2 1024 rfl (by decide) (cast_slab H.hxr1) (wF_v H)) (third_stage c xb 2 1024 rfl (by decide) (cast_slab H.hxd1) (wF_v H))

theorem Q1_eq (hh : Fin 8) (o2 : Nat) (ho : o2 = hh.val * 64)
    (inb : ∀ a, (![1, 0, o2] : Fin 3 → Nat) a + S1x512x64.size a ≤ S2x512x512.size a) :
    IsCol (qLoc c xb Wqb) 1 hh (Q1 vq w1 w3 w4 o0 o1 xl0 xl1 xr0 xr1 xd0 xd1 o2 inb) :=
  colLd_eq _ vq _ (qL8_agrees H) 1 (rows8_cover1 _ _ _ _ _ _ _ _) hh o2 ho inb
theorem K1_eq (hh : Fin 8) (o2 : Nat) (ho : o2 = hh.val * 64)
    (inb : ∀ a, (![1, 0, o2] : Fin 3 → Nat) a + S1x512x64.size a ≤ S2x512x512.size a) :
    IsCol (kLoc c xb Wkb) 1 hh (K1 vk w1 w3 w4 o0 o1 xl0 xl1 xr0 xr1 xd0 xd1 o2 inb) :=
  colLd_eq _ vk _ (kL8_agrees H) 1 (rows8_cover1 _ _ _ _ _ _ _ _) hh o2 ho inb
theorem V1_eq (hh : Fin 8) (o2 : Nat) (ho : o2 = hh.val * 64)
    (inb : ∀ a, (![1, 0, o2] : Fin 3 → Nat) a + S1x512x64.size a ≤ S2x512x512.size a) :
    IsCol (vLoc c xb Wvb) 1 hh (V1 vv w1 w3 w4 o0 o1 xl0 xl1 xr0 xr1 xd0 xd1 o2 inb) :=
  colLd_eq _ vv _ (vL8_agrees H) 1 (rows8_cover1 _ _ _ _ _ _ _ _) hh o2 ho inb

theorem oL16_agrees : ∀ p ∈ oL16 vq vk vv w1 w3 w4 o0 o1 xl0 xl1 xr0 xr1 xd0 xd1, Agrees (oLoc c xb Wqb Wkb Wvb) p :=
  cols8b_agrees (oLoc c xb Wqb Wkb Wvb) _ _ _ _ _ _ _ _ _ (oL8_agrees H)
    (head_stage_o c xb Wqb Wkb Wvb 1 0 _ _ _ (Q1_eq H 0 0 rfl _) (K1_eq H 0 0 rfl _) (V1_eq H 0 0 rfl _))
    (head_stage_o c xb Wqb Wkb Wvb 1 1 _ _ _ (Q1_eq H 1 64 rfl _) (K1_eq H 1 64 rfl _) (V1_eq H 1 64 rfl _))
    (head_stage_o c xb Wqb Wkb Wvb 1 2 _ _ _ (Q1_eq H 2 128 rfl _) (K1_eq H 2 128 rfl _) (V1_eq H 2 128 rfl _))
    (head_stage_o c xb Wqb Wkb Wvb 1 3 _ _ _ (Q1_eq H 3 192 rfl _) (K1_eq H 3 192 rfl _) (V1_eq H 3 192 rfl _))
    (head_stage_o c xb Wqb Wkb Wvb 1 4 _ _ _ (Q1_eq H 4 256 rfl _) (K1_eq H 4 256 rfl _) (V1_eq H 4 256 rfl _))
    (head_stage_o c xb Wqb Wkb Wvb 1 5 _ _ _ (Q1_eq H 5 320 rfl _) (K1_eq H 5 320 rfl _) (V1_eq H 5 320 rfl _))
    (head_stage_o c xb Wqb Wkb Wvb 1 6 _ _ _ (Q1_eq H 6 384 rfl _) (K1_eq H 6 384 rfl _) (V1_eq H 6 384 rfl _))
    (head_stage_o c xb Wqb Wkb Wvb 1 7 _ _ _ (Q1_eq H 7 448 rfl _) (K1_eq H 7 448 rfl _) (V1_eq H 7 448 rfl _))

omit H in
theorem oL16_cover0 (i n : Fin 512) : ∃ p ∈ oL16 vq vk vv w1 w3 w4 o0 o1 xl0 xl1 xr0 xr1 xd0 xd1, ix3 (0 : Fin 2) i n ∈ p.1.set :=
  cols8b_cover_of _ _ _ _ _ _ _ _ _ _ (cols8_cover0 _ _ _ _ _ _ _ _ i n)

theorem part1_2_eq (u : Fin 1) (r : Fin 128) (n : Fin 512) :
    part1_2 vq vk vv vo w1 w2 w3 w4 o0 o1 xl0 xl1 xr0 xr1 xd0 xd1 (ix3 u r n) = partOut c xb Wqb Wkb Wvb Wob 1 (rowAt 2 r) n :=
  oproj_stage c xb Wqb Wkb Wvb Wob (cast_slab
    (rowLd_eq _ vo _ (oL16_agrees H) 1 (cols8b_cover1 _ _ _ _ _ _ _ _ _) 2 256 rfl _)) (wO_eq H) u r n
theorem part1_1_eq (u : Fin 1) (r : Fin 128) (n : Fin 512) :
    part1_1 vq vk vv vo w1 w2 w3 w4 o0 o1 xl0 xl1 xr0 xr1 xd0 xd1 (ix3 u r n) = partOut c xb Wqb Wkb Wvb Wob 1 (rowAt 1 r) n :=
  oproj_stage c xb Wqb Wkb Wvb Wob (cast_slab
    (rowLd_eq _ vo _ (oL16_agrees H) 1 (cols8b_cover1 _ _ _ _ _ _ _ _ _) 1 128 rfl _)) (wO_eq H) u r n
theorem part1_3_eq (u : Fin 1) (r : Fin 128) (n : Fin 512) :
    part1_3 vq vk vv vo w1 w2 w3 w4 o0 o1 xl0 xl1 xr0 xr1 xd0 xd1 (ix3 u r n) = partOut c xb Wqb Wkb Wvb Wob 1 (rowAt 3 r) n :=
  oproj_stage c xb Wqb Wkb Wvb Wob (cast_slab
    (rowLd_eq _ vo _ (oL16_agrees H) 1 (cols8b_cover1 _ _ _ _ _ _ _ _ _) 3 384 rfl _)) (wO_eq H) u r n
theorem part1_0_eq (u : Fin 1) (r : Fin 128) (n : Fin 512) :
    part1_0 vq vk vv vo w1 w2 w3 w4 o0 o1 xl0 xl1 xr0 xr1 xd0 xd1 (ix3 u r n) = partOut c xb Wqb Wkb Wvb Wob 1 (rowAt 0 r) n :=
  oproj_stage c xb Wqb Wkb Wvb Wob (cast_slab
    (rowLd_eq _ vo _ (oL16_agrees H) 1 (cols8b_cover1 _ _ _ _ _ _ _ _ _) 0 0 rfl _)) (wO_eq H) u r n

theorem out0_eq16 {la1_0 la2_0 la3_0 : Vec Ideal S1x128x512 .bf16}
    (ha1 : ∀ r n, la1_0 (ix3 (0 : Fin 1) r n) = partOut (c + 1) xb Wqb Wkb Wvb Wob 0 (rowAt 1 r) n)
    (ha2 : ∀ r n, la2_0 (ix3 (0 : Fin 1) r n) = partOut (c + 3) xb Wqb Wkb Wvb Wob 0 (rowAt 3 r) n)
    (ha3 : ∀ r n, la3_0 (ix3 (0 : Fin 1) r n) = partOut (c + 2) xb Wqb Wkb Wvb Wob 0 (rowAt 2 r) n)
    (u : Fin 1) (r : Fin 128) (n : Fin 512) :
    out0 vo vp w2 la1_0 la2_0 la3_0 (oL16 vq vk vv w1 w3 w4 o0 o1 xl0 xl1 xr0 xr1 xd0 xd1) (ix3 u r n) = kerOut c xb Wqb Wkb Wvb Wob 0 r n :=
  out0_eq H _ (oL16_agrees H) oL16_cover0 ha1 ha2 ha3 u r n

omit H in
theorem p0Ld1_eq (r : Fin 128) (n : Fin 512) :
    p0Ld1 vq vk vv vo vp w1 w2 w3 w4 o0 o1 xl0 xl1 xr0 xr1 xd0 xd1 (ix3 (0 : Fin 1) r n)
      = part1_0 vq vk vv vo w1 w2 w3 w4 o0 o1 xl0 xl1 xr0 xr1 xd0 xd1 (ix3 (0 : Fin 1) r n) :=
  Cert.WalkOP.loadCov_head (Elt Ideal) vp 1 (by decide) inb_S2x128x512_S1x128x512_1_0_0 inb_S2x128x512_S1x128x512_1_0_0 _ _ r n

theorem out1_eq
    (h1 : ∀ r n, la1_1 (ix3 (0 : Fin 1) r n) = partOut (c + 1) xb Wqb Wkb Wvb Wob 1 (rowAt 1 r) n)
    (h2 : ∀ r n, la2_1 (ix3 (0 : Fin 1) r n) = partOut (c + 3) xb Wqb Wkb Wvb Wob 1 (rowAt 3 r) n)
    (h3 : ∀ r n, la3_1 (ix3 (0 : Fin 1) r n) = partOut (c + 2) xb Wqb Wkb Wvb Wob 1 (rowAt 2 r) n)
    (u : Fin 1) (r : Fin 128) (n : Fin 512) :
    out1 vq vk vv vo vp w1 w2 w3 w4 o0 o1 xl0 xl1 xr0 xr1 xd0 xd1 la1_1 la2_1 la3_1 (ix3 u r n)
      = kerOut c xb Wqb Wkb Wvb Wob 1 r n :=
  StageProj.pay1_82_stage c xb Wqb Wkb Wvb Wob _ la1_1 la2_1 la3_1 1
    (fun r n => (p0Ld1_eq (vq := vq) (vk := vk) (vv := vv) (vo := vo) (vp := vp) r n).trans (part1_0_eq H 0 r n)) h1 h2 h3 u r n

end Chain1

end Cert.Dataflow

end
-- ==== Proof.FiniteInputs.lean ====
import proofs.«900760_g7700000000000761_dist_attn_self_mha_htp_ss_b2_sq128_skv128_d512_hq8_dh64_v7x_i4_f32_1_alg».proof.Defs
import proofs.«900760_g7700000000000761_dist_attn_self_mha_htp_ss_b2_sq128_skv128_d512_hq8_dh64_v7x_i4_f32_1_alg».proof.Proof.Gen.Pre_finite_inputs_Kernel
import Idealize.ShloMosaic.Lib.ValueIdx
import Idealize.ShloMosaic.Lib.ReduceAll
import Idealize.ShloMosaic.PureOps.Ideal.Laws

noncomputable section

namespace Cert.FiniteInputs

open Idealize.ShloMosaic Idealize.SL.Sem

instance : Subsingleton (⟨0, ![]⟩ : Shape).Idx := ⟨fun a b => funext fun d => d.elim0⟩

theorem ofBits_inf : Ideal.ofBits .f32 0x7F800000#32 = (⊤ : EReal) := by
  simp [Ideal.ofBits, Ideal.ieee]

theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf] at h'
  unfold Ideal.cmp at h'
  induction x using EReal.rec with
  | bot => simp at h'
  | coe r => exact ⟨r, rfl⟩
  | top => simp at h'

theorem all_real {s : Shape} (hb : (⟨0, ![]⟩ : Shape).BroadcastsInDim s (![] : Fin 0 → Fin s.rank))
    {axes : List (Fin s.rank)} (hr : s.ReducesTo axes ⟨0, ![]⟩) (hu : 0 < (⟨0, ![]⟩ : Shape).numel)
    (x : FVec Ideal s .f32) (init : IVec ⟨0, ![]⟩ 1)
    (e : Host.reduce IntOp.andi
      (cmpf .olt (Host.absf x) (broadcastInDim s ![] hb (constant (F := Ideal) ⟨0, ![]⟩ .f32 0x7F800000#32)))
      init hr hu ValueIdx.ix0 = 1#1) (i : s.Idx) : ∃ r : ℝ, x i = (r : EReal) :=
  real_of_abs_lt_inf (x i) (Host.reduce_andi_all _ init hr hu ValueIdx.ix0 e i)

open Cert.KernelIdeal in

theorem finite_args (m : (ℓ : Loc nD τ sig) → Buf (Elt Ideal) ℓ) (hpre : Cert.Pre_KernelIdeal m) (c : Dev nD) :
    (∀ i : S2x128x512.Idx, ∃ r : ℝ, (m ((c.tc : Thread nD τ).loc main_arg0) : (⟨S2x128x512, .f32⟩ : BufTy).Contents (Elt Ideal)) i = (r : EReal))
    ∧ (∀ i : S512x512.Idx, ∃ r : ℝ, (m ((c.tc : Thread nD τ).loc main_arg1) : (⟨S512x512, .f32⟩ : BufTy).Contents (Elt Ideal)) i = (r : EReal))
    ∧ (∀ i : S512x512.Idx, ∃ r : ℝ, (m ((c.tc : Thread nD τ).loc main_arg2) : (⟨S512x512, .f32⟩ : BufTy).Contents (Elt Ideal)) i = (r : EReal))
    ∧ (∀ i : S512x512.Idx, ∃ r : ℝ, (m ((c.tc : Thread nD τ).loc main_arg3) : (⟨S512x512, .f32⟩ : BufTy).Contents (Elt Ideal)) i = (r : EReal))
    ∧ (∀ i : S512x512.Idx, ∃ r : ℝ, (m ((c.tc : Thread nD τ).loc main_arg4) : (⟨S512x512, .f32⟩ : BufTy).Contents (Elt Ideal)) i = (r : EReal)) := by
  have h := congrFun (hpre c) ValueIdx.ix0
  dsimp only [Cert.Pre_finite_inputs_Kernel.fn, Cert.Pre_finite_inputs_Kernel.fn_part1] at h
  obtain ⟨h0123, h4⟩ := IntOp.andi_eq_one.1 h
  obtain ⟨h012, h3⟩ := IntOp.andi_eq_one.1 h0123
  obtain ⟨h01, h2⟩ := IntOp.andi_eq_one.1 h012
  obtain ⟨h0, h1⟩ := IntOp.andi_eq_one.1 h01
  exact ⟨all_real _ _ _ _ _ h0, all_real _ _ _ _ _ h1, all_real _ _ _ _ _ h2, all_real _ _ _ _ _ h3,
    all_real _ _ _ _ _ h4⟩

end Cert.FiniteInputs

end
-- ==== Proof.BlockBridge.lean ====
import proofs.«900760_g7700000000000761_dist_attn_self_mha_htp_ss_b2_sq128_skv128_d512_hq8_dh64_v7x_i4_f32_1_alg».proof.Proof.Spec
import Idealize.ShloMosaic.Lib.Layout
import Idealize.ShloMosaic.Lib.ValueIdx

noncomputable section

namespace Cert.BlockBridge

open Idealize.ShloMosaic Idealize.ShloMosaic.ValueIdx Cert.Spec

def arr3 (X : (⟨3, ![2, 512, 512]⟩ : Shape).Idx → EReal) : Fin 2 → Fin 512 → Fin 512 → EReal :=
  fun b i e => X (ix3 b i e)

def arrW (W : (⟨2, ![512, 2048]⟩ : Shape).Idx → EReal) : Fin 512 → Fin 2048 → EReal :=
  fun e f => W (ix2 e f)

def arrWo (W : (⟨2, ![2048, 512]⟩ : Shape).Idx → EReal) : Fin 2048 → Fin 512 → EReal :=
  fun f n => W (ix2 f n)

theorem block_seq_eq_xBlk (X : (⟨3, ![2, 512, 512]⟩ : Shape).Idx → EReal) (c : Fin 4)
    (h : Layout.Tiles ⟨3, ![2, 128, 512]⟩ ⟨3, ![2, 512, 512]⟩ 1 4) (b : Fin 2) (r : Fin 128) (e : Fin 512) :
    Layout.block ⟨3, ![2, 128, 512]⟩ ⟨3, ![2, 512, 512]⟩ 1 4 c X h (ix3 b r e) = xBlk (arr3 X) c b r e :=
  congrArg X (eq_ix3 (h.idx c _))

theorem block_cols_eq_colBlk (W : (⟨2, ![512, 2048]⟩ : Shape).Idx → EReal) (c : Fin 4)
    (h : Layout.Tiles ⟨2, ![512, 512]⟩ ⟨2, ![512, 2048]⟩ 1 4) (e n : Fin 512) :
    Layout.block ⟨2, ![512, 512]⟩ ⟨2, ![512, 2048]⟩ 1 4 c W h (ix2 e n) = colBlk (arrW W) c e n :=
  congrArg W (eq_ix2 (h.idx c _))

theorem block_rows_eq_rowBlk (W : (⟨2, ![2048, 512]⟩ : Shape).Idx → EReal) (c : Fin 4)
    (h : Layout.Tiles ⟨2, ![512, 512]⟩ ⟨2, ![2048, 512]⟩ 0 4) (f n : Fin 512) :
    Layout.block ⟨2, ![512, 512]⟩ ⟨2, ![2048, 512]⟩ 0 4 c W h (ix2 f n) = rowBlk (arrWo W) c f n :=
  congrArg W (eq_ix2 (h.idx c _))

theorem eq_block_of_formula (out : (⟨3, ![2, 128, 512]⟩ : Shape).Idx → EReal) (R : Fin 2 → Fin 512 → Fin 512 → EReal)
    (c : Fin 4) (h : Layout.Tiles ⟨3, ![2, 128, 512]⟩ ⟨3, ![2, 512, 512]⟩ 1 4)
    (hout : ∀ (b : Fin 2) (r : Fin 128) (n : Fin 512), out (ix3 b r n) = R b (rowAt c r) n) :
    out = Layout.block ⟨3, ![2, 128, 512]⟩ ⟨3, ![2, 512, 512]⟩ 1 4 c (fun j => R (j 0) (j 1) (j 2)) h := by
  funext i
  rw [eq_ix3 i]
  exact hout _ _ _

end Cert.BlockBridge

end
-- ==== Proof.LibRealVariance.lean ====
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.BigOperators.Group.Finset.Sigma

noncomputable section

namespace Cert.Alg

open Idealize.ShloMosaic
open scoped BigOperators

def IsReal (x : EReal) : Prop := ∃ r : ℝ, x = (r : EReal)

namespace IsReal

theorem coe (r : ℝ) : IsReal (r : EReal) := ⟨r, rfl⟩

theorem add {x y : EReal} : IsReal x → IsReal y → IsReal (x + y) := by
  rintro ⟨a, rfl⟩ ⟨b, rfl⟩
  exact ⟨a + b, rfl⟩

theorem mul {x y : EReal} : IsReal x → IsReal y → IsReal (x * y) := by
  rintro ⟨a, rfl⟩ ⟨b, rfl⟩
  exact ⟨a * b, rfl⟩

theorem sum {ι : Type*} [Fintype ι] (a : ι → EReal) (h : ∀ i, IsReal (a i)) : IsReal (∑ i, a i) :=
  Finset.sum_induction _ _ (fun _ _ => add) ⟨0, rfl⟩ fun i _ => h i

theorem div {x y : EReal} (hx : IsReal x) (hy : IsReal y) (hy0 : y ≠ 0) : IsReal (Ideal.div x y) := by
  obtain ⟨b, rfl⟩ := hy
  rw [Ideal.div_coe fun h => hy0 (by rw [h]; rfl)]
  exact mul hx (coe _)

end IsReal

theorem isReal_iff (x : EReal) : IsReal x ↔ x ≠ ⊤ ∧ x ≠ ⊥ :=
  ⟨by rintro ⟨r, rfl⟩; exact ⟨EReal.coe_ne_top r, EReal.coe_ne_bot r⟩,
    fun ⟨ht, hb⟩ => ⟨x.toReal, (EReal.coe_toReal ht hb).symm⟩⟩

theorem coe_finset_sum {ι : Type*} (s : Finset ι) (r : ι → ℝ) :
    ((∑ i ∈ s, r i : ℝ) : EReal) = ∑ i ∈ s, (r i : EReal) :=
  map_sum (⟨⟨(↑), rfl⟩, EReal.coe_add⟩ : ℝ →+ EReal) r s

theorem sum_regroup {α β γ M : Type*} [Fintype α] [Fintype β] [Fintype γ] [AddCommMonoid M]
    (e : α × β ≃ γ) (f : γ → M) : ∑ x, ∑ y, f (e (x, y)) = ∑ k, f k := by
  rw [← Fintype.sum_prod_type (fun p : α × β => f (e p))]
  exact Fintype.sum_equiv e _ _ fun _ => rfl

end Cert.Alg

end
-- ==== Proof.SpecMath.lean ====
import proofs.«900760_g7700000000000761_dist_attn_self_mha_htp_ss_b2_sq128_skv128_d512_hq8_dh64_v7x_i4_f32_1_alg».proof.Proof.Spec
import proofs.«900760_g7700000000000761_dist_attn_self_mha_htp_ss_b2_sq128_skv128_d512_hq8_dh64_v7x_i4_f32_1_alg».proof.Proof.LibRealVariance
import Mathlib.Data.Finset.Fold
import Mathlib.Data.Fintype.Card
import Mathlib.Logic.Equiv.Fin.Basic
import Mathlib.Algebra.BigOperators.Fin
import Mathlib.Algebra.Order.BigOperators.Group.Finset
import Mathlib.Analysis.SpecialFunctions.Exp
import Mathlib.Tactic.FieldSimp
import Mathlib.Tactic.Ring
import Mathlib.Tactic.Abel

noncomputable section

namespace Cert.SpecMath

open Idealize.ShloMosaic Cert.Alg
open scoped BigOperators

theorem sum_mul_scale {ι : Type*} [Fintype ι] (a w : ι → EReal) (k : EReal)
    (ha : ∀ e, IsReal (a e)) (hw : ∀ e, IsReal (w e)) (hk : IsReal k) :
    ∑ e, a e * (w e * k) = (∑ e, a e * w e) * k := by
  choose ar har using ha
  choose wr hwr using hw
  obtain ⟨kr, rfl⟩ := hk
  simp only [har, hwr, ← EReal.coe_mul, ← coe_finset_sum]
  rw [EReal.coe_eq_coe_iff, Finset.sum_mul]
  exact Finset.sum_congr rfl fun e _ => by ring

theorem sum_scale_mul {ι : Type*} [Fintype ι] (q κ : ι → EReal) (k : EReal)
    (hq : ∀ e, IsReal (q e)) (hκ : ∀ e, IsReal (κ e)) (hk : IsReal k) :
    ∑ e, (q e * k) * κ e = (∑ e, q e * κ e) * k := by
  refine (Finset.sum_congr rfl fun _ _ => mul_comm _ _).trans ((sum_mul_scale κ q k hκ hq hk).trans ?_)
  exact congrArg (· * k) (Finset.sum_congr rfl fun _ _ => mul_comm _ _)

theorem isReal_max_bot_fold {ι : Type*} [Fintype ι] [Nonempty ι] (f : ι → EReal) (hf : ∀ j, IsReal (f j)) :
    IsReal (max ⊥ ((Finset.univ : Finset ι).fold max ⊥ f)) := by
  rw [max_eq_right bot_le, isReal_iff]
  refine ⟨ne_of_lt ?_, ne_of_gt ?_⟩
  · rw [Finset.fold_max_lt]
    exact ⟨bot_lt_top, fun j _ => ((isReal_iff _).1 (hf j)).1.lt_top⟩
  · obtain ⟨j0⟩ := ‹Nonempty ι›
    exact (Finset.lt_fold_max _).2 (Or.inr ⟨j0, Finset.mem_univ _, ((isReal_iff _).1 (hf j0)).2.bot_lt⟩)

theorem real_softmax_shift {ι : Type*} [Fintype ι] [Nonempty ι] (s v : ι → ℝ) (m : ℝ) :
    (∑ j, v j * Real.exp (s j - m)) * (1 / ∑ j, Real.exp (s j - m))
      = (∑ j, Real.exp (s j) * v j) * (1 / ∑ j, Real.exp (s j) * 1) := by
  have hpos : 0 < ∑ j, Real.exp (s j) :=
    Finset.sum_pos (fun j _ => Real.exp_pos _) Finset.univ_nonempty
  have hm : Real.exp m ≠ 0 := (Real.exp_pos m).ne'
  have h1 : ∀ v : ι → ℝ, ∑ j, v j * Real.exp (s j - m) = (∑ j, Real.exp (s j) * v j) * (Real.exp m)⁻¹ := fun v => by
    rw [Finset.sum_mul]
    exact Finset.sum_congr rfl fun j _ => by rw [Real.exp_sub]; ring
  have h2 := h1 fun _ => 1
  simp only [one_mul, mul_one] at h2 ⊢
  rw [h1, h2]
  field_simp

theorem softmax_eq {ι : Type*} [Fintype ι] [Nonempty ι] (s v : ι → EReal) (m : EReal)
    (hs : ∀ j, IsReal (s j)) (hv : ∀ j, IsReal (v j)) (hm : IsReal m) :
    Ideal.div (0 * Ideal.exp (⊥ - m) + ∑ j, v j * Ideal.exp (s j - m))
        (0 * Ideal.exp (⊥ - m) + ∑ j, Ideal.exp (s j - m))
      = (∑ j, Ideal.exp (s j) * v j) * Ideal.div 1 (∑ j, Ideal.exp (s j) * 1) := by
  choose sr hsr using hs
  choose vr hvr using hv
  obtain ⟨mr, rfl⟩ := hm
  have hpos1 : (∑ j, Real.exp (sr j - mr)) ≠ 0 :=
    (Finset.sum_pos (fun j _ => Real.exp_pos _) Finset.univ_nonempty).ne'
  have hpos2 : (∑ j, Real.exp (sr j) * 1) ≠ 0 :=
    (Finset.sum_pos (fun j _ => by rw [mul_one]; exact Real.exp_pos _) Finset.univ_nonempty).ne'
  simp only [hsr, hvr, EReal.bot_sub, Ideal.exp_bot, mul_zero, zero_add, ← EReal.coe_sub, Ideal.exp_coe,
    ← EReal.coe_one, ← EReal.coe_mul, ← coe_finset_sum]
  rw [Ideal.div_coe hpos1, Ideal.div_coe hpos2]
  simp only [← EReal.coe_mul]
  rw [EReal.coe_eq_coe_iff, one_mul]
  exact real_softmax_shift sr vr mr

open Cert.Spec

def ghead (c : Fin 4) (hh : Fin 8) : Fin 32 :=
  ⟨c.val * 8 + hh.val, by have := c.isLt; have := hh.isLt; omega⟩

def glob (c : Fin 4) (i : Fin 512) : Fin 512 := rowAt (srcDev c (chunk i)) (crow i)

theorem chunk_rowAt (s : Fin 4) (r : Fin 128) : chunk (rowAt s r) = s := by
  apply Fin.ext
  show (s.val * 128 + r.val) / 128 = s.val
  have := r.isLt; omega

theorem crow_rowAt (s : Fin 4) (r : Fin 128) : crow (rowAt s r) = r := by
  apply Fin.ext
  show (s.val * 128 + r.val) % 128 = r.val
  have := r.isLt; omega

theorem rowAt_chunk_crow (i : Fin 512) : rowAt (chunk i) (crow i) = i := by
  apply Fin.ext
  show (i.val / 128) * 128 + i.val % 128 = i.val
  omega

theorem glob_rowAt (c s : Fin 4) (r : Fin 128) : glob c (rowAt s r) = rowAt (c - s) r := by
  unfold glob srcDev
  rw [chunk_rowAt, crow_rowAt]

theorem glob_glob (c : Fin 4) (i : Fin 512) : glob c (glob c i) = i := by
  unfold glob srcDev
  rw [chunk_rowAt, crow_rowAt, sub_sub_cancel, rowAt_chunk_crow]

theorem wcol_col (c : Fin 4) (hh : Fin 8) (d : Fin 64) : wcol c (col hh d) = feat (ghead c hh) d := by
  apply Fin.ext
  show c.val * 512 + (hh.val * 64 + d.val) = (c.val * 8 + hh.val) * 64 + d.val
  omega

theorem fhead_feat (h : Fin 32) (d : Fin 64) : fhead (feat h d) = h := by
  apply Fin.ext
  show (h.val * 64 + d.val) / 64 = h.val
  have := d.isLt; omega

theorem fdim_feat (h : Fin 32) (d : Fin 64) : fdim (feat h d) = d := by
  apply Fin.ext
  show (h.val * 64 + d.val) % 64 = d.val
  have := d.isLt; omega

theorem feat_chead_cdim (c : Fin 4) (f : Fin 512) : feat (ghead c (chead f)) (cdim f) = wcol c f := by
  apply Fin.ext
  show (c.val * 8 + f.val / 64) * 64 + f.val % 64 = c.val * 512 + f.val
  omega

theorem sum_wcol {M : Type*} [AddCommMonoid M] (F : Fin 2048 → M) :
    ∑ c : Fin 4, ∑ n : Fin 512, F (wcol c n) = ∑ f, F f := by
  rw [← sum_regroup (finProdFinEquiv : Fin 4 × Fin 512 ≃ Fin 2048) F]
  refine Finset.sum_congr rfl fun c _ => Finset.sum_congr rfl fun n _ => ?_
  congr 1
  apply Fin.ext
  show c.val * 512 + n.val = n.val + 512 * c.val
  omega

theorem sum_four_from {M : Type*} [AddCommMonoid M] (P : Fin 4 → M) (c : Fin 4) :
    ∑ d, P d = (P c + P (c + 1)) + (P (c + 3) + P (c + 2)) := by
  rw [← Equiv.sum_comp (Equiv.addLeft c) P, Fin.sum_univ_four]
  simp only [Equiv.coe_addLeft, add_zero]
  abel

section Main

variable (x : Fin 2 → Fin 512 → Fin 512 → EReal) (Wq Wk Wv : Fin 512 → Fin 2048 → EReal)
  (Wo : Fin 2048 → Fin 512 → EReal)

theorem isReal_eighth : IsReal eighth := IsReal.coe _

theorem isReal_proj (W : Fin 512 → Fin 2048 → EReal) (hx : ∀ b i e, IsReal (x b i e))
    (hW : ∀ e f, IsReal (W e f)) (b : Fin 2) (i : Fin 512) (f : Fin 2048) : IsReal (proj x W b i f) :=
  IsReal.sum _ fun e => IsReal.mul (hx b i e) (hW e f)

theorem isReal_refScore (hx : ∀ b i e, IsReal (x b i e)) (hq : ∀ e f, IsReal (Wq e f))
    (hk : ∀ e f, IsReal (Wk e f)) (b : Fin 2) (h : Fin 32) (i j : Fin 512) :
    IsReal (refScore x Wq Wk b h i j) :=
  IsReal.mul (IsReal.sum _ fun d => IsReal.mul (isReal_proj x Wq hx hq b i _) (isReal_proj x Wk hx hk b j _))
    isReal_eighth

theorem isReal_refMax (hx : ∀ b i e, IsReal (x b i e)) (hq : ∀ e f, IsReal (Wq e f))
    (hk : ∀ e f, IsReal (Wk e f)) (b : Fin 2) (h : Fin 32) (i : Fin 512) :
    IsReal (refMax x Wq Wk b h i) :=
  isReal_max_bot_fold _ fun j => isReal_refScore x Wq Wk hx hq hk b h i j

theorem kLoc_blk (c : Fin 4) (b : Fin 2) (i n : Fin 512) :
    kLoc c (xBlk x) (colBlk Wk) b i n = proj x Wk b (glob c i) (wcol c n) := rfl

theorem vLoc_blk (c : Fin 4) (b : Fin 2) (i n : Fin 512) :
    vLoc c (xBlk x) (colBlk Wv) b i n = proj x Wv b (glob c i) (wcol c n) := rfl

theorem qLoc_blk (hx : ∀ b i e, IsReal (x b i e)) (hq : ∀ e f, IsReal (Wq e f))
    (c : Fin 4) (b : Fin 2) (i n : Fin 512) :
    qLoc c (xBlk x) (colBlk Wq) b i n = proj x Wq b (glob c i) (wcol c n) * eighth := by
  show ∑ e, x b (glob c i) e * (Wq e (wcol c n) * eighth) = (∑ e, x b (glob c i) e * Wq e (wcol c n)) * eighth
  exact sum_mul_scale _ _ _ (fun e => hx _ _ e) (fun e => hq e _) isReal_eighth

theorem sLoc_blk (hx : ∀ b i e, IsReal (x b i e)) (hq : ∀ e f, IsReal (Wq e f)) (hk : ∀ e f, IsReal (Wk e f))
    (c : Fin 4) (b : Fin 2) (hh : Fin 8) (i j : Fin 512) :
    sLoc c (xBlk x) (colBlk Wq) (colBlk Wk) b hh i j = refScore x Wq Wk b (ghead c hh) (glob c i) (glob c j) := by
  unfold sLoc refScore
  simp only [qLoc_blk x Wq hx hq, kLoc_blk, wcol_col]
  exact sum_scale_mul _ _ _ (fun d => isReal_proj x Wq hx hq _ _ _) (fun d => isReal_proj x Wk hx hk _ _ _)
    isReal_eighth

theorem pvLoc_blk (hx : ∀ b i e, IsReal (x b i e)) (hq : ∀ e f, IsReal (Wq e f)) (hk : ∀ e f, IsReal (Wk e f))
    (c : Fin 4) (b : Fin 2) (hh : Fin 8) (i : Fin 512) (d' : Fin 65) :
    pvLoc c (xBlk x) (colBlk Wq) (colBlk Wk) (colBlk Wv) b hh i d'
      = ∑ j, Ideal.exp (refScore x Wq Wk b (ghead c hh) (glob c i) j)
          * if h : d'.val < 64 then proj x Wv b j (feat (ghead c hh) ⟨d'.val, h⟩) else 1 := by
  unfold pvLoc pLoc vExt
  simp only [sLoc_blk x Wq Wk hx hq hk, vLoc_blk, wcol_col]
  exact Fintype.sum_bijective _ (Function.Involutive.bijective (glob_glob c)) _ _ fun _ => rfl

theorem headOut_blk (hx : ∀ b i e, IsReal (x b i e)) (hq : ∀ e f, IsReal (Wq e f)) (hk : ∀ e f, IsReal (Wk e f))
    (hv : ∀ e f, IsReal (Wv e f)) (c : Fin 4) (b : Fin 2) (hh : Fin 8) (i : Fin 512) (d : Fin 64) :
    headOut c (xBlk x) (colBlk Wq) (colBlk Wk) (colBlk Wv) b hh i d
      = refO x Wq Wk Wv b (glob c i) (feat (ghead c hh) d) := by
  unfold headOut refO refAcc refL refAlpha refP
  simp only [pvLoc_blk x Wq Wk Wv hx hq hk, dif_pos (show (d.castSucc : Fin 65).val < 64 from d.isLt),
    dif_neg (show ¬(Fin.last 64 : Fin 65).val < 64 from Nat.lt_irrefl 64), fhead_feat, fdim_feat]
  exact (softmax_eq (fun j => refScore x Wq Wk b (ghead c hh) (glob c i) j)
    (fun j => proj x Wv b j (feat (ghead c hh) d)) (refMax x Wq Wk b (ghead c hh) (glob c i))
    (fun j => isReal_refScore x Wq Wk hx hq hk _ _ _ j) (fun j => isReal_proj x Wv hx hv _ j _)
    (isReal_refMax x Wq Wk hx hq hk _ _ _)).symm

theorem oLoc_blk (hx : ∀ b i e, IsReal (x b i e)) (hq : ∀ e f, IsReal (Wq e f)) (hk : ∀ e f, IsReal (Wk e f))
    (hv : ∀ e f, IsReal (Wv e f)) (c : Fin 4) (b : Fin 2) (i f : Fin 512) :
    oLoc c (xBlk x) (colBlk Wq) (colBlk Wk) (colBlk Wv) b i f = refO x Wq Wk Wv b (glob c i) (wcol c f) := by
  unfold oLoc
  rw [headOut_blk x Wq Wk Wv hx hq hk hv, feat_chead_cdim]

theorem partOut_blk (hx : ∀ b i e, IsReal (x b i e)) (hq : ∀ e f, IsReal (Wq e f)) (hk : ∀ e f, IsReal (Wk e f))
    (hv : ∀ e f, IsReal (Wv e f)) (c : Fin 4) (b : Fin 2) (i n : Fin 512) :
    partOut c (xBlk x) (colBlk Wq) (colBlk Wk) (colBlk Wv) (rowBlk Wo) b i n
      = ∑ f : Fin 512, refO x Wq Wk Wv b (glob c i) (wcol c f) * Wo (wcol c f) n := by
  unfold partOut
  simp only [oLoc_blk x Wq Wk Wv hx hq hk hv]
  rfl

theorem kerOut_eq_block (hx : ∀ b i e, IsReal (x b i e)) (hq : ∀ e f, IsReal (Wq e f))
    (hk : ∀ e f, IsReal (Wk e f)) (hv : ∀ e f, IsReal (Wv e f))
    (c : Fin 4) (b : Fin 2) (r : Fin 128) (n : Fin 512) :
    kerOut c (xBlk x) (colBlk Wq) (colBlk Wk) (colBlk Wv) (rowBlk Wo) b r n
      = refOut x Wq Wk Wv Wo b (rowAt c r) n := by
  show (partOut c _ _ _ _ _ b (rowAt 0 r) n + partOut (c + 1) _ _ _ _ _ b (rowAt 1 r) n)
      + (partOut (c + 3) _ _ _ _ _ b (rowAt 3 r) n + partOut (c + 2) _ _ _ _ _ b (rowAt 2 r) n)
    = ∑ f : Fin 2048, refO x Wq Wk Wv b (rowAt c r) f * Wo f n
  simp only [partOut_blk x Wq Wk Wv Wo hx hq hk hv, glob_rowAt, sub_zero, add_sub_cancel_right]
  rw [← sum_wcol (fun f => refO x Wq Wk Wv b (rowAt c r) f * Wo f n)]
  exact (sum_four_from (fun d => ∑ f : Fin 512, refO x Wq Wk Wv b (rowAt c r) (wcol d f) * Wo (wcol d f) n) c).symm

end Main

end Cert.SpecMath

end
-- ==== Proof.ValueBridge.lean ====
import proofs.«900760_g7700000000000761_dist_attn_self_mha_htp_ss_b2_sq128_skv128_d512_hq8_dh64_v7x_i4_f32_1_alg».proof.Proof.FiniteInputs
import proofs.«900760_g7700000000000761_dist_attn_self_mha_htp_ss_b2_sq128_skv128_d512_hq8_dh64_v7x_i4_f32_1_alg».proof.Proof.BlockBridge
import proofs.«900760_g7700000000000761_dist_attn_self_mha_htp_ss_b2_sq128_skv128_d512_hq8_dh64_v7x_i4_f32_1_alg».proof.Proof.SpecMath
import proofs.«900760_g7700000000000761_dist_attn_self_mha_htp_ss_b2_sq128_skv128_d512_hq8_dh64_v7x_i4_f32_1_alg».proof.Proof.Proto

noncomputable section

namespace Cert.Proof

open Idealize.ShloMosaic Idealize.SL.Sem Idealize.ShloMosaic.ValueIdx

def refV (m' : (ℓ : Loc Cert.ReferenceIdeal.nD Cert.ReferenceIdeal.τ Cert.ReferenceIdeal.sig) → Buf (Elt Ideal) ℓ) :
    Buf (Elt Ideal) (((0 : Dev Cert.ReferenceIdeal.nD).tc : Thread Cert.ReferenceIdeal.nD Cert.ReferenceIdeal.τ).loc Cert.ReferenceIdeal.main_v34) :=
  fun j : Cert.ReferenceIdeal.S2x512x512.Idx =>
      Cert.Spec.refOut (Cert.BlockBridge.arr3 (m' (((0 : Dev Cert.ReferenceIdeal.nD).tc : Thread Cert.ReferenceIdeal.nD Cert.ReferenceIdeal.τ).loc Cert.ReferenceIdeal.main_arg0))) (Cert.BlockBridge.arrW (m' (((0 : Dev Cert.ReferenceIdeal.nD).tc : Thread Cert.ReferenceIdeal.nD Cert.ReferenceIdeal.τ).loc Cert.ReferenceIdeal.main_arg1)))
        (Cert.BlockBridge.arrW (m' (((0 : Dev Cert.ReferenceIdeal.nD).tc : Thread Cert.ReferenceIdeal.nD Cert.ReferenceIdeal.τ).loc Cert.ReferenceIdeal.main_arg3))) (Cert.BlockBridge.arrW (m' (((0 : Dev Cert.ReferenceIdeal.nD).tc : Thread Cert.ReferenceIdeal.nD Cert.ReferenceIdeal.τ).loc Cert.ReferenceIdeal.main_arg4)))
        (Cert.BlockBridge.arrWo (m' (((0 : Dev Cert.ReferenceIdeal.nD).tc : Thread Cert.ReferenceIdeal.nD Cert.ReferenceIdeal.τ).loc Cert.ReferenceIdeal.main_arg2))) (j 0) (j 1) (j 2)

section Value

open Cert.Spec Cert.Alg Cert.BlockBridge

variable (m : (ℓ : Loc Cert.KernelIdeal.nD Cert.KernelIdeal.τ Cert.KernelIdeal.sig) → Buf (Elt Ideal) ℓ)

def xbOf : Fin 4 → Fin 2 → Fin 128 → Fin 512 → EReal := fun (d : Dev Cert.KernelIdeal.nD) b r e => (m ((d.tc : Thread Cert.KernelIdeal.nD Cert.KernelIdeal.τ).loc Cert.KernelIdeal.main_arg0) : (⟨Cert.KernelIdeal.S2x128x512, .f32⟩ : BufTy).Contents (Elt Ideal)) (ix3 b r e)
def wqbOf : Fin 4 → Fin 512 → Fin 512 → EReal := fun (d : Dev Cert.KernelIdeal.nD) e n => (m ((d.tc : Thread Cert.KernelIdeal.nD Cert.KernelIdeal.τ).loc Cert.KernelIdeal.main_arg1) : (⟨Cert.KernelIdeal.S512x512, .f32⟩ : BufTy).Contents (Elt Ideal)) (ix2 e n)
def wobOf : Fin 4 → Fin 512 → Fin 512 → EReal := fun (d : Dev Cert.KernelIdeal.nD) f n => (m ((d.tc : Thread Cert.KernelIdeal.nD Cert.KernelIdeal.τ).loc Cert.KernelIdeal.main_arg2) : (⟨Cert.KernelIdeal.S512x512, .f32⟩ : BufTy).Contents (Elt Ideal)) (ix2 f n)
def wkbOf : Fin 4 → Fin 512 → Fin 512 → EReal := fun (d : Dev Cert.KernelIdeal.nD) e n => (m ((d.tc : Thread Cert.KernelIdeal.nD Cert.KernelIdeal.τ).loc Cert.KernelIdeal.main_arg3) : (⟨Cert.KernelIdeal.S512x512, .f32⟩ : BufTy).Contents (Elt Ideal)) (ix2 e n)
def wvbOf : Fin 4 → Fin 512 → Fin 512 → EReal := fun (d : Dev Cert.KernelIdeal.nD) e n => (m ((d.tc : Thread Cert.KernelIdeal.nD Cert.KernelIdeal.τ).loc Cert.KernelIdeal.main_arg4) : (⟨Cert.KernelIdeal.S512x512, .f32⟩ : BufTy).Contents (Elt Ideal)) (ix2 e n)

def OutOkV (c : Dev Cert.KernelIdeal.nD) (X : Cert.KernelIdeal.S2x128x512.Idx → Elt Ideal .f32) : Prop :=
  ∀ (b : Fin 2) (r : Fin 128) (n : Fin 512),
    (X (ix3 b r n) : EReal) = kerOut c (xbOf m) (wqbOf m) (wkbOf m) (wvbOf m) (wobOf m) b r n

theorem wcol_div_mod (f : Fin 2048) :
    wcol ⟨f.val / 512, by have := f.isLt; omega⟩ ⟨f.val % 512, Nat.mod_lt _ (by decide)⟩ = f :=
  Fin.ext (by show f.val / 512 * 512 + f.val % 512 = f.val; omega)

theorem block_of_kerOut (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.block ⟨3, ![2, 128, 512]⟩ ⟨3, ![2, 512, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg4)))
    (c : Dev Cert.KernelIdeal.nD) (X : Cert.KernelIdeal.S2x128x512.Idx → Elt Ideal .f32) (hX : OutOkV m c X) :
    X = Layout.block ⟨3, ![2, 128, 512]⟩ ⟨3, ![2, 512, 512]⟩ 1 4 c (refV m') := by
  have fin := fun d => Cert.FiniteInputs.finite_args m hpre d
  have hxb : xbOf m = xBlk (arr3 _) := funext fun d => funext fun b => funext fun r => funext fun e =>
    (congrFun (hagree d).1 _).trans (block_seq_eq_xBlk _ d _ b r e)
  have hqb : wqbOf m = colBlk (arrW _) := funext fun d => funext fun e => funext fun n =>
    (congrFun (hagree d).2.1 _).trans (block_cols_eq_colBlk _ d _ e n)
  have hob : wobOf m = rowBlk (arrWo _) := funext fun d => funext fun f => funext fun n =>
    (congrFun (hagree d).2.2.1 _).trans (block_rows_eq_rowBlk _ d _ f n)
  have hkb : wkbOf m = colBlk (arrW _) := funext fun d => funext fun e => funext fun n =>
    (congrFun (hagree d).2.2.2.1 _).trans (block_cols_eq_colBlk _ d _ e n)
  have hvb : wvbOf m = colBlk (arrW _) := funext fun d => funext fun e => funext fun n =>
    (congrFun (hagree d).2.2.2.2 _).trans (block_cols_eq_colBlk _ d _ e n)
  have hx : ∀ b i e, IsReal (arr3 (m' (((0 : Dev Cert.ReferenceIdeal.nD).tc : Thread Cert.ReferenceIdeal.nD Cert.ReferenceIdeal.τ).loc Cert.ReferenceIdeal.main_arg0)) b i e) := fun b i e => by
    have h : IsReal (xbOf m (chunk i) b (crow i) e) := (fin (chunk i)).1 _
    rw [hxb] at h
    unfold xBlk at h
    rwa [Cert.SpecMath.rowAt_chunk_crow] at h
  have hcol : ∀ (W : Fin 512 → Fin 2048 → EReal) (Wb : Fin 4 → Fin 512 → Fin 512 → EReal), Wb = colBlk W →
      (∀ d e n, IsReal (Wb d e n)) → ∀ e f, IsReal (W e f) := fun W Wb hW hr e f => by
    simpa only [hW, colBlk, wcol_div_mod] using hr ⟨f.val / 512, by have := f.isLt; omega⟩ e ⟨f.val % 512, Nat.mod_lt _ (by decide)⟩
  have hq := hcol _ _ hqb (fun d e n => (fin d).2.1 (ix2 e n))
  have hk := hcol _ _ hkb (fun d e n => (fin d).2.2.2.1 (ix2 e n))
  have hv := hcol _ _ hvb (fun d e n => (fin d).2.2.2.2 (ix2 e n))
  refine eq_block_of_formula X _ c _ (fun b r n => ?_)
  rw [hX b r n, hxb, hqb, hkb, hvb, hob]
  exact Cert.SpecMath.kerOut_eq_block _ _ _ _ _ hx hq hk hv c b r n

end Value

section Landed

open Cert.Spec Cert.KernelIdeal.Proto

variable (m : (ℓ : Loc Cert.KernelIdeal.nD Cert.KernelIdeal.τ Cert.KernelIdeal.sig) → Buf (Elt Ideal) ℓ)

def chunkOf : Fin 3 → Fin 4 := ![1, 3, 2]

def PVokV (p : Dev Cert.KernelIdeal.nD) (k : Fin 3) (b : Fin 2) (v : Cert.KernelIdeal.S128x512.Idx → Elt Ideal .bf16) : Prop :=
  ∀ (r : Fin 128) (n : Fin 512),
    (v (ix2 r n) : EReal) = partOut p (xbOf m) (wqbOf m) (wkbOf m) (wvbOf m) (wobOf m) b (rowAt (chunkOf k) r) n

theorem rgt_eq (c : Dev Cert.KernelIdeal.nD) : rgt c = c + 1 := by revert c; decide
theorem lft_eq (c : Dev Cert.KernelIdeal.nD) : lft c = c + 3 := by revert c; decide
theorem dia_eq (c : Dev Cert.KernelIdeal.nD) : dia c = c + 2 := by revert c; decide

end Landed

end Cert.Proof

end
-- ==== Proof.UnreadLoad.lean ====
import proofs.«900760_g7700000000000761_dist_attn_self_mha_htp_ss_b2_sq128_skv128_d512_hq8_dh64_v7x_i4_f32_1_alg».proof.Proof.ViewRead
import Idealize.ShloMosaic.Lib.WholeRead
import Idealize.ShloMosaic.Lib.ValueIdx

namespace Cert.UnreadLoad

open Idealize.ShloMosaic Idealize.ShloMosaic.ValueIdx Cert.ViewRead

variable {sig : RefSig} {κ : Kind} (Val : EltTy → Type) {sp : Space} {e : EltTy}

theorem idx_unit_ix2 {n0 n1 m0 m1 : Nat} (o0 o1 : Nat)
    (inb : ∀ a, (![o0, o1] : Fin 2 → Nat) a + (![m0, m1] : Fin 2 → Nat) a ≤ (⟨2, ![n0, n1]⟩ : Shape).size a)
    (i0 : Fin m0) (i1 : Fin m1) (j0 : Fin n0) (j1 : Fin n1) (h0 : j0.val = o0 + i0.val) (h1 : j1.val = o1 + i1.val) :
    (Rect.unit (s := ⟨2, ![n0, n1]⟩) ![o0, o1] ![m0, m1] inb).idx (ix2 i0 i1) = ix2 j0 j1 := by
  funext a
  apply Fin.ext
  rw [idx_unit_val]
  match a with
  | ⟨0, _⟩ => exact h0.symm
  | ⟨1, _⟩ => exact h1.symm

theorem load_unread_whole3 {n0 n1 n2 : Nat} {A : Memref sig κ sp ⟨3, ![n0, n1, n2]⟩ e} (hA : A.IsWhole)
    (y : (⟨3, ![n0, n1, n2]⟩ : Shape).Idx → Val e)
    (inb : ∀ a, (![0, 0, 0] : Fin 3 → Nat) a + (![n0, n1, n2] : Fin 3 → Nat) a ≤ (⟨3, ![n0, n1, n2]⟩ : Shape).size a)
    (i0 : Fin n0) (i1 : Fin n1) (i2 : Fin n2) :
    View.readAt Val A.view (Rect.unit (s := ⟨3, ![n0, n1, n2]⟩) ![0, 0, 0] ![n0, n1, n2] inb).toLoadRect (hA.unread y)
      (ix3 i0 i1 i2) = y (ix3 i0 i1 i2) := by
  rw [Memref.IsWhole.readAt_unread]
  exact congrArg y (idx_unit_ix3 0 0 0 inb i0 i1 i2 i0 i1 i2 (Nat.zero_add _).symm (Nat.zero_add _).symm
    (Nat.zero_add _).symm)

theorem load_unread_whole2 {n0 n1 : Nat} {A : Memref sig κ sp ⟨2, ![n0, n1]⟩ e} (hA : A.IsWhole)
    (y : (⟨2, ![n0, n1]⟩ : Shape).Idx → Val e)
    (inb : ∀ a, (![0, 0] : Fin 2 → Nat) a + (![n0, n1] : Fin 2 → Nat) a ≤ (⟨2, ![n0, n1]⟩ : Shape).size a)
    (i0 : Fin n0) (i1 : Fin n1) :
    View.readAt Val A.view (Rect.unit (s := ⟨2, ![n0, n1]⟩) ![0, 0] ![n0, n1] inb).toLoadRect (hA.unread y)
      (ix2 i0 i1) = y (ix2 i0 i1) := by
  rw [Memref.IsWhole.readAt_unread]
  exact congrArg y (idx_unit_ix2 0 0 inb i0 i1 i0 i1 (Nat.zero_add _).symm (Nat.zero_add _).symm)

end Cert.UnreadLoad
-- ==== Proof.InOkGlue.lean ====
import proofs.«900760_g7700000000000761_dist_attn_self_mha_htp_ss_b2_sq128_skv128_d512_hq8_dh64_v7x_i4_f32_1_alg».proof.Proof.Dataflow
import proofs.«900760_g7700000000000761_dist_attn_self_mha_htp_ss_b2_sq128_skv128_d512_hq8_dh64_v7x_i4_f32_1_alg».proof.Proof.ValueBridge
import proofs.«900760_g7700000000000761_dist_attn_self_mha_htp_ss_b2_sq128_skv128_d512_hq8_dh64_v7x_i4_f32_1_alg».proof.Proof.WalkOP
import proofs.«900760_g7700000000000761_dist_attn_self_mha_htp_ss_b2_sq128_skv128_d512_hq8_dh64_v7x_i4_f32_1_alg».proof.Proof.UnreadLoad
import proofs.«900760_g7700000000000761_dist_attn_self_mha_htp_ss_b2_sq128_skv128_d512_hq8_dh64_v7x_i4_f32_1_alg».proof.Proof.Proto
import proofs.«900760_g7700000000000761_dist_attn_self_mha_htp_ss_b2_sq128_skv128_d512_hq8_dh64_v7x_i4_f32_1_alg».proof.Proof.Cut

noncomputable section

namespace Cert.InOkGlue

open Idealize.ShloMosaic Idealize.ShloMosaic.ValueIdx Idealize.SL.Sem Cert.Spec Cert.Proof Cert.Dataflow
open Cert.KernelIdeal Cert.KernelIdeal.Gen Cert.KernelIdeal.Proto

variable (m : (ℓ : Loc nD τ sig) → Buf (Elt Ideal) ℓ)

theorem xin_apply (c : Dev nD) (b : Fin 2) (r : Fin 128) (e : Fin 512) :
    xin m c (ix3 b r e) = xbOf m c b r e := by
  unfold xin xbOf
  rw [View.read_apply]
  have hy : (win0_0.blk t0_0).view.emb (ix3 b r e) = ix3 b r e := by
    funext a
    apply Fin.ext
    show 0 * _ + 1 * ((ix3 b r e) a).val = ((ix3 b r e) a).val
    omega
  rw [hy]
  rfl

theorem w1_apply (c : Dev nD) (e n : Fin 512) :
    (win0_1.blk t0_0).view.read (Elt Ideal) (m ((c.tc : Thread nD τ).loc main_arg1)) (ix2 e n) = wqbOf m c e n := by
  unfold wqbOf
  rw [View.read_apply]
  have hy : (win0_1.blk t0_0).view.emb (ix2 e n) = ix2 e n := by
    funext a
    apply Fin.ext
    show 0 * _ + 1 * ((ix2 e n) a).val = ((ix2 e n) a).val
    omega
  rw [hy]
  rfl

theorem w2_apply (c : Dev nD) (f n : Fin 512) :
    (win0_2.blk t0_0).view.read (Elt Ideal) (m ((c.tc : Thread nD τ).loc main_arg2)) (ix2 f n) = wobOf m c f n := by
  unfold wobOf
  rw [View.read_apply]
  have hy : (win0_2.blk t0_0).view.emb (ix2 f n) = ix2 f n := by
    funext a
    apply Fin.ext
    show 0 * _ + 1 * ((ix2 f n) a).val = ((ix2 f n) a).val
    omega
  rw [hy]
  rfl

theorem w3_apply (c : Dev nD) (e n : Fin 512) :
    (win0_3.blk t0_0).view.read (Elt Ideal) (m ((c.tc : Thread nD τ).loc main_arg3)) (ix2 e n) = wkbOf m c e n := by
  unfold wkbOf
  rw [View.read_apply]
  have hy : (win0_3.blk t0_0).view.emb (ix2 e n) = ix2 e n := by
    funext a
    apply Fin.ext
    show 0 * _ + 1 * ((ix2 e n) a).val = ((ix2 e n) a).val
    omega
  rw [hy]
  rfl

theorem w4_apply (c : Dev nD) (e n : Fin 512) :
    (win0_4.blk t0_0).view.read (Elt Ideal) (m ((c.tc : Thread nD τ).loc main_arg4)) (ix2 e n) = wvbOf m c e n := by
  unfold wvbOf
  rw [View.read_apply]
  have hy : (win0_4.blk t0_0).view.emb (ix2 e n) = ix2 e n := by
    funext a
    apply Fin.ext
    show 0 * _ + 1 * ((ix2 e n) a).val = ((ix2 e n) a).val
    omega
  rw [hy]
  rfl

theorem X0s0_apply (p : Dev nD) (r : Fin 128) (e : Fin 512) : X0s0 m p (ix2 r e) = xbOf m p 0 r e := by
  unfold X0s0
  refine (WritesRead.slab_read_ix2 (Elt Ideal) x0M 0 inb_S2x128x512_S1x128x512_0_0_0 (fun _ => rfl)
    squeezes_S1x128x512_S128x512 (X0 m p) r e 0 rfl).trans ?_
  show X0 m p (ix3 (0 : Fin 2) r e) = _
  unfold X0
  rw [PayProj.pay2_apply, xin_apply]

theorem X0s1_apply (p : Dev nD) (r : Fin 128) (e : Fin 512) : X0s1 m p (ix2 r e) = xbOf m p 1 r e := by
  unfold X0s1
  refine (WritesRead.slab_read_ix2 (Elt Ideal) x0M 1 inb_S2x128x512_S1x128x512_1_0_0 (fun _ => rfl)
    squeezes_S1x128x512_S128x512 (X0 m p) r e 1 rfl).trans ?_
  show X0 m p (ix3 (1 : Fin 2) r e) = _
  unfold X0
  rw [PayProj.pay2_apply, xin_apply]

section Loaded

variable (c : Dev nD)

theorem loaded_w (A : Memref sig .tc .vmem S512x512 .f32) (hA : A.IsWhole) (y : S512x512.Idx → Elt Ideal .f32)
    (W : Fin 512 → Fin 512 → EReal) (hy : ∀ e n, y (ix2 e n) = W e n) (e n : Fin 512) :
    View.readAt (Elt Ideal) A.view (Rect.unit (s := S512x512) ![0, 0] S512x512.size inb_S512x512_S512x512_0_0).toLoadRect
      (hA.unread y) (ix2 e n) = W e n :=
  (UnreadLoad.load_unread_whole2 (Elt Ideal) hA y inb_S512x512_S512x512_0_0 e n).trans (hy e n)

theorem loaded_slab0 (A : Memref sig .tc .vmem S2x128x512 .bf16) (g : A.view.ty.Contents (Elt Ideal)) (p : Dev nD)
    (hread : (slab0 A).view.read (Elt Ideal) g = X0s0 m p) (r : Fin 128) (e : Fin 512) :
    View.readAt (Elt Ideal) A.view
      (Rect.unit (s := S2x128x512) ![0, 0, 0] S1x128x512.size inb_S2x128x512_S1x128x512_0_0_0).toLoadRect g
      (ix3 (0 : Fin 1) r e) = xbOf m p 0 r e :=
  (WalkOP.load_landed (Elt Ideal) A g 0 (by decide) inb_S2x128x512_S1x128x512_0_0_0 (fun _ => rfl)
    squeezes_S1x128x512_S128x512 inb_S2x128x512_S1x128x512_0_0_0 (X0s0 m p) hread r e).trans (X0s0_apply m p r e)

theorem loaded_slab1 (A : Memref sig .tc .vmem S2x128x512 .bf16) (g : A.view.ty.Contents (Elt Ideal)) (p : Dev nD)
    (hread : (slab1 A).view.read (Elt Ideal) g = X0s1 m p) (r : Fin 128) (e : Fin 512) :
    View.readAt (Elt Ideal) A.view
      (Rect.unit (s := S2x128x512) ![1, 0, 0] S1x128x512.size inb_S2x128x512_S1x128x512_1_0_0).toLoadRect g
      (ix3 (0 : Fin 1) r e) = xbOf m p 1 r e :=
  (WalkOP.load_landed (Elt Ideal) A g 1 (by decide) inb_S2x128x512_S1x128x512_1_0_0 (fun _ => rfl)
    squeezes_S1x128x512_S128x512 inb_S2x128x512_S1x128x512_1_0_0 (X0s1 m p) hread r e).trans (X0s1_apply m p r e)

theorem lft_src : lft c = srcDev c 1 := by revert c; decide
theorem rgt_src : rgt c = srcDev c 3 := by revert c; decide
theorem dia_src : dia c = srcDev c 2 := by revert c; decide

end Loaded

section Real

variable (c : Dev nD)
  (A1 A2 A3 A4 : Memref sig .tc .vmem S512x512 .f32) (hA1 : A1.IsWhole) (hA2 : A2.IsWhole) (hA3 : A3.IsWhole)
  (hA4 : A4.IsWhole)
  (A6 A7 A8 A9 : Memref sig .tc .vmem S2x128x512 .bf16)
  (y1 y2 y3 y4 : S512x512.Idx → Elt Ideal .f32)
  (hy1 : y1 = (win0_1.blk t0_0).view.read (Elt Ideal) (m ((c.tc : Thread nD τ).loc main_arg1)))
  (hy2 : y2 = (win0_2.blk t0_0).view.read (Elt Ideal) (m ((c.tc : Thread nD τ).loc main_arg2)))
  (hy3 : y3 = (win0_3.blk t0_0).view.read (Elt Ideal) (m ((c.tc : Thread nD τ).loc main_arg3)))
  (hy4 : y4 = (win0_4.blk t0_0).view.read (Elt Ideal) (m ((c.tc : Thread nD τ).loc main_arg4)))

abbrev ldW (A : Memref sig .tc .vmem S512x512 .f32) (hA : A.IsWhole) (y : S512x512.Idx → Elt Ideal .f32) :
    Vec Ideal S512x512 .f32 :=
  View.readAt (Elt Ideal) A.view (Rect.unit (s := S512x512) ![0, 0] S512x512.size inb_S512x512_S512x512_0_0).toLoadRect
    (hA.unread y)

abbrev ldS0 (A : Memref sig .tc .vmem S2x128x512 .bf16) (g : A.view.ty.Contents (Elt Ideal)) : Vec Ideal S1x128x512 .bf16 :=
  View.readAt (Elt Ideal) A.view
    (Rect.unit (s := S2x128x512) ![0, 0, 0] S1x128x512.size inb_S2x128x512_S1x128x512_0_0_0).toLoadRect g

abbrev ldS1 (A : Memref sig .tc .vmem S2x128x512 .bf16) (g : A.view.ty.Contents (Elt Ideal)) : Vec Ideal S1x128x512 .bf16 :=
  View.readAt (Elt Ideal) A.view
    (Rect.unit (s := S2x128x512) ![1, 0, 0] S1x128x512.size inb_S2x128x512_S1x128x512_1_0_0).toLoadRect g

structure InOk0 (c : Fin 4) (xb : Fin 4 → Fin 2 → Fin 128 → Fin 512 → EReal)
    (Wqb Wkb Wvb Wob : Fin 4 → Fin 512 → Fin 512 → EReal)
    (w1 w2 w3 w4 : Vec Ideal S512x512 .f32) (o0 o1 xl0 xr0 xd0 : Vec Ideal S1x128x512 .bf16) : Prop where
  hw1 : ∀ e n, w1 (ix2 e n) = Wqb c e n
  hw2 : ∀ f n, w2 (ix2 f n) = Wob c f n
  hw3 : ∀ e n, w3 (ix2 e n) = Wkb c e n
  hw4 : ∀ e n, w4 (ix2 e n) = Wvb c e n
  hown0 : ∀ r e, o0 (ix3 (0 : Fin 1) r e) = xb (srcDev c 0) 0 r e
  hown1 : ∀ r e, o1 (ix3 (0 : Fin 1) r e) = xb (srcDev c 0) 1 r e
  hxl0 : ∀ r e, xl0 (ix3 (0 : Fin 1) r e) = xb (srcDev c 1) 0 r e
  hxr0 : ∀ r e, xr0 (ix3 (0 : Fin 1) r e) = xb (srcDev c 3) 0 r e
  hxd0 : ∀ r e, xd0 (ix3 (0 : Fin 1) r e) = xb (srcDev c 2) 0 r e

def fillSlab (g : Fin 128 → Fin 512 → EReal) : Vec Ideal S1x128x512 .bf16 := fun i => g (i 1) (i 2)

theorem InOk0.toInOk {c : Fin 4} {xb : Fin 4 → Fin 2 → Fin 128 → Fin 512 → EReal}
    {Wqb Wkb Wvb Wob : Fin 4 → Fin 512 → Fin 512 → EReal}
    {w1 w2 w3 w4 : Vec Ideal S512x512 .f32} {o0 o1 xl0 xr0 xd0 : Vec Ideal S1x128x512 .bf16}
    (H0 : InOk0 c xb Wqb Wkb Wvb Wob w1 w2 w3 w4 o0 o1 xl0 xr0 xd0) :
    InOk c xb Wqb Wkb Wvb Wob w1 w2 w3 w4 o0 o1 xl0 (fillSlab (xb (srcDev c 1) 1)) xr0 (fillSlab (xb (srcDev c 3) 1)) xd0
      (fillSlab (xb (srcDev c 2) 1)) :=
  { hw1 := H0.hw1, hw2 := H0.hw2, hw3 := H0.hw3, hw4 := H0.hw4, hown0 := H0.hown0, hown1 := H0.hown1,
    hxl0 := H0.hxl0, hxl1 := fun _ _ => rfl, hxr0 := H0.hxr0, hxr1 := fun _ _ => rfl,
    hxd0 := H0.hxd0, hxd1 := fun _ _ => rfl }

include hy1 hy2 hy3 hy4

theorem inOk0_real (g6 : A6.view.ty.Contents (Elt Ideal)) (lx0 : A7.view.ty.Contents (Elt Ideal))
    (rx0 : A8.view.ty.Contents (Elt Ideal)) (dx0 : A9.view.ty.Contents (Elt Ideal))
    (hs0 : (slab0 A6).view.read (Elt Ideal) g6 = X0s0 m c)
    (hs1 : (slab1 A6).view.read (Elt Ideal) g6 = X0s1 m c)
    (hlx0 : (slab0 A7).view.read (Elt Ideal) lx0 = X0s0 m (lft c))
    (hrx0 : (slab0 A8).view.read (Elt Ideal) rx0 = X0s0 m (rgt c))
    (hdx0 : (slab0 A9).view.read (Elt Ideal) dx0 = X0s0 m (dia c)) :
    InOk0 c (xbOf m) (wqbOf m) (wkbOf m) (wvbOf m) (wobOf m) (ldW A1 hA1 y1) (ldW A2 hA2 y2) (ldW A3 hA3 y3)
      (ldW A4 hA4 y4) (ldS0 A6 g6) (ldS1 A6 g6) (ldS0 A7 lx0) (ldS0 A8 rx0) (ldS0 A9 dx0) :=
  { hw1 := loaded_w A1 hA1 y1 (wqbOf m c) (fun e n => by rw [hy1]; exact w1_apply m c e n)
    hw2 := loaded_w A2 hA2 y2 (wobOf m c) (fun e n => by rw [hy2]; exact w2_apply m c e n)
    hw3 := loaded_w A3 hA3 y3 (wkbOf m c) (fun e n => by rw [hy3]; exact w3_apply m c e n)
    hw4 := loaded_w A4 hA4 y4 (wvbOf m c) (fun e n => by rw [hy4]; exact w4_apply m c e n)
    hown0 := fun r e => by rw [srcDev_zero]; exact loaded_slab0 m A6 g6 c hs0 r e
    hown1 := fun r e => by rw [srcDev_zero]; exact loaded_slab1 m A6 g6 c hs1 r e
    hxl0 := fun r e => by rw [← lft_src]; exact loaded_slab0 m A7 lx0 (lft c) hlx0 r e
    hxr0 := fun r e => by rw [← rgt_src]; exact loaded_slab0 m A8 rx0 (rgt c) hrx0 r e
    hxd0 := fun r e => by rw [← dia_src]; exact loaded_slab0 m A9 dx0 (dia c) hdx0 r e }

theorem inOk_real (g6 : A6.view.ty.Contents (Elt Ideal)) (lx0 lx1 : A7.view.ty.Contents (Elt Ideal))
    (rx0 rx1 : A8.view.ty.Contents (Elt Ideal)) (dx0 dx1 : A9.view.ty.Contents (Elt Ideal))
    (hs0 : (slab0 A6).view.read (Elt Ideal) g6 = X0s0 m c)
    (hs1 : (slab1 A6).view.read (Elt Ideal) g6 = X0s1 m c)
    (hlx0 : (slab0 A7).view.read (Elt Ideal) lx0 = X0s0 m (lft c))
    (hlx1 : (slab1 A7).view.read (Elt Ideal) lx1 = X0s1 m (lft c))
    (hrx0 : (slab0 A8).view.read (Elt Ideal) rx0 = X0s0 m (rgt c))
    (hrx1 : (slab1 A8).view.read (Elt Ideal) rx1 = X0s1 m (rgt c))
    (hdx0 : (slab0 A9).view.read (Elt Ideal) dx0 = X0s0 m (dia c))
    (hdx1 : (slab1 A9).view.read (Elt Ideal) dx1 = X0s1 m (dia c)) :
    InOk c (xbOf m) (wqbOf m) (wkbOf m) (wvbOf m) (wobOf m) (ldW A1 hA1 y1) (ldW A2 hA2 y2) (ldW A3 hA3 y3)
      (ldW A4 hA4 y4) (ldS0 A6 g6) (ldS1 A6 g6) (ldS0 A7 lx0) (ldS1 A7 lx1) (ldS0 A8 rx0) (ldS1 A8 rx1) (ldS0 A9 dx0)
      (ldS1 A9 dx1) :=
  { inOk0_real m c A1 A2 A3 A4 hA1 hA2 hA3 hA4 A6 A7 A8 A9 y1 y2 y3 y4 hy1 hy2 hy3 hy4 g6 lx0 rx0 dx0 hs0 hs1 hlx0 hrx0 hdx0 with
    hxl1 := fun r e => by rw [← lft_src]; exact loaded_slab1 m A7 lx1 (lft c) hlx1 r e
    hxr1 := fun r e => by rw [← rgt_src]; exact loaded_slab1 m A8 rx1 (rgt c) hrx1 r e
    hxd1 := fun r e => by rw [← dia_src]; exact loaded_slab1 m A9 dx1 (dia c) hdx1 r e }

end Real

end Cert.InOkGlue

end
-- ==== Proof.ValueFinal.lean ====
import proofs.«900760_g7700000000000761_dist_attn_self_mha_htp_ss_b2_sq128_skv128_d512_hq8_dh64_v7x_i4_f32_1_alg».proof.Proof.Dataflow
import proofs.«900760_g7700000000000761_dist_attn_self_mha_htp_ss_b2_sq128_skv128_d512_hq8_dh64_v7x_i4_f32_1_alg».proof.Proof.DataflowB1
import proofs.«900760_g7700000000000761_dist_attn_self_mha_htp_ss_b2_sq128_skv128_d512_hq8_dh64_v7x_i4_f32_1_alg».proof.Proof.ValueBridge
import proofs.«900760_g7700000000000761_dist_attn_self_mha_htp_ss_b2_sq128_skv128_d512_hq8_dh64_v7x_i4_f32_1_alg».proof.Proof.WalkOP
import proofs.«900760_g7700000000000761_dist_attn_self_mha_htp_ss_b2_sq128_skv128_d512_hq8_dh64_v7x_i4_f32_1_alg».proof.Proof.InOkGlue

noncomputable section

namespace Cert.ValueFinal

open Idealize.ShloMosaic Idealize.ShloMosaic.ValueIdx Idealize.SL.Sem Cert.Spec Cert.Proof Cert.Dataflow Cert.InOkGlue
open Cert.WritesRead
open Cert.KernelIdeal Cert.KernelIdeal.Gen Cert.KernelIdeal.Proto

variable (m : (ℓ : Loc nD τ sig) → Buf (Elt Ideal) ℓ) (c : Dev nD)
  (A5 : Memref sig .tc .vmem S2x128x512 .f32)
  (A10 A11 A12 A13 : Memref sig .tc .vmem S2x512x512 .bf16)
  (A14 A15 A16 A17 A18 A19 A20 : Memref sig .tc .vmem S2x128x512 .bf16)
  (w1 w2 w3 w4 : Vec Ideal S512x512 .f32)
  (o0 o1 xl0 xl1 xr0 xr1 xd0 xd1 : Vec Ideal S1x128x512 .bf16)

omit m c in

theorem ld_landed (A : Memref sig .tc .vmem S2x128x512 .bf16) (g : A.view.ty.Contents (Elt Ideal)) :
    (∀ r n, (View.readAt (Elt Ideal) A.view (Rect.unit (s := S2x128x512) ![0, 0, 0] S1x128x512.size inb_S2x128x512_S1x128x512_0_0_0).toLoadRect g) (ix3 (0 : Fin 1) r n) = (slab0 A).view.read (Elt Ideal) g (ix2 r n))
    ∧ (∀ r n, (View.readAt (Elt Ideal) A.view (Rect.unit (s := S2x128x512) ![1, 0, 0] S1x128x512.size inb_S2x128x512_S1x128x512_1_0_0).toLoadRect g) (ix3 (0 : Fin 1) r n) = (slab1 A).view.read (Elt Ideal) g (ix2 r n)) :=
  ⟨fun r n => Cert.WalkOP.load_landed (Elt Ideal) A g 0 (by decide) inb_S2x128x512_S1x128x512_0_0_0 (fun _ => rfl)
      squeezes_S1x128x512_S128x512 inb_S2x128x512_S1x128x512_0_0_0 _ rfl r n,
   fun r n => Cert.WalkOP.load_landed (Elt Ideal) A g 1 (by decide) inb_S2x128x512_S1x128x512_1_0_0 (fun _ => rfl)
      squeezes_S1x128x512_S128x512 inb_S2x128x512_S1x128x512_1_0_0 _ rfl r n⟩

theorem loaded {p q : Dev nD} (hp : p = q) {k : Fin 3} {s : Fin 4} (hk : chunkOf k = s) {b : Fin 2}
    {v : S128x512.Idx → Elt Ideal .bf16} {la : S1x128x512.Idx → Elt Ideal .bf16}
    (hl : ∀ r n, la (ix3 (0 : Fin 1) r n) = v (ix2 r n)) (h : PVokV m p k b v) (r : Fin 128) (n : Fin 512) :
    (la (ix3 (0 : Fin 1) r n) : EReal)
      = partOut q (xbOf m) (wqbOf m) (wkbOf m) (wvbOf m) (wobOf m) b (rowAt s r) n := by
  subst hp hk
  exact (hl r n).trans (h r n)

section Batch0

variable (H0 : InOk0 c (xbOf m) (wqbOf m) (wkbOf m) (wvbOf m) (wobOf m) w1 w2 w3 w4 o0 o1 xl0 xr0 xd0)
include H0

theorem pv_A16_0 (f : A16.view.ty.Contents (Elt Ideal)) :
    PVokV m c 2 0 ((slab0 A16).view.read (Elt Ideal) (A16.view.writes (Elt Ideal) f
      [⟨(Rect.unit (s := S2x128x512) ![0, 0, 0] S1x128x512.size inb_S2x128x512_S1x128x512_0_0_0), (part0_2 A10.view A11.view A12.view A13.view w1 w2 w3 w4 o0 o1 xl0 xr0 xd0)⟩])) := fun r n =>
  (Cert.WalkOP.slab_head (Elt Ideal) A16 f 0 (by decide) inb_S2x128x512_S1x128x512_0_0_0 (fun _ => rfl)
    squeezes_S1x128x512_S128x512 inb_S2x128x512_S1x128x512_0_0_0 _ _ r n).trans (part0_2_eq H0.toInOk 0 r n)

theorem pv_A15_0 (f : A15.view.ty.Contents (Elt Ideal)) :
    PVokV m c 0 0 ((slab0 A15).view.read (Elt Ideal) (A15.view.writes (Elt Ideal) f
      [⟨(Rect.unit (s := S2x128x512) ![0, 0, 0] S1x128x512.size inb_S2x128x512_S1x128x512_0_0_0), (part0_1 A10.view A11.view A12.view A13.view w1 w2 w3 w4 o0 o1 xl0 xr0 xd0)⟩])) := fun r n =>
  (Cert.WalkOP.slab_head (Elt Ideal) A15 f 0 (by decide) inb_S2x128x512_S1x128x512_0_0_0 (fun _ => rfl)
    squeezes_S1x128x512_S128x512 inb_S2x128x512_S1x128x512_0_0_0 _ _ r n).trans (part0_1_eq H0.toInOk 0 r n)

theorem pv_A17_0 (f : A17.view.ty.Contents (Elt Ideal)) :
    PVokV m c 1 0 ((slab0 A17).view.read (Elt Ideal) (A17.view.writes (Elt Ideal) f
      [⟨(Rect.unit (s := S2x128x512) ![0, 0, 0] S1x128x512.size inb_S2x128x512_S1x128x512_0_0_0), (part0_3 A10.view A11.view A12.view A13.view w1 w2 w3 w4 o0 o1 xl0 xr0 xd0)⟩])) := fun r n =>
  (Cert.WalkOP.slab_head (Elt Ideal) A17 f 0 (by decide) inb_S2x128x512_S1x128x512_0_0_0 (fun _ => rfl)
    squeezes_S1x128x512_S128x512 inb_S2x128x512_S1x128x512_0_0_0 _ _ r n).trans (part0_3_eq H0.toInOk 0 r n)

end Batch0

section Batch1

variable (H : InOk c (xbOf m) (wqbOf m) (wkbOf m) (wvbOf m) (wobOf m) w1 w2 w3 w4 o0 o1 xl0 xl1 xr0 xr1 xd0 xd1)
include H

theorem pv_A16_1 (f : A16.view.ty.Contents (Elt Ideal)) :
    PVokV m c 2 1 ((slab1 A16).view.read (Elt Ideal) (A16.view.writes (Elt Ideal) f
      [⟨(Rect.unit (s := S2x128x512) ![1, 0, 0] S1x128x512.size inb_S2x128x512_S1x128x512_1_0_0), (part1_2 A10.view A11.view A12.view A13.view w1 w2 w3 w4 o0 o1 xl0 xl1 xr0 xr1 xd0 xd1)⟩,
       ⟨(Rect.unit (s := S2x128x512) ![0, 0, 0] S1x128x512.size inb_S2x128x512_S1x128x512_0_0_0), (part0_2 A10.view A11.view A12.view A13.view w1 w2 w3 w4 o0 o1 xl0 xr0 xd0)⟩])) := fun r n =>
  (Cert.WalkOP.slab_head (Elt Ideal) A16 f 1 (by decide) inb_S2x128x512_S1x128x512_1_0_0 (fun _ => rfl)
    squeezes_S1x128x512_S128x512 inb_S2x128x512_S1x128x512_1_0_0 _ _ r n).trans (part1_2_eq H 0 r n)

theorem pv_A15_1 (f : A15.view.ty.Contents (Elt Ideal)) :
    PVokV m c 0 1 ((slab1 A15).view.read (Elt Ideal) (A15.view.writes (Elt Ideal) f
      [⟨(Rect.unit (s := S2x128x512) ![1, 0, 0] S1x128x512.size inb_S2x128x512_S1x128x512_1_0_0), (part1_1 A10.view A11.view A12.view A13.view w1 w2 w3 w4 o0 o1 xl0 xl1 xr0 xr1 xd0 xd1)⟩,
       ⟨(Rect.unit (s := S2x128x512) ![0, 0, 0] S1x128x512.size inb_S2x128x512_S1x128x512_0_0_0), (part0_1 A10.view A11.view A12.view A13.view w1 w2 w3 w4 o0 o1 xl0 xr0 xd0)⟩])) := fun r n =>
  (Cert.WalkOP.slab_head (Elt Ideal) A15 f 1 (by decide) inb_S2x128x512_S1x128x512_1_0_0 (fun _ => rfl)
    squeezes_S1x128x512_S128x512 inb_S2x128x512_S1x128x512_1_0_0 _ _ r n).trans (part1_1_eq H 0 r n)

theorem pv_A17_1 (f : A17.view.ty.Contents (Elt Ideal)) :
    PVokV m c 1 1 ((slab1 A17).view.read (Elt Ideal) (A17.view.writes (Elt Ideal) f
      [⟨(Rect.unit (s := S2x128x512) ![1, 0, 0] S1x128x512.size inb_S2x128x512_S1x128x512_1_0_0), (part1_3 A10.view A11.view A12.view A13.view w1 w2 w3 w4 o0 o1 xl0 xl1 xr0 xr1 xd0 xd1)⟩,
       ⟨(Rect.unit (s := S2x128x512) ![0, 0, 0] S1x128x512.size inb_S2x128x512_S1x128x512_0_0_0), (part0_3 A10.view A11.view A12.view A13.view w1 w2 w3 w4 o0 o1 xl0 xr0 xd0)⟩])) := fun r n =>
  (Cert.WalkOP.slab_head (Elt Ideal) A17 f 1 (by decide) inb_S2x128x512_S1x128x512_1_0_0 (fun _ => rfl)
    squeezes_S1x128x512_S128x512 inb_S2x128x512_S1x128x512_1_0_0 _ _ r n).trans (part1_3_eq H 0 r n)

theorem out_ok (f5 : A5.view.ty.Contents (Elt Ideal))
    (la10 la11 : A18.view.ty.Contents (Elt Ideal)) (la20 la21 : A19.view.ty.Contents (Elt Ideal))
    (la30 la31 : A20.view.ty.Contents (Elt Ideal))
    (h10 : PVokV m (rgt c) 0 0 ((slab0 A18).view.read (Elt Ideal) la10))
    (h11 : PVokV m (rgt c) 0 1 ((slab1 A18).view.read (Elt Ideal) la11))
    (h20 : PVokV m (lft c) 1 0 ((slab0 A19).view.read (Elt Ideal) la20))
    (h21 : PVokV m (lft c) 1 1 ((slab1 A19).view.read (Elt Ideal) la21))
    (h30 : PVokV m (dia c) 2 0 ((slab0 A20).view.read (Elt Ideal) la30))
    (h31 : PVokV m (dia c) 2 1 ((slab1 A20).view.read (Elt Ideal) la31)) :
    OutOkV m c (A5.view.read (Elt Ideal) (A5.view.writes (Elt Ideal) f5
      [⟨(Rect.unit (s := S2x128x512) ![1, 0, 0] S1x128x512.size inb_S2x128x512_S1x128x512_1_0_0), (out1 A10.view A11.view A12.view A13.view A14.view w1 w2 w3 w4 o0 o1 xl0 xl1 xr0 xr1 xd0 xd1 (View.readAt (Elt Ideal) A18.view (Rect.unit (s := S2x128x512) ![1, 0, 0] S1x128x512.size inb_S2x128x512_S1x128x512_1_0_0).toLoadRect la11) (View.readAt (Elt Ideal) A19.view (Rect.unit (s := S2x128x512) ![1, 0, 0] S1x128x512.size inb_S2x128x512_S1x128x512_1_0_0).toLoadRect la21) (View.readAt (Elt Ideal) A20.view (Rect.unit (s := S2x128x512) ![1, 0, 0] S1x128x512.size inb_S2x128x512_S1x128x512_1_0_0).toLoadRect la31))⟩,
       ⟨(Rect.unit (s := S2x128x512) ![0, 0, 0] S1x128x512.size inb_S2x128x512_S1x128x512_0_0_0), (out0 A13.view A14.view w2 (View.readAt (Elt Ideal) A18.view (Rect.unit (s := S2x128x512) ![0, 0, 0] S1x128x512.size inb_S2x128x512_S1x128x512_0_0_0).toLoadRect la10) (View.readAt (Elt Ideal) A19.view (Rect.unit (s := S2x128x512) ![0, 0, 0] S1x128x512.size inb_S2x128x512_S1x128x512_0_0_0).toLoadRect la20) (View.readAt (Elt Ideal) A20.view (Rect.unit (s := S2x128x512) ![0, 0, 0] S1x128x512.size inb_S2x128x512_S1x128x512_0_0_0).toLoadRect la30) (oL16 A10.view A11.view A12.view w1 w3 w4 o0 o1 xl0 xl1 xr0 xr1 xd0 xd1))⟩])) := by
  intro b r n
  have hb : b.val = 0 ∨ b.val = 1 := by have := b.isLt; omega
  rcases hb with hb | hb
  · obtain rfl : b = 0 := Fin.ext hb
    refine (read_writes_cons_ix3_not_mem (Elt Ideal) A5.view f5 1 0 0 inb_S2x128x512_S1x128x512_1_0_0 _ _ (0 : Fin 2) r n
      (Or.inl (Or.inl Nat.one_pos))).trans ?_
    refine (read_writes_cons_ix3_mem (Elt Ideal) A5.view f5 0 0 0 inb_S2x128x512_S1x128x512_0_0_0 _ _ (0 : Fin 2) r n (0 : Fin 1) r n rfl
      (Nat.zero_add _).symm (Nat.zero_add _).symm).trans ?_
    exact out0_eq16 H
      (fun r n => loaded m (rgt_eq c) rfl (ld_landed A18 la10).1 h10 r n)
      (fun r n => loaded m (lft_eq c) rfl (ld_landed A19 la20).1 h20 r n)
      (fun r n => loaded m (dia_eq c) rfl (ld_landed A20 la30).1 h30 r n) 0 r n
  · obtain rfl : b = 1 := Fin.ext hb
    refine (read_writes_cons_ix3_mem (Elt Ideal) A5.view f5 1 0 0 inb_S2x128x512_S1x128x512_1_0_0 _ _ (1 : Fin 2) r n (0 : Fin 1) r n rfl
      (Nat.zero_add _).symm (Nat.zero_add _).symm).trans ?_
    exact out1_eq H
      (fun r n => loaded m (rgt_eq c) rfl (ld_landed A18 la11).2 h11 r n)
      (fun r n => loaded m (lft_eq c) rfl (ld_landed A19 la21).2 h21 r n)
      (fun r n => loaded m (dia_eq c) rfl (ld_landed A20 la31).2 h31 r n) 0 r n

end Batch1

end Cert.ValueFinal

end
-- ==== Proof.BodyValue.lean ====
import proofs.«900760_g7700000000000761_dist_attn_self_mha_htp_ss_b2_sq128_skv128_d512_hq8_dh64_v7x_i4_f32_1_alg».proof.Proof.BodyOf
import proofs.«900760_g7700000000000761_dist_attn_self_mha_htp_ss_b2_sq128_skv128_d512_hq8_dh64_v7x_i4_f32_1_alg».proof.Proof.ValueFinal
import proofs.«900760_g7700000000000761_dist_attn_self_mha_htp_ss_b2_sq128_skv128_d512_hq8_dh64_v7x_i4_f32_1_alg».proof.Proof.InOkGlue

noncomputable section

namespace Cert.KernelIdeal.BodyValue

open Cert.KernelIdeal Cert.KernelIdeal.Gen Cert.KernelIdeal.Proto

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof Cert.Dataflow Cert.InOkGlue Cert.ValueFinal

variable (m : (ℓ : Loc nD τ sig) → Buf (Elt Ideal) ℓ)

set_option maxRecDepth 16384 in
set_option maxHeartbeats 6400000 in
/-- The run's seven value facts hold at the relations that say what the scattered slabs and the result are: the run's
    lists unfold to the local computation at its own loaded inputs, which are the devices' blocks. -/
theorem body_obligationV (hpre : Cert.Pre_KernelIdeal m) (c : Dev nD) :
    (rdats m (PVokV m) (OutOkV m) 0 c).BodyObligation (defs₀ (F := Ideal)) 𝒱₀ () Set.univ :=
  body_obligation_of m (PVokV m) (OutOkV m) c fun K Y hst f0 f1 f2 f3 f4 f5 f6 f7 f8 f9 f10 f11 f12 f13 f14 W Kt => by
    obtain ⟨hY0, hY1, hY2, hY3, hY4⟩ := hst
    have hIn0 : ∀ (lx0 : Buf (Elt Ideal) (xlM.view.loc (c : Thread nD τ))) (rx0 : Buf (Elt Ideal) (xrM.view.loc (c : Thread nD τ)))
        (dx0 : Buf (Elt Ideal) (xdM.view.loc (c : Thread nD τ))),
        (slab0 xlM).view.read (Elt Ideal) lx0 = X0s0 m (lft c) → (slab0 xrM).view.read (Elt Ideal) rx0 = X0s0 m (rgt c) →
        (slab0 xdM).view.read (Elt Ideal) dx0 = X0s0 m (dia c) →
        InOk0 c (xbOf m) (wqbOf m) (wkbOf m) (wvbOf m) (wobOf m)
          (ldW (Memref.whole cc0_stg1_0) (Memref.isWhole_whole _) (Y 1)) (ldW (Memref.whole cc0_stg2_0) (Memref.isWhole_whole _) (Y 2))
          (ldW (Memref.whole cc0_stg3_0) (Memref.isWhole_whole _) (Y 3)) (ldW (Memref.whole cc0_stg4_0) (Memref.isWhole_whole _) (Y 4))
          (ldS0 x0M (X0 m c)) (ldS1 x0M (X0 m c)) (ldS0 xlM lx0) (ldS0 xrM rx0) (ldS0 xdM dx0) :=
      fun lx0 rx0 dx0 h1 h2 h3 =>
        inOk0_real m c (Memref.whole cc0_stg1_0) (Memref.whole cc0_stg2_0) (Memref.whole cc0_stg3_0) (Memref.whole cc0_stg4_0)
          (Memref.isWhole_whole _) (Memref.isWhole_whole _) (Memref.isWhole_whole _) (Memref.isWhole_whole _) x0M xlM xrM xdM
          (Y 1) (Y 2) (Y 3) (Y 4) hY1 hY2 hY3 hY4 (X0 m c) lx0 rx0 dx0 (conc_hxs0 m c).symm (conc_hxs1 m c).symm h1 h2 h3
    have hIn : ∀ (lx0 lx1 : Buf (Elt Ideal) (xlM.view.loc (c : Thread nD τ))) (rx0 rx1 : Buf (Elt Ideal) (xrM.view.loc (c : Thread nD τ)))
        (dx0 dx1 : Buf (Elt Ideal) (xdM.view.loc (c : Thread nD τ))),
        (slab0 xlM).view.read (Elt Ideal) lx0 = X0s0 m (lft c) → (slab0 xrM).view.read (Elt Ideal) rx0 = X0s0 m (rgt c) →
        (slab0 xdM).view.read (Elt Ideal) dx0 = X0s0 m (dia c) →
        (slab1 xlM).view.read (Elt Ideal) lx1 = X0s1 m (lft c) → (slab1 xrM).view.read (Elt Ideal) rx1 = X0s1 m (rgt c) →
        (slab1 xdM).view.read (Elt Ideal) dx1 = X0s1 m (dia c) →
        InOk c (xbOf m) (wqbOf m) (wkbOf m) (wvbOf m) (wobOf m)
          (ldW (Memref.whole cc0_stg1_0) (Memref.isWhole_whole _) (Y 1)) (ldW (Memref.whole cc0_stg2_0) (Memref.isWhole_whole _) (Y 2))
          (ldW (Memref.whole cc0_stg3_0) (Memref.isWhole_whole _) (Y 3)) (ldW (Memref.whole cc0_stg4_0) (Memref.isWhole_whole _) (Y 4))
          (ldS0 x0M (X0 m c)) (ldS1 x0M (X0 m c)) (ldS0 xlM lx0) (ldS1 xlM lx1) (ldS0 xrM rx0) (ldS1 xrM rx1) (ldS0 xdM dx0)
          (ldS1 xdM dx1) :=
      fun lx0 lx1 rx0 rx1 dx0 dx1 h1 h2 h3 h4 h5 h6 =>
        inOk_real m c (Memref.whole cc0_stg1_0) (Memref.whole cc0_stg2_0) (Memref.whole cc0_stg3_0) (Memref.whole cc0_stg4_0)
          (Memref.isWhole_whole _) (Memref.isWhole_whole _) (Memref.isWhole_whole _) (Memref.isWhole_whole _) x0M xlM xrM xdM
          (Y 1) (Y 2) (Y 3) (Y 4) hY1 hY2 hY3 hY4 (X0 m c) lx0 lx1 rx0 rx1 dx0 dx1 (conc_hxs0 m c).symm (conc_hxs1 m c).symm
          h1 h4 h2 h5 h3 h6
    exact (runAt m c Y f0 f1 f2 f3 f4 f5 f6 f7 f8 f9 f10 f11 f12 f13 f14).2 K (PVokV m) (OutOkV m)
        conc_hb0 conc_hb1 conc_hb2
        (conc_hd0 m (PVokV m)) (conc_hd1 m (PVokV m)) (conc_hd2 m (PVokV m)) (conc_hd3 m (PVokV m)) (conc_hd4 m (PVokV m)) (conc_hd5 m (PVokV m)) (conc_hd6 m (PVokV m)) (conc_hd7 m (PVokV m)) (conc_hd8 m (PVokV m)) (conc_hd9 m (PVokV m)) (conc_hd10 m (PVokV m)) (conc_hd11 m (PVokV m)) (conc_hd12 m (PVokV m)) (conc_hd13 m (PVokV m)) (conc_hd14 m (PVokV m)) (conc_hd15 m (PVokV m)) (conc_hd16 m (PVokV m)) (conc_hd17 m (PVokV m)) (conc_hd18 m (PVokV m)) (conc_hd19 m (PVokV m)) (conc_hd20 m (PVokV m)) (conc_hd21 m (PVokV m)) (conc_hd22 m (PVokV m)) (conc_hd23 m (PVokV m))
        (conc_hxs0 m c) (conc_hxs1 m c) (by rw [hY0]; exact conc_hx0w m c)
        (fun lx0 rx0 dx0 h1 h2 h3 L hL => by
          subst hL
          exact pv_A16_0 m c _ _ _ _ p2M _ _ _ _ _ _ _ _ _ (hIn0 lx0 rx0 dx0 h1 h2 h3) f10)
        (fun lx0 rx0 dx0 h1 h2 h3 L hL => by
          subst hL
          exact pv_A15_0 m c _ _ _ _ p1M _ _ _ _ _ _ _ _ _ (hIn0 lx0 rx0 dx0 h1 h2 h3) f9)
        (fun lx0 rx0 dx0 h1 h2 h3 L hL => by
          subst hL
          exact pv_A17_0 m c _ _ _ _ p3M _ _ _ _ _ _ _ _ _ (hIn0 lx0 rx0 dx0 h1 h2 h3) f11)
        (fun lx0 rx0 dx0 lx1 rx1 dx1 h1 h2 h3 h4 h5 h6 L hL => by
          subst hL
          exact pv_A16_1 m c _ _ _ _ p2M _ _ _ _ _ _ _ _ _ _ _ _ (hIn lx0 lx1 rx0 rx1 dx0 dx1 h1 h2 h3 h4 h5 h6) f10)
        (fun lx0 rx0 dx0 lx1 rx1 dx1 h1 h2 h3 h4 h5 h6 L hL => by
          subst hL
          exact pv_A15_1 m c _ _ _ _ p1M _ _ _ _ _ _ _ _ _ _ _ _ (hIn lx0 lx1 rx0 rx1 dx0 dx1 h1 h2 h3 h4 h5 h6) f9)
        (fun lx0 rx0 dx0 lx1 rx1 dx1 h1 h2 h3 h4 h5 h6 L hL => by
          subst hL
          exact pv_A17_1 m c _ _ _ _ p3M _ _ _ _ _ _ _ _ _ _ _ _ (hIn lx0 lx1 rx0 rx1 dx0 dx1 h1 h2 h3 h4 h5 h6) f11)
        (fun lx0 rx0 dx0 lx1 rx1 dx1 a10 a11 a20 a21 a30 a31 h1 h2 h3 h4 h5 h6 k10 k11 k20 k21 k30 k31 L hL => by
          subst hL
          exact out_ok m c (Memref.whole cc0_stg5_0) _ _ _ _ p0M a1M a2M a3M _ _ _ _ _ _ _ _ _ _ _ _
            (hIn lx0 lx1 rx0 rx1 dx0 dx1 h1 h2 h3 h4 h5 h6) _ a10 a11 a20 a21 a30 a31 k10 k11 k20 k21 k30 k31)
      W Kt

end Cert.KernelIdeal.BodyValue

end
-- ==== Proof.Assembly.lean ====
import proofs.«900760_g7700000000000761_dist_attn_self_mha_htp_ss_b2_sq128_skv128_d512_hq8_dh64_v7x_i4_f32_1_alg».proof.Defs
import proofs.«900760_g7700000000000761_dist_attn_self_mha_htp_ss_b2_sq128_skv128_d512_hq8_dh64_v7x_i4_f32_1_alg».proof.Proof.Gen.Kernel
import proofs.«900760_g7700000000000761_dist_attn_self_mha_htp_ss_b2_sq128_skv128_d512_hq8_dh64_v7x_i4_f32_1_alg».proof.Proof.Gen.ReferenceIdeal
import proofs.«900760_g7700000000000761_dist_attn_self_mha_htp_ss_b2_sq128_skv128_d512_hq8_dh64_v7x_i4_f32_1_alg».proof.Proof.Gen.Pre_finite_inputs_Kernel
import proofs.«900760_g7700000000000761_dist_attn_self_mha_htp_ss_b2_sq128_skv128_d512_hq8_dh64_v7x_i4_f32_1_alg».proof.Proof.Gen.Pre_finite_inputs_ReferenceIdeal
import proofs.«900760_g7700000000000761_dist_attn_self_mha_htp_ss_b2_sq128_skv128_d512_hq8_dh64_v7x_i4_f32_1_alg».proof.Proof.RefRead
import proofs.«900760_g7700000000000761_dist_attn_self_mha_htp_ss_b2_sq128_skv128_d512_hq8_dh64_v7x_i4_f32_1_alg».proof.Proof.Launch
import proofs.«900760_g7700000000000761_dist_attn_self_mha_htp_ss_b2_sq128_skv128_d512_hq8_dh64_v7x_i4_f32_1_alg».proof.Proof.BodyValue

noncomputable section

namespace Cert.Proof

open Idealize.ShloMosaic Idealize.SL.Sem Idealize.ShloMosaic.ValueIdx

/-- The printed kernel and its exact-arithmetic counterpart are one program text, read at any float instance: the
    idealization rewrote no operation. -/
theorem defs_eq {F : FTy → Type} [FloatOps F] : Cert.Kernel.defs (F := F) = Cert.KernelIdeal.defs (F := F) := by
  have h : Cert.Kernel.defs₀ (F := F) = Cert.KernelIdeal.defs₀ (F := F) := by
    unfold Cert.Kernel.defs₀ Cert.KernelIdeal.defs₀
    congr 1; funext l a
    match l, a with
    | 0, (t, s) => rfl
    | ⟨_ + 1, h⟩, _ => exact absurd h (by omega)
  unfold Cert.Kernel.defs Cert.KernelIdeal.defs
  rw [h]; rfl

/-- The launch theorem at value relations that hold of everything, the result dropped. -/
theorem frame_ki : Cert.frame_KernelIdeal := fun m g _ =>
  (θ_run _ _ _).mono (fun _ h c => (h c).2)
    (Cert.KernelIdeal.Proto.run_main m g (fun _ _ _ _ => True) (fun _ _ => True)
      (Cert.KernelIdeal.Proto.body_obligation m _ _ (fun _ _ _ _ => trivial) (fun _ _ => trivial)))

/-- The printed kernel's frame is the same run at the other float instance, carried along `defs_eq`. -/
theorem frame_k : Cert.frame_Kernel := fun m g _ => by
  rw [defs_eq]
  exact (θ_run _ _ _).mono (fun _ h c => (h c).2)
    (Cert.KernelIdeal.Proto.run_main (F := Bits) m g (fun _ _ _ _ => True) (fun _ _ => True)
      (Cert.KernelIdeal.Proto.body_obligation m _ _ (fun _ _ _ _ => trivial) (fun _ _ => trivial)))

/-- Each device's result is its block of the kernel's index formula, which on finite inputs is the reference's. -/
theorem algebraic : Cert.algebraic_KernelIdeal_ReferenceIdeal := by
  intro m g m' g' hpre hagree
  refine ⟨refV m', ?_, ?_⟩
  · exact (θ_run _ _ _).mono
      (fun _ h c => ⟨by obtain ⟨X, hX, e⟩ := (h c).1; rw [e]; exact block_of_kerOut m m' hpre hagree c X hX, (h c).2⟩)
      (Cert.KernelIdeal.Proto.run_main m g (PVokV m) (OutOkV m) (Cert.KernelIdeal.BodyValue.body_obligationV m hpre))
  · exact (θ_run Cert.ReferenceIdeal.defs _ _).mono
      (fun _ h => ⟨((h 0).1).trans (Cert.ReferenceIdeal.RefRead.res_out0_eq m' 0), (h 0).2⟩)
      (Cert.ReferenceIdeal.Value.run (F := Ideal) m' g')

end Cert.Proof

end
-- ==== Proof.lean ====
/-
  Tensor-parallel multi-head self-attention on four devices equals the one-device reference: the two kernel frames,
  the reference's frame, the idealization (which rewrites nothing) and the value claim.
-/
import proofs.«900760_g7700000000000761_dist_attn_self_mha_htp_ss_b2_sq128_skv128_d512_hq8_dh64_v7x_i4_f32_1_alg».proof.Proof.Assembly

noncomputable section

namespace Cert.Proof

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Cert.ReferenceIdeal.RefRead.frame_ri, trivial, algebraic⟩

end Cert.Proof

end
